-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S50000x128 : Shape := ⟨2, ![50000, 128]⟩
abbrev S1000x128 : Shape := ⟨2, ![1000, 128]⟩
abbrev S2x50000 : Shape := ⟨2, ![2, 50000]⟩
abbrev S1x256 : Shape := ⟨2, ![1, 256]⟩
abbrev S1 : Shape := ⟨1, ![1]⟩
abbrev S128x128 : Shape := ⟨2, ![128, 128]⟩
abbrev S128 : Shape := ⟨1, ![128]⟩
abbrev S128x256 : Shape := ⟨2, ![128, 256]⟩
abbrev S1000 : Shape := ⟨1, ![1000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1000 : S_.BroadcastsInDim S1000 (![] : Fin 0 → Fin S1000.rank)
  reducesTo_S1000_S_d0 : S1000.ReducesTo [0] S_
  bcast_S_S2x50000 : S_.BroadcastsInDim S2x50000 (![] : Fin 0 → Fin S2x50000.rank)
  reducesTo_S2x50000_S_d0_1 : S2x50000.ReducesTo [0, 1] S_

variable [Facts]

def fn_part3 {F : FTy → Type} [FloatOps F] (main_arg2 : IVec S2x50000 32) (main_v48 : IVec S_ 1) (main_v50 : IVec S2x50000 1) : IVec S_ 1 :=
  let main_c_19 : IVec S_ 32 := constantI S_ 32 999#32
  let main_v51 : IVec S2x50000 32 := broadcastInDim S2x50000 ![] bcast_S_S2x50000 main_c_19
  let main_v52 : IVec S2x50000 1 := cmpi .sle main_arg2 main_v51
  let main_v53 : IVec S2x50000 1 := andi main_v50 main_v52
  let main_c_20 : IVec S_ 1 := constantI S_ 1 1#1
  let main_v54 : IVec S_ 1 := (fun x v => Host.reduce IntOp.andi x v reducesTo_S2x50000_S_d0_1 h_S_) main_v53 main_c_20
  let main_v55 : IVec S_ 1 := andi main_v48 main_v54
  main_v55

def fn_part2 {F : FTy → Type} [FloatOps F] (main_arg2 : IVec S2x50000 32) (main_arg8 : FVec F S128 .f32) (main_arg9 : FVec F S1000x128 .f32) (main_arg10 : FVec F S1000 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1000x128 .f32 := Host.absf main_arg9
  let main_cst_14 : FVec F S_ .f32 := constant S_ .f32 0x7F800000#32
  let main_v40 : FVec F S1000x128 .f32 := broadcastInDim S1000x128 ![] bcast_S_S1000x128 main_cst_14
  let main_v41 : IVec S1000x128 1 := cmpf .olt main_v39 main_v40
  let main_c_15 : IVec S_ 1 := constantI S_ 1 1#1
  let main_v42 : IVec S_ 1 := (fun x v => Host.reduce IntOp.andi x v reducesTo_S1000x128_S_d0_1 h_S_) main_v41 main_c_15
  let main_v43 : IVec S_ 1 := andi main_v38 main_v42
  let main_v44 : FVec F S1000 .f32 := Host.absf main_arg10
  let main_cst_16 : FVec F S_ .f32 := constant S_ .f32 0x7F800000#32
  let main_v45 : FVec F S1000 .f32 := broadcastInDim S1000 ![] bcast_S_S1000 main_cst_16
  let main_v46 : IVec S1000 1 := cmpf .olt main_v44 main_v45
  let main_c_17 : IVec S_ 1 := constantI S_ 1 1#1
  let main_v47 : IVec S_ 1 := (fun x v => Host.reduce IntOp.andi x v reducesTo_S1000_S_d0 h_S_) main_v46 main_c_17
  let main_v48 : IVec S_ 1 := andi main_v43 main_v47
  let main_c_18 : IVec S_ 32 := constantI S_ 32 0#32
  let main_v49 : IVec S2x50000 32 := broadcastInDim S2x50000 ![] bcast_S_S2x50000 main_c_18
  let main_v50 : IVec S2x50000 1 := cmpi .sge main_arg2 main_v49
  fn_part3 (F := F) main_arg2 main_v48 main_v50

def fn_part1 {F : FTy → Type} [FloatOps F] (main_arg2 : IVec S2x50000 32) (main_arg5 : FVec F S128x128 .f32) (main_arg6 : FVec F S128 .f32) (main_arg7 : FVec F S128x256 .f32) (main_arg8 : FVec F S128 .f32) (main_arg9 : FVec F S1000x128 .f32) (main_arg10 : FVec F S1000 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S50000x128 .f32) (main_arg1 : FVec F S1000x128 .f32) (main_arg2 : IVec S2x50000 32) (main_arg3 : FVec F S1x256 .f32) (main_arg4 : FVec F S1 .f32) (main_arg5 : FVec F S128x128 .f32) (main_arg6 : FVec F S128 .f32) (main_arg7 : FVec F S128x256 .f32) (main_arg8 : FVec F S128 .f32) (main_arg9 : FVec F S1000x128 .f32) (main_arg10 : FVec F S1000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg2 main_arg5 main_arg6 main_arg7 main_arg8 main_arg9 main_arg10 main_v13 main_v16
-- ==== Kernel.lean ====
abbrev S50000x128 : Shape := ⟨2, ![50000, 128]⟩
abbrev S1000x128 : Shape := ⟨2, ![1000, 128]⟩
abbrev S2x50000 : Shape := ⟨2, ![2, 50000]⟩
abbrev S1x256 : Shape := ⟨2, ![1, 256]⟩
abbrev S1 : Shape := ⟨1, ![1]⟩
abbrev S128x128 : Shape := ⟨2, ![128, 128]⟩
abbrev S128 : Shape := ⟨1, ![128]⟩
abbrev S128x256 : Shape := ⟨2, ![128, 256]⟩
abbrev S1000 : Shape := ⟨1, ![1000]⟩
abbrev S1x50000 : Shape := ⟨2, ![1, 50000]⟩
abbrev S50000 : Shape := ⟨1, ![50000]⟩
abbrev S_ : Shape := ⟨0, ![]⟩
abbrev S50176 : Shape := ⟨1, ![50176]⟩
abbrev S53248 : Shape := ⟨1, ![53248]⟩
abbrev S13x1x4096 : Shape := ⟨3, ![13, 1, 4096]⟩
abbrev S1024x128 : Shape := ⟨2, ![1024, 128]⟩
abbrev S1x128 : Shape := ⟨2, ![1, 128]⟩
abbrev S8x128 : Shape := ⟨2, ![8, 128]⟩
abbrev S1x1024 : Shape := ⟨2, ![1, 1024]⟩
abbrev S32x14x112 : Shape := ⟨3, ![32, 14, 112]⟩
abbrev S50176x128 : Shape := ⟨2, ![50176, 128]⟩
abbrev S14x112 : Shape := ⟨2, ![14, 112]⟩
abbrev S112x128 : Shape := ⟨2, ![112, 128]⟩
abbrev S1x14x112 : Shape := ⟨3, ![1, 14, 112]⟩
abbrev S1x112 : Shape := ⟨2, ![1, 112]⟩
abbrev S112 : Shape := ⟨1, ![112]⟩
abbrev S1x53248 : Shape := ⟨2, ![1, 53248]⟩
abbrev S2 : Shape := ⟨1, ![2]⟩
abbrev S4096x128 : Shape := ⟨2, ![4096, 128]⟩
abbrev S1x1x4096 : Shape := ⟨3, ![1, 1, 4096]⟩
abbrev S1x4096 : Shape := ⟨2, ![1, 4096]⟩
abbrev S8x4096 : Shape := ⟨2, ![8, 4096]⟩
abbrev S128x4096 : Shape := ⟨2, ![128, 4096]⟩
abbrev S4096 : Shape := ⟨1, ![4096]⟩
abbrev S1x1x1 : Shape := ⟨3, ![1, 1, 1]⟩
abbrev S1000x1 : Shape := ⟨2, ![1000, 1]⟩
abbrev S1000x50000 : Shape := ⟨2, ![1000, 50000]⟩
abbrev S1000x4096 : Shape := ⟨2, ![1000, 4096]⟩
abbrev S50000x1000 : Shape := ⟨2, ![50000, 1000]⟩

abbrev nBuf : Table → Nat
  | .hbm => 36
  | .local .tc .vmem => 30
  | .local .tc .smem => 3
  | .local .scVector .vmem => 3
  | _ => 0

abbrev bufTy : (tb : Table) → Fin (nBuf tb) → BufTy
  | .hbm, ⟨0, _⟩ => ⟨S50000x128, .f32⟩
  | .hbm, ⟨1, _⟩ => ⟨S1000x128, .f32⟩
  | .hbm, ⟨2, _⟩ => ⟨S2x50000, .i32⟩
  | .hbm, ⟨3, _⟩ => ⟨S1x256, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S1000x128, .f32⟩
  | .hbm, ⟨10, _⟩ => ⟨S1000, .f32⟩
  | .hbm, ⟨11, _⟩ => ⟨S1x50000, .i32⟩
  | .hbm, ⟨12, _⟩ => ⟨S50000, .i32⟩
  | .hbm, ⟨13, _⟩ => ⟨S_, .i32⟩
  | .hbm, ⟨14, _⟩ => ⟨S_, .i32⟩
  | .hbm, ⟨15, _⟩ => ⟨S50176, .i32⟩
  | .hbm, ⟨16, _⟩ => ⟨S_, .i32⟩
  | .hbm, ⟨17, _⟩ => ⟨S_, .i32⟩
  | .hbm, ⟨18, _⟩ => ⟨S53248, .i32⟩
  | .hbm, ⟨19, _⟩ => ⟨S13x1x4096, .i32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S1x128, .f32⟩
  | .hbm, ⟨24, _⟩ => ⟨S1x128, .f32⟩
  | .hbm, ⟨25, _⟩ => ⟨S8x128, .f32⟩
  | .hbm, ⟨26, _⟩ => ⟨S1000x128, .f32⟩
  | .hbm, ⟨27, _⟩ => ⟨S128x128, .f32⟩
  | .hbm, ⟨28, _⟩ => ⟨S1x128, .f32⟩
  | .hbm, ⟨29, _⟩ => ⟨S32x14x112, .i32⟩
  | .hbm, ⟨30, _⟩ => ⟨S50176x128, .f32⟩
  | .hbm, ⟨31, _⟩ => ⟨S1x53248, .f32⟩
  | .hbm, ⟨32, _⟩ => ⟨S2, .f32⟩
  | .hbm, ⟨33, _⟩ => ⟨S1000x1, .f32⟩
  | .hbm, ⟨34, _⟩ => ⟨S1000x50000, .f32⟩
  | .hbm, ⟨35, _⟩ => ⟨S50000x1000, .f32⟩
  | .local .tc .vmem, ⟨0, _⟩ => ⟨S1024x128, .f32⟩
  | .local .tc .vmem, ⟨1, _⟩ => ⟨S1x256, .f32⟩
  | .local .tc .vmem, ⟨2, _⟩ => ⟨S128x128, .f32⟩
  | .local .tc .vmem, ⟨3, _⟩ => ⟨S1x128, .f32⟩
  | .local .tc .vmem, ⟨4, _⟩ => ⟨S128x256, .f32⟩
  | .local .tc .vmem, ⟨5, _⟩ => ⟨S1x128, .f32⟩
  | .local .tc .vmem, ⟨6, _⟩ => ⟨S8x128, .f32⟩
  | .local .tc .vmem, ⟨7, _⟩ => ⟨S1000x128, .f32⟩
  | .local .tc .vmem, ⟨8, _⟩ => ⟨S128x128, .f32⟩
  | .local .tc .vmem, ⟨9, _⟩ => ⟨S1x128, .f32⟩
  | .local .tc .vmem, ⟨10, _⟩ => ⟨S4096x128, .f32⟩
  | .local .tc .vmem, ⟨11, _⟩ => ⟨S4096x128, .f32⟩
  | .local .tc .vmem, ⟨12, _⟩ => ⟨S1x1x4096, .i32⟩
  | .local .tc .vmem, ⟨13, _⟩ => ⟨S1x1x4096, .i32⟩
  | .local .tc .vmem, ⟨14, _⟩ => ⟨S8x128, .f32⟩
  | .local .tc .vmem, ⟨15, _⟩ => ⟨S1x256, .f32⟩
  | .local .tc .vmem, ⟨16, _⟩ => ⟨S1x4096, .f32⟩
  | .local .tc .vmem, ⟨17, _⟩ => ⟨S1x4096, .f32⟩
  | .local .tc .vmem, ⟨18, _⟩ => ⟨S4096x128, .f32⟩
  | .local .tc .vmem, ⟨19, _⟩ => ⟨S4096x128, .f32⟩
  | .local .tc .vmem, ⟨20, _⟩ => ⟨S4096x128, .f32⟩
  | .local .tc .vmem, ⟨21, _⟩ => ⟨S4096x128, .f32⟩
  | .local .tc .vmem, ⟨22, _⟩ => ⟨S1x4096, .f32⟩
  | .local .tc .vmem, ⟨23, _⟩ => ⟨S1x4096, .f32⟩
  | .local .tc .vmem, ⟨24, _⟩ => ⟨S128x128, .f32⟩
  | .local .tc .vmem, ⟨25, _⟩ => ⟨S1x128, .f32⟩
  | .local .tc .vmem, ⟨26, _⟩ => ⟨S1000x128, .f32⟩
  | .local .tc .vmem, ⟨27, _⟩ => ⟨S1000x1, .f32⟩
  | .local .tc .vmem, ⟨28, _⟩ => ⟨S1000x4096, .f32⟩
  | .local .tc .vmem, ⟨29, _⟩ => ⟨S1000x4096, .f32⟩
  | .local .tc .smem, ⟨0, _⟩ => ⟨S2, .f32⟩
  | .local .tc .smem, ⟨1, _⟩ => ⟨S2, .f32⟩
  | .local .tc .smem, ⟨2, _⟩ => ⟨S2, .f32⟩
  | .local .scVector .vmem, ⟨0, _⟩ => ⟨S14x112, .i32⟩
  | .local .scVector .vmem, ⟨1, _⟩ => ⟨S112x128, .f32⟩
  | .local .scVector .vmem, ⟨2, _⟩ => ⟨S112x128, .f32⟩
  | _, _ => ⟨S50000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTables nBuf rfl bufTy 4 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_c_0 : Ref sig .tc := ⟨.hbm, 16, rfl⟩
abbrev main_call1_v0 : Ref sig .tc := ⟨.hbm, 17, rfl⟩
abbrev main_v3 : Ref sig .tc := ⟨.hbm, 18, rfl⟩
abbrev main_v4 : Ref sig .tc := ⟨.hbm, 19, rfl⟩
abbrev main_c_1 : Ref sig .tc := ⟨.hbm, 20, rfl⟩
abbrev main_call2_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8_0 : Ref sig .tc := ⟨.hbm, 25, rfl⟩
abbrev main_v8_1 : Ref sig .tc := ⟨.hbm, 26, rfl⟩
abbrev main_v8_2 : Ref sig .tc := ⟨.hbm, 27, rfl⟩
abbrev main_v8_3 : Ref sig .tc := ⟨.hbm, 28, rfl⟩
abbrev main_v9 : Ref sig .tc := ⟨.hbm, 29, rfl⟩
abbrev main_v10 : Ref sig .tc := ⟨.hbm, 30, rfl⟩
abbrev main_v11_0 : Ref sig .tc := ⟨.hbm, 31, rfl⟩
abbrev main_v11_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v9_scv : Ref sig .scVector := ⟨.hbm, 29, rfl⟩
abbrev main_v8_1_scv : Ref sig .scVector := ⟨.hbm, 26, rfl⟩
abbrev main_v10_scv : Ref sig .scVector := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg7_0 : Ref sig .tc := ⟨.vmem, 27, rfl⟩
abbrev cc3_stg8_0 : Ref sig .tc := ⟨.vmem, 28, rfl⟩
abbrev cc3_stg8_1 : Ref sig .tc := ⟨.vmem, 29, rfl⟩
abbrev cc2_stg5_0 : Ref sig .tc := ⟨.smem, 0, rfl⟩
abbrev cc2_scratch0 : Ref sig .tc := ⟨.smem, 1, rfl⟩
abbrev cc3_stg3_0 : Ref sig .tc := ⟨.smem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem4_1 : DmaSem sig := 34
abbrev cc2_sem5_0 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem8_0 : DmaSem sig := 47
abbrev cc3_sem8_1 : DmaSem sig := 48
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1000x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_100_r0 : BitVec 32 := 0#32
  let c0_i32_101_r0 : BitVec 32 := 0#32
  ![v1.toNat, 0, 0]
def k1_off2 (i : grid1.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1568_i32 : BitVec 32 := 1568#32
  let v2 : BitVec 32 := Scalar.muli v1 c1568_i32
  let v12 : BitVec 32 := Scalar.addi v2 c0_i32_10
  let c0_i32_100_r1 : BitVec 32 := 0#32
  ![v12.toNat, 0]
abbrev grid2 : Pipeline.Grid := ⟨1, ![13], ![false]⟩

def k2_cond2 (i : grid2.Coords) : BitVec 1 :=
  let arg0 : BitVec 32 := BitVec.ofNat 32 (i 0).val
  let c12_i32 : BitVec 32 := 12#32
  let v59 : BitVec 1 := Scalar.cmpi .eq arg0 c12_i32
  let v60 : BitVec 32 := Scalar.extui v59
  let c0_i32_19 : BitVec 32 := 0#32
  let v61 : BitVec 1 := Scalar.cmpi .ne v60 c0_i32_19
  v61

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .smem S2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x4096 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .smem S2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1000x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1000x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S1000x4096 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S2x50000_S1x50000_1_0 : S2x50000.Slices ![1, 0] S1x50000
  shapeCasts_S1x50000_S50000 : S1x50000.ShapeCasts S50000
  pads_S50000_S50176_01760 : S50000.Pads (![0] : Fin 1 → Nat) ![176] ![0] S50176
  h_S_ : 0 < S_.numel
  pads_S50000_S53248_032480 : S50000.Pads (![0] : Fin 1 → Nat) ![3248] ![0] S53248
  shapeCasts_S53248_S13x1x4096 : S53248.ShapeCasts S13x1x4096
  pads_S1000x128_S1024x128_0240_000 : S1000x128.Pads (![0, 0] : Fin 2 → Nat) ![24, 0] ![0, 0] S1024x128
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S1024x128_o0_0_S1000x128 : S1024x128.Slices ![0, 0] S1000x128
  inb_S128x256_S128x256_0_0 : ∀ a, (![0, 0] : Fin 2 → Nat) a + S128x256.size a ≤ S128x256.size a
  h_S128x256 : 0 < S128x256.numel
  slices_S128x256_o0_0_S128x128 : S128x256.Slices ![0, 0] S128x128
  slices_S128x256_o0_128_S128x128 : S128x256.Slices ![0, 128] S128x128
  inb_S1x256_S1x128_0_128 : ∀ a, (![0, 128] : Fin 2 → Nat) a + S1x128.size a ≤ S1x256.size a
  h_S1x128 : 0 < S1x128.numel
  slices_S1x1024_o0_0_S1x128 : S1x1024.Slices ![0, 0] S1x128
  inb_S8x128_S1x128_0_0 : ∀ a, (![0, 0] : Fin 2 → Nat) a + S1x128.size a ≤ S8x128.size a
  slices_S1x1024_o0_128_S1x128 : S1x1024.Slices ![0, 128] S1x128
  inb_S8x128_S1x128_1_0 : ∀ a, (![1, 0] : Fin 2 → Nat) a + S1x128.size a ≤ S8x128.size a
  slices_S1x1024_o0_256_S1x128 : S1x1024.Slices ![0, 256] S1x128
  inb_S8x128_S1x128_2_0 : ∀ a, (![2, 0] : Fin 2 → Nat) a + S1x128.size a ≤ S8x128.size a
  slices_S1x1024_o0_384_S1x128 : S1x1024.Slices ![0, 384] S1x128
  inb_S8x128_S1x128_3_0 : ∀ a, (![3, 0] : Fin 2 → Nat) a + S1x128.size a ≤ S8x128.size a
  slices_S1x1024_o0_512_S1x128 : S1x1024.Slices ![0, 512] S1x128
  inb_S8x128_S1x128_4_0 : ∀ a, (![4, 0] : Fin 2 → Nat) a + S1x128.size a ≤ S8x128.size a
  slices_S1x1024_o0_640_S1x128 : S1x1024.Slices ![0, 640] S1x128
  inb_S8x128_S1x128_5_0 : ∀ a, (![5, 0] : Fin 2 → Nat) a + S1x128.size a ≤ S8x128.size a
  slices_S1x1024_o0_768_S1x128 : S1x1024.Slices ![0, 768] S1x128
  inb_S8x128_S1x128_6_0 : ∀ a, (![6, 0] : Fin 2 → Nat) a + S1x128.size a ≤ S8x128.size a
  slices_S1x1024_o0_896_S1x128 : S1x1024.Slices ![0, 896] S1x128
  inb_S8x128_S1x128_7_0 : ∀ a, (![7, 0] : Fin 2 → Nat) a + S1x128.size a ≤ S8x128.size a
  inb_S1000x128_S1000x128_0_0 : ∀ a, (![0, 0] : Fin 2 → Nat) a + S1000x128.size a ≤ S1000x128.size a
  h_S1000x128 : 0 < S1000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  shapeCasts_S1x128_S1x128 : S1x128.ShapeCasts S1x128
  shapeCasts_S50176_S32x14x112 : S50176.ShapeCasts S32x14x112
  squeezes_S1x14x112_S14x112 : S1x14x112.Squeezes S14x112
  inb_S14x112_S1x112_0_0 : ∀ a, (![0, 0] : Fin 2 → Nat) a + S1x112.size a ≤ S14x112.size a
  squeezes_S1x112_S112 : S1x112.Squeezes S112
  gathers_S1000x128_S112x128 : S1000x128.Gathers 0 S112x128
  inb_S14x112_S1x112_1_0 : ∀ a, (![1, 0] : Fin 2 → Nat) a + S1x112.size a ≤ S14x112.size a
  inb_S14x112_S1x112_2_0 : ∀ a, (![2, 0] : Fin 2 → Nat) a + S1x112.size a ≤ S14x112.size a
  inb_S14x112_S1x112_3_0 : ∀ a, (![3, 0] : Fin 2 → Nat) a + S1x112.size a ≤ S14x112.size a
  inb_S14x112_S1x112_4_0 : ∀ a, (![4, 0] : Fin 2 → Nat) a + S1x112.size a ≤ S14x112.size a
  inb_S14x112_S1x112_5_0 : ∀ a, (![5, 0] : Fin 2 → Nat) a + S1x112.size a ≤ S14x112.size a
  inb_S14x112_S1x112_6_0 : ∀ a, (![6, 0] : Fin 2 → Nat) a + S1x112.size a ≤ S14x112.size a
  inb_S14x112_S1x112_7_0 : ∀ a, (![7, 0] : Fin 2 → Nat) a + S1x112.size a ≤ S14x112.size a
  inb_S14x112_S1x112_8_0 : ∀ a, (![8, 0] : Fin 2 → Nat) a + S1x112.size a ≤ S14x112.size a
  inb_S14x112_S1x112_9_0 : ∀ a, (![9, 0] : Fin 2 → Nat) a + S1x112.size a ≤ S14x112.size a
  inb_S14x112_S1x112_10_0 : ∀ a, (![10, 0] : Fin 2 → Nat) a + S1x112.size a ≤ S14x112.size a
  inb_S14x112_S1x112_11_0 : ∀ a, (![11, 0] : Fin 2 → Nat) a + S1x112.size a ≤ S14x112.size a
  inb_S14x112_S1x112_12_0 : ∀ a, (![12, 0] : Fin 2 → Nat) a + S1x112.size a ≤ S14x112.size a
  inb_S14x112_S1x112_13_0 : ∀ a, (![13, 0] : Fin 2 → Nat) a + S1x112.size a ≤ S14x112.size a
  inb_S2_S1_0 : ∀ a, (![0] : Fin 1 → Nat) a + S1.size a ≤ S2.size a
  numel1_S1 : S1.numel = 1
  inb_S2_S1_1 : ∀ a, (![1] : Fin 1 → Nat) a + S1.size a ≤ S2.size a
  inb_S4096x128_S4096x128_0_0 : ∀ a, (![0, 0] : Fin 2 → Nat) a + S4096x128.size a ≤ S4096x128.size a
  h_S4096x128 : 0 < S4096x128.numel
  inb_S1x256_S1x128_0_0 : ∀ a, (![0, 0] : Fin 2 → Nat) a + S1x128.size a ≤ S1x256.size a
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  shapeCasts_S1x1x4096_S1x4096 : S1x1x4096.ShapeCasts S1x4096
  iota_S8x4096_d0_w32 : S8x4096.Iotas .tc 32 [0]
  broadcasts_S1x4096_S8x4096 : S1x4096.Broadcasts S8x4096
  natLt_1_32 : 1 < 32
  inb_S8x128_S8x128_0_0 : ∀ a, (![0, 0] : Fin 2 → Nat) a + S8x128.size a ≤ S8x128.size a
  h_S8x128 : 0 < S8x128.numel
  shapeCasts_S8x128_S8x128 : S8x128.ShapeCasts S8x128
  iota_S128x4096_d0_w32 : S128x4096.Iotas .tc 32 [0]
  broadcasts_S1x4096_S128x4096 : S1x4096.Broadcasts S128x4096
  reduces_S128x4096_S4096 : S128x4096.Reduces [0] S4096
  shapeCasts_S4096_S1x4096 : S4096.ShapeCasts S1x4096
  iota_S1x4096_d1_w32 : S1x4096.Iotas .tc 32 [1]
  inb_S1x4096_S1x4096_0_0 : ∀ a, (![0, 0] : Fin 2 → Nat) a + S1x4096.size a ≤ S1x4096.size a
  h_S1x4096 : 0 < S1x4096.numel
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  shapeCasts_S1000_S1000x1 : S1000.ShapeCasts S1000x1
  shapeCasts_S1x4096_S1x4096 : S1x4096.ShapeCasts S1x4096
  shapeCasts_S128x128_S128x128 : S128x128.ShapeCasts S128x128
  broadcasts_S1x128_S4096x128 : S1x128.Broadcasts S4096x128
  shapeCasts_S4096x128_S4096x128 : S4096x128.ShapeCasts S4096x128
  broadcasts_S1x4096_S1000x4096 : S1x4096.Broadcasts S1000x4096
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x4096 : S1000x1.Broadcasts S1000x4096
  inb_S1000x4096_S1000x4096_0_0 : ∀ a, (![0, 0] : Fin 2 → Nat) a + S1000x4096.size a ≤ S1000x4096.size a
  h_S1000x4096 : 0 < S1000x4096.numel
  transposes_S1000x50000_S50000x1000_1_0 : S1000x50000.Transposes [1, 0] S50000x1000
  dot_S1x128_S1024x128_S1x1024_1_1_0_0_n_n_wf : DotDims.WF S1x128 S1024x128 S1x1024 [1] [1] [0] [0] [] []
  dot_S1000x128_S128x128_S1000x128_1_1_0_0_n_n_wf : DotDims.WF S1000x128 S128x128 S1000x128 [1] [1] [0] [0] [] []
  dot_S128x128_S128x128_S128x128_0_1_1_0_n_n_wf : DotDims.WF S128x128 S128x128 S128x128 [0] [1] [1] [0] [] []
  dot_S1x128_S128x128_S1x128_1_1_0_0_n_n_wf : DotDims.WF S1x128 S128x128 S1x128 [1] [1] [0] [0] [] []
  dot_S1x128_S4096x128_S1x4096_1_1_0_0_n_n_wf : DotDims.WF S1x128 S4096x128 S1x4096 [1] [1] [0] [0] [] []
  dot_S8x128_S8x4096_S128x4096_0_0_1_1_n_n_wf : DotDims.WF S8x128 S8x4096 S128x4096 [0] [0] [1] [1] [] []
  dot_S4096x128_S128x128_S4096x128_1_0_0_1_n_n_wf : DotDims.WF S4096x128 S128x128 S4096x128 [1] [0] [0] [1] [] []
  dot_S1000x128_S4096x128_S1000x4096_1_1_0_0_n_n_wf : DotDims.WF S1000x128 S4096x128 S1000x4096 [1] [1] [0] [0] [] []
  hcc1_scratch3 : 10 + S_.numel ≤ 49
  hcc1_scratch4 : 11 + S_.numel ≤ 49
  hcc1_scoped0 : 12 + S_.numel ≤ 49
  hcc1_scoped1 : 13 + S_.numel ≤ 49
  hcc1_scoped2 : 14 + S_.numel ≤ 49
  hcc1_scoped3 : 15 + S_.numel ≤ 49
  hcc1_scoped4 : 16 + S_.numel ≤ 49
  hcc1_scoped5 : 17 + S_.numel ≤ 49
  hcc1_scoped6 : 18 + S_.numel ≤ 49
  hcc1_scoped7 : 19 + S_.numel ≤ 49
  hcc1_scoped8 : 20 + S_.numel ≤ 49
  hcc1_scoped9 : 21 + S_.numel ≤ 49
  hcc1_scoped10 : 22 + S_.numel ≤ 49
  hcc1_scoped11 : 23 + S_.numel ≤ 49
  hcc1_scoped12 : 24 + S_.numel ≤ 49
  hcc1_scoped13 : 25 + S_.numel ≤ 49
  hcc1_scoped14 : 26 + S_.numel ≤ 49
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hcore1 : grid1.bound 0 ≤ τ.nSC
  hsub1 : grid1.bound 1 ≤ τ.nSub
  k1_off1_inb : ∀ i : grid1.Coords, ∀ a, (k1_off1 i) a + S1x14x112.size a ≤ S32x14x112.size a
  k1_off2_inb : ∀ i : grid1.Coords, ∀ (r : Fin 14), ∀ a, (k1_off2 i (BitVec.ofNat 32 (112 * r.val))) a + S112x128.size a ≤ S50176x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S4096x128.size a < S50000x128.size a
  hwx2_0 : ∀ i : grid2.Coords, EltTy.bits .f32 = 32 ∨ (Rect.unit (s := S50000x128) (fun a => cc2_transform_0 i a * S4096x128.size a) (fun a => (Pipeline.Clip.of (cc2_transform_0 i a) (S4096x128.size a) (S50000x128.size a)).extent (S4096x128.size a)) fun a => Pipeline.Clip.inb (Pipeline.Clip.ok_of (hstart2_0 i a))).WholeWords (EltTy.packing .f32)
  hwxs2_0 : ∀ i : grid2.Coords, EltTy.bits .f32 = 32 ∨ (Rect.unit (s := S4096x128) (fun _ => 0) (fun a => (Pipeline.Clip.of (cc2_transform_0 i a) (S4096x128.size a) (S50000x128.size a)).extent (S4096x128.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x4096.size a ≤ S13x1x4096.size a
  hwx2_1 : ∀ i : grid2.Coords, EltTy.bits .i32 = 32 ∨ (Rect.block (s := S13x1x4096) S1x1x4096.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S8x128.size a
  hwx2_2 : ∀ i : grid2.Coords, EltTy.bits .f32 = 32 ∨ (Rect.block (s := S8x128) S8x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4096.size a ≤ S1x53248.size a
  hwx2_4 : ∀ i : grid2.Coords, EltTy.bits .f32 = 32 ∨ (Rect.block (s := S1x53248) S1x4096.size (cc2_transform_4 i) (hinb2_4 i)).WholeWords (EltTy.packing .f32)
  hstage2_5 : ∀ j, (stage2_5 j).IsWhole
  nbuf2_5 : grid2.bufCount reads2_5 false = 1
  hreads2_5 : ∀ i i' : grid2.Coords, (∀ a, reads2_5 a = true → i a = i' a) → cc2_transform_5 i = cc2_transform_5 i'
  hinb2_5 : ∀ (i : grid2.Coords) a, (cc2_transform_5 i a + 1) * S2.size a ≤ S2.size a
  hwx2_5 : ∀ i : grid2.Coords, EltTy.bits .f32 = 32 ∨ (Rect.block (s := S2) S2.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S4096x128.size a < S50000x128.size a
  hwx3_0 : ∀ i : grid3.Coords, EltTy.bits .f32 = 32 ∨ (Rect.unit (s := S50000x128) (fun a => cc3_transform_0 i a * S4096x128.size a) (fun a => (Pipeline.Clip.of (cc3_transform_0 i a) (S4096x128.size a) (S50000x128.size a)).extent (S4096x128.size a)) fun a => Pipeline.Clip.inb (Pipeline.Clip.ok_of (hstart3_0 i a))).WholeWords (EltTy.packing .f32)
  hwxs3_0 : ∀ i : grid3.Coords, EltTy.bits .f32 = 32 ∨ (Rect.unit (s := S4096x128) (fun _ => 0) (fun a => (Pipeline.Clip.of (cc3_transform_0 i a) (S4096x128.size a) (S50000x128.size a)).extent (S4096x128.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hstart3_1 : ∀ (i : grid3.Coords) a, cc3_transform_1 i a * S4096x128.size a < S50176x128.size a
  hwx3_1 : ∀ i : grid3.Coords, EltTy.bits .f32 = 32 ∨ (Rect.unit (s := S50176x128) (fun a => cc3_transform_1 i a * S4096x128.size a) (fun a => (Pipeline.Clip.of (cc3_transform_1 i a) (S4096x128.size a) (S50176x128.size a)).extent (S4096x128.size a)) fun a => Pipeline.Clip.inb (Pipeline.Clip.ok_of (hstart3_1 i a))).WholeWords (EltTy.packing .f32)
  hwxs3_1 : ∀ i : grid3.Coords, EltTy.bits .f32 = 32 ∨ (Rect.unit (s := S4096x128) (fun _ => 0) (fun a => (Pipeline.Clip.of (cc3_transform_1 i a) (S4096x128.size a) (S50176x128.size a)).extent (S4096x128.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x4096.size a ≤ S1x53248.size a
  hwx3_2 : ∀ i : grid3.Coords, EltTy.bits .f32 = 32 ∨ (Rect.block (s := S1x53248) S1x4096.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S2.size a ≤ S2.size a
  hwx3_3 : ∀ i : grid3.Coords, EltTy.bits .f32 = 32 ∨ (Rect.block (s := S2) S2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1000x128.size a ≤ S1000x128.size a
  hwx3_6 : ∀ i : grid3.Coords, EltTy.bits .f32 = 32 ∨ (Rect.block (s := S1000x128) S1000x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1000x1.size a ≤ S1000x1.size a
  hwx3_7 : ∀ i : grid3.Coords, EltTy.bits .f32 = 32 ∨ (Rect.block (s := S1000x1) S1000x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hstart3_8 : ∀ (i : grid3.Coords) a, cc3_transform_8 i a * S1000x4096.size a < S1000x50000.size a
  hwx3_8 : ∀ i : grid3.Coords, EltTy.bits .f32 = 32 ∨ (Rect.unit (s := S1000x50000) (fun a => cc3_transform_8 i a * S1000x4096.size a) (fun a => (Pipeline.Clip.of (cc3_transform_8 i a) (S1000x4096.size a) (S1000x50000.size a)).extent (S1000x4096.size a)) fun a => Pipeline.Clip.inb (Pipeline.Clip.ok_of (hstart3_8 i a))).WholeWords (EltTy.packing .f32)
  hwxs3_8 : ∀ i : grid3.Coords, EltTy.bits .f32 = 32 ∨ (Rect.unit (s := S1000x4096) (fun _ => 0) (fun a => (Pipeline.Clip.of (cc3_transform_8 i a) (S1000x4096.size a) (S1000x50000.size a)).extent (S1000x4096.size a)) fun a => (Nat.zero_add _).trans_le (Pipeline.Clip.extent_le (Pipeline.Clip.ok_of (hstart3_8 i a)))).WholeWords (EltTy.packing .f32)

variable [Facts₀]

abbrev cc1_scratch3 : DmaSems sig S_ := SemArray.consecutive 10 S_ hcc1_scratch3
abbrev cc1_scratch4 : DmaSems sig S_ := SemArray.consecutive 11 S_ hcc1_scratch4
abbrev cc1_scoped0 : DmaSems sig S_ := SemArray.consecutive 12 S_ hcc1_scoped0
abbrev cc1_scoped1 : DmaSems sig S_ := SemArray.consecutive 13 S_ hcc1_scoped1
abbrev cc1_scoped2 : DmaSems sig S_ := SemArray.consecutive 14 S_ hcc1_scoped2
abbrev cc1_scoped3 : DmaSems sig S_ := SemArray.consecutive 15 S_ hcc1_scoped3
abbrev cc1_scoped4 : DmaSems sig S_ := SemArray.consecutive 16 S_ hcc1_scoped4
abbrev cc1_scoped5 : DmaSems sig S_ := SemArray.consecutive 17 S_ hcc1_scoped5
abbrev cc1_scoped6 : DmaSems sig S_ := SemArray.consecutive 18 S_ hcc1_scoped6
abbrev cc1_scoped7 : DmaSems sig S_ := SemArray.consecutive 19 S_ hcc1_scoped7
abbrev cc1_scoped8 : DmaSems sig S_ := SemArray.consecutive 20 S_ hcc1_scoped8
abbrev cc1_scoped9 : DmaSems sig S_ := SemArray.consecutive 21 S_ hcc1_scoped9
abbrev cc1_scoped10 : DmaSems sig S_ := SemArray.consecutive 22 S_ hcc1_scoped10
abbrev cc1_scoped11 : DmaSems sig S_ := SemArray.consecutive 23 S_ hcc1_scoped11
abbrev cc1_scoped12 : DmaSems sig S_ := SemArray.consecutive 24 S_ hcc1_scoped12
abbrev cc1_scoped13 : DmaSems sig S_ := SemArray.consecutive 25 S_ hcc1_scoped13
abbrev cc1_scoped14 : DmaSems sig S_ := SemArray.consecutive 26 S_ hcc1_scoped14
def dot_S1x128_S1024x128_S1x1024_1_1_0_0_n_n : DotDims S1x128 S1024x128 S1x1024 where
  lhsContracting := [1]
  rhsContracting := [1]
  lhsNonContracting := [0]
  rhsNonContracting := [0]
  lhsBatch := []
  rhsBatch := []
  wf := dot_S1x128_S1024x128_S1x1024_1_1_0_0_n_n_wf
def dot_S1000x128_S128x128_S1000x128_1_1_0_0_n_n : DotDims S1000x128 S128x128 S1000x128 where
  lhsContracting := [1]
  rhsContracting := [1]
  lhsNonContracting := [0]
  rhsNonContracting := [0]
  lhsBatch := []
  rhsBatch := []
  wf := dot_S1000x128_S128x128_S1000x128_1_1_0_0_n_n_wf
def dot_S128x128_S128x128_S128x128_0_1_1_0_n_n : DotDims S128x128 S128x128 S128x128 where
  lhsContracting := [0]
  rhsContracting := [1]
  lhsNonContracting := [1]
  rhsNonContracting := [0]
  lhsBatch := []
  rhsBatch := []
  wf := dot_S128x128_S128x128_S128x128_0_1_1_0_n_n_wf
def dot_S1x128_S128x128_S1x128_1_1_0_0_n_n : DotDims S1x128 S128x128 S1x128 where
  lhsContracting := [1]
  rhsContracting := [1]
  lhsNonContracting := [0]
  rhsNonContracting := [0]
  lhsBatch := []
  rhsBatch := []
  wf := dot_S1x128_S128x128_S1x128_1_1_0_0_n_n_wf
def dot_S1x128_S4096x128_S1x4096_1_1_0_0_n_n : DotDims S1x128 S4096x128 S1x4096 where
  lhsContracting := [1]
  rhsContracting := [1]
  lhsNonContracting := [0]
  rhsNonContracting := [0]
  lhsBatch := []
  rhsBatch := []
  wf := dot_S1x128_S4096x128_S1x4096_1_1_0_0_n_n_wf
def dot_S8x128_S8x4096_S128x4096_0_0_1_1_n_n : DotDims S8x128 S8x4096 S128x4096 where
  lhsContracting := [0]
  rhsContracting := [0]
  lhsNonContracting := [1]
  rhsNonContracting := [1]
  lhsBatch := []
  rhsBatch := []
  wf := dot_S8x128_S8x4096_S128x4096_0_0_1_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S1000x128_S4096x128_S1000x4096_1_1_0_0_n_n : DotDims S1000x128 S4096x128 S1000x4096 where
  lhsContracting := [1]
  rhsContracting := [1]
  lhsNonContracting := [0]
  rhsNonContracting := [0]
  lhsBatch := []
  rhsBatch := []
  wf := dot_S1000x128_S4096x128_S1000x4096_1_1_0_0_n_n_wf

abbrev win0_0 : Pipeline.Window sig grid0 :=
  Pipeline.Window.whole (Memref.whole main_v5) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_arg5) false false (stage0_2 0) (sem0_2 0) (Memref.isWhole_whole _) (hstage0_2 0)

abbrev win0_3 : Pipeline.Window sig grid0 :=
  Pipeline.Window.whole (Memref.whole main_v6) false false (stage0_3 0) (sem0_3 0) (Memref.isWhole_whole _) (hstage0_3 0)

abbrev win0_4 : Pipeline.Window sig grid0 :=
  Pipeline.Window.whole (Memref.whole main_arg7) false false (stage0_4 0) (sem0_4 0) (Memref.isWhole_whole _) (hstage0_4 0)

abbrev win0_5 : Pipeline.Window sig grid0 :=
  Pipeline.Window.whole (Memref.whole main_v7) false false (stage0_5 0) (sem0_5 0) (Memref.isWhole_whole _) (hstage0_5 0)

abbrev win0_6 : Pipeline.Window sig grid0 :=
  Pipeline.Window.whole (Memref.whole main_v8_0) true false (stage0_6 0) (sem0_6 0) (Memref.isWhole_whole _) (hstage0_6 0)

abbrev win0_7 : Pipeline.Window sig grid0 :=
  Pipeline.Window.whole (Memref.whole main_v8_1) true false (stage0_7 0) (sem0_7 0) (Memref.isWhole_whole _) (hstage0_7 0)

abbrev win0_8 : Pipeline.Window sig grid0 :=
  Pipeline.Window.whole (Memref.whole main_v8_2) true false (stage0_8 0) (sem0_8 0) (Memref.isWhole_whole _) (hstage0_8 0)

abbrev win0_9 : Pipeline.Window sig grid0 :=
  Pipeline.Window.whole (Memref.whole main_v8_3) true false (stage0_9 0) (sem0_9 0) (Memref.isWhole_whole _) (hstage0_9 0)

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win2_0 : Pipeline.Window sig grid2 :=
  Pipeline.Window.ofSpecClip (Memref.whole main_arg0) S4096x128.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpec (Memref.whole main_v4) S1x1x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8_0) S8x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11_0) S1x4096.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11_1) S2.size cc2_transform_5 reads2_5 true false 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

abbrev win3_0 : Pipeline.Window sig grid3 :=
  Pipeline.Window.ofSpecClip (Memref.whole main_arg0) S4096x128.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v10) S4096x128.size cc3_transform_1 reads3_1 false false 2 stage3_1 sem3_1
    hrank3 hreads3_1 hstart3_1 nbuf3_1 (Memref.isWhole_whole _) hwx3_1 hwxs3_1 hstage3_1

abbrev win3_2 : Pipeline.Window sig grid3 :=
  Pipeline.Window.ofSpec (Memref.whole main_v11_0) S1x4096.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v11_1) S2.size cc3_transform_3 reads3_3 false false 1 stage3_3 sem3_3
    hrank3 hreads3_3 hinb3_3 nbuf3_3 (Memref.isWhole_whole _) hwx3_3 hstage3_3

abbrev win3_4 : Pipeline.Window sig grid3 :=
  Pipeline.Window.ofSpec (Memref.whole main_v8_2) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v8_3) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S1000x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v12) S1000x1.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpecClip (Memref.whole main_v13) S1000x4096.size cc3_transform_8 reads3_8 true false 2 stage3_8 sem3_8
    hrank3 hreads3_8 hstart3_8 nbuf3_8 (Memref.isWhole_whole _) hwx3_8 hwxs3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S50000x128 : Shape := ⟨2, ![50000, 128]⟩
abbrev S1000x128 : Shape := ⟨2, ![1000, 128]⟩
abbrev S2x50000 : Shape := ⟨2, ![2, 50000]⟩
abbrev S1x256 : Shape := ⟨2, ![1, 256]⟩
abbrev S1 : Shape := ⟨1, ![1]⟩
abbrev S128x128 : Shape := ⟨2, ![128, 128]⟩
abbrev S128 : Shape := ⟨1, ![128]⟩
abbrev S128x256 : Shape := ⟨2, ![128, 256]⟩
abbrev S1000 : Shape := ⟨1, ![1000]⟩
abbrev S1x50000 : Shape := ⟨2, ![1, 50000]⟩
abbrev S50000 : Shape := ⟨1, ![50000]⟩
abbrev S_ : Shape := ⟨0, ![]⟩
abbrev S50000x1 : Shape := ⟨2, ![50000, 1]⟩
abbrev S50000x256 : Shape := ⟨2, ![50000, 256]⟩
abbrev S256x1 : Shape := ⟨2, ![256, 1]⟩
abbrev S1x1 : Shape := ⟨2, ![1, 1]⟩
abbrev S1x128 : Shape := ⟨2, ![1, 128]⟩
abbrev S256x128 : Shape := ⟨2, ![256, 128]⟩
abbrev S128x1000 : Shape := ⟨2, ![128, 1000]⟩
abbrev S50000x1000 : Shape := ⟨2, ![50000, 1000]⟩
abbrev S1x1000 : Shape := ⟨2, ![1, 1000]⟩

abbrev nBuf : Space → Nat
  | .hbm => 81
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1000x128, .f32⟩
  | .hbm, ⟨2, _⟩ => ⟨S2x50000, .i32⟩
  | .hbm, ⟨3, _⟩ => ⟨S1x256, .f32⟩
  | .hbm, ⟨4, _⟩ => ⟨S1, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S1000x128, .f32⟩
  | .hbm, ⟨10, _⟩ => ⟨S1000, .f32⟩
  | .hbm, ⟨11, _⟩ => ⟨S1x50000, .i32⟩
  | .hbm, ⟨12, _⟩ => ⟨S50000, .i32⟩
  | .hbm, ⟨13, _⟩ => ⟨S_, .i32⟩
  | .hbm, ⟨14, _⟩ => ⟨S50000, .i32⟩
  | .hbm, ⟨15, _⟩ => ⟨S50000, .i1⟩
  | .hbm, ⟨16, _⟩ => ⟨S_, .i32⟩
  | .hbm, ⟨17, _⟩ => ⟨S50000, .i32⟩
  | .hbm, ⟨18, _⟩ => ⟨S50000, .i32⟩
  | .hbm, ⟨19, _⟩ => ⟨S50000, .i32⟩
  | .hbm, ⟨20, _⟩ => ⟨S50000x1, .i32⟩
  | .hbm, ⟨21, _⟩ => ⟨S50000x128, .f32⟩
  | .hbm, ⟨22, _⟩ => ⟨S50000x256, .f32⟩
  | .hbm, ⟨23, _⟩ => ⟨S256x1, .f32⟩
  | .hbm, ⟨24, _⟩ => ⟨S50000x1, .f32⟩
  | .hbm, ⟨25, _⟩ => ⟨S1x1, .f32⟩
  | .hbm, ⟨26, _⟩ => ⟨S50000x1, .f32⟩
  | .hbm, ⟨27, _⟩ => ⟨S50000x1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S1, .f32⟩
  | .hbm, ⟨32, _⟩ => ⟨S1, .f32⟩
  | .hbm, ⟨33, _⟩ => ⟨S1x1, .f32⟩
  | .hbm, ⟨34, _⟩ => ⟨S50000x1, .f32⟩
  | .hbm, ⟨35, _⟩ => ⟨S50000x1, .f32⟩
  | .hbm, ⟨36, _⟩ => ⟨S50000x1, .f32⟩
  | .hbm, ⟨37, _⟩ => ⟨S_, .f32⟩
  | .hbm, ⟨38, _⟩ => ⟨S1, .f32⟩
  | .hbm, ⟨39, _⟩ => ⟨S1x1, .f32⟩
  | .hbm, ⟨40, _⟩ => ⟨S50000x1, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000, .i32⟩
  | .hbm, ⟨45, _⟩ => ⟨S_, .f32⟩
  | .hbm, ⟨46, _⟩ => ⟨S50000x128, .f32⟩
  | .hbm, ⟨47, _⟩ => ⟨S_, .i32⟩
  | .hbm, ⟨48, _⟩ => ⟨S50000, .i32⟩
  | .hbm, ⟨49, _⟩ => ⟨S50000, .i1⟩
  | .hbm, ⟨50, _⟩ => ⟨S_, .i32⟩
  | .hbm, ⟨51, _⟩ => ⟨S50000, .i32⟩
  | .hbm, ⟨52, _⟩ => ⟨S50000, .i32⟩
  | .hbm, ⟨53, _⟩ => ⟨S50000, .i32⟩
  | .hbm, ⟨54, _⟩ => ⟨S50000x1, .i32⟩
  | .hbm, ⟨55, _⟩ => ⟨S50000x128, .f32⟩
  | .hbm, ⟨56, _⟩ => ⟨S128x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S50000, .i32⟩
  | .hbm, ⟨63, _⟩ => ⟨S50000, .i1⟩
  | .hbm, ⟨64, _⟩ => ⟨S_, .i32⟩
  | .hbm, ⟨65, _⟩ => ⟨S50000, .i32⟩
  | .hbm, ⟨66, _⟩ => ⟨S50000, .i32⟩
  | .hbm, ⟨67, _⟩ => ⟨S50000, .i32⟩
  | .hbm, ⟨68, _⟩ => ⟨S50000x1, .i32⟩
  | .hbm, ⟨69, _⟩ => ⟨S50000x128, .f32⟩
  | .hbm, ⟨70, _⟩ => ⟨S50000x256, .f32⟩
  | .hbm, ⟨71, _⟩ => ⟨S256x128, .f32⟩
  | .hbm, ⟨72, _⟩ => ⟨S50000x128, .f32⟩
  | .hbm, ⟨73, _⟩ => ⟨S1x128, .f32⟩
  | .hbm, ⟨74, _⟩ => ⟨S50000x128, .f32⟩
  | .hbm, ⟨75, _⟩ => ⟨S50000x128, .f32⟩
  | .hbm, ⟨76, _⟩ => ⟨S128x1000, .f32⟩
  | .hbm, ⟨77, _⟩ => ⟨S50000x1000, .f32⟩
  | .hbm, ⟨78, _⟩ => ⟨S1x1000, .f32⟩
  | .hbm, ⟨79, _⟩ => ⟨S50000x1000, .f32⟩
  | .hbm, ⟨80, _⟩ => ⟨S50000x1000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]

class Facts₀ : Prop where
  slices_S2x50000_S1x50000_1_0 : S2x50000.Slices ![1, 0] S1x50000
  shapeCasts_S1x50000_S50000 : S1x50000.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  concatenates_S50000x128_S50000x128_S50000x256_d1 : Shape.Concatenates [S50000x128, S50000x128] S50000x256 1
  transposes_S1x256_S256x1_1_0 : S1x256.Transposes [1, 0] S256x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  h_S_ : 0 < S_.numel
  bcast_S_S1 : S_.BroadcastsInDim S1 (![] : Fin 0 → Fin S1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S128x256_S256x128_1_0 : S128x256.Transposes [1, 0] S256x128
  transposes_S1000x128_S128x1000_1_0 : S1000x128.Transposes [1, 0] S128x1000
  bcast_S1000_S1x1000_1 : S1000.BroadcastsInDim S1x1000 (![1] : Fin 1 → Fin S1x1000.rank)
  bcast_S1x1000_S50000x1000_0_1 : S1x1000.BroadcastsInDim S50000x1000 (![0, 1] : Fin 2 → Fin S50000x1000.rank)
  gather_S1000x128_S50000x1_S50000x128_1_0_n_n_0_1_1128_wf : GatherDims.WF S1000x128 S50000x1 S50000x128 [1] [0] [] [0] [] 1 ![1, 128]
  dot_S50000x256_S256x1_S50000x1_1_0_0_1_n_n_wf : DotDims.WF S50000x256 S256x1 S50000x1 [1] [0] [0] [1] [] []
  scatter_S50000x128_S50000x1_S50000x128_1_0_0_1_wf : ScatterDims.WF S50000x128 S50000x1 S50000x128 [1] [0] [0] 1
  dot_S50000x128_S128x128_S50000x128_1_0_0_1_n_n_wf : DotDims.WF S50000x128 S128x128 S50000x128 [1] [0] [0] [1] [] []
  gather_S50000x128_S50000x1_S50000x128_1_0_n_n_0_1_1128_wf : GatherDims.WF S50000x128 S50000x1 S50000x128 [1] [0] [] [0] [] 1 ![1, 128]
  dot_S50000x256_S256x128_S50000x128_1_0_0_1_n_n_wf : DotDims.WF S50000x256 S256x128 S50000x128 [1] [0] [0] [1] [] []
  dot_S50000x128_S128x1000_S50000x1000_1_0_0_1_n_n_wf : DotDims.WF S50000x128 S128x1000 S50000x1000 [1] [0] [0] [1] [] []

variable [Facts₀]

def gather_S1000x128_S50000x1_S50000x128_1_0_n_n_0_1_1128 : GatherDims S1000x128 S50000x1 S50000x128 where
  offsetDims := [1]
  collapsedSliceDims := [0]
  operandBatchingDims := []
  startIndicesBatchingDims := []
  startIndexMap := [0]
  indexVectorDim := 1
  sliceSizes := ![1, 128]
  wf := gather_S1000x128_S50000x1_S50000x128_1_0_n_n_0_1_1128_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def scatter_S50000x128_S50000x1_S50000x128_1_0_0_1 : ScatterDims S50000x128 S50000x1 S50000x128 where
  updateWindowDims := [1]
  insertedWindowDims := [0]
  scatterDimsToOperandDims := [0]
  indexVectorDim := 1
  wf := scatter_S50000x128_S50000x1_S50000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1000_S50000x1000_1_0_0_1_n_n : DotDims S50000x128 S128x1000 S50000x1000 where
  lhsContracting := [1]
  rhsContracting := [0]
  lhsNonContracting := [0]
  rhsNonContracting := [1]
  lhsBatch := []
  rhsBatch := []
  wf := dot_S50000x128_S128x1000_S50000x1000_1_0_0_1_n_n_wf

class Facts : Prop extends Facts₀ where

variable [Facts]
-- ==== Proof.Spec.lean ====
import Idealize.ShloMosaic.PureOps.Ideal

noncomputable section

namespace Cert.Proof.Spec

open Idealize.ShloMosaic

def lo (d : Fin 128) : Fin 256 := ⟨d.val, by omega⟩
def hi (d : Fin 128) : Fin 256 := ⟨128 + d.val, by omega⟩

variable (pf : Fin 50000 → Fin 128 → EReal) (ct : Fin 1000 → Fin 128 → EReal) (e : Fin 50000 → Fin 1000)
  (watt : Fin 256 → EReal) (batt : EReal) (wpdt : Fin 128 → Fin 128 → EReal) (bpdt : Fin 128 → EReal)
  (wcomb : Fin 128 → Fin 256 → EReal) (bcomb : Fin 128 → EReal) (wout : Fin 1000 → Fin 128 → EReal) (bout : Fin 1000 → EReal)

def refScore (i : Fin 50000) : EReal := (∑ d, pf i d * watt (lo d)) + (∑ d, ct (e i) d * watt (hi d)) + batt

def refMax : EReal := Finset.univ.sup (refScore pf ct e watt batt)

def refZ : EReal := ∑ i, Ideal.exp (refScore pf ct e watt batt i - refMax pf ct e watt batt)

def refW (i : Fin 50000) : EReal :=
  Ideal.div (Ideal.exp (refScore pf ct e watt batt i - refMax pf ct e watt batt)) (refZ pf ct e watt batt)

def refPf (i : Fin 50000) (j : Fin 128) : EReal := (∑ d, pf i d * wpdt j d) + bpdt j

def refHid (i : Fin 50000) (h : Fin 128) : EReal :=
  (∑ j, refPf pf wpdt bpdt i j * wcomb h (lo j)) + (∑ d, (refW pf ct e watt batt i * ct (e i) d) * wcomb h (hi d)) + bcomb h

def refOut (i : Fin 50000) (k : Fin 1000) : EReal :=
  (∑ h, refHid pf ct e watt batt wpdt bpdt wcomb bcomb i h * wout k h) + bout k

def sTab (k : Fin 1000) : EReal := ∑ d, watt (hi d) * ct k d

def gTab (k : Fin 1000) (h : Fin 128) : EReal := ∑ d, ct k d * wcomb h (hi d)

def mMat (d h : Fin 128) : EReal := ∑ j, wpdt j d * wcomb h (lo j)
def c0 (h : Fin 128) : EReal := (∑ j, bpdt j * wcomb h (lo j)) + bcomb h

def kerScore (i : Fin 50000) : EReal := (∑ d, watt (lo d) * pf i d) + sTab ct watt (e i)

def laneScore (t : Fin 13) (j : Fin 4096) : EReal :=
  if h : 4096 * t.val + j.val < 50000 then kerScore pf ct e watt ⟨4096 * t.val + j.val, h⟩ else ⊥

def onlineStep (mz : EReal × EReal) (t : Fin 13) : EReal × EReal :=
  let m' := max mz.1 (Finset.univ.sup (laneScore pf ct e watt t))
  (m', mz.2 * Ideal.exp (mz.1 - m') + ∑ j, Ideal.exp (laneScore pf ct e watt t j - m'))

def onlineStats : EReal × EReal := (List.finRange 13).foldl (onlineStep pf ct e watt) (⊥, 0)

def kerW (i : Fin 50000) : EReal :=
  Ideal.exp (kerScore pf ct e watt i - (onlineStats pf ct e watt).1) * Ideal.div 1 (onlineStats pf ct e watt).2

def kerHid0 (i : Fin 50000) (h : Fin 128) : EReal := (∑ d, pf i d * mMat wpdt wcomb d h) + c0 bpdt wcomb bcomb h

def kerOut (i : Fin 50000) (k : Fin 1000) : EReal :=
  (∑ h, wout k h * kerHid0 pf wpdt bpdt wcomb bcomb i h) + kerW pf ct e watt i * (∑ h, wout k h * gTab ct wcomb (e i) h) + bout k

structure Finite : Prop where
  pf : ∀ i d, ∃ r : ℝ, pf i d = r
  ct : ∀ k d, ∃ r : ℝ, ct k d = r
  watt : ∀ k, ∃ r : ℝ, watt k = r
  batt : ∃ r : ℝ, batt = r
  wpdt : ∀ j d, ∃ r : ℝ, wpdt j d = r
  bpdt : ∀ j, ∃ r : ℝ, bpdt j = r
  wcomb : ∀ h k, ∃ r : ℝ, wcomb h k = r
  bcomb : ∀ h, ∃ r : ℝ, bcomb h = r
  wout : ∀ k h, ∃ r : ℝ, wout k h = r
  bout : ∀ k, ∃ r : ℝ, bout k = r

end Cert.Proof.Spec

end
-- ==== Proof.Inputs.lean ====
import proofs.«211030_g66005057405235_cont_9to1c4b_431_51_alg».proof.Proof.Spec
import Idealize.ShloMosaic.Lib.ValueIdx

noncomputable section

namespace Cert.Proof.Inputs

open Idealize.ShloMosaic Idealize.ShloMosaic.ValueIdx

def mat {n0 n1 : Nat} (x : (⟨2, ![n0, n1]⟩ : Shape).Idx → EReal) : Fin n0 → Fin n1 → EReal := fun a b => x (ix2 a b)
def vec {n : Nat} (x : (⟨1, ![n]⟩ : Shape).Idx → EReal) : Fin n → EReal := fun a => x (ix1 a)

def cls (x : (⟨2, ![2, 50000]⟩ : Shape).Idx → BitVec 32) : Fin 50000 → Fin 1000 :=
  fun i => ⟨(x (ix2 (1 : Fin 2) i)).toNat % 1000, Nat.mod_lt _ (by norm_num)⟩

structure Args where
  a0 : (⟨2, ![50000, 128]⟩ : Shape).Idx → EReal
  a1 : (⟨2, ![1000, 128]⟩ : Shape).Idx → EReal
  a2 : (⟨2, ![2, 50000]⟩ : Shape).Idx → BitVec 32
  a3 : (⟨2, ![1, 256]⟩ : Shape).Idx → EReal
  a4 : (⟨1, ![1]⟩ : Shape).Idx → EReal
  a5 : (⟨2, ![128, 128]⟩ : Shape).Idx → EReal
  a6 : (⟨1, ![128]⟩ : Shape).Idx → EReal
  a7 : (⟨2, ![128, 256]⟩ : Shape).Idx → EReal
  a8 : (⟨1, ![128]⟩ : Shape).Idx → EReal
  a9 : (⟨2, ![1000, 128]⟩ : Shape).Idx → EReal
  a10 : (⟨1, ![1000]⟩ : Shape).Idx → EReal

namespace Args

variable (a : Args)

def pf := mat a.a0
def ct := mat a.a1
def e := cls a.a2
def watt : Fin 256 → EReal := fun k => a.a3 (ix2 (0 : Fin 1) k)
def batt : EReal := a.a4 (ix1 (0 : Fin 1))
def wpdt := mat a.a5
def bpdt := vec a.a6
def wcomb := mat a.a7
def bcomb := vec a.a8
def wout := mat a.a9
def bout := vec a.a10

def Finite : Prop := Spec.Finite a.pf a.ct a.watt a.batt a.wpdt a.bpdt a.wcomb a.bcomb a.wout a.bout

def InRange : Prop := ∀ j, (a.a2 j).toNat < 1000

def refG : (⟨2, ![50000, 1000]⟩ : Shape).Idx → EReal :=
  fun j => Spec.refOut a.pf a.ct a.e a.watt a.batt a.wpdt a.bpdt a.wcomb a.bcomb a.wout a.bout (j 0) (j 1)

def kerG : (⟨2, ![50000, 1000]⟩ : Shape).Idx → EReal :=
  fun j => Spec.kerOut a.pf a.ct a.e a.watt a.wpdt a.bpdt a.wcomb a.bcomb a.wout a.bout (j 0) (j 1)

end Args

end Cert.Proof.Inputs

end
-- ==== Proof.PreDecode.lean ====
import proofs.«211030_g66005057405235_cont_9to1c4b_431_51_alg».proof.Proof.Inputs
import proofs.«211030_g66005057405235_cont_9to1c4b_431_51_alg».proof.Pre_input_domain
import proofs.«211030_g66005057405235_cont_9to1c4b_431_51_alg».proof.Proof.Gen.Pre_input_domain
import Idealize.ShloMosaic.Lib.ReduceAll
import Idealize.ShloMosaic.Lib.StableHlo.Predicate

noncomputable section

namespace Cert.Proof.PreDecode

open Idealize.ShloMosaic Idealize.ShloMosaic.ValueIdx Cert.Proof.Inputs

attribute [local instance] Cert.Pre_input_domain.Gen.facts

instance : Subsingleton Cert.Pre_input_domain.S_.Idx := ⟨fun a b => funext fun d => d.elim0⟩

theorem andi_at {s : Shape} (A B : IVec s 1) (i : s.Idx) : andi A B i = 1#1 ↔ A i = 1#1 ∧ B i = 1#1 :=
  IntOp.andi_eq_one

theorem toNat_lt_of_signed_range (w : BitVec 32) (h0 : IntOp.cmpi .sge w 0#32 = 1#1) (h1 : IntOp.cmpi .sle w 999#32 = 1#1) :
    w.toNat < 1000 := by
  rw [IntOp.cmpi_sge] at h0
  rw [IntOp.cmpi_sle] at h1
  have e := BitVec.toInt_eq_toNat_cond w
  have hw := w.isLt
  have z : (0#32 : BitVec 32).toInt = 0 := by decide
  have n : (999#32 : BitVec 32).toInt = 999 := by decide
  omega

theorem ofBits_inf : Ideal.ofBits .f32 0x7F800000#32 = (⊤ : EReal) := by
  simp [Ideal.ofBits, Ideal.ieee]

theorem real_of_abs_lt_top (x : EReal) (h : max x (-x) < ⊤) : ∃ r : ℝ, x = r := by
  induction x using EReal.rec with
  | bot => simp at h
  | coe r => exact ⟨r, rfl⟩
  | top => simp at h

theorem all_real {s : Shape} {axes : List (Fin s.rank)} (x : FVec Ideal s .f32)
    (hb : Cert.Pre_input_domain.S_.BroadcastsInDim s (![] : Fin 0 → Fin s.rank))
    (hr : s.ReducesTo axes Cert.Pre_input_domain.S_) (hu : 0 < Cert.Pre_input_domain.S_.numel)
    (h : Host.reduce IntOp.andi
        (cmpf .olt (Host.absf x) (broadcastInDim s ![] hb (constant (F := Ideal) Cert.Pre_input_domain.S_ .f32 0x7F800000#32)))
        (constantI Cert.Pre_input_domain.S_ 1 1#1) hr hu ix0 = 1#1) :
    ∀ i, ∃ r : ℝ, x i = r := by
  intro i
  have e := Host.reduce_andi_all _ _ hr hu ix0 h i
  have e' : Ideal.cmp .olt (max (x i) (-(x i))) (Ideal.ofBits .f32 0x7F800000#32) = 1#1 := e
  rw [ofBits_inf] at e'
  simp only [Ideal.cmp, StableHlo.Predicate.ofBool_eq_one_iff, decide_eq_true_eq] at e'
  exact real_of_abs_lt_top _ e'

theorem all_inRange {s : Shape} {axes : List (Fin s.rank)} (x : IVec s 32)
    (hb : Cert.Pre_input_domain.S_.BroadcastsInDim s (![] : Fin 0 → Fin s.rank))
    (hr : s.ReducesTo axes Cert.Pre_input_domain.S_) (hu : 0 < Cert.Pre_input_domain.S_.numel)
    (h : Host.reduce IntOp.andi
        (andi (cmpi .sge x (broadcastInDim s ![] hb (constantI Cert.Pre_input_domain.S_ 32 0#32)))
          (cmpi .sle x (broadcastInDim s ![] hb (constantI Cert.Pre_input_domain.S_ 32 999#32))))
        (constantI Cert.Pre_input_domain.S_ 1 1#1) hr hu ix0 = 1#1) :
    ∀ j, (x j).toNat < 1000 := by
  intro j
  obtain ⟨h0, h1⟩ := (andi_at _ _ j).1 (Host.reduce_andi_all _ _ hr hu ix0 h j)
  exact toNat_lt_of_signed_range (x j) h0 h1

theorem inRange_of_pre {F : FTy → Type} [FloatOps F]
    (a0 : Vec F Cert.Pre_input_domain.S50000x128 .f32) (a1 : Vec F Cert.Pre_input_domain.S1000x128 .f32) (a2 : IVec Cert.Pre_input_domain.S2x50000 32)
    (a3 : Vec F Cert.Pre_input_domain.S1x256 .f32) (a4 : Vec F Cert.Pre_input_domain.S1 .f32) (a5 : Vec F Cert.Pre_input_domain.S128x128 .f32)
    (a6 : Vec F Cert.Pre_input_domain.S128 .f32) (a7 : Vec F Cert.Pre_input_domain.S128x256 .f32) (a8 : Vec F Cert.Pre_input_domain.S128 .f32)
    (a9 : Vec F Cert.Pre_input_domain.S1000x128 .f32) (a10 : Vec F Cert.Pre_input_domain.S1000 .f32)
    (h : Cert.Pre_input_domain.fn (F := F) a0 a1 a2 a3 a4 a5 a6 a7 a8 a9 a10 = fun _ => 1#1) :
    ∀ j, (a2 j).toNat < 1000 := by
  have e := congrFun h ix0
  dsimp only [Cert.Pre_input_domain.fn, Cert.Pre_input_domain.fn_part1, Cert.Pre_input_domain.fn_part2,
    Cert.Pre_input_domain.fn_part3] at e
  obtain ⟨-, e54⟩ := (andi_at _ _ ix0).1 e
  exact all_inRange a2 _ _ _ e54

theorem finite_of_pre (a : Args)
    (h : Cert.Pre_input_domain.fn (F := Ideal) a.a0 a.a1 a.a2 a.a3 a.a4 a.a5 a.a6 a.a7 a.a8 a.a9 a.a10 = fun _ => 1#1) :
    a.Finite ∧ a.InRange := by
  refine ⟨?_, inRange_of_pre (F := Ideal) a.a0 a.a1 a.a2 a.a3 a.a4 a.a5 a.a6 a.a7 a.a8 a.a9 a.a10 h⟩
  have e := congrFun h ix0
  dsimp only [Cert.Pre_input_domain.fn, Cert.Pre_input_domain.fn_part1, Cert.Pre_input_domain.fn_part2,
    Cert.Pre_input_domain.fn_part3] at e
  simp only [andi_at] at e
  obtain ⟨⟨⟨⟨⟨⟨⟨⟨⟨⟨e3, e7⟩, e12⟩, e17⟩, e22⟩, e27⟩, e32⟩, e37⟩, e42⟩, e47⟩, -⟩ := e
  exact ⟨fun i d => all_real a.a0 _ _ _ e3 (ix2 i d), fun k d => all_real a.a1 _ _ _ e7 (ix2 k d),
    fun k => all_real a.a3 _ _ _ e12 (ix2 (0 : Fin 1) k), all_real a.a4 _ _ _ e17 (ix1 (0 : Fin 1)),
    fun j d => all_real a.a5 _ _ _ e22 (ix2 j d), fun j => all_real a.a6 _ _ _ e27 (ix1 j),
    fun hh k => all_real a.a7 _ _ _ e32 (ix2 hh k), fun hh => all_real a.a8 _ _ _ e37 (ix1 hh),
    fun k hh => all_real a.a9 _ _ _ e42 (ix2 k hh), fun k => all_real a.a10 _ _ _ e47 (ix1 k)⟩

end Cert.Proof.PreDecode

end
-- ==== Proof.KBCommon.lean ====
import proofs.«211030_g66005057405235_cont_9to1c4b_431_51_alg».proof.Defs
import proofs.«211030_g66005057405235_cont_9to1c4b_431_51_alg».proof.Proof.Gen.Kernel
import proofs.«211030_g66005057405235_cont_9to1c4b_431_51_alg».proof.Proof.Gen.Kernel.Skeleton
import proofs.«211030_g66005057405235_cont_9to1c4b_431_51_alg».proof.Proof.Gen.Kernel.Launch
import proofs.«211030_g66005057405235_cont_9to1c4b_431_51_alg».proof.Proof.Gen.Kernel.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL

def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KB

end
-- ==== Proof.KBLaunchCommon.lean ====
import proofs.«211030_g66005057405235_cont_9to1c4b_431_51_alg».proof.Proof.KBCommon
import Idealize.ShloMosaic.Lib.SparseCore.Launch
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.StableHlo.Run

noncomputable section

namespace Cert.Proof.KB.Launch

open Cert.Kernel Cert.Kernel.Gen
open Cert.Proof.KB
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (SparseCore.Cfg.HIx 1) (Elt F) ℕ Cert.Proof.KB.UU ℕ

abbrev atTc (W : Dev nD → Valuation τ sig (Elt F)) : (c : Dev nD) → (b : Ref sig .tc) → Buf (Elt F) ((c : Thread nD τ).loc b) :=
  fun c b => W c b

abbrev adm : (p : Fin 3) → (pcfgs (F := F) p).Adm := fun p => (cfgs p).toPCfg_adm

-- Wv' holds what Wv holds at every reference outside S.
def AgreeOff (S : Finset (Ref sig .tc)) (Wv Wv' : Valuation τ sig (Elt F)) : Prop :=
  ∀ b : Ref sig .tc, b ∉ S → Wv' (Proc.devRef .tc b) = Wv (Proc.devRef .tc b)

theorem AgreeOff.refl (S : Finset (Ref sig .tc)) (Wv : Valuation τ sig (Elt F)) : AgreeOff S Wv Wv := fun _ _ => rfl

theorem AgreeOff.trans {S S' : Finset (Ref sig .tc)} {W₁ W₂ W₃ : Valuation τ sig (Elt F)} (h₁ : AgreeOff S W₁ W₂) (h₂ : AgreeOff S' W₂ W₃) :
    AgreeOff (S ∪ S') W₁ W₃ := fun b hb =>
  (h₂ b fun h => hb (Finset.mem_union_right _ h)).trans (h₁ b fun h => hb (Finset.mem_union_left _ h))

def owesSt (d : Dev nD) (n : ℕ) : sProp 𝕄 :=
  iprop(∃ Wt, ⌜(K (F := F)).WBelow (T d) Wt (8 * n)⌝ ∗ owes (T d) ((K (F := F)).Otc d n) Wt)

theorem Otc_none (d : Dev nD) (n : ℕ) (g : GSem nD τ sig) : (K (F := F)).Otc d n g none = 0 :=
  Nat.eq_zero_of_not_pos fun h => by
    have := SparseCore.Cfg.lev_of_Otc_pos (K := K (F := F)) h
    rw [SparseCore.Cfg.lev_none] at this; omega

theorem idx_none_of_WBelow {d : Dev nD} {Wt : Waits sig (HIx 1)} (h : (K (F := F)).WBelow (T d) Wt (8 * 0)) : ∀ p ∈ Wt, p.2 = none := fun p hp => by
  have hp' := h p hp
  rcases hp2 : p.2 with _ | q
  · rfl
  · rw [hp2] at hp'; have := (K (F := F)).lev_some_pos (T d, p.1) q; omega

theorem WBelow_one (d : Dev nD) (Wt : Waits sig (HIx 1)) : (K (F := F)).WBelow (T d) Wt (8 * 1) := fun p _ => by
  rcases hp2 : p.2 with _ | q
  · simp
  · have := (K (F := F)).lev_some_le (T d, p.1) q
    have hq : q.val = 0 := by omega
    omega

-- What each step of the thread is entered with and left with.
def TS (d : Dev nD) (Wv : Valuation τ sig (Elt F)) (n : ℕ) : sProp 𝕄 :=
  iprop(StableHlo.held (T d) (Pipeline.ucRefs τ sig) Wv ∗ (∃ r, prngReg d r) ∗ owesSt (F := F) d n)

section Steps

variable [∀ e, Nonempty (Elt F e)]

abbrev ghostAt (p : Fin 3) (d : Dev nD) : sProp 𝕄 :=
  iprop(Pipeline.cellsGhost (Pipeline.pin (pcfgs (F := F)) adm) EP p d ∗ Pipeline.toksInit (Pipeline.pin (pcfgs (F := F)) adm) EP p d)

set_option backward.isDefEq.respectTransparency.types false in
-- A region's rule with whatever follows the call as continuation.
theorem step_regionR {p : Fin 3}
    (rdats : (p : Fin 3) → (c : Dev nD) → RDat τ (Elt F) (HIx 1) ℕ UU ℕ (Pipeline.pin (pcfgs (F := F)) adm p) c)
    (R : Pipeline.RDat.RegionSeg (pcfgs (F := F)) adm rdats (none : HIx 1) defs₀ 𝒱₀ (K (F := F)).L (K (F := F)).lev p)
    (d : Dev nD) {β : Type} (k : PUnit → Prog (TpuEff nD τ sig (Elt F) (SparseCore.Sig (ΛP (F := F)) 1) .tc) β) (Q : β → sProp 𝕄) :
    iprop(levAts (K (F := F)).L (K (F := F)).lev ∗ boundary (T d) ∗ R.pre d ∗ ghostAt p d
        ∗ (iprop(boundary (T d) ∗ R.post d) -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry p)) ()) : Prog (TpuEff nD τ sig (Elt F) (SparseCore.Sig (ΛP (F := F)) 1) .tc) PUnit) >>= k) Q := by
  rw [wp_bind]
  have h1 := Pipeline.RDat.RegionSeg.wp (pcfgs (F := F)) adm rdats (none : HIx 1) cellOf_inj (EP (F := F)) defs₀ 𝒱₀ (K (F := F)).L (K (F := F)).lev R d none
    (fun _ h => nomatch h) (fun _ => .ret ⟨⟩) (fun a => wp frame (wpE ((K (F := F)).defs (D (F := F))) 𝒱 (T d) none) Set.univ (k a) Q)
  have h2 := (K (F := F)).wp_liftProg (D (F := F)) 𝒱 (T d) Set.univ none
    (.op (.customCall (Pipeline.entry p) ()) fun _ => (.ret ⟨⟩ : Prog (TpuEff nD τ sig (Elt F) (ΛP (F := F)) .tc) PUnit))
    (fun a => wp frame (wpE ((K (F := F)).defs (D (F := F))) 𝒱 (T d) none) Set.univ (k a) Q)
  refine BIBase.Entails.trans ?_ (BIBase.Entails.trans h1 h2)
  iintro ⟨Hlev, Hb, HT, ⟨Hg, Ht⟩, Hk⟩
  isplitl [Hk]
  · iintro H; rw [wp_ret]; imodintro; iapply Hk; iexact H
  iframe Hb HT Hlev Hg Ht

end Steps

end Cert.Proof.KB.Launch

end
-- ==== Proof.KBRegion0.lean ====
import proofs.«211030_g66005057405235_cont_9to1c4b_431_51_alg».proof.Proof.KBCommon
import Idealize.ShloMosaic.Lib.Pipeline.FrameBody
import Idealize.ShloMosaic.Lib.Pipeline.FrameSuffix
import Idealize.ShloMosaic.Lib.Tactic

noncomputable section

namespace Cert.Proof.KB.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (SparseCore.Cfg.HIx 1) (Elt F) ℕ Cert.Proof.KB.UU ℕ

variable (V : (c : Dev nD) → (b : Ref sig .tc) → Buf (Elt F) ((c : Thread nD τ).loc b))

-- Window w's block at point t, read off the array as found on entry.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x128 := Rect.unit (s := S1024x128) ![0, 0] S1024x128.size inb_S1024x128_S1024x128_0_0
abbrev r0_1 : Rect S128x256 := Rect.unit (s := S128x256) ![0, 0] S128x256.size inb_S128x256_S128x256_0_0
abbrev r0_2 : Rect S1x256 := Rect.unit (s := S1x256) ![0, 128] S1x128.size inb_S1x256_S1x128_0_128
-- Row r of the 8 × 128 score block.
abbrev r0_row (r : Fin 8) : Rect S8x128 := Rect.unit (s := S8x128) ![r, 0] S1x128.size fun a => match a with
  | ⟨0, _⟩ => by show r.val + 1 ≤ 8; omega
  | ⟨1, _⟩ => by show 0 + 128 ≤ 128; omega
abbrev r0_11 : Rect S1000x128 := Rect.unit (s := S1000x128) ![0, 0] S1000x128.size inb_S1000x128_S1000x128_0_0
abbrev r0_12 : Rect S128x128 := Rect.unit (s := S128x128) ![0, 0] S128x128.size inb_S128x128_S128x128_0_0
abbrev r0_13 : Rect S1x128 := Rect.unit (s := S1x128) ![0, 0] S1x128.size inb_S1x128_S1x128_0_0

def out0_6 (x0 : Vec F S1024x128 .f32) (x1 : Vec F S1x256 .f32) (x2 : Vec F S128x128 .f32) (x3 : Vec F S1x128 .f32) (x4 : Vec F S128x256 .f32) (x5 : Vec F S1x128 .f32) : Vec F S8x128 .f32 :=
  View.canon [⟨r0_row 7, k0_pay13 (View.ld x0 r0_0) (View.ld x1 r0_2)⟩,
    ⟨r0_row 6, k0_pay12 (View.ld x0 r0_0) (View.ld x1 r0_2)⟩,
    ⟨r0_row 5, k0_pay11 (View.ld x0 r0_0) (View.ld x1 r0_2)⟩,
    ⟨r0_row 4, k0_pay10 (View.ld x0 r0_0) (View.ld x1 r0_2)⟩,
    ⟨r0_row 3, k0_pay9 (View.ld x0 r0_0) (View.ld x1 r0_2)⟩,
    ⟨r0_row 2, k0_pay8 (View.ld x0 r0_0) (View.ld x1 r0_2)⟩,
    ⟨r0_row 1, k0_pay7 (View.ld x0 r0_0) (View.ld x1 r0_2)⟩,
    ⟨r0_row 0, k0_pay6 (View.ld x0 r0_0) (View.ld x1 r0_2)⟩]
-- The eight rows tile the block, so together they cover it.
theorem cover0_6 (p0 p1 p2 p3 p4 p5 p6 p7 : Vec F S1x128 .f32) (y : S8x128.Idx) :
    ∃ pc ∈ ([⟨r0_row 7, p0⟩, ⟨r0_row 6, p1⟩, ⟨r0_row 5, p2⟩, ⟨r0_row 4, p3⟩, ⟨r0_row 3, p4⟩, ⟨r0_row 2, p5⟩, ⟨r0_row 1, p6⟩, ⟨r0_row 0, p7⟩] : List (View.Piece (Elt F) S8x128 .f32)), y ∈ pc.1.set :=
  View.cover_of_tiled (s := S8x128) _ S1x128.size (by rfl) y
def out0_7 (x0 : Vec F S1024x128 .f32) (x1 : Vec F S1x256 .f32) (x2 : Vec F S128x128 .f32) (x3 : Vec F S1x128 .f32) (x4 : Vec F S128x256 .f32) (x5 : Vec F S1x128 .f32) : Vec F S1000x128 .f32 :=
  View.canon [⟨r0_11, k0_pay14 (View.ld x0 r0_0) (View.ld x4 r0_1)⟩]
theorem cover0_7 (p0 : Vec F S1000x128 .f32) (y : S1000x128.Idx) :
    ∃ pc ∈ ([⟨r0_11, p0⟩] : List (View.Piece (Elt F) S1000x128 .f32)), y ∈ pc.1.set :=
  View.cover_of_tiled _ S1000x128.size (by rfl) y
def out0_8 (x0 : Vec F S1024x128 .f32) (x1 : Vec F S1x256 .f32) (x2 : Vec F S128x128 .f32) (x3 : Vec F S1x128 .f32) (x4 : Vec F S128x256 .f32) (x5 : Vec F S1x128 .f32) : Vec F S128x128 .f32 :=
  View.canon [⟨r0_12, k0_pay1 (k0_pay4 (View.ld x4 r0_1)) (View.ld x2 r0_12)⟩]
theorem cover0_8 (p0 : Vec F S128x128 .f32) (y : S128x128.Idx) :
    ∃ pc ∈ ([⟨r0_12, p0⟩] : List (View.Piece (Elt F) S128x128 .f32)), y ∈ pc.1.set :=
  View.cover_of_tiled _ S128x128.size (by rfl) y
def out0_9 (x0 : Vec F S1024x128 .f32) (x1 : Vec F S1x256 .f32) (x2 : Vec F S128x128 .f32) (x3 : Vec F S1x128 .f32) (x4 : Vec F S128x256 .f32) (x5 : Vec F S1x128 .f32) : Vec F S1x128 .f32 :=
  View.canon [⟨r0_13, k0_pay2 (k0_pay4 (View.ld x4 r0_1)) (View.ld x3 r0_13) (View.ld x5 r0_13)⟩]
theorem cover0_9 (p0 : Vec F S1x128 .f32) (y : S1x128.Idx) :
    ∃ pc ∈ ([⟨r0_13, p0⟩] : List (View.Piece (Elt F) S1x128 .f32)), y ∈ pc.1.set :=
  View.cover_of_tiled _ S1x128.size (by rfl) y

def ΦA0 (c : Dev nD) : sProp 𝕄 :=
  iprop(Pipeline.scopedRest (Ix := SparseCore.Cfg.HIx 1) (Name := ℕ) (U := Cert.Proof.KB.UU) (Lvl := ℕ) (Val := Elt F) spec0 c ∗ ∃ r, prngReg c r)

-- The proof data: the arrays as found on entry; after the body each input at its block and each output at the canonical contents of its stores over the input blocks.
def dat0 (c : Dev nD) : Dat τ (Elt F) (SparseCore.Cfg.HIx 1) ℕ Cert.Proof.KB.UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := ΦA0 c
  q _ := fullShare
  owed _ := (Cert.Proof.KB.K (F := F)).Otc c 0
  recorded _ := {p | p.2 = none}

-- An input is whole, uncut and never idle, and the body leaves its block in place: at every point it holds that block.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

-- With each input at its block, running the body leaves each output at the canonical contents of its stores; the invariant and what is owed pass through unchanged.
theorem body_obligation0 (c : Dev nD) (ι : SparseCore.Cfg.HIx 1) :
    Pipeline.BodyObligation (dat0 (F := F) V c) (defs₀ (F := F)) Variants.none ι Set.univ := fun t => by
  show iprop((dat0 V c).Φ t.castSucc ∗ (dat0 V c).owesAt ι t.castSucc
      ∗ bigSep Finset.univ fun w : Fin cfg0.W => iprop(∃ d, owns (c : Thread nD τ) ((cfg0.win w).stage (cfg0.slots t w)) fullShare ((dat0 V c).before w t d)))
    ⊢ wp frame (wpE (defs₀ (F := F)) Variants.none c none) Set.univ (bodyAt0 t) fun _ =>
      iprop((dat0 V c).Φ t.succ ∗ (dat0 V c).owesAt ι t.castSucc
        ∗ bigSep Finset.univ fun w : Fin cfg0.W => owns (c : Thread nD τ) ((cfg0.win w).stage (cfg0.slots t w)) fullShare ((dat0 V c).after w t))
  rw [bigSep_W0, bigSep_W0]
  simp only [before0_0, before0_1, before0_2, before0_3, before0_4, before0_5]
  dsimp only [dat0]
  generalize iblk0 V c 0 t = x0, iblk0 V c 1 t = x1, iblk0 V c 2 t = x2, iblk0 V c 3 t = x3, iblk0 V c 4 t = x4, iblk0 V c 5 t = x5
  unfold bodyAt0
  simp only [cc0__prep_body_eq_skeleton]; unfold cc0__prep_body_skel
  simp only [k0_part1_eq_skeleton]; unfold k0_part1_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, -, H6⟩, ⟨%d7, %f7, -, H7⟩, ⟨%d8, %f8, -, H8⟩, ⟨%d9, %f9, -, H9⟩⟩
  subst hf0 hf1 hf2 hf3 hf4 hf5
  sl_exec
  sl_step
  iframe HΦ Ho
  isplitl [H0]; rotate_left
  isplitl [H1]; rotate_left
  isplitl [H2]; rotate_left
  isplitl [H3]; rotate_left
  isplitl [H4]; rotate_left
  isplitl [H5]; rotate_left
  isplitl [H6]; rotate_left
  isplitl [H7]; rotate_left
  isplitl [H8]; rotate_left
  all_goals
    iexists _; isplitr; swap; · iassumption
    ipureintro
    first
      | exact View.read_writes_eq_canon _ _ _ (by first | exact cover0_6 _ _ _ _ _ _ _ _ | exact cover0_7 _ | exact cover0_8 _ | exact cover0_9 _)
      | rfl

end Cert.Proof.KB.R0

end
-- ==== Proof.KBRegion1.lean ====
import proofs.«211030_g66005057405235_cont_9to1c4b_431_51_alg».proof.Proof.KBCommon
import Idealize.ShloMosaic.Lib.Pipeline.FrameBody
import Idealize.ShloMosaic.Lib.Pipeline.FrameSuffix
import Idealize.ShloMosaic.Lib.Tactic

set_option maxRecDepth 16384

noncomputable section

namespace Cert.Proof.KB.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (SparseCore.Cfg.HIx 1) (Elt F) ℕ Cert.Proof.KB.UU ℕ

abbrev cond1_0 (i : grid2.Coords) : Prop := (Scalar.cmpi .ne (Scalar.extui (Scalar.cmpi .eq (BitVec.ofNat 32 (i 0).val) 0#32)) 0#32) = 1#1
abbrev cond1_1 (i : grid2.Coords) : Prop := k2_cond2 i = 1#1

set_option maxHeartbeats 2000000 in
-- Whichever of the two conditionals fire, the body keeps its four inputs and leaves the two outputs and the scratch at some contents.
theorem sound_kernel1 (c : Dev nD) (E : Set ℕ) (i : grid2.Coords)
    (arg1 : Memref sig .tc .vmem S4096x128 .f32) (harg1 : arg1.IsWhole) (arg2 : Memref sig .tc .vmem S1x1x4096 .i32) (harg2 : arg2.IsWhole)
    (arg3 : Memref sig .tc .vmem S8x128 .f32) (harg3 : arg3.IsWhole) (arg4 : Memref sig .tc .vmem S1x256 .f32) (harg4 : arg4.IsWhole)
    (arg5 : Memref sig .tc .vmem S1x4096 .f32) (harg5 : arg5.IsWhole) (arg6 : Memref sig .tc .smem S2 .f32) (harg6 : arg6.IsWhole)
    (arg7 : Memref sig .tc .smem S2 .f32) (harg7 : arg7.IsWhole)
    (x0 : Vec F S4096x128 .f32) (x1 : Vec F S1x1x4096 .i32) (x2 : Vec F S8x128 .f32) (x3 : Vec F S1x256 .f32) (Q : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ (∃ d, owns (c : Thread nD τ) arg5 fullShare d) ∗ (∃ d, owns (c : Thread nD τ) arg6 fullShare d)
            ∗ (∃ d, owns (c : Thread nD τ) arg7 fullShare d)) -∗ Q ⟨⟩))
      ⊢ wp frame (wpE (defs₀ (F := F)) Variants.none c none) E (cc2__pass1_body i arg1 harg1 arg2 harg2 arg3 harg3 arg4 harg4 arg5 harg5 arg6 harg6 arg7 harg7) Q := by
  simp only [cc2__pass1_body_eq_skeleton]; unfold cc2__pass1_body_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d7, %f7, -, H7⟩, Hk⟩
  subst hf0 hf1 hf2 hf3
  by_cases hc0 : cond1_0 i <;> by_cases hc1 : cond1_1 i <;>
  · sl_exec (disch := first | exact hc0 | exact hc1)
    sl_step
    iapply Hk
    isplitl [H0]; swap; isplitl [H1]; swap; isplitl [H2]; swap; isplitl [H3]; swap; isplitl [H4]; swap; isplitl [H5]; swap
    all_goals (repeat iexists _); isplitr; swap; iassumption; ipureintro; rfl

section Region

variable (V : (c : Dev nD) → (b : Ref sig .tc) → Buf (Elt F) ((c : Thread nD τ).loc b))

-- The part of window w's array under its block at point t, at the contents the region is entered with.
def iblk1 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def fill0 : Vec F S4096x128 .f32 := fun _ => Scalar.ofBits .f32 0x00000000#32

-- The features block completed by zeros past the array's end; only its part inside the array is ever stated.
def full1_0 (c : Dev nD) (t : Fin cfg2.N) : Vec F S4096x128 .f32 :=
  win2_0.fill (grid2.coords t) fill0 (iblk1 V c 0 t)

abbrev scM : Memref sig .tc .smem S2 .f32 := Memref.whole cc2_scratch0

def restBut (c : Dev nD) : sProp 𝕄 :=
  Pipeline.scopedRestBut (Ix := SparseCore.Cfg.HIx 1) (Name := ℕ) (U := Cert.Proof.KB.UU) (Lvl := ℕ) (Val := Elt F) spec2 c [cc2_scratch0]

def ΦA1 (c : Dev nD) : sProp 𝕄 :=
  iprop(Pipeline.scopedRest (Ix := SparseCore.Cfg.HIx 1) (Name := ℕ) (U := Cert.Proof.KB.UU) (Lvl := ℕ) (Val := Elt F) spec2 c ∗ ∃ r, prngReg c r)

def forgets1 : Fin cfg2.W → Bool := fun w => w.val == 4 || w.val == 5

-- The proof data: each input window keeps its block, the two outputs are unnamed, the invariant is the same at every point.
def dat1 (c : Dev nD) : Dat τ (Elt F) (SparseCore.Cfg.HIx 1) ℕ Cert.Proof.KB.UU ℕ cfg2 c where
  A w := V c (Pipeline.arrRef spec2 w)
  after w t := match w with
    | ⟨0, _⟩ => full1_0 V c t
    | ⟨1, _⟩ => iblk1 V c 1 t
    | ⟨2, _⟩ => iblk1 V c 2 t
    | ⟨3, _⟩ => iblk1 V c 3 t
    | ⟨4, h⟩ => Pipeline.Dat.unnamed (cfg := cfg2) ⟨4, h⟩ t
    | ⟨5, h⟩ => Pipeline.Dat.unnamed (cfg := cfg2) ⟨5, h⟩ t
  Φ _ := ΦA1 c
  q _ := fullShare
  owed _ := 0

-- The scratch is one of the scoped buffers, so the invariant splits it off.
theorem Phi1_eq (c : Dev nD) (k : Fin (cfg2.N + 1)) :
    (dat1 V c).Φ k = iprop(((∃ d, owns (c : Thread nD τ) scM fullShare d) ∗ restBut (F := F) c) ∗ ∃ r, prngReg c r) := by
  show ΦA1 (F := F) c = _
  unfold ΦA1 restBut
  rw [Pipeline.scopedRest_split_of_list spec2 c [cc2_scratch0] (by decide) (by decide)]
  simp only [bigSepL_singleton, scM, owns_whole]
  try rfl

theorem before1_0 (c : Dev nD) (t : Fin cfg2.N) (d) : (dat1 V c).before 0 t d = win2_0.fill (grid2.coords t) d (iblk1 V c 0 t) :=
  (Dat.before_fetched _ 0 t (fetch2_0 t) d).trans rfl
theorem before1_1 (c : Dev nD) (t : Fin cfg2.N) (d) : (dat1 V c).before 1 t d = iblk1 V c 1 t :=
  (Dat.before_fetched _ 1 t (fetch2_1 t) d).trans rfl

theorem before1_2 (c : Dev nD) (t : Fin cfg2.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg2.N) (d) : (dat1 V c).before 3 t d = iblk1 V c 3 t :=
  ((dat1 V c).before_in_eq_fetched 3 rfl (fun _ => rfl) (fun _ _ _ => rfl) (fun _ => rfl) t d).trans rfl

def bodyPre1 (c : Dev nD) (ι : SparseCore.Cfg.HIx 1) (t : Fin cfg2.N) : sProp 𝕄 :=
  iprop((dat1 V c).Φ t.castSucc ∗ (dat1 V c).owesAt ι t.castSucc
    ∗ (∃ d, owns (c : Thread nD τ) (st2_0 t) fullShare ((dat1 V c).before 0 t d))
    ∗ (∃ d, owns (c : Thread nD τ) (st2_1 t) fullShare ((dat1 V c).before 1 t d))
    ∗ (∃ d, owns (c : Thread nD τ) (st2_2 t) fullShare ((dat1 V c).before 2 t d))
    ∗ (∃ d, owns (c : Thread nD τ) (st2_3 t) fullShare ((dat1 V c).before 3 t d))
    ∗ (∃ X, owns (c : Thread nD τ) (st2_4 t) fullShare X)
    ∗ (∃ X, owns (c : Thread nD τ) (st2_5 t) fullShare X))

def bodyPost1 (c : Dev nD) (ι : SparseCore.Cfg.HIx 1) (t : Fin cfg2.N) : sProp 𝕄 :=
  iprop((dat1 V c).Φ t.succ ∗ (dat1 V c).owesAt ι t.succ
    ∗ (∃ d, owns (c : Thread nD τ) (st2_0 t) fullShare
        ((cfg2.win 0).fill (cfg2.grid.coords t) d ((cfg2.win 0).cut (cfg2.grid.coords t) ((dat1 V c).after 0 t))))
    ∗ owns (c : Thread nD τ) (st2_1 t) fullShare ((dat1 V c).after 1 t)
    ∗ owns (c : Thread nD τ) (st2_2 t) fullShare ((dat1 V c).after 2 t)
    ∗ owns (c : Thread nD τ) (st2_3 t) fullShare ((dat1 V c).after 3 t)
    ∗ (∃ X, owns (c : Thread nD τ) (st2_4 t) fullShare X)
    ∗ (∃ X, owns (c : Thread nD τ) (st2_5 t) fullShare X))

-- The invariant lends the body the scratch; the inputs hold their blocks, so the body's triple applies and returns them as they were.
theorem sound_body1 (c : Dev nD) (ι : SparseCore.Cfg.HIx 1) (t : Fin cfg2.N) :
    bodyPre1 V c ι t ⊢ wp frame (wpE (defs₀ (F := F)) Variants.none c none) Set.univ (bodyAt2 t) (fun _ => bodyPost1 V c ι t) := by
  unfold bodyPre1 bodyPost1 bodyAt2
  simp only [before1_0, before1_1, before1_2, before1_3]
  rw [show (dat1 V c).owesAt ι t.succ = (dat1 V c).owesAt ι t.castSucc from rfl, Phi1_eq, Phi1_eq]
  iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
  iapply (sound_kernel1 c Set.univ (grid2.coords t) _ _ _ _ _ _ _ _ _ _ _ _ _ _
    (win2_0.fill (grid2.coords t) d0 (iblk1 V c 0 t)) (iblk1 V c 1 t) (iblk1 V c 2 t) (iblk1 V c 3 t) _)
  iframe H0 H1 H2 H3
  isplitl [H4]; · iexists _; iexact H4
  isplitl [H5]; · iexists _; iexact H5
  isplitl [HS]; · iexists _; iexact HS
  iintro ⟨H0, H1, H2, H3, ⟨%e4, H4⟩, ⟨%e5, H5⟩, ⟨%es, HS⟩⟩
  iframe HR Hg Ho
  isplitl [HS]; · iexists _; iexact HS
  isplitl [H0]
  · iexists d0
    rw [show (cfg2.win 0).cut (cfg2.grid.coords t) ((dat1 V c).after 0 t) = iblk1 V c 0 t from win2_0.cut_fill _ _ _]
    iexact H0
  isplitl [H1]; · iexact H1
  isplitl [H2]; · iexact H2
  isplitl [H3]; · iexact H3
  isplitl [H4]; · iexists _; iexact H4
  iexists _; iexact H5

theorem body_obligation1 (c : Dev nD) (ι : SparseCore.Cfg.HIx 1) :
    Pipeline.BodyObligationLoose (dat1 (F := F) V c) (defs₀ (F := F)) Variants.none ι Set.univ forgets1 := fun t => by
  rw [bigSep_W2, bigSep_W2]
  exact sound_body1 V c ι t

end Region

end Cert.Proof.KB.R1

end
-- ==== Proof.KBRegion2.lean ====
import proofs.«211030_g66005057405235_cont_9to1c4b_431_51_alg».proof.Proof.KBCommon
import Idealize.ShloMosaic.Lib.Pipeline.FrameBody
import Idealize.ShloMosaic.Lib.Pipeline.FrameSuffix
import Idealize.ShloMosaic.Lib.Tactic

set_option maxRecDepth 16384

noncomputable section

namespace Cert.Proof.KB.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig (SparseCore.Cfg.HIx 1) (Elt F) ℕ Cert.Proof.KB.UU ℕ

section Regions
variable (V : (c : Dev nD) → (b : Ref sig .tc) → Buf (Elt F) ((c : Thread nD τ).loc b))

-- The part of window w's array under its block at point t, at the contents the region is entered with.
def iblk2 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

set_option maxHeartbeats 4000000 in
-- The body keeps its eight inputs and leaves the output at some contents.
theorem sound_kernel2 (c : Dev nD) (E : Set ℕ) (i : grid3.Coords)
    (arg1 : Memref sig .tc .vmem S4096x128 .f32) (harg1 : arg1.IsWhole) (arg2 : Memref sig .tc .vmem S4096x128 .f32) (harg2 : arg2.IsWhole)
    (arg3 : Memref sig .tc .vmem S1x4096 .f32) (harg3 : arg3.IsWhole) (arg4 : Memref sig .tc .smem S2 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S1000x128 .f32) (harg7 : arg7.IsWhole) (arg8 : Memref sig .tc .vmem S1000x1 .f32) (harg8 : arg8.IsWhole)
    (arg9 : Memref sig .tc .vmem S1000x4096 .f32) (harg9 : arg9.IsWhole)
    (x0 x1 : Vec F S4096x128 .f32) (x2 : Vec F S1x4096 .f32) (x3 : Vec F S2 .f32) (x4 : Vec F S128x128 .f32)
    (x5 : Vec F S1x128 .f32) (x6 : Vec F S1000x128 .f32) (x7 : Vec F S1000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ (∃ d, owns (c : Thread nD τ) arg9 fullShare d)) -∗ K ⟨⟩))
      ⊢ wp frame (wpE (defs₀ (F := F)) Variants.none c none) E
          (cc3__pass2_body i arg1 harg1 arg2 harg2 arg3 harg3 arg4 harg4 arg5 harg5 arg6 harg6 arg7 harg7 arg8 harg8 arg9 harg9) K := by
  simp only [cc3__pass2_body_eq_skeleton]; unfold cc3__pass2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]; swap; isplitl [H1]; swap; isplitl [H2]; swap; isplitl [H3]; swap; isplitl [H4]; swap; isplitl [H5]; swap; isplitl [H6]; swap; isplitl [H7]; swap
  all_goals (repeat iexists _); isplitr; swap; iassumption; ipureintro; rfl

def ΦA2 (c : Dev nD) : sProp 𝕄 :=
  iprop(Pipeline.scopedRest (Ix := SparseCore.Cfg.HIx 1) (Name := ℕ) (U := Cert.Proof.KB.UU) (Lvl := ℕ) (Val := Elt F) spec3 c
    ∗ ∃ r, prngReg c r)

abbrev fillWord : Elt F .f32 := Scalar.ofBits .f32 0#32

-- A cut block completed by zeros past the array's edge; only its part inside the array is ever stated.
def full2_0 (c : Dev nD) (t : Fin cfg3.N) : Vec F S4096x128 .f32 :=
  win3_0.fill (grid3.coords t) (fun _ => fillWord) (iblk2 V c 0 t)
def full2_1 (c : Dev nD) (t : Fin cfg3.N) : Vec F S4096x128 .f32 :=
  win3_1.fill (grid3.coords t) (fun _ => fillWord) (iblk2 V c 1 t)

def forgets2 : Fin cfg3.W → Bool := fun w => w.val == 8

-- The proof data: each input window keeps its block, the output is unnamed, the invariant is the same at every point.
def dat2 (c : Dev nD) : Dat τ (Elt F) (SparseCore.Cfg.HIx 1) ℕ Cert.Proof.KB.UU ℕ cfg3 c where
  A w := V c (Pipeline.arrRef spec3 w)
  after w t := match w with
    | ⟨0, _⟩ => full2_0 V c t
    | ⟨1, _⟩ => full2_1 V c t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, h⟩ => Pipeline.Dat.unnamed (cfg := cfg3) ⟨8, h⟩ t
  Φ _ := ΦA2 c
  q _ := fullShare
  owed _ := 0

theorem before2_0 (c : Dev nD) (t : Fin cfg3.N) (d) :
    (dat2 V c).before 0 t d = win3_0.fill (grid3.coords t) d (iblk2 V c 0 t) :=
  (Dat.before_fetched _ 0 t (fetch3_0 t) d).trans rfl
theorem before2_1 (c : Dev nD) (t : Fin cfg3.N) (d) :
    (dat2 V c).before 1 t d = win3_1.fill (grid3.coords t) d (iblk2 V c 1 t) :=
  (Dat.before_fetched _ 1 t (fetch3_1 t) d).trans rfl
theorem before2_2 (c : Dev nD) (t : Fin cfg3.N) (d) : (dat2 V c).before 2 t d = iblk2 V c 2 t :=
  (Dat.before_fetched _ 2 t (fetch3_2 t) d).trans rfl

theorem before2_3 (c : Dev nD) (t : Fin cfg3.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg3.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg3.N) (d) : (dat2 V c).before 5 t d = iblk2 V c 5 t :=
  ((dat2 V c).before_in_eq_fetched 5 rfl (fun _ => rfl) (fun _ _ _ => rfl) (fun _ => rfl) t d).trans rfl
theorem before2_6 (c : Dev nD) (t : Fin cfg3.N) (d) : (dat2 V c).before 6 t d = iblk2 V c 6 t :=
  ((dat2 V c).before_in_eq_fetched 6 rfl (fun _ => rfl) (fun _ _ _ => rfl) (fun _ => rfl) t d).trans rfl
theorem before2_7 (c : Dev nD) (t : Fin cfg3.N) (d) : (dat2 V c).before 7 t d = iblk2 V c 7 t :=
  ((dat2 V c).before_in_eq_fetched 7 rfl (fun _ => rfl) (fun _ _ _ => rfl) (fun _ => rfl) t d).trans rfl

def bodyPre2 (c : Dev nD) (ι : SparseCore.Cfg.HIx 1) (t : Fin cfg3.N) : sProp 𝕄 :=
  iprop((dat2 V c).Φ t.castSucc ∗ (dat2 V c).owesAt ι t.castSucc
    ∗ (∃ d, owns (c : Thread nD τ) (st3_0 t) fullShare ((dat2 V c).before 0 t d))
    ∗ (∃ d, owns (c : Thread nD τ) (st3_1 t) fullShare ((dat2 V c).before 1 t d))
    ∗ (∃ d, owns (c : Thread nD τ) (st3_2 t) fullShare ((dat2 V c).before 2 t d))
    ∗ (∃ d, owns (c : Thread nD τ) (st3_3 t) fullShare ((dat2 V c).before 3 t d))
    ∗ (∃ d, owns (c : Thread nD τ) (st3_4 t) fullShare ((dat2 V c).before 4 t d))
    ∗ (∃ d, owns (c : Thread nD τ) (st3_5 t) fullShare ((dat2 V c).before 5 t d))
    ∗ (∃ d, owns (c : Thread nD τ) (st3_6 t) fullShare ((dat2 V c).before 6 t d))
    ∗ (∃ d, owns (c : Thread nD τ) (st3_7 t) fullShare ((dat2 V c).before 7 t d))
    ∗ (∃ d, owns (c : Thread nD τ) (st3_8 t) fullShare d))

def bodyPost2 (c : Dev nD) (ι : SparseCore.Cfg.HIx 1) (t : Fin cfg3.N) : sProp 𝕄 :=
  iprop((dat2 V c).Φ t.succ ∗ (dat2 V c).owesAt ι t.succ
    ∗ (∃ d, owns (c : Thread nD τ) (st3_0 t) fullShare
        ((cfg3.win 0).fill (cfg3.grid.coords t) d ((cfg3.win 0).cut (cfg3.grid.coords t) ((dat2 V c).after 0 t))))
    ∗ (∃ d, owns (c : Thread nD τ) (st3_1 t) fullShare
        ((cfg3.win 1).fill (cfg3.grid.coords t) d ((cfg3.win 1).cut (cfg3.grid.coords t) ((dat2 V c).after 1 t))))
    ∗ owns (c : Thread nD τ) (st3_2 t) fullShare ((dat2 V c).after 2 t)
    ∗ owns (c : Thread nD τ) (st3_3 t) fullShare ((dat2 V c).after 3 t)
    ∗ owns (c : Thread nD τ) (st3_4 t) fullShare ((dat2 V c).after 4 t)
    ∗ owns (c : Thread nD τ) (st3_5 t) fullShare ((dat2 V c).after 5 t)
    ∗ owns (c : Thread nD τ) (st3_6 t) fullShare ((dat2 V c).after 6 t)
    ∗ owns (c : Thread nD τ) (st3_7 t) fullShare ((dat2 V c).after 7 t)
    ∗ (∃ d, owns (c : Thread nD τ) (st3_8 t) fullShare d))

-- The inputs hold their blocks, so the body's triple applies and returns them as they were; the invariant passes through.
theorem sound_body2 (c : Dev nD) (ι : SparseCore.Cfg.HIx 1) (t : Fin cfg3.N) :
    bodyPre2 V c ι t ⊢ wp frame (wpE (defs₀ (F := F)) Variants.none c none) Set.univ (bodyAt3 t) (fun _ => bodyPost2 V c ι t) := by
  unfold bodyPre2 bodyPost2 bodyAt3
  simp only [before2_0, before2_1, before2_2, before2_3, before2_4, before2_5, before2_6, before2_7]
  rw [show (dat2 V c).Φ t.succ = (dat2 V c).Φ t.castSucc from rfl,
    show (dat2 V c).owesAt ι t.succ = (dat2 V c).owesAt ι t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ (grid3.coords t) _ _ _ _ _ _ _ _ _ _ _ _ _ _ _ _ _ _
    (win3_0.fill (grid3.coords t) d0 (iblk2 V c 0 t)) (win3_1.fill (grid3.coords t) d1 (iblk2 V c 1 t))
    (iblk2 V c 2 t) (iblk2 V c 3 t) (iblk2 V c 4 t) (iblk2 V c 5 t) (iblk2 V c 6 t) (iblk2 V c 7 t) _)
  iframe H0 H1 H2 H3 H4 H5 H6 H7
  isplitl [H8]; · iexists _; iexact H8
  iintro ⟨H0, H1, H2, H3, H4, H5, H6, H7, H8⟩
  iframe HΦ Ho H8
  isplitl [H0]
  · iexists d0
    rw [show (cfg3.win 0).cut (cfg3.grid.coords t) ((dat2 V c).after 0 t) = iblk2 V c 0 t from win3_0.cut_fill _ _ _]
    iexact H0
  isplitl [H1]
  · iexists d1
    rw [show (cfg3.win 1).cut (cfg3.grid.coords t) ((dat2 V c).after 1 t) = iblk2 V c 1 t from win3_1.cut_fill _ _ _]
    iexact H1
  isplitl [H2]; · iexact H2
  isplitl [H3]; · iexact H3
  isplitl [H4]; · iexact H4
  isplitl [H5]; · iexact H5
  isplitl [H6]; · iexact H6
  iexact H7

theorem body_obligation2 (c : Dev nD) (ι : SparseCore.Cfg.HIx 1) :
    Pipeline.BodyObligationLoose (dat2 (F := F) V c) (defs₀ (F := F)) Variants.none ι Set.univ forgets2 := fun t => by
  rw [bigSep_W3, bigSep_W3]
  exact sound_body2 V c ι t

end Regions

end Cert.Proof.KB.R2

end
-- ==== Proof.KBTile.lean ====
import proofs.«211030_g66005057405235_cont_9to1c4b_431_51_alg».proof.Proof.KBCommon
import Idealize.ShloMosaic.Lib.SparseCore.Launch
import Idealize.ShloMosaic.Lib.SparseCore.Stream
import Idealize.ShloMosaic.Lib.Transfers
import Idealize.ShloMosaic.Lib.Tactic
import Idealize.ShloMosaic.Lib.ValueIdx

noncomputable section

namespace Cert.Proof.KB.Tile

open Cert.Kernel Cert.Kernel.Gen
open Cert.Proof.KB

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (SparseCore.Cfg.HIx 1) (Elt F) ℕ Cert.Proof.KB.UU ℕ

abbrev idxLoc (d : Dev nD) : Loc nD τ sig := (SparseCore.T d).loc main_v9
abbrev tabLoc (d : Dev nD) : Loc nD τ sig := (SparseCore.T d).loc main_v8_1
abbrev outLoc (d : Dev nD) : Loc nD τ sig := (SparseCore.T d).loc main_v10

def wOf (n : Fin 50176) : Fin 32 := ⟨n.val / 1568, by have := n.isLt; omega⟩
def cOf (n : Fin 50176) : Fin 14 := ⟨n.val % 1568 / 112, by have := n.isLt; omega⟩
def rOf (n : Fin 50176) : Fin 112 := ⟨n.val % 112, Nat.mod_lt _ (by norm_num)⟩

def rowOf (w : BitVec 32) : Fin 1000 := ⟨w.toNat % 1000, Nat.mod_lt _ (by norm_num)⟩

def geOf (I : (d : Dev nD) → Buf (Elt F) (idxLoc d)) (G : (d : Dev nD) → Buf (Elt F) (tabLoc d)) (d : Dev nD) : Buf (Elt F) (outLoc d) :=
  fun (j : S50176x128.Idx) =>
    (G d (ix2 (rowOf (I d (ix3 (wOf (j 0)) (cOf (j 0)) (rOf (j 0))))) (j 1)) : Elt F .f32)

abbrev iV : Memref sig .scVector .hbm S32x14x112 .i32 := Memref.whole main_v9_scv
abbrev tV : Memref sig .scVector .hbm S1000x128 .f32 := Memref.whole main_v8_1_scv
abbrev oV : Memref sig .scVector .hbm S50176x128 .f32 := Memref.whole main_v10_scv
abbrev sI : Memref sig .scVector .vmem S14x112 .i32 := Memref.whole cc1_scratch0
abbrev sA : Memref sig .scVector .vmem S112x128 .f32 := Memref.whole cc1_scratch1
abbrev sB : Memref sig .scVector .vmem S112x128 .f32 := Memref.whole cc1_scratch2

abbrev cV (L : grid1.Coords) : Fin τ.nSC := (L 0).castLE hcore1
abbrev jV (L : grid1.Coords) : Fin τ.nSub := (L 1).castLE hsub1

def coordsV (c : Fin (grid1.bound 0)) (s : Fin (grid1.bound 1)) : grid1.Coords :=
  fun | 0 => c | 1 => s | ⟨_ + 2, h⟩ => absurd h (Nat.not_lt.2 (Nat.le_add_left _ _))

abbrev iBlk (L : grid1.Coords) : Memref sig .scVector .hbm S14x112 .i32 :=
  (iV.slice (Rect.unit (s := S32x14x112) (k1_off1 L) S1x14x112.size (k1_off1_inb L)) (fun _ => rfl)).squeeze S14x112 squeezes_S1x14x112_S14x112

abbrev oChk (L : grid1.Coords) (r : Fin 14) : Memref sig .scVector .hbm S112x128 .f32 :=
  oV.slice (Rect.unit (s := S50176x128) (k1_off2 L (BitVec.ofNat 32 (112 * r.val))) S112x128.size (k1_off2_inb L r)) (fun _ => rfl)

def tokIx (L : grid1.Coords) (b : Fin 2) : Fin 64 := ⟨32 * (L 0).val + 2 * (L 1).val + b.val, by
  have h0 : (L 0).val < 2 := (L 0).isLt
  have h1 : (L 1).val < 16 := (L 1).isLt
  have := b.isLt; omega⟩
abbrev tokQ (L : grid1.Coords) (b : Fin 2) : PosShare TreeShare := Transfers.shareTok fullShare 64 (tokIx L b)

variable (I : (d : Dev nD) → Buf (Elt F) (idxLoc d)) (G : (d : Dev nD) → Buf (Elt F) (tabLoc d)) (O : (d : Dev nD) → Buf (Elt F) (outLoc d))

-- A subcore's share: its block of the index array, two read shares of the table, its 14 chunks of the result at contents fo.
def tile (d : Dev nD) (L : grid1.Coords) (fo : Buf (Elt F) (outLoc d)) : sProp 𝕄 :=
  iprop((idxLoc d ↦[(iBlk L).view.set]{fullShare} I d) ∗ (tabLoc d ↦{tokQ L 0} G d) ∗ (tabLoc d ↦{tokQ L 1} G d)
    ∗ bigSep Finset.univ fun r : Fin 14 => outLoc d ↦[(oChk L r).view.set]{fullShare} fo)
def tileGo (d : Dev nD) (L : grid1.Coords) : sProp 𝕄 := tile I G d L (O d)
def tileTd (d : Dev nD) (L : grid1.Coords) : sProp 𝕄 := tile I G d L (geOf I G d)

def tabRest (d : Dev nD) (c : ℕ) : sProp 𝕄 := if c = 0 then iprop(tabLoc d ↦{Transfers.shareDrop fullShare 64} G d) else iprop(emp)

instance tabRest_storable (d : Dev nD) (c : ℕ) : BI.Storable (upEmb : UEmb _ 𝕄) (tabRest (F := F) G d c) := by
  unfold tabRest; split <;> infer_instance
instance tileGo_storable (d : Dev nD) (L : grid1.Coords) : BI.Storable (upEmb : UEmb _ 𝕄) (tileGo (F := F) I G O d L) := by
  unfold tileGo tile; infer_instance
instance tileTd_storable (d : Dev nD) (L : grid1.Coords) : BI.Storable (upEmb : UEmb _ 𝕄) (tileTd (F := F) I G d L) := by
  unfold tileTd tile; infer_instance

def P : (K (F := F)).Pay (nD := nD) (Val := Elt F) (Name := ℕ) (U := UU) where
  st := fun q d c => match q with
    | 0 => iprop(tabRest G d c.val ∗ bigSep Finset.univ fun i : Fin ((K (F := F)).nSub 0) => tileGo I G O d (coordsV c i))
  dn := fun q d c => match q with
    | 0 => iprop(tabRest G d c.val ∗ bigSep Finset.univ fun i : Fin ((K (F := F)).nSub 0) => tileTd I G d (coordsV c i))
  go := fun q d c i => match q with | 0 => tileGo I G O d (coordsV c i)
  td := fun q d c i => match q with | 0 => tileTd I G d (coordsV c i)
  x := fun _ _ => iprop(emp)

instance P_storable : (P (F := F) I G O).IsStorable where
  st q d c := match q with
    | 0 => by
      haveI : ∀ i : Fin ((K (F := F)).nSub 0), BI.Storable (upEmb : UEmb _ 𝕄) (tileGo I G O d (coordsV c i)) :=
        fun i => tileGo_storable I G O d _
      dsimp only [P]; infer_instance
  dn q d c := match q with
    | 0 => by
      haveI : ∀ i : Fin ((K (F := F)).nSub 0), BI.Storable (upEmb : UEmb _ 𝕄) (tileTd I G d (coordsV c i)) :=
        fun i => tileTd_storable I G d _
      dsimp only [P]; infer_instance
  go q d c i := match q with | 0 => tileGo_storable I G O d _
  td q d c i := match q with | 0 => tileTd_storable I G d _

theorem P_x (q : Fin 1) (thr : Thread nD τ) : (P (F := F) I G O).x q thr = iprop(emp) := rfl
theorem P_held : (P (F := F) I G O).held = ∅ := rfl

section Value

variable (d : Dev nD) (L : grid1.Coords)

def wL (L : grid1.Coords) : Fin 32 := ⟨2 * (L 1).val + (L 0).val, by
  have h0 : (L 0).val < 2 := (L 0).isLt
  have h1 : (L 1).val < 16 := (L 1).isLt
  omega⟩

def geAt (r : Fin 14) (x : S112x128.Idx) : Elt F .f32 :=
  G d (ix2 (rowOf (I d (ix3 (wL L) r (x 0)))) (x 1))

def oAt (L : grid1.Coords) (r : Fin 14) (x : S112x128.Idx) : S50176x128.Idx := (oChk L r).view.emb x

theorem oChk_emb_row (r : Fin 14) (x : S112x128.Idx) :
    (oAt L r x 0).val = 3136 * (L 1).val + 1568 * (L 0).val + 112 * r.val + (x 0).val := by
  show (k1_off2 L (BitVec.ofNat 32 (112 * r.val))) 0 + 1 * (x 0).val = _
  rw [k1_off2_eq L r]
  simp
theorem oChk_emb_col (r : Fin 14) (x : S112x128.Idx) :
    (oAt L r x 1).val = (x 1).val := by
  show (k1_off2 L (BitVec.ofNat 32 (112 * r.val))) 1 + 1 * (x 1).val = _
  rw [k1_off2_eq L r]
  simp

theorem geOf_oChk (r : Fin 14) (x : S112x128.Idx) : geOf I G d (oAt L r x) = geAt I G d L r x := by
  have h0 := oChk_emb_row L r x
  have h1 := oChk_emb_col L r x
  have hL0 : (L 0).val < 2 := (L 0).isLt
  have hL1 : (L 1).val < 16 := (L 1).isLt
  have hx0 : (x 0).val < 112 := (x 0).isLt
  have hr : r.val < 14 := r.isLt
  unfold geOf geAt
  have ew : wOf (oAt L r x 0) = wL L := Fin.ext (by simp only [wOf, wL]; omega)
  have ec : cOf (oAt L r x 0) = r := Fin.ext (by simp only [cOf]; omega)
  have er : rOf (oAt L r x 0) = x 0 := Fin.ext (by simp only [rOf]; omega)
  have e1 : oAt L r x 1 = x 1 := Fin.ext h1
  show G d (ix2 (rowOf (I d (ix3 (wOf (oAt L r x 0)) (cOf (oAt L r x 0)) (rOf (oAt L r x 0))))) (oAt L r x 1)) = _
  rw [ew, ec, er, e1]

-- A chunk written whole with a payload that is the gathered rows entry by entry holds the gathered rows.
theorem chunk_done (r : Fin 14) (pay : S112x128.Idx → Elt F .f32) (hpay : ∀ x, geAt I G d L r x = pay x) :
    ((oChk L r).view.loc (V d (cV L) (jV L)) ↦[(oChk L r).view.set]{fullShare}
        (oChk L r).view.writes (Elt F) (O d) [⟨Rect.whole S112x128, pay⟩] : sProp 𝕄)
      = ((oChk L r).view.loc (V d (cV L) (jV L)) ↦[(oChk L r).view.set]{fullShare} geOf I G d) := by
  refine pointsTo_congr fun i hi => ?_
  obtain ⟨x, -, rfl⟩ := Finset.mem_map.mp hi
  have h1 := View.read_writes_cons_emb (oChk L r).view (O d) (Rect.whole S112x128) pay [] x
  rw [Rect.emb_whole_apply, View.read_apply] at h1
  show (oChk L r).view.writes (Elt F) (O d) [⟨Rect.whole S112x128, pay⟩] ((oChk L r).view.emb x) = geOf I G d (oAt L r x)
  rw [geOf_oChk, hpay, ← h1]
  rfl

end Value

section Payload

variable (d : Dev nD) (L : grid1.Coords)

-- Row r of the index scratch as a rank-1 view, and the scratch written whole with the subcore's block of the index array.
abbrev winV (r : Fin 14) (pr : ∀ a, (![r.val, 0] : Fin 2 → Nat) a + S1x112.size a ≤ S14x112.size a)
    (hs : ∀ a, (Rect.unit (s := S14x112) ![r.val, 0] S1x112.size pr).stride a = 1) :=
  ((sI.slice (Rect.unit (s := S14x112) ![r.val, 0] S1x112.size pr) hs).squeeze S112 squeezes_S1x112_S112).view
abbrev scr (f0 : Buf (Elt F) ((V d (cV L) (jV L)).loc cc1_scratch0)) :=
  View.write (Elt F) sI.view f0 (ReadAs.same.apply ((iBlk L).view.read (Elt F) (I d))) Finset.univ

omit [FloatOps F] in
theorem read_whole_piece (v : View sig .scVector .vmem S112x128 .f32) (f : v.ty.Contents (Elt F))
    (w : S112x128.Idx → Elt F .f32) (Lw : List (View.Piece (Elt F) S112x128 .f32)) (x : S112x128.Idx) :
    v.read (Elt F) (v.writes (Elt F) f (⟨Rect.whole S112x128, w⟩ :: Lw)) x = w x := by
  have h := View.read_writes_cons_emb v f (Rect.whole S112x128) w Lw x
  rwa [Rect.emb_whole_apply] at h

omit [FloatOps F] in
theorem tab_read (p : ∀ a, (![0, 0] : Fin 2 → Nat) a + S1000x128.size a ≤ S1000x128.size a)
    (h : ∀ a, (Rect.unit (s := S1000x128) ![0, 0] S1000x128.size p).stride a = 1) (y : S1000x128.Idx) :
    View.read (Elt F) (tV.slice (Rect.unit (s := S1000x128) ![0, 0] S1000x128.size p) h).view (G d) y = G d y := by
  rw [View.read_apply]
  have e : (tV.slice (Rect.unit (s := S1000x128) ![0, 0] S1000x128.size p) h).view.emb y = y := by
    funext a; apply Fin.ext
    show (![0, 0] : Fin 2 → Nat) a + 1 * (y a).val = (y a).val
    fin_cases a <;> simp
  rw [e]; rfl

omit [FloatOps F] in
theorem win_emb (r : Fin 14) (pr : ∀ a, (![r.val, 0] : Fin 2 → Nat) a + S1x112.size a ≤ S14x112.size a)
    (hs : ∀ a, (Rect.unit (s := S14x112) ![r.val, 0] S1x112.size pr).stride a = 1) (z : S112.Idx) :
    (winV r pr hs).emb z = (ix2 r (z 0) : S14x112.Idx) := by
  have e : Shape.reshapeEquiv squeezes_S1x112_S112.numel_eq z = (ix2 (0 : Fin 1) (z 0) : S1x112.Idx) :=
    Shape.reshapeEquiv_eq_of_rowMajor _ (by rw [Shape.rowMajor_val_two, Shape.rowMajor_val_one]; simp)
  show (Rect.unit (s := S14x112) ![r.val, 0] S1x112.size pr).emb (Shape.reshapeEquiv squeezes_S1x112_S112.numel_eq z) = _
  rw [e]
  funext a; apply Fin.ext
  match a with
  | ⟨0, _⟩ => show r.val + 1 * 0 = r.val; omega
  | ⟨1, _⟩ => show 0 + 1 * (z 0).val = (z 0).val; omega

omit [FloatOps F] in
theorem blk_emb (c : Fin 14) (z : Fin 112) :
    (iBlk L).view.emb (ix2 c z : S14x112.Idx) = (ix3 (wL L) c z : S32x14x112.Idx) := by
  have e : Shape.reshapeEquiv squeezes_S1x14x112_S14x112.numel_eq (ix2 c z : S14x112.Idx) = (ix3 (0 : Fin 1) c z : S1x14x112.Idx) :=
    Shape.reshapeEquiv_eq_of_rowMajor _ (by rw [Shape.rowMajor_val_three, Shape.rowMajor_val_two]; simp)
  show (Rect.unit (s := S32x14x112) (k1_off1 L) S1x14x112.size (k1_off1_inb L)).emb
      (Shape.reshapeEquiv squeezes_S1x14x112_S14x112.numel_eq (ix2 c z : S14x112.Idx)) = _
  rw [e]
  funext a; apply Fin.ext
  match a with
  | ⟨0, _⟩ => show (k1_off1 L) 0 + 1 * 0 = 2 * (L 1).val + (L 0).val; rw [k1_off1_eq]; simp
  | ⟨1, _⟩ => show (k1_off1 L) 1 + 1 * c.val = c.val; rw [k1_off1_eq]; simp
  | ⟨2, _⟩ => show (k1_off1 L) 2 + 1 * z.val = z.val; rw [k1_off1_eq]; simp

theorem scratch_read (r : Fin 14) (pr : ∀ a, (![r.val, 0] : Fin 2 → Nat) a + S1x112.size a ≤ S14x112.size a)
    (hs : ∀ a, (Rect.unit (s := S14x112) ![r.val, 0] S1x112.size pr).stride a = 1)
    (f0 : Buf (Elt F) ((V d (cV L) (jV L)).loc cc1_scratch0)) (z : S112.Idx) :
    View.read (Elt F) (winV r pr hs) (scr I d L f0) z = I d (ix3 (wL L) r (z 0)) := by
  rw [show scr I d L f0 = (iBlk L).view.read (Elt F) (I d) from View.write_whole_univ _ _ _, View.read_apply, View.read_apply, win_emb]
  exact Eq.trans rfl (congrArg (I d) (blk_emb L r (z 0)))

omit [FloatOps F] in
theorem rowMajor_symm_one (k : Fin S112.numel) : ((S112.rowMajor.symm k) 0).val = k.val := by
  have h := Shape.rowMajor_val_one (S112.rowMajor.symm k)
  rw [Equiv.apply_symm_apply] at h
  exact h.symm

theorem pay_value (r : Fin 14) (pr : ∀ a, (![r.val, 0] : Fin 2 → Nat) a + S1x112.size a ≤ S14x112.size a)
    (hs : ∀ a, (Rect.unit (s := S14x112) ![r.val, 0] S1x112.size pr).stride a = 1)
    (sX : Memref sig .scVector .vmem S112x128 .f32) (fX : sX.view.ty.Contents (Elt F)) (older : List (View.Piece (Elt F) S112x128 .f32))
    (p0 : ∀ a, (![0, 0] : Fin 2 → Nat) a + S1000x128.size a ≤ S1000x128.size a)
    (h0 : ∀ a, (Rect.unit (s := S1000x128) ![0, 0] S1000x128.size p0).stride a = 1)
    (f0 : Buf (Elt F) ((V d (cV L) (jV L)).loc cc1_scratch0))
    (hg : S1000x128.Gathers 0 S112x128) (hn : S112.numel = S112x128.size hg.axis')
    (hin' : ∀ z, (View.read (Elt F) (winV r pr hs) (scr I d L f0) z).toNat < S1000x128.size hg.axis)
    (x : S112x128.Idx) :
    geAt I G d L r x = ReadAs.same.apply (View.read (Elt F) sX.view (sX.view.writes (Elt F) fX
        (⟨Rect.whole S112x128, SparseCore.gatherPayload hg
            (View.read (Elt F) (tV.slice (Rect.unit (s := S1000x128) ![0, 0] S1000x128.size p0) h0).view (G d))
            (SparseCore.rows (View.read (Elt F) (winV r pr hs) (scr I d L f0)) hn hin')⟩ :: older))) x := by
  symm
  show View.read (Elt F) sX.view _ x = _
  rw [read_whole_piece]
  unfold SparseCore.gatherPayload geAt
  rw [tab_read]
  congr 1
  funext a; apply Fin.ext
  match a with
  | ⟨0, _⟩ =>
    have hz : (S112.rowMajor.symm ((x hg.axis').cast hn.symm)) 0 = x 0 := Fin.ext (rowMajor_symm_one _)
    have hr := scratch_read (F := F) I d L r pr hs f0 (S112.rowMajor.symm ((x hg.axis').cast hn.symm))
    have hlt := hin' (S112.rowMajor.symm ((x hg.axis').cast hn.symm))
    rw [hr, hz] at hlt
    show (hg.idx _ x hg.axis).val = (I d (ix3 (wL L) r (x 0))).toNat % 1000
    rw [Shape.Gathers.idx_axis hg]
    simp only [SparseCore.rows]
    rw [hr, hz, Nat.mod_eq_of_lt (show _ < 1000 from hlt)]
  | ⟨1, _⟩ => exact Shape.Gathers.idx_of_ne hg _ x 1 (by decide)

end Payload

-- A big separating conjunction over a set puts any duplicate-free list of its members first, as a chain.
theorem bigSepL_foldr {α : Type} (Φ : α → sProp 𝕄) : ∀ l : List α, bigSepL l Φ = l.foldr (fun a acc => iprop(Φ a ∗ acc)) iprop(emp)
  | [] => rfl
  | a :: l => by rw [bigSepL_cons, bigSepL_foldr Φ l]; rfl

theorem bigSep_list {α : Type} [DecidableEq α] (Φ : α → sProp 𝕄) (l : List α) (s : Finset α) (hl : l.Nodup) (hm : ∀ a ∈ l, a ∈ s) :
    bigSep s Φ = iprop((l.foldr (fun a acc => iprop(Φ a ∗ acc)) iprop(emp)) ∗ bigSep (s \ l.toFinset) Φ) := by
  rw [bigSep_sdiff_split (t := l.toFinset) fun a ha => hm a (List.mem_toFinset.mp ha), bigSep_eq_bigSepL l hl, bigSepL_foldr]
  rfl

section Tile

variable (d : Dev nD) (L : grid1.Coords)

-- The scratch holds the subcore's block of the index array, so any window of it reads words of that array, below 1000.
theorem idx_inb (fI : Buf (Elt F) (idxLoc d)) (hI : ∀ j, (fI j).toNat < 1000) :
    ∀ (off : Fin 2 → Nat) (p : ∀ a, off a + S1x112.size a ≤ S14x112.size a)
      (f0 : Buf (Elt F) ((V d (cV L) (jV L)).loc cc1_scratch0)) (x : S112.Idx),
      (((sI.slice (Rect.unit (s := S14x112) off S1x112.size p) (fun _ => rfl)).squeeze S112 squeezes_S1x112_S112).view.read (Elt F)
          (View.write (Elt F) sI.view f0 (ReadAs.same.apply ((iBlk L).view.read (Elt F) fI)) Finset.univ) x).toNat < 1000 := by
  intro off p f0 x
  rw [View.write_whole_univ, View.read_apply]
  exact hI _

def semList : List (SemLoc sig) :=
  [.dma cc1_scratch3.sem, .dma cc1_scratch4.sem, .dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem, .dma cc1_scoped14.sem]

-- The subcore's own semaphores at zero: the 17 its task uses, one by one, and the rest.
theorem ownSems0_list :
    (ownSems0 (V d (cV L) (jV L)) : sProp 𝕄) =
      iprop(((semList.map fun sm => (((V d (cV L) (jV L)), sm) : GSem nD τ sig)).foldr (fun g acc => iprop(semVal g 0 ∗ acc)) iprop(emp))
        ∗ bigSep (ownCells (V d (cV L) (jV L)) \ (semList.map fun sm => (((V d (cV L) (jV L)), sm) : GSem nD τ sig)).toFinset) fun g => semVal g 0) :=
  bigSep_list _ _ _ ((by decide : semList.Nodup).map fun a b e => (Prod.mk.inj e).2) fun g hg => by
    obtain ⟨sm, hsm, rfl⟩ := List.mem_map.mp hg
    exact mem_ownCells.mpr ⟨rfl, (by decide : ∀ sm ∈ semList, sm.isScoped .scVector = true) sm hsm⟩

def bufList : List (DevRef τ sig) := [cc1_scratch0, cc1_scratch1, cc1_scratch2].map (Proc.scVector (cV L) (jV L)).devRef

-- The subcore's own buffers: its three scratch buffers, one by one, and the rest.
theorem ownBufs_list :
    (ownBufs (V d (cV L) (jV L)) : sProp 𝕄) =
      iprop(((∃ f, sI.view.loc (V d (cV L) (jV L)) ↦{fullShare} f)
        ∗ (∃ f, sA.view.loc (V d (cV L) (jV L)) ↦{fullShare} f)
        ∗ (∃ f, sB.view.loc (V d (cV L) (jV L)) ↦{fullShare} f) ∗ emp)
        ∗ bigSep (ownRefs (τ := τ) (.scVector (cV L) (jV L)) \ (bufList L).toFinset) fun b => iprop(∃ f, ((d, b) : Loc nD τ sig) ↦{fullShare} f)) :=
  bigSep_list (F := F) (fun b : DevRef τ sig => iprop(∃ f, ((d, b) : Loc nD τ sig) ↦{fullShare} f)) (bufList L) _
    ((by decide : [cc1_scratch0, cc1_scratch1, cc1_scratch2].Nodup).map (Proc.devRef_injective _)) fun b hb => by
      simp only [bufList, List.map_cons, List.map_nil, List.mem_cons, List.not_mem_nil, or_false] at hb
      rcases hb with rfl | rfl | rfl <;> exact SparseCore.Cfg.mem_ownRefs_of_owner (p := Proc.scVector (cV L) (jV L)) rfl

theorem chunks_list (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [bigSep_univ_eq_bigSepL [0, 1, 2, 3, 4, 5, 6, 7, 8, 9, 10, 11, 12, 13] (by decide) (by decide)]; rfl

-- A subcore's share, each array addressed through the subcore's own memref of it.
theorem tile_eq (fo : Buf (Elt F) (outLoc d)) :
    tile I G d L fo = iprop(((iBlk L).view.loc (V d (cV L) (jV L)) ↦[(iBlk L).view.set]{fullShare} I d)
      ∗ (tV.view.loc (V d (cV L) (jV L)) ↦{tokQ L 0} G d)
      ∗ (tV.view.loc (V d (cV L) (jV L)) ↦{tokQ L 1} G d)
      ∗ bigSep Finset.univ fun r : Fin 14 => (oChk L r).view.loc (V d (cV L) (jV L)) ↦[(oChk L r).view.set]{fullShare} fo) := rfl

theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

theorem tile_body (hF : (K (F := F)).Facts) (hI : ∀ d j, (I d j).toNat < 1000)
    (O' : CellTallies nD τ sig (HIx 1)) (W : Waits sig (HIx 1)) (hO : ∀ g, O' g none = 0) :
    iprop(levAts (K (F := F)).L (K (F := F)).lev ∗ emp ∗ tileGo I G O d L
        ∗ scopedBufs (V d (cV L) (jV L)) ∗ scopedSems0 (V d (cV L) (jV L)) ∗ owes (V d (cV L) (jV L)) O' W)
      ⊢ wp frame (wpE (defs₀ (F := F)) 𝒱₀ (V d (cV L) (jV L)) none) Set.univ
          (cc1__sc_gather_body L iV (Memref.isWhole_whole _) tV (Memref.isWhole_whole _) oV (Memref.isWhole_whole _)
            sI (Memref.isWhole_whole _) sA (Memref.isWhole_whole _) sB (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14)
          fun _ => iprop(tileTd I G d L ∗ scopedBufs (V d (cV L) (jV L)) ∗ scopedSems0 (V d (cV L) (jV L))
            ∗ ∃ W', ⌜∀ p ∈ W', p ∈ W ∨ p.2 = none⌝ ∗ owes (V d (cV L) (jV L)) O' W') := by
  rw [SparseCore.Cfg.scopedSems0_V, ownSems0_list (F := F) d L]
  simp only [semList, List.map_cons, List.map_nil, List.foldr_cons, List.foldr_nil]
  rw [(K (F := F)).scopedBufs_V hF, ownBufs_list (F := F) d L, tileGo, tileTd, tile_eq, tile_eq, chunks_list, chunks_list,
    cc1__sc_gather_body_eq_skeleton]
  iintro ⟨#Hlv, -, ⟨Hi, Ht0, Ht1, Ho0, Ho1, Ho2, Ho3, Ho4, Ho5, Ho6, Ho7, Ho8, Ho9, Ho10, Ho11, Ho12, Ho13⟩, ⟨⟨⟨%f0, Hs0⟩, ⟨%f1, Hs1⟩, ⟨%f2, Hs2⟩, -⟩, Hbrest⟩, ⟨⟨Hsem0, Hsem1, Hsem2, Hsem3, Hsem4, Hsem5, Hsem6, Hsem7, Hsem8, Hsem9, Hsem10, Hsem11, Hsem12, Hsem13, Hsem14, Hsem15, Hsem16, -⟩, Hsrest⟩, HO⟩
  have hin := idx_inb (F := F) d L (I d) (hI d)
  ihave Hmw := ((K (F := F)).mayWaits_none (thr := V d (cV L) (jV L)) hO) $$ Hlv
  sl_exec
  sl_step
  have cd := fun r pay h => Entails.of_eq (chunk_done (F := F) I G O d L r pay h)
  ihave Ho0 := (cd 0 _ ?_) $$ Ho0; swap
  ihave Ho1 := (cd 1 _ ?_) $$ Ho1; swap
  ihave Ho2 := (cd 2 _ ?_) $$ Ho2; swap
  ihave Ho3 := (cd 3 _ ?_) $$ Ho3; swap
  ihave Ho4 := (cd 4 _ ?_) $$ Ho4; swap
  ihave Ho5 := (cd 5 _ ?_) $$ Ho5; swap
  ihave Ho6 := (cd 6 _ ?_) $$ Ho6; swap
  ihave Ho7 := (cd 7 _ ?_) $$ Ho7; swap
  ihave Ho8 := (cd 8 _ ?_) $$ Ho8; swap
  ihave Ho9 := (cd 9 _ ?_) $$ Ho9; swap
  ihave Ho10 := (cd 10 _ ?_) $$ Ho10; swap
  ihave Ho11 := (cd 11 _ ?_) $$ Ho11; swap
  ihave Ho12 := (cd 12 _ ?_) $$ Ho12; swap
  ihave Ho13 := (cd 13 _ ?_) $$ Ho13; swap
  iframe Hi Ht0 Ht1 Ho0 Ho1 Ho2 Ho3 Ho4 Ho5 Ho6 Ho7 Ho8 Ho9 Ho10 Ho11 Ho12 Ho13 Hbrest Hsrest
  isplitl [Hs0 Hs1 Hs2]
  · isplitl [Hs0]; · iexists _; iexact Hs0
    isplitl [Hs1]; · iexists _; iexact Hs1
    isplitl [Hs2]; · iexists _; iexact Hs2
    iempintro
  isplitl [Hsem0 Hsem1 Hsem2 Hsem3 Hsem4 Hsem5 Hsem6 Hsem7 Hsem8 Hsem9 Hsem10 Hsem11 Hsem12 Hsem13 Hsem14 Hsem15 Hsem16]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    isplitl [Hsem8]; · iexact Hsem8
    isplitl [Hsem9]; · iexact Hsem9
    isplitl [Hsem10]; · iexact Hsem10
    isplitl [Hsem11]; · iexact Hsem11
    isplitl [Hsem12]; · iexact Hsem12
    isplitl [Hsem13]; · iexact Hsem13
    isplitl [Hsem14]; · iexact Hsem14
    isplitl [Hsem15]; · iexact Hsem15
    isplitl [Hsem16]; · iexact Hsem16
    iempintro
  iexists _; isplitr
  swap; · iexact HO
  ipureintro
  repeat refine waits_insert ?_
  exact fun _ hp => Or.inl hp
  all_goals exact fun x => pay_value (F := F) I G d L _ _ _ _ _ _ _ _ _ _ _ _ x

end Tile

theorem defs₀_vector (c : Fin τ.nSC) (s : Fin τ.nSub) :
    defs₀ (F := F) (.scVector c s) 1 ()
      = SparseCore.onTile hcore1 hsub1 (fun c s => cc1__sc_gather_body (coordsV c s)
          iV (Memref.isWhole_whole _) tV (Memref.isWhole_whole _) oV (Memref.isWhole_whole _)
            sI (Memref.isWhole_whole _) sA (Memref.isWhole_whole _) sB (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14) ⟨⟩ c s := rfl

omit [FloatOps F] in
theorem obl_post {thr : Thread nD τ} {A B C : sProp 𝕄} {O' : CellTallies nD τ sig (HIx 1)} {W : Waits sig (HIx 1)} {q : Fin 1} :
    iprop(A ∗ B ∗ C ∗ ∃ W', ⌜∀ p ∈ W', p ∈ W ∨ p.2 = none⌝ ∗ owes thr O' W')
      ⊢ iprop(A ∗ B ∗ C ∗ ∃ W', ⌜∀ p ∈ W', p ∈ W ∨ p.2 = none ∨ p.2 = some q⌝ ∗ owes thr O' W') := by
  iintro ⟨HA, HB, HC, %W', %hW', HO⟩
  iframe HA HB HC
  iexists W'; isplitr
  · ipureintro; exact fun p hp => (hW' p hp).imp_right Or.inl
  · iexact HO

theorem tileObl (hF : (K (F := F)).Facts) (hI : ∀ d j, (I d j).toNat < 1000) :
    (K (F := F)).TileObl (D (F := F)) 𝒱 (P I G O) v₀ 0 := by
  intro d c i O' W hO _ _
  simp only [show (P I G O).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body I G O d (coordsV ⟨_, hc.1⟩ ⟨_, hc.2⟩) hF hI O' W hO).trans (wp_mono frame _ _ fun _ => obl_post)

namespace Split

-- Subcore 2 i + c, chunk 14 (2 i + c) + r and read share 32 c + 2 i + b, as mixed-radix digits.
def e32 : Fin 2 × Fin 16 ≃ Fin 32 := (Equiv.prodComm _ _).trans finProdFinEquiv
def e448 : Fin 2 × (Fin 16 × Fin 14) ≃ Fin 448 := (Equiv.prodAssoc _ _ _).symm.trans ((e32.prodCongr (Equiv.refl _)).trans finProdFinEquiv)
def e64 : Fin 2 × (Fin 16 × Fin 2) ≃ Fin 64 := ((Equiv.refl _).prodCongr finProdFinEquiv).trans finProdFinEquiv
theorem e32_val (c : Fin 2) (i : Fin 16) : (e32 (c, i)).val = c.val + 2 * i.val := rfl
theorem e448_val (c : Fin 2) (i : Fin 16) (r : Fin 14) : (e448 (c, i, r)).val = r.val + 14 * (c.val + 2 * i.val) := rfl
theorem e64_val (c : Fin 2) (i : Fin 16) (b : Fin 2) : (e64 (c, i, b)).val = b.val + 2 * i.val + 32 * c.val := rfl

theorem off1_eq : ∀ (c : Fin 2) (i : Fin 16), k1_off1 (coordsV c i) = ![2 * i.val + c.val, 0, 0] := by decide +kernel
theorem off2_eq : ∀ (c : Fin 2) (i : Fin 16) (r : Fin 14),
    k1_off2 (coordsV c i) (BitVec.ofNat 32 (112 * r.val)) = ![(2 * i.val + c.val) * 1568 + 112 * r.val, 0] := by decide +kernel

theorem h32 : 32 ∣ S32x14x112.size 0 := ⟨1, rfl⟩
theorem h448 : 448 ∣ S50176x128.size 0 := ⟨112, rfl⟩

theorem iRect_eq (c : Fin 2) (i : Fin 16) :
    Rect.unit (s := S32x14x112) (k1_off1 (coordsV c i)) S1x14x112.size (k1_off1_inb (coordsV c i))
      = Rect.part (s := S32x14x112) (a₀ := 0) h32 (e32 (c, i)) := by
  unfold Rect.part Rect.block
  congr 1 <;> funext a
  · rw [off1_eq]; fin_cases a <;> simp [Shape.partIx, Shape.partSize, e32_val] <;> omega
  · fin_cases a <;> simp [Shape.partSize]

theorem set_iBlk (c : Fin 2) (i : Fin 16) :
    (iBlk (coordsV c i)).view.set = (Rect.part (s := S32x14x112) (a₀ := 0) h32 (e32 (c, i))).set := by
  show ((iV.view.slice
      (Rect.unit (s := S32x14x112) (k1_off1 (coordsV c i)) S1x14x112.size (k1_off1_inb (coordsV c i)))).reshape S14x112
        squeezes_S1x14x112_S14x112.numel_eq).set = _
  rw [View.set_reshape]
  show ((View.whole (main_v9_scv : Ref sig .scVector)).slice
      (Rect.unit (s := S32x14x112) (k1_off1 (coordsV c i)) S1x14x112.size (k1_off1_inb (coordsV c i)))).set = _
  rw [View.set_slice_whole, iRect_eq]

theorem oRect_eq (c : Fin 2) (i : Fin 16) (r : Fin 14) :
    Rect.unit (s := S50176x128) (k1_off2 (coordsV c i) (BitVec.ofNat 32 (112 * r.val))) S112x128.size (k1_off2_inb (coordsV c i) r)
      = Rect.part (s := S50176x128) (a₀ := 0) h448 (e448 (c, i, r)) := by
  unfold Rect.part Rect.block
  congr 1 <;> funext a
  · rw [off2_eq]; fin_cases a <;> simp [Shape.partIx, Shape.partSize, e448_val] <;> omega
  · fin_cases a <;> simp [Shape.partSize]

theorem set_oChk (c : Fin 2) (i : Fin 16) (r : Fin 14) :
    (oChk (coordsV c i) r).view.set = (Rect.part (s := S50176x128) (a₀ := 0) h448 (e448 (c, i, r))).set := by
  show ((View.whole (main_v10_scv : Ref sig .scVector)).slice
      (Rect.unit (s := S50176x128) (k1_off2 (coordsV c i) (BitVec.ofNat 32 (112 * r.val))) S112x128.size (k1_off2_inb (coordsV c i) r))).set = _
  rw [View.set_slice_whole, oRect_eq]

theorem idx_split (d : Dev nD) (f : Buf (Elt F) (idxLoc d)) :
    (idxLoc d ↦{fullShare} f : sProp 𝕄)
      = bigSep Finset.univ fun c : Fin 2 => bigSep Finset.univ fun i : Fin 16 =>
          idxLoc d ↦[(iBlk (coordsV c i)).view.set]{fullShare} f := by
  have h1 : (idxLoc d ↦{fullShare} f : sProp 𝕄)
      = bigSep Finset.univ fun j : Fin 32 => idxLoc d ↦[(Rect.part (s := S32x14x112) (a₀ := 0) h32 j).set]{fullShare} f := by
    rw [← pointsTo_biUnion Finset.univ (ℓ := idxLoc d) (fun j : Fin 32 => (Rect.part (s := S32x14x112) (a₀ := 0) h32 j).set)
      (fun j _ j' _ h => Rect.part_disjoint h32 h), Rect.biUnion_part h32]; try rfl
  rw [h1, BI.bigSep_univ_equiv e32, BI.bigSep_univ_prod]
  exact bigSep_congr fun c _ => bigSep_congr fun i _ => by rw [set_iBlk]

theorem out_split (d : Dev nD) (f : Buf (Elt F) (outLoc d)) :
    (outLoc d ↦{fullShare} f : sProp 𝕄)
      = bigSep Finset.univ fun c : Fin 2 => bigSep Finset.univ fun i : Fin 16 => bigSep Finset.univ fun r : Fin 14 =>
          outLoc d ↦[(oChk (coordsV c i) r).view.set]{fullShare} f := by
  have h1 : (outLoc d ↦{fullShare} f : sProp 𝕄)
      = bigSep Finset.univ fun j : Fin 448 => outLoc d ↦[(Rect.part (s := S50176x128) (a₀ := 0) h448 j).set]{fullShare} f := by
    rw [← pointsTo_biUnion Finset.univ (ℓ := outLoc d) (fun j : Fin 448 => (Rect.part (s := S50176x128) (a₀ := 0) h448 j).set)
      (fun j _ j' _ h => Rect.part_disjoint h448 h), Rect.biUnion_part h448]; try rfl
  rw [h1, BI.bigSep_univ_equiv e448, BI.bigSep_univ_prod]
  refine bigSep_congr fun c _ => ?_
  rw [BI.bigSep_univ_prod]
  exact bigSep_congr fun i _ => bigSep_congr fun r _ => by rw [set_oChk]

theorem tab_split (d : Dev nD) (f : Buf (Elt F) (tabLoc d)) :
    (tabLoc d ↦{fullShare} f : sProp 𝕄) ⊣⊢ iprop((tabLoc d ↦{Transfers.shareDrop fullShare 64} f)
      ∗ bigSep Finset.univ fun c : Fin 2 => bigSep Finset.univ fun i : Fin 16 =>
          iprop((tabLoc d ↦{tokQ (coordsV c i) 0} f) ∗ (tabLoc d ↦{tokQ (coordsV c i) 1} f))) := by
  have hb : (bigSep Finset.univ fun t : Fin 64 => (tabLoc d ↦{Transfers.shareTok fullShare 64 t} f : sProp 𝕄))
      = bigSep Finset.univ fun c : Fin 2 => bigSep Finset.univ fun i : Fin 16 =>
          iprop((tabLoc d ↦{tokQ (coordsV c i) 0} f) ∗ (tabLoc d ↦{tokQ (coordsV c i) 1} f)) := by
    rw [BI.bigSep_univ_equiv e64, BI.bigSep_univ_prod]
    refine bigSep_congr fun c _ => ?_
    rw [BI.bigSep_univ_prod]
    refine bigSep_congr fun i _ => ?_
    rw [bigSep_univ_two]
    have e0 : e64 (c, i, 0) = tokIx (coordsV c i) 0 := Fin.ext (by simp [tokIx, e64_val, coordsV] <;> omega)
    have e1 : e64 (c, i, 1) = tokIx (coordsV c i) 1 := Fin.ext (by simp [tokIx, e64_val, coordsV] <;> omega)
    rw [e0, e1]
  rw [← hb]
  exact Transfers.pointsTo_toks (ℓ := tabLoc d) (S := Finset.univ) fullShare 64

theorem tabRest_zero (d : Dev nD) : tabRest (F := F) G d (0 : Fin 2).val = iprop(tabLoc d ↦{Transfers.shareDrop fullShare 64} G d) :=
  if_pos rfl
theorem tabRest_one (d : Dev nD) : tabRest (F := F) G d (1 : Fin 2).val = iprop(emp) := if_neg (by decide)

theorem split_eq (d : Dev nD) (fo : Buf (Elt F) (outLoc d)) :
    (bigSep Finset.univ fun c : Fin 2 => iprop(tabRest G d c.val ∗ bigSep Finset.univ fun i : Fin 16 => tile I G d (coordsV c i) fo) : sProp 𝕄)
      ⊣⊢ iprop((idxLoc d ↦{fullShare} I d) ∗ (tabLoc d ↦{fullShare} G d) ∗ (outLoc d ↦{fullShare} fo)) := by
  have hT := tab_split (F := F) d (G d)
  simp only [tile, bigSep_sep'] at hT ⊢
  rw [idx_split d (I d), out_split d fo, bigSep_univ_two (fun c : Fin 2 => tabRest G d c.val), tabRest_zero, tabRest_one]
  constructor
  · iintro ⟨⟨Hd, -⟩, Hi, Ht0, Ht1, Ho⟩
    iframe Hi Ho
    iapply hT.2
    iframe
  · iintro ⟨Hi, Ht, Ho⟩
    icases (hT.1) $$ Ht with ⟨Hd, Ht0, Ht1⟩
    iframe

end Split

theorem vecSplit : (K (F := F)).VecSplit' (P I G O) 0 := by
  intro d c
  dsimp only [P]
  iintro ⟨Hr, Hgo⟩
  imodintro
  isplitl [Hgo]; · iexact Hgo
  iintro Htd
  iframe

theorem st_intro (d : Dev nD) :
    iprop((idxLoc d ↦{fullShare} I d) ∗ (tabLoc d ↦{fullShare} G d) ∗ (outLoc d ↦{fullShare} O d))
      ⊢ (bigSep Finset.univ fun c : Fin ((K (F := F)).nCore 0) => (P (F := F) I G O).st 0 d c : sProp 𝕄) := by
  exact (Split.split_eq I G d (O d)).2

theorem dn_elim (d : Dev nD) :
    (bigSep Finset.univ fun c : Fin ((K (F := F)).nCore 0) => (P (F := F) I G O).dn 0 d c : sProp 𝕄)
      ⊢ iprop((idxLoc d ↦{fullShare} I d) ∗ (tabLoc d ↦{fullShare} G d) ∗ (outLoc d ↦{fullShare} geOf I G d)) := by
  exact (Split.split_eq I G d (geOf I G d)).1

end Cert.Proof.KB.Tile

end
-- ==== Proof.KBLaunchData.lean ====
import proofs.«211030_g66005057405235_cont_9to1c4b_431_51_alg».proof.Proof.KBLaunchCommon
import proofs.«211030_g66005057405235_cont_9to1c4b_431_51_alg».proof.Proof.KBRegion0
import proofs.«211030_g66005057405235_cont_9to1c4b_431_51_alg».proof.Proof.KBRegion1
import proofs.«211030_g66005057405235_cont_9to1c4b_431_51_alg».proof.Proof.KBRegion2
import proofs.«211030_g66005057405235_cont_9to1c4b_431_51_alg».proof.Proof.KBTile
import Idealize.ShloMosaic.Lib.Pipeline.FrameSuffix
import Idealize.ShloMosaic.Lib.Pipeline.RegionsLoop

noncomputable section

namespace Cert.Proof.KB.Launch

open Cert.Kernel Cert.Kernel.Gen
open Cert.Proof.KB
open Idealize.ShloMosaic Idealize.ShloMosaic.TcCoe
open Idealize.ShloMosaic.SparseCore.Cfg (HIx Pay)
open Idealize.SL.Sem
open Idealize.ShloMosaic.Pipeline (Dat)

variable {F : FTy → Type} [FloatOps F]

abbrev hostOps0 : List (HloOp τ sig (Elt F)) :=
  [ StableHlo.unary main_arg2 main_v0 ((extractStridedSlice S1x50000 ![1, 0] · slices_S2x50000_S1x50000_1_0) : (⟨S2x50000, .i32⟩ : BufTy).Contents (Elt F) → (⟨S1x50000, .i32⟩ : BufTy).Contents (Elt F)),
    StableHlo.reshape main_v0 main_v1 rfl shapeCasts_S1x50000_S50000,
    StableHlo.nullary main_c (constantI S_ 32 0#32),
    StableHlo.TRef.unary (.of main_c : StableHlo.TRef sig ⟨S_, .i32⟩) main_call0.v0 id,
    StableHlo.TRef.binary (.of main_v1 : StableHlo.TRef sig ⟨S50000, .i32⟩) main_call0.v0 main_call0.v1 (fun x v => pad S50176 ![0] ![176] ![0] x v pads_S50000_S50176_01760 h_S_),
    StableHlo.nullary main_c_0 (constantI S_ 32 0#32),
    StableHlo.TRef.unary (.of main_c_0 : StableHlo.TRef sig ⟨S_, .i32⟩) main_call1.v0 id,
    StableHlo.TRef.binary (.of main_v1 : StableHlo.TRef sig ⟨S50000, .i32⟩) main_call1.v0 main_call1.v1 (fun x v => pad S53248 ![0] ![3248] ![0] x v pads_S50000_S53248_032480 h_S_),
    StableHlo.reshape main_v3 main_v4 rfl shapeCasts_S53248_S13x1x4096,
    StableHlo.nullary main_c_1 (constantI S_ 32 0#32),
    StableHlo.TRef.unary (.of main_c_1 : StableHlo.TRef sig ⟨S_, .i32⟩) main_call2.v0 (sitofp .f32),
    StableHlo.TRef.binary (.of main_arg1 : StableHlo.TRef sig ⟨S1000x128, .f32⟩) main_call2.v0 main_call2.v1 (fun x v => pad S1024x128 ![0, 0] ![24, 0] ![0, 0] x v pads_S1000x128_S1024x128_0240_000 h_S_),
    StableHlo.reshape main_arg6 main_v6 rfl shapeCasts_S128_S1x128,
    StableHlo.reshape main_arg8 main_v7 rfl shapeCasts_S128_S1x128 ]

abbrev hostOps1 : List (HloOp τ sig (Elt F)) :=
  [ StableHlo.reshape main_v2 main_v9 rfl shapeCasts_S50176_S32x14x112 ]

abbrev hostOps2 : List (HloOp τ sig (Elt F)) :=
  [ StableHlo.reshape main_arg10 main_v12 rfl shapeCasts_S1000_S1000x1 ]

abbrev hostOps3 : List (HloOp τ sig (Elt F)) :=
  [ StableHlo.unary main_v13 main_v14 ((transpose S50000x1000 [1, 0] · transposes_S1000x50000_S50000x1000_1_0) : (⟨S1000x50000, .f32⟩ : BufTy).Contents (Elt F) → (⟨S50000x1000, .f32⟩ : BufTy).Contents (Elt F)) ]

theorem hostOps0_sub : (hostOps0 : List (HloOp τ sig (Elt F))).Forall fun op => op.bufs ⊆ StableHlo.tcRefs τ sig := by
  simp only [hostOps0, List.Forall, StableHlo.TRef.unary, StableHlo.TRef.binary, StableHlo.unary_bufs_sub, StableHlo.reshape_bufs_sub,
    StableHlo.nullary_bufs_sub, StableHlo.binary_bufs_sub, and_self]
theorem hostOps1_sub : (hostOps1 : List (HloOp τ sig (Elt F))).Forall fun op => op.bufs ⊆ StableHlo.tcRefs τ sig :=
  StableHlo.reshape_bufs_sub ..
theorem hostOps2_sub : (hostOps2 : List (HloOp τ sig (Elt F))).Forall fun op => op.bufs ⊆ StableHlo.tcRefs τ sig :=
  StableHlo.reshape_bufs_sub ..
theorem hostOps3_sub : (hostOps3 : List (HloOp τ sig (Elt F))).Forall fun op => op.bufs ⊆ StableHlo.tcRefs τ sig :=
  StableHlo.unary_bufs_sub ..

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ :=
  rfl
theorem hostOps2_fresh : (hostOps2 : List (HloOp τ sig (Elt F))).Forall fun op => op.fresh = ∅ :=
  rfl
theorem hostOps3_fresh : (hostOps3 : List (HloOp τ sig (Elt F))).Forall fun op => op.fresh = ∅ :=
  rfl

theorem main_chain (d : Dev nD) : main (F := F) d = (Pipeline.chain
  [ StableHlo.seq hostOps0,
    Prog.lift (.customCall (SparseCore.inner (Pipeline.entry 0)) ()),
    StableHlo.seq hostOps1,
    (sc (F := F)).run d 0,
    Prog.lift (.customCall (SparseCore.inner (Pipeline.entry 1)) ()),
    StableHlo.seq hostOps2,
    Prog.lift (.customCall (SparseCore.inner (Pipeline.entry 2)) ()),
    StableHlo.seq hostOps3 ] : Prog (TpuEff nD τ sig (Elt F) (SparseCore.Sig (Pipeline.Sig Λ₀ (Fin 3) fun p => (pcfgs (F := F) p).Adm) 1) .tc) PUnit) := by
  chain_rfl

section

variable (W : Dev nD → Valuation τ sig (Elt F))

def pdats :
    (p : Fin 3) → (c : Dev nD) → Dat τ (Elt F) (HIx 1) ℕ UU ℕ (Pipeline.pin (pcfgs (F := F)) adm p) c
  | ⟨0, _⟩ => fun c => R0.dat0 (atTc W) c
  | ⟨1, _⟩ => fun c => R1.dat1 (atTc W) c
  | ⟨2, _⟩ => fun c => R2.dat2 (atTc W) c

section

variable (c : Dev nD)

def out0 : Valuation τ sig (Elt F) :=
  Pipeline.withArrays spec0 c (W c) fun w => (R0.dat0 (atTc W) c).arrAt w cfg0.N

def out1 : Valuation τ sig (Elt F) :=
  Pipeline.withArrays spec2 c (W c) fun w => (R1.dat1 (atTc W) c).arrAt w cfg2.N

def out2 : Valuation τ sig (Elt F) :=
  Pipeline.withArrays spec3 c (W c) fun w => (R2.dat2 (atTc W) c).arrAt w cfg3.N

theorem out0_arr (w : Fin cfg0.W) :
    out0 W c (Proc.devRef .tc (Pipeline.arrRef spec0 w)) = (R0.dat0 (atTc W) c).arrAt w cfg0.N :=
  Pipeline.withArrays_arr spec0 launch0.win.arr_inj c _ _ w
theorem out0_of_ne (b : Ref sig .tc) (hb : ∀ w, Pipeline.arrRef spec0 w ≠ b) :
    out0 W c (Proc.devRef .tc b) = W c (Proc.devRef .tc b) :=
  Pipeline.withArrays_of_ne spec0 c _ _ b hb
theorem out1_arr (w : Fin cfg2.W) :
    out1 W c (Proc.devRef .tc (Pipeline.arrRef spec2 w)) = (R1.dat1 (atTc W) c).arrAt w cfg2.N :=
  Pipeline.withArrays_arr spec2 launch2.win.arr_inj c _ _ w
theorem out1_of_ne (b : Ref sig .tc) (hb : ∀ w, Pipeline.arrRef spec2 w ≠ b) :
    out1 W c (Proc.devRef .tc b) = W c (Proc.devRef .tc b) :=
  Pipeline.withArrays_of_ne spec2 c _ _ b hb
theorem out2_arr (w : Fin cfg3.W) :
    out2 W c (Proc.devRef .tc (Pipeline.arrRef spec3 w)) = (R2.dat2 (atTc W) c).arrAt w cfg3.N :=
  Pipeline.withArrays_arr spec3 launch3.win.arr_inj c _ _ w
theorem out2_of_ne (b : Ref sig .tc) (hb : ∀ w, Pipeline.arrRef spec3 w ≠ b) :
    out2 W c (Proc.devRef .tc b) = W c (Proc.devRef .tc b) :=
  Pipeline.withArrays_of_ne spec3 c _ _ b hb

theorem out0_keeps (b : Ref sig .tc)
    (h : ∀ w, Pipeline.arrRef spec0 w = b → (cfg0.win w).isOut = false) : out0 W c (Proc.devRef .tc b) = W c (Proc.devRef .tc b) := by
  by_cases hb : ∃ w, Pipeline.arrRef spec0 w = b
  · obtain ⟨w, rfl⟩ := hb
    rw [out0_arr, (R0.dat0 (atTc W) c).arrAt_in w (h w rfl)]; rfl
  · exact out0_of_ne W c b fun w e => hb ⟨w, e⟩
theorem out1_keeps (b : Ref sig .tc)
    (h : ∀ w, Pipeline.arrRef spec2 w = b → (cfg2.win w).isOut = false) : out1 W c (Proc.devRef .tc b) = W c (Proc.devRef .tc b) := by
  by_cases hb : ∃ w, Pipeline.arrRef spec2 w = b
  · obtain ⟨w, rfl⟩ := hb
    rw [out1_arr, (R1.dat1 (atTc W) c).arrAt_in w (h w rfl)]; rfl
  · exact out1_of_ne W c b fun w e => hb ⟨w, e⟩
theorem out2_keeps (b : Ref sig .tc)
    (h : ∀ w, Pipeline.arrRef spec3 w = b → (cfg3.win w).isOut = false) : out2 W c (Proc.devRef .tc b) = W c (Proc.devRef .tc b) := by
  by_cases hb : ∃ w, Pipeline.arrRef spec3 w = b
  · obtain ⟨w, rfl⟩ := hb
    rw [out2_arr, (R2.dat2 (atTc W) c).arrAt_in w (h w rfl)]; rfl
  · exact out2_of_ne W c b fun w e => hb ⟨w, e⟩

end

abbrev idxOf : (d : Dev nD) → Buf (Elt F) (Tile.idxLoc d) := fun d => W d (Proc.devRef .tc main_v9)
abbrev tabOf : (d : Dev nD) → Buf (Elt F) (Tile.tabLoc d) := fun d => W d (Proc.devRef .tc main_v8_1)
abbrev dstOf : (d : Dev nD) → Buf (Elt F) (Tile.outLoc d) := fun d => W d (Proc.devRef .tc main_v10)

def outG (d : Dev nD) : Valuation τ sig (Elt F) :=
  Function.update (W d) (Proc.devRef .tc main_v10) (Tile.geOf (idxOf W) (tabOf W) d)

theorem outG_dst (d : Dev nD) :
    outG W d (Proc.devRef .tc main_v10) = Tile.geOf (idxOf W) (tabOf W) d := Function.update_self _ _ _
theorem outG_of_ne (d : Dev nD) (b : DevRef τ sig) (hb : b ≠ Proc.devRef .tc main_v10) :
    outG W d b = W d b := Function.update_of_ne hb _ _

end

section

variable (V : Valuation τ sig (Elt F)) (b : Ref sig .tc)

theorem after_keeps (ops : List (HloOp τ sig (Elt F)))
    (h : ops.Forall fun op => Proc.devRef .tc b ∉ op.writes) : StableHlo.after ops V (Proc.devRef .tc b) = V (Proc.devRef .tc b) :=
  StableHlo.after_of_forall_not_mem _ _ (List.forall_iff_forall_mem.mp h)

theorem after0_keeps (hb : b ∉ [main_v0, main_v1, main_c, main_call0_v0, main_v2, main_c_0, main_call1_v0, main_v3, main_v4, main_c_1, main_call2_v0, main_v5, main_v6, main_v7]) :
    StableHlo.after hostOps0 V (Proc.devRef .tc b) = V (Proc.devRef .tc b) :=
  after_keeps V b _ (by simpa only [hostOps0, List.Forall, StableHlo.nullary_writes, StableHlo.unary_writes, StableHlo.binary_writes, StableHlo.reshape_writes, Finset.mem_singleton, (Proc.devRef_injective _).eq_iff, List.mem_cons, List.not_mem_nil, or_false, not_or] using hb)
theorem after1_keeps (hb : b ≠ main_v9) :
    StableHlo.after hostOps1 V (Proc.devRef .tc b) = V (Proc.devRef .tc b) :=
  after_keeps V b _ fun h => hb (Proc.devRef_injective _ (Finset.mem_singleton.mp h))
theorem after2_keeps (hb : b ≠ main_v12) :
    StableHlo.after hostOps2 V (Proc.devRef .tc b) = V (Proc.devRef .tc b) :=
  after_keeps V b _ fun h => hb (Proc.devRef_injective _ (Finset.mem_singleton.mp h))
theorem after3_keeps (hb : b ≠ main_v14) :
    StableHlo.after hostOps3 V (Proc.devRef .tc b) = V (Proc.devRef .tc b) :=
  after_keeps V b _ fun h => hb (Proc.devRef_injective _ (Finset.mem_singleton.mp h))

end

section Fold

variable (m : (ℓ : Loc nD τ sig) → Buf (Elt F) ℓ)

abbrev W0 : Dev nD → Valuation τ sig (Elt F) := fun c b => m (c, b)

abbrev W1 := fun c => StableHlo.after hostOps0 (W0 m c)

abbrev W2 := out0 (W1 m)

abbrev W3 := fun c => StableHlo.after hostOps1 (W2 m c)

abbrev W4 := outG (W3 m)

abbrev W5 := out1 (W4 m)

abbrev W6 := fun c => StableHlo.after hostOps2 (W5 m c)

abbrev W7 := out2 (W6 m)

abbrev W8 := fun c => StableHlo.after hostOps3 (W7 m c)

def Wres (c : Dev nD) : Buf (Elt F) ((c.tc : Thread nD τ).loc main_v14) := W8 m c (Proc.devRef .tc main_v14)

end Fold

end Cert.Proof.KB.Launch

end
-- ==== Proof.KBLaunchCore.lean ====
import proofs.«211030_g66005057405235_cont_9to1c4b_431_51_alg».proof.Proof.KBLaunchData
import Idealize.ShloMosaic.Lib.SparseCore.Launch
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.StableHlo.Run

noncomputable section

namespace Cert.Proof.KB.Launch

open Cert.Kernel Cert.Kernel.Gen
open Cert.Proof.KB
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (SparseCore.Cfg.HIx 1) (Elt F) ℕ Cert.Proof.KB.UU ℕ

set_option backward.isDefEq.respectTransparency.types false in
def reg0 (W : Dev nD → Valuation τ sig (Elt F)) :
    Pipeline.RegionSeg (pcfgs (F := F)) adm (pdats W) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (R0.body_obligation0 (atTc W) c none).loose
  hwaits c := Pipeline.cellsWaits_intro (Pipeline.pin (pcfgs (F := F)) adm) (pdats W) (none : HIx 1) 0 c (R := levAts (K (F := F)).L (K (F := F)).lev) fun w s t =>
    (K (F := F)).mayWait_none (thr := (c : Thread nD τ)) _ (Otc_none c 0)
  pre c := TS c (W c) 0
  post c := TS c (out0 W c) 0
  X c := iprop(∃ r, prngReg c r)
  Y c := iprop(∃ r, prngReg c r)
  Z c := Pipeline.unscopedRest (Ix := HIx 1) (Name := ℕ) (U := UU) (Lvl := ℕ) spec0 c (atTc W c)
  hentry c := by
    rw [Pipeline.ownSems0_none]
    have hsplit := Pipeline.arrays_of_unscopedBufs (p := 0) (pcfgs (F := F)) adm (pdats W) launch0.win launch0.arr_whole c
      ((pdats W 0 c).share_full fun _ => rfl) (atTc W c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesSt
      icases HO with ⟨%Wt, %hW, HO⟩; iexists Wt; isplitr
      · ipureintro; exact fun p hp => Or.inl (idx_none_of_WBelow hW p hp)
      iexact HO
    isplitl [Hp]; · iexact Hp
    iexact Hrest
  hin c := by
    rw [show (pdats W 0 c).Φ 0 = R0.ΦA0 c from rfl]; unfold R0.ΦA0
    iintro ⟨Hp, -, Hr⟩
    isplitl [Hr]; · iexact Hr
    iexact Hp
  hout c := by
    rw [Pipeline.ownSems0_none]
    rw [show (pdats W 0 c).Φ (Fin.last _) = R0.ΦA0 c from rfl]; unfold R0.ΦA0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats W) ((pdats W 0 c).share_full fun _ => rfl)
      (atTc W c) (atTc (out0 W) c) ((pdats W 0 c).arrAt · cfg0.N) (fun w => (out0_arr W c w).symm)
      (fun b hb => out0_of_ne W c b fun w e => hb (Finset.mem_image.mpr ⟨w, Finset.mem_univ _, e⟩))
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin owesSt
    icases HO with ⟨%Wt, %hW, HO⟩; iexists Wt; isplitr
    · ipureintro
      intro p hp
      have hp2 : p.2 = none := by
        rcases hW hp with h | ⟨w, s, rfl⟩
        · exact h
        · rfl
      rw [hp2, SparseCore.Cfg.lev_none]
    iexact HO

section Steps

variable [∀ e, Nonempty (Elt F e)] {p : Fin 3} (W : Dev nD → Valuation τ sig (Elt F))
    (R : Pipeline.RegionSeg (pcfgs (F := F)) adm (pdats W) (none : HIx 1) defs₀ 𝒱₀ (K (F := F)).L (K (F := F)).lev p)
    (d : Dev nD)

set_option backward.isDefEq.respectTransparency.types false in
theorem step_region' (Q : PUnit → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) (Variants.lift 𝒱₀) (d.tc : Thread nD τ) none) Set.univ
          (.op (.customCall (Pipeline.entry p) ()) fun _ => .ret ⟨⟩) Q := by
  have h := Pipeline.RegionSeg.wp (pcfgs (F := F)) adm (pdats W) (none : HIx 1) cellOf_inj (EP (F := F)) defs₀ 𝒱₀ (K (F := F)).L (K (F := F)).lev R d none
    (fun _ h => nomatch h) (fun _ => .ret ⟨⟩) Q
  refine BIBase.Entails.trans ?_ h
  iintro ⟨Hk, Hb, HT, Hlev, Hg, Ht⟩
  isplitl [Hk]
  · iintro H; rw [wp_ret]; imodintro; iapply Hk; iexact H
  isplitl [Hb]; · iexact Hb
  isplitl [HT]; · iexact HT
  isplitl [Hlev]; · iexact Hlev
  isplitl [Hg] <;> iassumption

set_option backward.isDefEq.respectTransparency.types false in
theorem step_region {β : Type} (k : PUnit → Prog (TpuEff nD τ sig (Elt F) (SparseCore.Sig (ΛP (F := F)) 1) .tc) β) (Q : β → sProp 𝕄) :
    iprop(levAts (K (F := F)).L (K (F := F)).lev ∗ boundary (T d) ∗ R.pre d ∗ ghostAt p d
        ∗ (iprop(boundary (T d) ∗ R.post d) -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry p)) ()) : Prog (TpuEff nD τ sig (Elt F) (SparseCore.Sig (ΛP (F := F)) 1) .tc) PUnit) >>= k) Q := by
  rw [wp_bind]
  have h1 := step_region' W R d (fun a => wp frame (wpE ((K (F := F)).defs (D (F := F))) 𝒱 (T d) none) Set.univ (k a) Q)
  have h2 := (K (F := F)).wp_liftProg (D (F := F)) 𝒱 (T d) Set.univ none
    (.op (.customCall (Pipeline.entry p) ()) fun _ => (.ret ⟨⟩ : Prog (TpuEff nD τ sig (Elt F) (ΛP (F := F)) .tc) PUnit))
    (fun a => wp frame (wpE ((K (F := F)).defs (D (F := F))) 𝒱 (T d) none) Set.univ (k a) Q)
  refine BIBase.Entails.trans ?_ (BIBase.Entails.trans h1 h2)
  iintro ⟨Hlev, Hb, HT, ⟨Hg, Ht⟩, Hk⟩
  isplitl [Hk]; · iexact Hk
  isplitl [Hb]; · iexact Hb
  isplitl [HT]; · iexact HT
  isplitl [Hlev]; · iexact Hlev
  isplitl [Hg] <;> iassumption

end Steps

def u₀ : UU :=
  (initOf (K (F := F)).hsCells (K (F := F)).hsToks, (initOf (Pipeline.cells cfgs cellOf_inj) (Pipeline.launchToks cfgs cellOf_inj), 1))

def G (d : Dev nD) : sProp 𝕄 := bigSep Finset.univ fun p : Fin 3 => ghostAt (F := F) p d

theorem G_eq (d : Dev nD) : (G (F := F) d : sProp 𝕄) = iprop(ghostAt 0 d ∗ ghostAt 1 d ∗ ghostAt 2 d) := by
  unfold G
  rw [show (Finset.univ : Finset (Fin 3)) = {0, 1, 2} by decide, SparseCore.bigSep_insert' (by decide), SparseCore.bigSep_insert' (by decide), bigSep_singleton]

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  icases (ownU_pair _ _) $$ Hu with ⟨HH, HR⟩
  icases (own_pair_emb embR _ _) $$ HR with ⟨HP, -⟩
  rw [show (Emb.inl : Emb UP (UP × Counters)).trans embR = EP (F := F) from rfl]
  imod (Pipeline.fund_ghost cfgs (EP (F := F)) cellOf_inj) $$ HP with ⟨Hg, Ht⟩
  imodintro
  isplitl [HH]; · iexact HH
  isplitl [Hg Ht]
  · unfold G
    simp only [bigSep_sep']
    isplitl [Hg] <;> iassumption
  · simp only [hx]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Main

variable [∀ e, Nonempty (Elt F e)]

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄) = iprop(owesSt (F := F) d n ∗ tcRest (F := F) d n) := rfl

theorem held_gather (d : Dev nD) (Wv : Valuation τ sig (Elt F)) :
    (StableHlo.held (T d) (Pipeline.ucRefs τ sig) Wv : sProp 𝕄)
      = iprop(((Tile.idxLoc d ↦{fullShare} Wv (Proc.devRef .tc main_v9)) ∗ (Tile.tabLoc d ↦{fullShare} Wv (Proc.devRef .tc main_v8_1))
            ∗ (Tile.outLoc d ↦{fullShare} Wv (Proc.devRef .tc main_v10)))
          ∗ StableHlo.held (T d) (Pipeline.ucRefs τ sig \ {Proc.devRef .tc main_v9, Proc.devRef .tc main_v8_1, Proc.devRef .tc main_v10}) Wv) := by
  rw [StableHlo.held_sub_split (T d) (T := {Proc.devRef .tc main_v9, Proc.devRef .tc main_v8_1, Proc.devRef .tc main_v10}) (by decide) Wv]
  congr 1
  unfold StableHlo.held
  rw [SparseCore.bigSep_insert' (by decide), SparseCore.bigSep_insert' (by decide), bigSep_singleton]

theorem wp_run0 (P : (K (F := F)).Pay (nD := nD) (Val := Elt F) (Name := ℕ) (U := UU)) (κ : GSem nD τ sig → ℕ) (d : Dev nD) (Φ : PUnit → sProp 𝕄) :
    iprop((K (F := F)).ctx EH P κ ∗ (K (F := F)).tcSt EH d 0 ∗ (bigSep Finset.univ fun c : Fin ((K (F := F)).nCore 0) => P.st 0 d c)
        ∗ (((K (F := F)).tcSt EH d 1 ∗ bigSep Finset.univ fun c : Fin ((K (F := F)).nCore 0) => P.dn 0 d c) -∗ Φ ⟨⟩))
      ⊢ wp frame (wpE ((K (F := F)).defs (D (F := F))) 𝒱 (T d) none) Set.univ ((K (F := F)).run d 0) Φ :=
  (K (F := F)).wp_run (D (F := F)) 𝒱 (EH := EH) (P := P) κ d 0

theorem step_gather (κ : GSem nD τ sig → ℕ) (d : Dev nD) (W : Dev nD → Valuation τ sig (Elt F))
    {β : Type} (k : PUnit → Prog (TpuEff nD τ sig (Elt F) (SparseCore.Sig (ΛP (F := F)) 1) .tc) β) (Q : β → sProp 𝕄) :
    iprop((K (F := F)).ctx EH (Tile.P (idxOf W) (tabOf W) (dstOf W)) κ ∗ tcRest (F := F) d 0 ∗ TS d (W d) 0
        ∗ (iprop(tcRest (F := F) d 1 ∗ TS d (outG W d) 1) -∗ wp frame (wpE ((K (F := F)).defs (D (F := F))) 𝒱 (T d) none) Set.univ (k ⟨⟩) Q))
      ⊢ wp frame (wpE ((K (F := F)).defs (D (F := F))) 𝒱 (T d) none) Set.univ ((K (F := F)).run d 0 >>= k) Q := by
  rw [wp_bind]
  unfold TS
  rw [held_gather d (W d), held_gather d (outG W d)]
  iintro ⟨#Hctx, Hrest, ⟨⟨⟨Hi, Ht, Ho⟩, Hoth⟩, Hp, HO⟩, Hk⟩
  iapply (wp_run0 (Tile.P (idxOf W) (tabOf W) (dstOf W)) κ d _)
  isplitr; · iexact Hctx
  isplitl [Hrest HO]
  · rw [tcSt_eq]; isplitl [HO] <;> iassumption
  isplitl [Hi Ht Ho]
  · iapply (Tile.st_intro (idxOf W) (tabOf W) (dstOf W) d)
    isplitl [Hi]; · iexact Hi
    isplitl [Ht] <;> iassumption
  iintro ⟨Hst, Hdn⟩
  ihave H := (Tile.dn_elim (idxOf W) (tabOf W) (dstOf W) d) $$ Hdn
  icases H with ⟨Hi, Ht, Ho⟩
  ihave Hst' := (BIBase.Entails.of_eq (tcSt_eq (F := F) d 1)) $$ Hst
  icases Hst' with ⟨HO, Hrest⟩
  iapply Hk
  isplitl [Hrest]; · iexact Hrest
  isplitl [Hi Ht Ho Hoth]
  · isplitl [Hi Ht Ho]
    · rw [outG_of_ne W d _ (show Proc.devRef .tc main_v9 ≠ Proc.devRef .tc main_v10 by decide),
        outG_of_ne W d _ (show Proc.devRef .tc main_v8_1 ≠ Proc.devRef .tc main_v10 by decide), outG_dst]
      isplitl [Hi]; · iexact Hi
      isplitl [Ht] <;> iassumption
    · rw [StableHlo.held_congr (T d) (V := outG W d) (V' := W d) fun b hb => outG_of_ne W d b fun e => by
        rw [e] at hb; exact (Finset.mem_sdiff.mp hb).2 (by simp)]
      iexact Hoth
  isplitl [Hp]; · iexact Hp
  iexact HO

variable (m : (ℓ : Loc nD τ sig) → Buf (Elt F) ℓ) (ρ : Dev nD → PrngReg)

theorem tcRes_eq (d : Dev nD) :
    ((K (F := F)).tcRes m ρ d : sProp 𝕄)
      = iprop(boundary (T d) ∗ StableHlo.held (T d) (Pipeline.ucRefs τ sig) (W0 m d) ∗ (K (F := F)).tcSems0 d ∗ prngReg d (ρ d)) := by
  unfold SparseCore.Cfg.tcRes
  rw [← Pipeline.unscopedBufs_held d (W0 m d)]

set_option backward.isDefEq.respectTransparency.types false in
theorem step_host (ops : List (HloOp τ sig (Elt F))) (hsub : ops.Forall fun op => op.bufs ⊆ StableHlo.tcRefs τ sig)
    (hfresh : ops.Forall fun op => op.fresh = ∅) (d : Dev nD) (Wv : Valuation τ sig (Elt F)) (n : ℕ)
    {β : Type} (k : PUnit → Prog (TpuEff nD τ sig (Elt F) (SparseCore.Sig (ΛP (F := F)) 1) .tc) β) (Q : β → sProp 𝕄) :
    iprop(boundary (T d) ∗ TS d Wv n
        ∗ (iprop(boundary (T d) ∗ TS d (StableHlo.after ops Wv) n) -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  have hseq := StableHlo.wp_seq (defs := (K (F := F)).defs (D (F := F))) 𝒱 none Set.univ d (Pipeline.ucRefs τ sig) k (K := Q) ops
    (fun op h => Pipeline.sub_ucRefs op ((List.forall_iff_forall_mem.mp hsub) op h)) (fun op h => (List.forall_iff_forall_mem.mp hfresh) op h) Wv
  unfold TS
  iintro ⟨Hb, ⟨Hh, HR⟩, Hk⟩
  iapply hseq $$ [Hb Hh]
  · isplitl [Hb] <;> iassumption
  iintro ⟨Hb, Hh⟩
  iapply Hk
  isplitl [Hb]; · iexact Hb
  isplitl [Hh] <;> iassumption

theorem step_reg0 (W : Dev nD → Valuation τ sig (Elt F)) (d : Dev nD)
    {β : Type} (k : PUnit → Prog (TpuEff nD τ sig (Elt F) (SparseCore.Sig (ΛP (F := F)) 1) .tc) β) (Q : β → sProp 𝕄) :
    iprop(levAts (K (F := F)).L (K (F := F)).lev ∗ boundary (T d) ∗ TS d (W d) 0 ∗ ghostAt 0 d
        ∗ (iprop(boundary (T d) ∗ TS d (out0 W d) 0) -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry 0)) ()) : Prog (TpuEff nD τ sig (Elt F) (SparseCore.Sig (ΛP (F := F)) 1) .tc) PUnit) >>= k) Q :=
  step_region W (reg0 W) d k Q

abbrev PP (m : (ℓ : Loc nD τ sig) → Buf (Elt F) ℓ) : (K (F := F)).Pay (nD := nD) (Val := Elt F) (Name := ℕ) (U := UU) :=
  Tile.P (idxOf (W3 m)) (tabOf (W3 m)) (dstOf (W3 m))

end Main

section Range

theorem pad_forall {α : Type} {s t u : Shape} (p : α → Prop) (lo hi interior : Fin s.rank → Nat) (x : s.Idx → α) (v : u.Idx → α)
    (h : s.Pads lo hi interior t) (hu : 0 < u.numel) (hx : ∀ k, p (x k)) (hv : ∀ k, p (v k)) :
    ∀ j, p (pad t lo hi interior x v h hu j) := fun j => by
  unfold pad; split
  · exact hx _
  · exact hv _

variable (m : (ℓ : Loc nD τ sig) → Buf (Elt F) ℓ)

theorem idx_eq (d : Dev nD) :
    idxOf (W3 m) d = fun i => shapeCast S32x14x112
      (pad S50176 ![0] ![176] ![0]
        (shapeCast S50000 (extractStridedSlice S1x50000 ![1, 0] (m ((d.tc : Thread nD τ).loc main_arg2)) slices_S2x50000_S1x50000_1_0) shapeCasts_S1x50000_S50000)
        (constantI S_ 32 0#32) pads_S50000_S50176_01760 h_S_) shapeCasts_S50176_S32x14x112 i := by
  show StableHlo.after hostOps1 (W2 m d) (Proc.devRef .tc main_v9) = _
  after_results
  rw [show W2 m d (Proc.devRef .tc main_v2) = StableHlo.after hostOps0 (W0 m d) (Proc.devRef .tc main_v2) from out0_of_ne (W1 m) d main_v2 (by decide)]
  after_results
  rfl

theorem idx_range (hI : ∀ (c : Dev nD) j, (m ((c.tc : Thread nD τ).loc main_arg2) j).toNat < 1000) :
    ∀ d j, (idxOf (W3 m) d j).toNat < 1000 := fun d j => by
  rw [idx_eq]
  exact pad_forall (fun v : Elt F .i32 => v.toNat < 1000) _ _ _ _ _ _ _ (fun _ => hI d _) (fun _ => (by decide : (0#32).toNat < 1000)) _

end Range

end Cert.Proof.KB.Launch

end
-- ==== Proof.KBLaunchR1.lean ====
import proofs.«211030_g66005057405235_cont_9to1c4b_431_51_alg».proof.Proof.KBLaunchCommon
import proofs.«211030_g66005057405235_cont_9to1c4b_431_51_alg».proof.Proof.KBRegion1

noncomputable section

namespace Cert.Proof.KB.Launch

open Cert.Kernel Cert.Kernel.Gen
open Cert.Proof.KB
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F] [∀ e, Nonempty (Elt F e)]

local notation "𝕄" => MT nD τ sig (SparseCore.Cfg.HIx 1) (Elt F) ℕ Cert.Proof.KB.UU ℕ

def S1 : Finset (Ref sig .tc) := {main_v11_0, main_v11_1}

-- Only this call's entry matters: the exact data with the two outputs forgotten; the other two entries are trivial.
def rdats1 (W : Dev nD → Valuation τ sig (Elt F)) :
    (p : Fin 3) → (c : Dev nD) → RDat τ (Elt F) (HIx 1) ℕ UU ℕ (Pipeline.pin (pcfgs (F := F)) adm p) c
  | ⟨1, _⟩ => fun c => (R1.dat1 (atTc W) c).toRForget R1.forgets1
  | _ => fun _ => { A := fun _ => Classical.arbitrary _, after := fun _ _ _ _ => True, Φ := fun _ => BI.emp, q := fun _ => fullShare, owed := fun _ => 0 }

-- Arrays held each at some admissible contents are held at one admissible choice of contents.
theorem arraysAt1_open (W : Dev nD → Valuation τ sig (Elt F)) (c : Dev nD) :
    ((rdats1 W 1 c).arraysAt cfg2.N : sProp 𝕄)
      ⊢ iprop(∃ A, ⌜∀ w, (rdats1 W 1 c).ArrAt w cfg2.N (A w)⌝ ∗ (rdats1 W 1 c).arrays A) := by
  unfold RDat.arraysAt RDat.arrays
  iintro Ha
  ihave Ha' := (BI.bigSep_exists_pi Finset.univ (fun w F' => iprop(⌜(rdats1 W 1 c).ArrAt w cfg2.N F'⌝
      ∗ (cfg2.win w).arr.view.loc (c.tc : Thread nD τ) ↦[(cfg2.win w).arr.view.set]{(rdats1 W 1 c).share w} F'))) $$ Ha
  icases Ha' with ⟨%A, Ha⟩
  ihave Ha2 := (BI.bigSep_pure_sep Finset.univ (fun w => (rdats1 W 1 c).ArrAt w cfg2.N (A w))
      (fun w => (cfg2.win w).arr.view.loc (c.tc : Thread nD τ) ↦[(cfg2.win w).arr.view.set]{(rdats1 W 1 c).share w} A w)) $$ Ha
  icases Ha2 with ⟨%hA', Ha⟩
  iexists A; isplitr; · ipureintro; exact fun w => hA' w (Finset.mem_univ w)
  iexact Ha

-- Off the two arrays written, admissible final contents are the entry contents.
theorem agree1 (W : Dev nD → Valuation τ sig (Elt F)) (c : Dev nD)
    (A : (w : Fin cfg2.W) → Buf (Elt F) ((cfg2.win w).arr.view.loc (c.tc : Thread nD τ)))
    (hA : ∀ w, (rdats1 W 1 c).ArrAt w cfg2.N (A w)) :
    AgreeOff S1 (W c) (Pipeline.withArrays spec2 c (W c) A) := by
  intro b hb
  by_cases hb' : ∃ w, Pipeline.arrRef spec2 w = b
  · obtain ⟨w, rfl⟩ := hb'
    rw [Pipeline.withArrays_arr spec2 launch2.win.arr_inj c _ _ w]
    have hw : R1.forgets1 w = false ∧ (cfg2.win w).isOut = false := by
      fin_cases w <;> first | exact ⟨rfl, rfl⟩ | exact absurd (by decide) hb
    rw [((R1.dat1 (atTc W) c).toRForget_arrAt_iff hw.1 cfg2.N (A w)).mp (hA w), (R1.dat1 (atTc W) c).arrAt_in w hw.2]
    rfl
  · exact Pipeline.withArrays_of_ne spec2 c _ _ b fun w e => hb' ⟨w, e⟩

set_option backward.isDefEq.respectTransparency.types false in
-- Exit at some W' with AgreeOff S1 W W': the written arrays return at unknown contents, all else is untouched.
def reg1 (W : Dev nD → Valuation τ sig (Elt F)) :
    Pipeline.RDat.RegionSeg (pcfgs (F := F)) adm (rdats1 W) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (R1.body_obligation1 (atTc W) c none).toRForget
  hwaits c := Pipeline.RDat.hwaits_of_owed_zero _ _ _ _ (K (F := F)).L (K (F := F)).lev 1 (fun _ _ => rfl) c
  pre c := TS c (W c) 1
  post c := iprop(∃ Wv', ⌜AgreeOff S1 (W c) Wv'⌝ ∗ TS c Wv' 1)
  X c := iprop(∃ r, prngReg c r)
  Y c := iprop(∃ r, prngReg c r)
  Z c := Pipeline.unscopedRest (Ix := HIx 1) (Name := ℕ) (U := UU) (Lvl := ℕ) spec2 c (atTc W c)
  hentry c := by
    rw [Pipeline.ownSems0_none]
    have hsplit := Pipeline.RDat.arrays_of_unscopedBufs (p := 1) (pcfgs (F := F)) adm (rdats1 W) launch2.win launch2.arr_whole c
      ((R1.dat1 (atTc W) c).share_full fun _ => rfl) (atTc W c) fun _ => rfl
    rw [Pipeline.unscopedBufs_held] at hsplit
    unfold TS
    iintro ⟨⟨Hub, Hp, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    iframe Hp Hrest
    unfold Pipeline.RDat.owesAt Pipeline.owesWithin owesSt
    icases HO with ⟨%Wt, %hW, HO⟩; iexists Wt; isplitr
    · ipureintro; exact fun _ _ => Or.inl trivial
    rw [(K (F := F)).Otc_end c (le_refl 1)]; iexact HO
  hin c := by
    rw [show (rdats1 W 1 c).Φ 0 = R1.ΦA1 c from rfl]; unfold R1.ΦA1
    iintro ⟨Hp, -, Hr⟩
    iframe Hr Hp
  hout c := by
    rw [Pipeline.ownSems0_none]
    rw [show (rdats1 W 1 c).Φ (Fin.last _) = R1.ΦA1 c from rfl]; unfold R1.ΦA1
    iintro ⟨Hr, Hp⟩
    iframe Hp Hr
    iempintro
  hexit c := by
    have hshare : ∀ w, (rdats1 W 1 c).share w = fullShare := (R1.dat1 (atTc W) c).share_full fun _ => rfl
    have hjoin : ∀ A : (w : Fin cfg2.W) → Buf (Elt F) ((cfg2.win w).arr.view.loc (c.tc : Thread nD τ)),
        iprop((rdats1 W 1 c).arrays A ∗ Pipeline.unscopedRest (Ix := HIx 1) (Name := ℕ) (U := UU) (Lvl := ℕ) spec2 c (atTc W c))
          ⊢ (StableHlo.held (T c) (Pipeline.ucRefs τ sig) (Pipeline.withArrays spec2 c (W c) A) : sProp 𝕄) := fun A => by
      rw [← Pipeline.unscopedBufs_held, Pipeline.unscopedBufs_split (Pipeline.pin (pcfgs (F := F)) adm) 1 launch2.win.arr_unscoped launch2.win.arr_inj c,
        Pipeline.RDat.arrays_eq (pcfgs (F := F)) adm (rdats1 W) 1 c launch2.arr_whole hshare]
      refine BIClass.sep_mono (Entails.of_eq (bigSep_congr fun w _ => by
        show (((c.tc : Thread nD τ).loc (Pipeline.arrRef spec2 w)) ↦{fullShare} A w : sProp 𝕄)
          = (((c.tc : Thread nD τ).loc (Pipeline.arrRef spec2 w)) ↦{fullShare} Pipeline.withArrays spec2 c (W c) A (Proc.devRef .tc (Pipeline.arrRef spec2 w)))
        rw [Pipeline.withArrays_arr spec2 launch2.win.arr_inj c (W c) A w])) (Entails.of_eq ?_)
      unfold Pipeline.unscopedRest
      exact bigSep_congr fun b hb => by
        show (((c.tc : Thread nD τ).loc b) ↦{fullShare} W c (Proc.devRef .tc b) : sProp 𝕄)
          = (((c.tc : Thread nD τ).loc b) ↦{fullShare} Pipeline.withArrays spec2 c (W c) A (Proc.devRef .tc b))
        rw [Pipeline.withArrays_of_ne spec2 c (W c) A b fun w e => (Finset.mem_sdiff.mp hb).2 (Finset.mem_image.mpr ⟨w, Finset.mem_univ _, e⟩)]
    unfold TS
    iintro ⟨Ha, HO, HY, Hrest⟩
    ihave Ha' := (arraysAt1_open W c) $$ Ha
    icases Ha' with ⟨%A, %hA, Ha⟩
    imodintro
    iexists (Pipeline.withArrays spec2 c (W c) A)
    isplitr; · ipureintro; exact agree1 W c A hA
    iframe HY
    isplitl [Ha Hrest]
    · iapply (hjoin A); iframe Ha Hrest
    unfold Pipeline.RDat.owesAt Pipeline.owesWithin owesSt
    icases HO with ⟨%Wt, %hW, HO⟩; iexists Wt; isplitr
    · ipureintro
      exact WBelow_one c Wt
    rw [(K (F := F)).Otc_end c (le_refl 1)]; iexact HO

-- Hence the step: what follows the call may assume only agreement off S1.
theorem step_reg1 (W : Dev nD → Valuation τ sig (Elt F)) (d : Dev nD) {β : Type}
    (k : PUnit → Prog (TpuEff nD τ sig (Elt F) (SparseCore.Sig (ΛP (F := F)) 1) .tc) β) (Q : β → sProp 𝕄) :
    iprop(levAts (K (F := F)).L (K (F := F)).lev ∗ boundary (T d) ∗ TS d (W d) 1 ∗ ghostAt 1 d
        ∗ (∀ Wv', ⌜AgreeOff S1 (W d) Wv'⌝ -∗ iprop(boundary (T d) ∗ TS d Wv' 1)
            -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry 1)) ()) : Prog (TpuEff nD τ sig (Elt F) (SparseCore.Sig (ΛP (F := F)) 1) .tc) PUnit) >>= k) Q := by
  have h := step_regionR (rdats1 W) (reg1 W) d k Q
  rw [show (reg1 W).pre d = TS d (W d) 1 from rfl,
    show (reg1 W).post d = iprop(∃ Wv', ⌜AgreeOff S1 (W d) Wv'⌝ ∗ TS d Wv' 1) from rfl] at h
  refine BIBase.Entails.trans ?_ h
  iintro ⟨Hlev, Hb, HT, Hg, Hk⟩
  iframe Hlev Hb HT Hg
  iintro ⟨Hb, ⟨%Wv', %hag, HT⟩⟩
  iapply Hk $$ %Wv' %hag [Hb HT]
  iframe Hb HT

end Cert.Proof.KB.Launch

end
-- ==== Proof.KBLaunchR2.lean ====
import proofs.«211030_g66005057405235_cont_9to1c4b_431_51_alg».proof.Proof.KBRegion2
import proofs.«211030_g66005057405235_cont_9to1c4b_431_51_alg».proof.Proof.KBLaunchCommon
import Idealize.ShloMosaic.Lib.SparseCore.Launch
import Idealize.ShloMosaic.Lib.Pipeline.Regions
import Idealize.ShloMosaic.Lib.Pipeline.RegionsLoop
import Idealize.ShloMosaic.Lib.Pipeline.Kit
import Idealize.ShloMosaic.Lib.StableHlo.Run

noncomputable section

namespace Cert.Proof.KB.Launch

open Cert.Kernel Cert.Kernel.Gen
open Cert.Proof.KB
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F] [∀ e, Nonempty (Elt F e)]

local notation "𝕄" => MT nD τ sig (SparseCore.Cfg.HIx 1) (Elt F) ℕ Cert.Proof.KB.UU ℕ

theorem isIn_of_ne : ∀ w : Fin cfg3.W, Pipeline.arrRef spec3 w ≠ main_v13 → (cfg3.win w).isOut = false := by decide

-- Only this call's entry matters: the exact data with the output forgotten; the other two entries are trivial.
def rdats2 (W : Dev nD → Valuation τ sig (Elt F)) :
    (p : Fin 3) → (c : Dev nD) → RDat τ (Elt F) (HIx 1) ℕ UU ℕ (Pipeline.pin (pcfgs (F := F)) adm p) c
  | ⟨2, _⟩ => fun c => (R2.dat2 (atTc W) c).toRForget R2.forgets2
  | _ => fun _ => { A := fun _ => Classical.arbitrary _, after := fun _ _ _ _ => True, Φ := fun _ => BI.emp, q := fun _ => fullShare, owed := fun _ => 0 }

-- The split of the unscoped buffers into the call's arrays and the rest, read backwards at a valuation changed on the arrays only.
theorem unscopedBufs_of_arraysR (W : Dev nD → Valuation τ sig (Elt F)) (c : Dev nD)
    (V V' : (b : Ref sig .tc) → Buf (Elt F) ((c : Thread nD τ).loc b))
    (A : (w : Fin cfg3.W) → Buf (Elt F) ((cfg3.win w).arr.view.loc (c : Thread nD τ)))
    (hA : ∀ w, A w = V' (Pipeline.arrRef spec3 w))
    (hrest : ∀ b, b ∉ Finset.univ.image (Pipeline.arrRef spec3) → V' b = V b) :
    iprop((rdats2 W 2 c).arrays A ∗ Pipeline.unscopedRest (Ix := HIx 1) (Name := ℕ) (U := UU) (Lvl := ℕ) spec3 c V)
      ⊢ (unscopedBufs (Ix := HIx 1) (Name := ℕ) (U := UU) (Lvl := ℕ) c V' : sProp 𝕄) := by
  rw [Pipeline.unscopedBufs_split (Pipeline.pin (pcfgs (F := F)) adm) 2 launch3.win.arr_unscoped launch3.win.arr_inj c V',
    Pipeline.RDat.arrays_eq (pcfgs (F := F)) adm (rdats2 W) 2 c launch3.arr_whole ((rdats2 W 2 c).share_full fun _ => rfl)]
  refine sep_mono (Entails.of_eq (bigSep_congr fun w _ => by rw [hA]; rfl)) (Entails.of_eq ?_)
  unfold Pipeline.unscopedRest
  exact bigSep_congr fun b hb => by rw [hrest b (Finset.mem_sdiff.mp hb).2]

set_option backward.isDefEq.respectTransparency.types false in
-- Exit at some W' with AgreeOff {main_v13} W W': the written array returns at unknown contents, all else is untouched.
def reg2 (W : Dev nD → Valuation τ sig (Elt F)) :
    Pipeline.RDat.RegionSeg (pcfgs (F := F)) adm (rdats2 W) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (R2.body_obligation2 (atTc W) c none).toRForget
  hwaits c := Pipeline.RDat.hwaits_of_owed_zero _ _ _ _ (K (F := F)).L (K (F := F)).lev 2 (fun _ _ => rfl) c
  pre c := TS c (W c) 1
  post c := iprop(∃ Wv' : Valuation τ sig (Elt F), ⌜AgreeOff {main_v13} (W c) Wv'⌝ ∗ TS c Wv' 1)
  X c := iprop(∃ r, prngReg c r)
  Y c := iprop(∃ r, prngReg c r)
  Z c := Pipeline.unscopedRest (Ix := HIx 1) (Name := ℕ) (U := UU) (Lvl := ℕ) spec3 c (atTc W c)
  hentry c := by
    rw [Pipeline.ownSems0_none]
    have hsplit := Pipeline.RDat.arrays_of_unscopedBufs (p := 2) (pcfgs (F := F)) adm (rdats2 W) launch3.win launch3.arr_whole c
      ((rdats2 W 2 c).share_full fun _ => rfl) (atTc W c) fun _ => rfl
    rw [Pipeline.unscopedBufs_held] at hsplit
    unfold TS
    iintro ⟨⟨Hub, Hp, HO⟩, -, -⟩
    ihave H := hsplit $$ Hub
    icases H with ⟨Ha, Hrest⟩
    imodintro
    iframe Ha
    isplitr; · unfold Pipeline.prefHeld; rw [show (Finset.univ : Finset (Fin 0)) = ∅ from rfl, BI.bigSep_empty]; iempintro
    iframe Hp Hrest
    unfold Pipeline.RDat.owesAt Pipeline.owesWithin owesSt
    icases HO with ⟨%Wt, %hW, HO⟩; iexists Wt; isplitr
    · ipureintro; exact fun _ _ => Or.inl trivial
    rw [(K (F := F)).Otc_end c (le_refl 1)]; iexact HO
  hin c := by
    rw [show (rdats2 W 2 c).Φ 0 = R2.ΦA2 c from rfl]; unfold R2.ΦA2
    iintro ⟨Hp, -, Hr⟩
    iframe Hr Hp
  hout c := by
    rw [Pipeline.ownSems0_none]
    rw [show (rdats2 W 2 c).Φ (Fin.last _) = R2.ΦA2 c from rfl]; unfold R2.ΦA2
    iintro ⟨Hr, Hp⟩
    iframe Hp Hr
    iempintro
  hexit c := by
    classical
    unfold TS Pipeline.RDat.arraysAt
    iintro ⟨Ha, HO, HY, Hrest⟩
    ihave Ha' := (BI.bigSep_exists_pi Finset.univ (fun w F => iprop(⌜(rdats2 W 2 c).ArrAt w cfg3.N F⌝
        ∗ (cfg3.win w).arr.view.loc (c : Thread nD τ) ↦[(cfg3.win w).arr.view.set]{(rdats2 W 2 c).share w} F))) $$ Ha
    icases Ha' with ⟨%A, Ha⟩
    ihave Ha2 := (BI.bigSep_pure_sep Finset.univ (fun w => (rdats2 W 2 c).ArrAt w cfg3.N (A w))
        (fun w => (cfg3.win w).arr.view.loc (c : Thread nD τ) ↦[(cfg3.win w).arr.view.set]{(rdats2 W 2 c).share w} A w)) $$ Ha
    icases Ha2 with ⟨%hA', Ha⟩
    have hinA : ∀ w, (cfg3.win w).isOut = false → A w = atTc W c (Pipeline.arrRef spec3 w) := fun w hw => by
      have h := hA' w (Finset.mem_univ w)
      rw [Pipeline.RDat.ArrAt_in (rdats2 W 2 c) w hw] at h
      exact h
    have hjoin := unscopedBufs_of_arraysR W c (atTc W c) (atTc (fun _ => Pipeline.withArrays spec3 c (W c) A) c) A
      (fun w => (Pipeline.withArrays_arr spec3 launch3.win.arr_inj c (W c) A w).symm)
      (fun b hb => Pipeline.withArrays_of_ne spec3 c (W c) A b fun w e => hb (Finset.mem_image.mpr ⟨w, Finset.mem_univ _, e⟩))
    rw [Pipeline.unscopedBufs_held] at hjoin
    unfold Pipeline.RDat.arrays at hjoin
    imodintro
    iexists (Pipeline.withArrays spec3 c (W c) A)
    isplitr
    · ipureintro
      intro b hb
      by_cases hw : ∃ w, Pipeline.arrRef spec3 w = b
      · obtain ⟨w, rfl⟩ := hw
        rw [Pipeline.withArrays_arr spec3 launch3.win.arr_inj c (W c) A w]
        exact hinA w (isIn_of_ne w fun e => hb (Finset.mem_singleton.mpr e))
      · exact Pipeline.withArrays_of_ne spec3 c (W c) A b fun w e => hw ⟨w, e⟩
    iframe HY
    isplitl [Ha Hrest]
    · iapply hjoin; iframe Ha Hrest
    unfold Pipeline.RDat.owesAt Pipeline.owesWithin owesSt
    icases HO with ⟨%Wt, %hW, HO⟩; iexists Wt; isplitr
    · ipureintro
      exact WBelow_one c Wt
    rw [(K (F := F)).Otc_end c (le_refl 1)]; iexact HO

-- Hence the step: what follows the call may assume only agreement off main_v13.
theorem step_reg2_k (W : Dev nD → Valuation τ sig (Elt F)) (d : Dev nD) {β : Type}
    (k : PUnit → Prog (TpuEff nD τ sig (Elt F) (SparseCore.Sig (ΛP (F := F)) 1) .tc) β) (Q : β → sProp 𝕄) :
    iprop(levAts (K (F := F)).L (K (F := F)).lev ∗ boundary (T d) ∗ TS d (W d) 1 ∗ ghostAt 2 d
        ∗ (∀ Wv', ⌜AgreeOff ({main_v13} : Finset (Ref sig .tc)) (W d) Wv'⌝ -∗ iprop(boundary (T d) ∗ TS d Wv' 1)
            -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry 2)) ()) : Prog (TpuEff nD τ sig (Elt F) (SparseCore.Sig (ΛP (F := F)) 1) .tc) PUnit) >>= k) Q := by
  have h := step_regionR (rdats2 W) (reg2 W) d k Q
  rw [show (reg2 W).pre d = TS d (W d) 1 from rfl,
    show (reg2 W).post d = iprop(∃ Wv' : Valuation τ sig (Elt F), ⌜AgreeOff {main_v13} (W d) Wv'⌝ ∗ TS d Wv' 1) from rfl] at h
  refine BIBase.Entails.trans ?_ h
  iintro ⟨Hlev, Hb, HT, Hg, Hk⟩
  iframe Hlev Hb HT Hg
  iintro ⟨Hb, ⟨%Wv', %hag, HT⟩⟩
  iapply Hk $$ %Wv' %hag [Hb HT]
  iframe Hb HT

end Cert.Proof.KB.Launch

end
-- ==== Proof.KBLaunch.lean ====
import proofs.«211030_g66005057405235_cont_9to1c4b_431_51_alg».proof.Proof.KBLaunchCore
import proofs.«211030_g66005057405235_cont_9to1c4b_431_51_alg».proof.Proof.KBLaunchR1
import proofs.«211030_g66005057405235_cont_9to1c4b_431_51_alg».proof.Proof.KBLaunchR2

noncomputable section

namespace Cert.Proof.KB.Launch

open Cert.Kernel Cert.Kernel.Gen
open Cert.Proof.KB
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig (SparseCore.Cfg.HIx 1) (Elt F) ℕ Cert.Proof.KB.UU ℕ

def argRefs : List (Ref sig .tc) :=
  [main_arg0, main_arg1, main_arg2, main_arg3, main_arg4, main_arg5, main_arg6, main_arg7, main_arg8, main_arg9, main_arg10]

def S2 : Finset (Ref sig .tc) := {main_v13}

theorem args_off_S1 : ∀ b ∈ argRefs, b ∉ S1 := by decide
theorem args_off_S2 : ∀ b ∈ argRefs, b ∉ S2 := by decide
theorem args_ne_v12 : ∀ b ∈ argRefs, b ≠ main_v12 := by decide
theorem args_ne_v14 : ∀ b ∈ argRefs, b ≠ main_v14 := by decide
theorem args_unscoped : ∀ b ∈ argRefs, ¬ (Proc.devRef .tc b : DevRef τ sig).isScoped := by decide

-- Wv agrees with the launch memory m at the eleven arguments.
def KeepsArgs (m : (ℓ : Loc nD τ sig) → Buf (Elt F) ℓ) (d : Dev nD) (Wv : Valuation τ sig (Elt F)) : Prop :=
  ∀ b ∈ argRefs, Wv (Proc.devRef .tc b) = m ((d.tc : Thread nD τ).loc b)

variable {m : (ℓ : Loc nD τ sig) → Buf (Elt F) ℓ} {d : Dev nD} {Wv Wv' : Valuation τ sig (Elt F)}

theorem KeepsArgs.agree {S : Finset (Ref sig .tc)} (h : KeepsArgs m d Wv) (hS : ∀ b ∈ argRefs, b ∉ S) (ha : AgreeOff S Wv Wv') :
    KeepsArgs m d Wv' := fun b hb => (ha b (hS b hb)).trans (h b hb)
theorem KeepsArgs.after2 (h : KeepsArgs m d Wv) : KeepsArgs m d (StableHlo.after hostOps2 Wv) := fun b hb =>
  (after2_keeps Wv b (args_ne_v12 b hb)).trans (h b hb)
theorem KeepsArgs.after3 (h : KeepsArgs m d Wv) : KeepsArgs m d (StableHlo.after hostOps3 Wv) := fun b hb =>
  (after3_keeps Wv b (args_ne_v14 b hb)).trans (h b hb)

-- Nothing before the second call writes such a buffer, so it still holds its launch contents there.
theorem W4_keeps (m : (ℓ : Loc nD τ sig) → Buf (Elt F) ℓ) (c : Dev nD) (b : Ref sig .tc)
    (h0 : b ∉ [main_v0, main_v1, main_c, main_call0_v0, main_v2, main_c_0, main_call1_v0, main_v3, main_v4, main_c_1, main_call2_v0, main_v5, main_v6, main_v7])
    (hr0 : ∀ w, Pipeline.arrRef spec0 w = b → (cfg0.win w).isOut = false) (h1 : b ≠ main_v9) (hg : b ≠ main_v10) :
    W4 m c (Proc.devRef .tc b) = m ((c.tc : Thread nD τ).loc b) :=
  calc W4 m c (Proc.devRef .tc b)
    _ = W3 m c (Proc.devRef .tc b) := outG_of_ne _ c _ (StableHlo.devRef_ne_of_ne hg)
    _ = W2 m c (Proc.devRef .tc b) := after1_keeps _ b h1
    _ = W1 m c (Proc.devRef .tc b) := out0_keeps _ c b hr0
    _ = W0 m c (Proc.devRef .tc b) := after0_keeps _ b h0
    _ = m ((c.tc : Thread nD τ).loc b) := rfl

theorem W4_keepsArgs (m : (ℓ : Loc nD τ sig) → Buf (Elt F) ℓ) (c : Dev nD) : KeepsArgs m c (W4 m c) := by
  intro b hb
  simp only [argRefs, List.mem_cons, List.not_mem_nil, or_false] at hb
  rcases hb with rfl | rfl | rfl | rfl | rfl | rfl | rfl | rfl | rfl | rfl | rfl <;>
    exact W4_keeps m c _ (by decide) (by decide) (by decide) (by decide)

-- The final assertion: the unscoped buffers are held at some valuation keeping the arguments.
def FINB (m : (ℓ : Loc nD τ sig) → Buf (Elt F) ℓ) (d : Dev nD) : sProp 𝕄 :=
  iprop(∃ Wv : Valuation τ sig (Elt F), ⌜KeepsArgs m d Wv⌝ ∗ StableHlo.held (T d) (Pipeline.ucRefs τ sig) Wv)

def fqB (m : (ℓ : Loc nD τ sig) → Buf (Elt F) ℓ) (d : Dev nD) (s' : Phys nD τ sig (Elt F)) : Prop :=
  ∀ b ∈ argRefs, s'.mem.mem (d, Proc.devRef .tc b) = m ((d.tc : Thread nD τ).loc b)

theorem hfinB (m : (ℓ : Loc nD τ sig) → Buf (Elt F) ℓ) (d : Dev nD) (s' : Phys nD τ sig (Elt F)) :
    iprop(FINB m d ∗ SI s') ⊢ (⌜fqB m d s'⌝ : sProp 𝕄) := by
  unfold FINB StableHlo.held
  iintro ⟨⟨%Wv, %hk, Hh⟩, HSI⟩
  ihave H := (pointsTo_read_all (Pipeline.ucRefs τ sig) (fun b => (d, b)) Wv s') $$ [Hh HSI]
  · isplitl [Hh] <;> iassumption
  icases H with ⟨%h, -⟩
  ipureintro
  intro b hb
  exact (h _ (mem_uc b (args_unscoped b hb))).trans (hk b hb)

section Run

variable [∀ e, Nonempty (Elt F e)]

variable (m : (ℓ : Loc nD τ sig) → Buf (Elt F) ℓ) (ρ : Dev nD → PrngReg)

-- Chain the steps: each names its exit valuation or leaves one agreeing off arrays disjoint from the arguments, so KeepsArgs carries through.
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FINB m d) := by
  rw [main_chain, tcSt_eq, tcRes_eq, G_eq]
  simp only [Pipeline.chain_cons, Pipeline.chain_nil]
  iintro ⟨#Hctx, ⟨HO, Hrest⟩, ⟨Hb, Hh, -, Hp⟩, ⟨Hg0, Hg1, Hg2⟩⟩
  ihave #Hlev := (SparseCore.Cfg.ctx_levAts κ) $$ Hctx
  iapply (step_host hostOps0 hostOps0_sub hostOps0_fresh d (W0 m d) 0 _ _)
  iframe Hb
  isplitl [Hh Hp HO]
  · unfold TS; iframe Hh HO; iexists _; iexact Hp
  iintro ⟨Hb, HT⟩
  iapply (step_reg0 (W1 m) d _ _)
  isplitr; · iexact Hlev
  iframe Hb HT Hg0
  iintro ⟨Hb, HT⟩
  iapply (step_host hostOps1 hostOps1_sub hostOps1_fresh d (W2 m d) 0 _ _)
  iframe Hb HT
  iintro ⟨Hb, HT⟩
  iapply (step_gather κ d (W3 m) _ _)
  isplitr; · iexact Hctx
  iframe Hrest HT
  iintro ⟨Hrest, HT⟩
  iapply (step_reg1 (W4 m) d _ _)
  isplitr; · iexact Hlev
  iframe Hb HT Hg1
  iintro %Wv1 %ha1 ⟨Hb, HT⟩
  iapply (step_host hostOps2 hostOps2_sub hostOps2_fresh d Wv1 1 _ _)
  iframe Hb HT
  iintro ⟨Hb, HT⟩
  iapply (step_reg2_k (fun _ => StableHlo.after hostOps2 Wv1) d _ _)
  isplitr; · iexact Hlev
  iframe Hb HT Hg2
  iintro %Wv2 %ha2 ⟨Hb, HT⟩
  iapply (step_host hostOps3 hostOps3_sub hostOps3_fresh d Wv2 1 _ _)
  iframe Hb HT
  iintro ⟨Hb, HT⟩
  rw [wp_pure]; imodintro
  unfold TS
  icases HT with ⟨Hh, -, HO⟩
  isplitl [HO Hrest]
  · rw [tcSt_eq]; iframe HO Hrest
  unfold FINB
  iexists _
  isplitr
  · ipureintro
    exact ((((W4_keepsArgs m d).agree args_off_S1 ha1).after2).agree args_off_S2 ha2).after3
  iexact Hh

end Run

theorem run_main (m : (ℓ : Loc nD τ sig) → Buf (Elt Bits) ℓ) (ρ : Dev nD → PrngReg)
    (hI : ∀ (c : Dev nD) j, (m ((c.tc : Thread nD τ).loc main_arg2) j).toNat < 1000) :
    θ_run (Cert.Kernel.defs (F := Bits)) (Cert.Kernel.threads (F := Bits)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  SparseCore.Cfg.θ_run_sc (K := K (F := Bits)) (D := D (F := Bits)) (𝒱 := 𝒱) (EH := EH) (P := PP m) facts v₀
    (fun q hq => match q with | 0 => nomatch hq)
    (fun q _ => match q with | 0 => Tile.tileObl _ _ _ facts (idx_range m hI))
    (fun q _ => match q with | 0 => SparseCore.Cfg.VecSplit.of_plain (Tile.vecSplit _ _ _))
    m ρ main (G (F := Bits)) (FINB m) (u₀ (F := Bits)) (sep_elim_left.trans (hu₀ (PP m) (Tile.P_x _ _ _)))
    (hmain m ρ) (fqB m) (hfinB m) _
    (fun s' h c => by refine ⟨?_, ?_, ?_, ?_, ?_, ?_, ?_, ?_, ?_, ?_, ?_⟩ <;> exact h c _ (by decide))
    (Tile.P_held _ _ _)

end Cert.Proof.KB.Launch

end
-- ==== Proof.KICommon.lean ====
import proofs.«211030_g66005057405235_cont_9to1c4b_431_51_alg».proof.Defs
import proofs.«211030_g66005057405235_cont_9to1c4b_431_51_alg».proof.Proof.Gen.KernelIdeal
import proofs.«211030_g66005057405235_cont_9to1c4b_431_51_alg».proof.Proof.Gen.KernelIdeal.Skeleton
import proofs.«211030_g66005057405235_cont_9to1c4b_431_51_alg».proof.Proof.Gen.KernelIdeal.Launch
import proofs.«211030_g66005057405235_cont_9to1c4b_431_51_alg».proof.Proof.Gen.KernelIdeal.Points
import Idealize.ShloMosaic.Lib.SparseCore.Launch
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × (UP × Counters)

abbrev EH : Emb UH (MT nD τ sig (HIx 1) (Elt F) ℕ UU ℕ) := embL

def EP : Emb UP (MT nD τ sig (HIx 1) (Elt F) ℕ UU ℕ) :=
  (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP embR; infer_instance

end Cert.Proof.KI

end
-- ==== Proof.KILaunchCommon.lean ====
import proofs.«211030_g66005057405235_cont_9to1c4b_431_51_alg».proof.Proof.KICommon
import Idealize.ShloMosaic.Lib.Pipeline.RegionsLoop
import Idealize.ShloMosaic.Lib.Pipeline.FrameSuffix

noncomputable section

namespace Cert.Proof.KI.Launch

open Cert.KernelIdeal Cert.KernelIdeal.Gen
open Cert.Proof.KI
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (SparseCore.Cfg.HIx 1) (Elt F) ℕ Cert.Proof.KI.UU ℕ

abbrev atTc (W : Dev nD → Valuation τ sig (Elt F)) : (c : Dev nD) → (b : Ref sig .tc) → Buf (Elt F) ((c : Thread nD τ).loc b) :=
  fun c b => W c b

abbrev adm : (p : Fin 3) → (pcfgs (F := F) p).Adm := fun p => (cfgs p).toPCfg_adm

def owesSt (d : Dev nD) (n : ℕ) : sProp 𝕄 :=
  iprop(∃ Wt, ⌜(K (F := F)).WBelow (T d) Wt (8 * n)⌝ ∗ owes (T d) ((K (F := F)).Otc d n) Wt)

theorem Otc_none (d : Dev nD) (n : ℕ) (g : GSem nD τ sig) : (K (F := F)).Otc d n g none = 0 :=
  Nat.eq_zero_of_not_pos fun h => by
    have := SparseCore.Cfg.lev_of_Otc_pos (K := K (F := F)) h
    rw [SparseCore.Cfg.lev_none] at this; omega

theorem idx_none_of_WBelow {d : Dev nD} {Wt : Waits sig (HIx 1)} (h : (K (F := F)).WBelow (T d) Wt (8 * 0)) : ∀ p ∈ Wt, p.2 = none := fun p hp => by
  have hp' := h p hp
  rcases hp2 : p.2 with _ | q
  · rfl
  · rw [hp2] at hp'; have := (K (F := F)).lev_some_pos (T d, p.1) q; omega

theorem WBelow_one (d : Dev nD) (Wt : Waits sig (HIx 1)) : (K (F := F)).WBelow (T d) Wt (8 * 1) := fun p _ => by
  rcases hp2 : p.2 with _ | q
  · simp
  · have := (K (F := F)).lev_some_le (T d, p.1) q
    have hq : q.val = 0 := by omega
    omega

def TS (d : Dev nD) (Wv : Valuation τ sig (Elt F)) (n : ℕ) : sProp 𝕄 :=
  iprop(StableHlo.held (T d) (Pipeline.ucRefs τ sig) Wv ∗ (∃ r, prngReg d r) ∗ owesSt (F := F) d n)

abbrev ghostAt (p : Fin 3) (d : Dev nD) : sProp 𝕄 :=
  iprop(Pipeline.cellsGhost (Pipeline.pin (pcfgs (F := F)) adm) EP p d ∗ Pipeline.toksInit (Pipeline.pin (pcfgs (F := F)) adm) EP p d)

end Cert.Proof.KI.Launch

end
-- ==== Proof.KIRegion0.lean ====
import proofs.«211030_g66005057405235_cont_9to1c4b_431_51_alg».proof.Proof.KICommon
import Idealize.ShloMosaic.Lib.Pipeline.FrameBody
import Idealize.ShloMosaic.Lib.Pipeline.FrameSuffix
import Idealize.ShloMosaic.Lib.Tactic

noncomputable section

namespace Cert.Proof.KI.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (SparseCore.Cfg.HIx 1) (Elt F) ℕ Cert.Proof.KI.UU ℕ

variable (V : (c : Dev nD) → (b : Ref sig .tc) → Buf (Elt F) ((c : Thread nD τ).loc b))

-- Window w's block at point t, read off the array as found on entry.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x128 := Rect.unit (s := S1024x128) ![0, 0] S1024x128.size inb_S1024x128_S1024x128_0_0
abbrev r0_1 : Rect S128x256 := Rect.unit (s := S128x256) ![0, 0] S128x256.size inb_S128x256_S128x256_0_0
abbrev r0_2 : Rect S1x256 := Rect.unit (s := S1x256) ![0, 128] S1x128.size inb_S1x256_S1x128_0_128
-- Row r of the 8 × 128 score block.
abbrev r0_row (r : Fin 8) : Rect S8x128 := Rect.unit (s := S8x128) ![r, 0] S1x128.size fun a => match a with
  | ⟨0, _⟩ => by show r.val + 1 ≤ 8; omega
  | ⟨1, _⟩ => by show 0 + 128 ≤ 128; omega
abbrev r0_11 : Rect S1000x128 := Rect.unit (s := S1000x128) ![0, 0] S1000x128.size inb_S1000x128_S1000x128_0_0
abbrev r0_12 : Rect S128x128 := Rect.unit (s := S128x128) ![0, 0] S128x128.size inb_S128x128_S128x128_0_0
abbrev r0_13 : Rect S1x128 := Rect.unit (s := S1x128) ![0, 0] S1x128.size inb_S1x128_S1x128_0_0

def out0_6 (x0 : Vec F S1024x128 .f32) (x1 : Vec F S1x256 .f32) (x2 : Vec F S128x128 .f32) (x3 : Vec F S1x128 .f32) (x4 : Vec F S128x256 .f32) (x5 : Vec F S1x128 .f32) : Vec F S8x128 .f32 :=
  View.canon [⟨r0_row 7, k0_pay13 (View.ld x0 r0_0) (View.ld x1 r0_2)⟩,
    ⟨r0_row 6, k0_pay12 (View.ld x0 r0_0) (View.ld x1 r0_2)⟩,
    ⟨r0_row 5, k0_pay11 (View.ld x0 r0_0) (View.ld x1 r0_2)⟩,
    ⟨r0_row 4, k0_pay10 (View.ld x0 r0_0) (View.ld x1 r0_2)⟩,
    ⟨r0_row 3, k0_pay9 (View.ld x0 r0_0) (View.ld x1 r0_2)⟩,
    ⟨r0_row 2, k0_pay8 (View.ld x0 r0_0) (View.ld x1 r0_2)⟩,
    ⟨r0_row 1, k0_pay7 (View.ld x0 r0_0) (View.ld x1 r0_2)⟩,
    ⟨r0_row 0, k0_pay6 (View.ld x0 r0_0) (View.ld x1 r0_2)⟩]
-- The eight rows tile the block, so together they cover it.
theorem cover0_6 (p0 p1 p2 p3 p4 p5 p6 p7 : Vec F S1x128 .f32) (y : S8x128.Idx) :
    ∃ pc ∈ ([⟨r0_row 7, p0⟩, ⟨r0_row 6, p1⟩, ⟨r0_row 5, p2⟩, ⟨r0_row 4, p3⟩, ⟨r0_row 3, p4⟩, ⟨r0_row 2, p5⟩, ⟨r0_row 1, p6⟩, ⟨r0_row 0, p7⟩] : List (View.Piece (Elt F) S8x128 .f32)), y ∈ pc.1.set :=
  View.cover_of_tiled (s := S8x128) _ S1x128.size (by rfl) y
def out0_7 (x0 : Vec F S1024x128 .f32) (x1 : Vec F S1x256 .f32) (x2 : Vec F S128x128 .f32) (x3 : Vec F S1x128 .f32) (x4 : Vec F S128x256 .f32) (x5 : Vec F S1x128 .f32) : Vec F S1000x128 .f32 :=
  View.canon [⟨r0_11, k0_pay14 (View.ld x0 r0_0) (View.ld x4 r0_1)⟩]
theorem cover0_7 (p0 : Vec F S1000x128 .f32) (y : S1000x128.Idx) :
    ∃ pc ∈ ([⟨r0_11, p0⟩] : List (View.Piece (Elt F) S1000x128 .f32)), y ∈ pc.1.set :=
  View.cover_of_tiled _ S1000x128.size (by rfl) y
def out0_8 (x0 : Vec F S1024x128 .f32) (x1 : Vec F S1x256 .f32) (x2 : Vec F S128x128 .f32) (x3 : Vec F S1x128 .f32) (x4 : Vec F S128x256 .f32) (x5 : Vec F S1x128 .f32) : Vec F S128x128 .f32 :=
  View.canon [⟨r0_12, k0_pay1 (k0_pay4 (View.ld x4 r0_1)) (View.ld x2 r0_12)⟩]
theorem cover0_8 (p0 : Vec F S128x128 .f32) (y : S128x128.Idx) :
    ∃ pc ∈ ([⟨r0_12, p0⟩] : List (View.Piece (Elt F) S128x128 .f32)), y ∈ pc.1.set :=
  View.cover_of_tiled _ S128x128.size (by rfl) y
def out0_9 (x0 : Vec F S1024x128 .f32) (x1 : Vec F S1x256 .f32) (x2 : Vec F S128x128 .f32) (x3 : Vec F S1x128 .f32) (x4 : Vec F S128x256 .f32) (x5 : Vec F S1x128 .f32) : Vec F S1x128 .f32 :=
  View.canon [⟨r0_13, k0_pay2 (k0_pay4 (View.ld x4 r0_1)) (View.ld x3 r0_13) (View.ld x5 r0_13)⟩]
theorem cover0_9 (p0 : Vec F S1x128 .f32) (y : S1x128.Idx) :
    ∃ pc ∈ ([⟨r0_13, p0⟩] : List (View.Piece (Elt F) S1x128 .f32)), y ∈ pc.1.set :=
  View.cover_of_tiled _ S1x128.size (by rfl) y

def ΦA0 (c : Dev nD) : sProp 𝕄 :=
  iprop(Pipeline.scopedRest (Ix := SparseCore.Cfg.HIx 1) (Name := ℕ) (U := Cert.Proof.KI.UU) (Lvl := ℕ) (Val := Elt F) spec0 c ∗ ∃ r, prngReg c r)

-- The proof data: the arrays as found on entry; after the body each input at its block and each output at the canonical contents of its stores over the input blocks.
def dat0 (c : Dev nD) : Dat τ (Elt F) (SparseCore.Cfg.HIx 1) ℕ Cert.Proof.KI.UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 1 t) (iblk0 V c 2 t) (iblk0 V c 3 t) (iblk0 V c 4 t) (iblk0 V c 5 t)
    | ⟨8, _⟩ => out0_8 (iblk0 V c 0 t) (iblk0 V c 1 t) (iblk0 V c 2 t) (iblk0 V c 3 t) (iblk0 V c 4 t) (iblk0 V c 5 t)
    | ⟨9, _⟩ => out0_9 (iblk0 V c 0 t) (iblk0 V c 1 t) (iblk0 V c 2 t) (iblk0 V c 3 t) (iblk0 V c 4 t) (iblk0 V c 5 t)
  Φ _ := ΦA0 c
  q _ := fullShare
  owed _ := (Cert.Proof.KI.K (F := F)).Otc c 0
  recorded _ := {p | p.2 = none}

-- An input is whole, uncut and never idle, and the body leaves its block in place: at every point it holds that block.
theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d
theorem before0_3 (c : Dev nD) (t : Fin cfg0.N) (d) : (dat0 V c).before 3 t d = iblk0 V c 3 t :=
  (dat0 V c).before_in_eq_fetched 3 rfl (fun _ => rfl) (fun _ _ _ => rfl) (fun _ => rfl) t d
theorem before0_4 (c : Dev nD) (t : Fin cfg0.N) (d) : (dat0 V c).before 4 t d = iblk0 V c 4 t :=
  (dat0 V c).before_in_eq_fetched 4 rfl (fun _ => rfl) (fun _ _ _ => rfl) (fun _ => rfl) t d
theorem before0_5 (c : Dev nD) (t : Fin cfg0.N) (d) : (dat0 V c).before 5 t d = iblk0 V c 5 t :=
  (dat0 V c).before_in_eq_fetched 5 rfl (fun _ => rfl) (fun _ _ _ => rfl) (fun _ => rfl) t d

-- With each input at its block, running the body leaves each output at the canonical contents of its stores; the invariant and what is owed pass through unchanged.
theorem body_obligation0 (c : Dev nD) (ι : SparseCore.Cfg.HIx 1) :
    Pipeline.BodyObligation (dat0 (F := F) V c) (defs₀ (F := F)) Variants.none ι Set.univ := fun t => by
  show iprop((dat0 V c).Φ t.castSucc ∗ (dat0 V c).owesAt ι t.castSucc
      ∗ bigSep Finset.univ fun w : Fin cfg0.W => iprop(∃ d, owns (c : Thread nD τ) ((cfg0.win w).stage (cfg0.slots t w)) fullShare ((dat0 V c).before w t d)))
    ⊢ wp frame (wpE (defs₀ (F := F)) Variants.none c none) Set.univ (bodyAt0 t) fun _ =>
      iprop((dat0 V c).Φ t.succ ∗ (dat0 V c).owesAt ι t.castSucc
        ∗ bigSep Finset.univ fun w : Fin cfg0.W => owns (c : Thread nD τ) ((cfg0.win w).stage (cfg0.slots t w)) fullShare ((dat0 V c).after w t))
  rw [bigSep_W0, bigSep_W0]
  simp only [before0_0, before0_1, before0_2, before0_3, before0_4, before0_5]
  dsimp only [dat0]
  generalize iblk0 V c 0 t = x0, iblk0 V c 1 t = x1, iblk0 V c 2 t = x2, iblk0 V c 3 t = x3, iblk0 V c 4 t = x4, iblk0 V c 5 t = x5
  unfold bodyAt0
  simp only [cc0__prep_body_eq_skeleton]; unfold cc0__prep_body_skel
  simp only [k0_part1_eq_skeleton]; unfold k0_part1_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, -, H6⟩, ⟨%d7, %f7, -, H7⟩, ⟨%d8, %f8, -, H8⟩, ⟨%d9, %f9, -, H9⟩⟩
  subst hf0 hf1 hf2 hf3 hf4 hf5
  sl_exec
  sl_step
  iframe HΦ Ho
  isplitl [H0]; rotate_left
  isplitl [H1]; rotate_left
  isplitl [H2]; rotate_left
  isplitl [H3]; rotate_left
  isplitl [H4]; rotate_left
  isplitl [H5]; rotate_left
  isplitl [H6]; rotate_left
  isplitl [H7]; rotate_left
  isplitl [H8]; rotate_left
  all_goals
    iexists _; isplitr; swap; · iassumption
    ipureintro
    first
      | exact View.read_writes_eq_canon _ _ _ (by first | exact cover0_6 _ _ _ _ _ _ _ _ | exact cover0_7 _ | exact cover0_8 _ | exact cover0_9 _)
      | rfl

end Cert.Proof.KI.R0

end
-- ==== Proof.KIRegion1Runs.lean ====
import proofs.«211030_g66005057405235_cont_9to1c4b_431_51_alg».proof.Proof.KICommon
import Idealize.ShloMosaic.Lib.Pipeline.FrameBody
import Idealize.ShloMosaic.Lib.Pipeline.FrameSuffix
import Idealize.ShloMosaic.Lib.Pipeline.Value
import Idealize.ShloMosaic.Lib.Tactic

noncomputable section

namespace Cert.Proof.KI.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (SparseCore.Cfg.HIx 1) (Elt F) ℕ Cert.Proof.KI.UU ℕ

abbrev cond1_0 (i : grid2.Coords) : Prop := (Scalar.cmpi .ne (Scalar.extui (Scalar.cmpi .eq (BitVec.ofNat 32 (i 0).val) 0#32)) 0#32) = 1#1
-- the first condition holds at the first grid point only
theorem hcond1_0 : ∀ t : Fin cfg2.N, cond1_0 (grid2.coords t) ↔ t.val = 0 :=
  (by decide +kernel : ∀ t : Fin grid2.N, cond1_0 (grid2.coords t) ↔ t.val = 0)

abbrev cond1_1 (i : grid2.Coords) : Prop := k2_cond2 i = 1#1
-- the second at the last only
theorem hcond1_1 : ∀ t : Fin cfg2.N, cond1_1 (grid2.coords t) ↔ t.val = 12 :=
  (by decide +kernel : ∀ t : Fin grid2.N, cond1_1 (grid2.coords t) ↔ t.val = 12)

abbrev r1_0 : Rect S4096x128 := Rect.unit (s := S4096x128) ![0, 0] S4096x128.size inb_S4096x128_S4096x128_0_0
abbrev r1_1 : Rect S1x1x4096 := Rect.unit (s := S1x1x4096) ![0, 0, 0] S1x1x4096.size inb_S1x1x4096_S1x1x4096_0_0_0
abbrev r1_2 : Rect S8x128 := Rect.unit (s := S8x128) ![0, 0] S8x128.size inb_S8x128_S8x128_0_0
abbrev r1_3 : Rect S1x256 := Rect.unit (s := S1x256) ![0, 0] S1x128.size inb_S1x256_S1x128_0_0
abbrev r1_4 : Rect S1x4096 := Rect.unit (s := S1x4096) ![0, 0] S1x4096.size inb_S1x4096_S1x4096_0_0
abbrev rS0 : Rect S2 := Rect.unit (s := S2) ![0] S1.size inb_S2_S1_0
abbrev rS1 : Rect S2 := Rect.unit (s := S2) ![1] S1.size inb_S2_S1_1
abbrev j1 : S1.Idx := Shape.Idx.first (numel1_S1.symm ▸ Nat.one_pos)

-- the block's scores from the four input blocks
def sco1 (i : grid2.Coords) (x0 : Vec F S4096x128 .f32) (x1 : Vec F S1x1x4096 .i32) (x2 : Vec F S8x128 .f32) (x3 : Vec F S1x256 .f32) :
    Vec F S1x4096 .f32 :=
  k2_pay3 i (View.ld x0 r1_0) (View.ld x3 r1_3) (View.ld x1 r1_1) (View.ld x2 r1_2)

-- the running maximum and denominator folded over one more block of scores
def scStep (s : Elt F .f32 × Elt F .f32) (x : Vec F S1x4096 .f32) : Elt F .f32 × Elt F .f32 :=
  (k2_pay1 x s.1, k2_pay2 x s.1 s.2)

def scInit : Elt F .f32 × Elt F .f32 := (Named.named κ "neg_big" 0xF149F2CA#32, Scalar.ofBits .f32 0x00000000#32)

def scW (xs : Vec F S2 .f32) : Elt F .f32 × Elt F .f32 := (View.ld xs rS0 j1, View.ld xs rS1 j1)

def scVec (p : Elt F .f32 × Elt F .f32) : Vec F S2 .f32 :=
  View.canon [⟨rS1, fun _ => p.2⟩, ⟨rS0, fun _ => p.1⟩]

-- the two one-word rectangles tile the two-word shape
theorem coverS (p1 p0 : S1.Idx → Elt F .f32) (y : S2.Idx) :
    ∃ pc ∈ ([⟨rS1, p1⟩, ⟨rS0, p0⟩] : List (View.Piece (Elt F) S2 .f32)), y ∈ pc.1.set :=
  View.cover_of_tiled [⟨rS1, p1⟩, ⟨rS0, p0⟩] S1.size (by rfl) y

theorem coverS4 (p1 p0 q1 q0 : S1.Idx → Elt F .f32) (y : S2.Idx) :
    ∃ pc ∈ ([⟨rS1, p1⟩, ⟨rS0, p0⟩, ⟨rS1, q1⟩, ⟨rS0, q0⟩] : List (View.Piece (Elt F) S2 .f32)), y ∈ pc.1.set :=
  View.cover_of_tiled [⟨rS1, p1⟩, ⟨rS0, p0⟩, ⟨rS1, q1⟩, ⟨rS0, q0⟩] S1.size (by rfl) y

theorem rS0_emb_not_mem (x : rS0.shape.Idx) : rS0.emb x ∉ rS1.set := by revert x; decide

-- the two latest one-word stores decide both words, whatever was stored before
theorem canon_two (a b : Elt F .f32) (L : List (View.Piece (Elt F) S2 .f32)) :
    View.canon ((⟨rS1, fun _ => b⟩ : View.Piece (Elt F) S2 .f32) :: ⟨rS0, fun _ => a⟩ :: L) = scVec (a, b) := by
  show _ = View.canon [(⟨rS1, fun _ => b⟩ : View.Piece (Elt F) S2 .f32), ⟨rS0, fun _ => a⟩]
  funext y
  by_cases h1 : y ∈ rS1.set
  · obtain ⟨x, rfl⟩ : ∃ x, rS1.emb x = y := rS1.exists_idx_of_mem h1
    rw [View.canon_cons_emb, View.canon_cons_emb]
  · rw [View.canon_cons_of_not_mem (⟨rS1, fun _ => b⟩ : View.Piece (Elt F) S2 .f32) _ h1,
      View.canon_cons_of_not_mem (⟨rS1, fun _ => b⟩ : View.Piece (Elt F) S2 .f32) _ h1]
    obtain ⟨pc, hpc, hy⟩ := coverS (F := F) (fun _ => b) (fun _ => a) y
    simp only [List.mem_cons, List.mem_nil_iff, or_false] at hpc
    rcases hpc with rfl | rfl
    · exact absurd hy h1
    · obtain ⟨x, rfl⟩ : ∃ x, rS0.emb x = y := rS0.exists_idx_of_mem hy
      rw [View.canon_cons_emb, View.canon_cons_emb]

theorem scW_scVec (p : Elt F .f32 × Elt F .f32) : scW (scVec p) = p := by
  obtain ⟨a, b⟩ := p
  refine Prod.ext ?_ ?_
  · show View.canon [(⟨rS1, fun _ => b⟩ : View.Piece (Elt F) S2 .f32), ⟨rS0, fun _ => a⟩] (rS0.emb j1) = a
    rw [View.canon_cons_of_not_mem (⟨rS1, fun _ => b⟩ : View.Piece (Elt F) S2 .f32) _ (rS0_emb_not_mem j1), View.canon_cons_emb]
  · show View.canon [(⟨rS1, fun _ => b⟩ : View.Piece (Elt F) S2 .f32), ⟨rS0, fun _ => a⟩] (rS1.emb j1) = b
    rw [View.canon_cons_emb]

def out1_4 (i : grid2.Coords) (x0 : Vec F S4096x128 .f32) (x1 : Vec F S1x1x4096 .i32) (x2 : Vec F S8x128 .f32) (x3 : Vec F S1x256 .f32) :
    Vec F S1x4096 .f32 :=
  View.canon [⟨r1_4, sco1 i x0 x1 x2 x3⟩]

theorem cover1_4 (p0 : Vec F S1x4096 .f32) (y : S1x4096.Idx) :
    ∃ pc ∈ ([⟨r1_4, p0⟩] : List (View.Piece (Elt F) S1x4096 .f32)), y ∈ pc.1.set :=
  View.cover_of_tiled [⟨r1_4, p0⟩] S1x4096.size (by rfl) y

-- one whole store leaves what it stored
theorem out1_4_eq (i : grid2.Coords) (x0 : Vec F S4096x128 .f32) (x1 : Vec F S1x1x4096 .i32) (x2 : Vec F S8x128 .f32) (x3 : Vec F S1x256 .f32) :
    out1_4 i x0 x1 x2 x3 = sco1 i x0 x1 x2 x3 :=
  View.canon_unit_zero (funext fun a => by fin_cases a <;> rfl) inb_S1x4096_S1x4096_0_0 _

end Cert.Proof.KI.R1

end
-- ==== Proof.KIRegion1.lean ====
import proofs.«211030_g66005057405235_cont_9to1c4b_431_51_alg».proof.Proof.KIRegion1Runs

noncomputable section

namespace Cert.Proof.KI.R1

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (SparseCore.Cfg.HIx 1) (Elt F) ℕ Cert.Proof.KI.UU ℕ

-- the scores take the same value on two features blocks that agree on the rows inside the array
def ScoresLocal {F : FTy → Type} [FloatOps F] [Named F] : Prop :=
  ∀ (t : Fin cfg2.N) (d d' : Vec F S4096x128 .f32) (g : (win2_0.xblock (grid2.coords t)).Idx → Elt F .f32)
    (v4 : Vec F S1x128 .f32) (v6 : Vec F S1x1x4096 .i32) (v18 : Vec F S8x128 .f32),
    k2_pay3 (grid2.coords t) (win2_0.fill (grid2.coords t) d g) v4 v6 v18
      = k2_pay3 (grid2.coords t) (win2_0.fill (grid2.coords t) d' g) v4 v6 v18

theorem zz2 : (![0, 0] : Fin 2 → Nat) = fun _ => 0 := funext fun a => by fin_cases a <;> rfl
theorem zz3 : (![0, 0, 0] : Fin 3 → Nat) = fun _ => 0 := funext fun a => by fin_cases a <;> rfl

-- reading a whole block through its full rectangle is the block
theorem sco1_eq (i : grid2.Coords) (x0 : Vec F S4096x128 .f32) (x1 : Vec F S1x1x4096 .i32) (x2 : Vec F S8x128 .f32) (x3 : Vec F S1x256 .f32) :
    sco1 i x0 x1 x2 x3 = k2_pay3 i x0 (View.ld x3 r1_3) x1 x2 := by
  unfold sco1
  rw [View.ld_unit_zero zz2 inb_S4096x128_S4096x128_0_0, View.ld_unit_zero zz3 inb_S1x1x4096_S1x1x4096_0_0_0,
    View.ld_unit_zero zz2 inb_S8x128_S8x128_0_0]

theorem sco1_local (hloc : ScoresLocal (F := F)) (t : Fin cfg2.N) (d d' : Vec F S4096x128 .f32)
    (g : (win2_0.xblock (grid2.coords t)).Idx → Elt F .f32) (x1 : Vec F S1x1x4096 .i32) (x2 : Vec F S8x128 .f32) (x3 : Vec F S1x256 .f32) :
    sco1 (grid2.coords t) (win2_0.fill (grid2.coords t) d g) x1 x2 x3 = sco1 (grid2.coords t) (win2_0.fill (grid2.coords t) d' g) x1 x2 x3 := by
  rw [sco1_eq, sco1_eq]; exact hloc t d d' g _ _ _

section Region
variable (V : (c : Dev nD) → (b : Ref sig .tc) → Buf (Elt F) ((c : Thread nD τ).loc b))

def iblk1 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def fill0 : Vec F S4096x128 .f32 := fun _ => Scalar.ofBits .f32 0x00000000#32

def blk0 (c : Dev nD) (t : Fin cfg2.N) (d : Vec F S4096x128 .f32) : Vec F S4096x128 .f32 :=
  win2_0.fill (grid2.coords t) d (iblk1 V c 0 t)

def scoAt (c : Dev nD) (t : Fin cfg2.N) : Vec F S1x4096 .f32 :=
  sco1 (grid2.coords t) (blk0 V c t fill0) (iblk1 V c 1 t) (iblk1 V c 2 t) (iblk1 V c 3 t)

-- the two running words after n points: the reset pair folded over the scores of the points before n
def scAt (c : Dev nD) : Nat → Elt F .f32 × Elt F .f32
  | 0 => scInit
  | n + 1 => if h : n < cfg2.N then scStep (scAt c n) (scoAt V c ⟨n, h⟩) else scAt c n

theorem scAt_zero (c : Dev nD) : scAt V c 0 = scInit := rfl

theorem scAt_succ (c : Dev nD) (t : Fin cfg2.N) : scAt V c (t.val + 1) = scStep (scAt V c t.val) (scoAt V c t) := by
  show (if h : t.val < cfg2.N then scStep (scAt V c t.val) (scoAt V c ⟨t.val, h⟩) else scAt V c t.val) = _
  rw [dif_pos t.isLt]

abbrev scM : Memref sig .tc .smem S2 .f32 := Memref.whole cc2_scratch0

def restBut (c : Dev nD) : sProp 𝕄 :=
  Pipeline.scopedRestBut (Ix := SparseCore.Cfg.HIx 1) (Name := ℕ) (U := Cert.Proof.KI.UU) (Lvl := ℕ) (Val := Elt F) spec2 c [cc2_scratch0]

theorem scopedRest1_split (c : Dev nD) :
    (Pipeline.scopedRest (Ix := SparseCore.Cfg.HIx 1) (Name := ℕ) (U := Cert.Proof.KI.UU) (Lvl := ℕ) (Val := Elt F) spec2 c : sProp 𝕄)
      = iprop((∃ d, owns (c : Thread nD τ) scM fullShare d) ∗ restBut (F := F) c) := by
  rw [Pipeline.scopedRest_split_of_list spec2 c [cc2_scratch0] (by decide) (by decide)]
  unfold restBut
  simp only [bigSepL_singleton, scM, owns_whole]
  try rfl

-- the invariant before position n: from the first point on, the scratch holds the running words
def Phi1 (c : Dev nD) : Nat → sProp 𝕄
  | 0 => iprop(Pipeline.scopedRest (Ix := SparseCore.Cfg.HIx 1) (Name := ℕ) (U := Cert.Proof.KI.UU) (Lvl := ℕ) (Val := Elt F) spec2 c ∗ ∃ r, prngReg c r)
  | n + 1 => iprop(owns (c : Thread nD τ) scM fullShare (scVec (scAt V c (n + 1))) ∗ restBut (F := F) c ∗ ∃ r, prngReg c r)

theorem Phi1_zero (c : Dev nD) (n : Nat) (hz : n = 0) :
    Phi1 V c n = iprop(((∃ d, owns (c : Thread nD τ) scM fullShare d) ∗ restBut (F := F) c) ∗ ∃ r, prngReg c r) := by
  subst hz
  show iprop(Pipeline.scopedRest (Ix := SparseCore.Cfg.HIx 1) (Name := ℕ) (U := Cert.Proof.KI.UU) (Lvl := ℕ) (Val := Elt F) spec2 c ∗ ∃ r, prngReg c r) = _
  rw [scopedRest1_split]

theorem Phi1_pos (c : Dev nD) (n : Nat) (hz : n ≠ 0) :
    Phi1 V c n = iprop(owns (c : Thread nD τ) scM fullShare (scVec (scAt V c n)) ∗ restBut (F := F) c ∗ ∃ r, prngReg c r) := by
  cases n with
  | zero => exact absurd rfl hz
  | succ n => rfl

-- the postcondition's contents window by window: the blocks, the scores, the running words
def dat1 (c : Dev nD) : Dat τ (Elt F) (SparseCore.Cfg.HIx 1) ℕ Cert.Proof.KI.UU ℕ cfg2 c where
  A w := V c (Pipeline.arrRef spec2 w)
  after w t := match w with
    | ⟨0, _⟩ => blk0 V c t fill0
    | ⟨1, _⟩ => iblk1 V c 1 t
    | ⟨2, _⟩ => iblk1 V c 2 t
    | ⟨3, _⟩ => iblk1 V c 3 t
    | ⟨4, _⟩ => out1_4 (grid2.coords t) (blk0 V c t fill0) (iblk1 V c 1 t) (iblk1 V c 2 t) (iblk1 V c 3 t)
    | ⟨5, _⟩ => scVec (scAt V c (t.val + 1))
  Φ t := Phi1 V c t.val
  q _ := fullShare
  owed _ := 0

theorem after1_0 (c : Dev nD) (t : Fin cfg2.N) : (dat1 V c).after 0 t = blk0 V c t fill0 := by dsimp only [dat1]
theorem after1_4 (c : Dev nD) (t : Fin cfg2.N) :
    (dat1 V c).after 4 t = out1_4 (grid2.coords t) (blk0 V c t fill0) (iblk1 V c 1 t) (iblk1 V c 2 t) (iblk1 V c 3 t) := by dsimp only [dat1]
theorem after1_5 (c : Dev nD) (t : Fin cfg2.N) : (dat1 V c).after 5 t = scVec (scAt V c (t.val + 1)) := by dsimp only [dat1]

theorem Phi1_castSucc (c : Dev nD) (t : Fin cfg2.N) : (dat1 V c).Φ t.castSucc = Phi1 V c t.val := by
  dsimp only [dat1]; simp only [Fin.coe_castSucc]
theorem Phi1_succ (c : Dev nD) (t : Fin cfg2.N) : (dat1 V c).Φ t.succ = Phi1 V c (t.val + 1) := rfl

theorem Φ1_in (c : Dev nD) :
    iprop(Pipeline.scopedRest (Ix := SparseCore.Cfg.HIx 1) (Name := ℕ) (U := Cert.Proof.KI.UU) (Lvl := ℕ) (Val := Elt F) spec2 c ∗ ∃ r, prngReg c r)
      ⊢ (dat1 (F := F) V c).Φ 0 :=
  Idealize.SL.BI.Entails.refl _

-- the invariant after the last point gives back the rest at some contents
theorem Φ1_out (c : Dev nD) :
    (dat1 (F := F) V c).Φ (Fin.last cfg2.N)
      ⊢ iprop(Pipeline.scopedRest (Ix := SparseCore.Cfg.HIx 1) (Name := ℕ) (U := Cert.Proof.KI.UU) (Lvl := ℕ) (Val := Elt F) spec2 c ∗ ∃ r, prngReg c r) := by
  rw [show (dat1 (F := F) V c).Φ (Fin.last cfg2.N) = Phi1 V c (12 + 1) from rfl, scopedRest1_split]
  show iprop(owns (c : Thread nD τ) scM fullShare (scVec (scAt V c (12 + 1))) ∗ restBut (F := F) c ∗ ∃ r, prngReg c r) ⊢ _
  iintro ⟨HS, HR, Hg⟩
  iframe
  iexists _; iexact HS

theorem before1_0 (c : Dev nD) (t : Fin cfg2.N) (d) : (dat1 V c).before 0 t d = blk0 V c t d :=
  Dat.before_fetched _ 0 t (fetch2_0 t) d

theorem before1_1 (c : Dev nD) (t : Fin cfg2.N) (d) : (dat1 V c).before 1 t d = iblk1 V c 1 t :=
  Dat.before_fetched _ 1 t (fetch2_1 t) d

theorem before1_2 (c : Dev nD) (t : Fin cfg2.N) (d) : (dat1 V c).before 2 t d = iblk1 V c 2 t :=
  (dat1 V c).before_in_eq_fetched 2 rfl (fun _ => rfl) (fun _ _ _ => rfl) (fun _ => rfl) t d
theorem before1_3 (c : Dev nD) (t : Fin cfg2.N) (d) : (dat1 V c).before 3 t d = iblk1 V c 3 t :=
  (dat1 V c).before_in_eq_fetched 3 rfl (fun _ => rfl) (fun _ _ _ => rfl) (fun _ => rfl) t d

theorem before1_4 (c : Dev nD) (t : Fin cfg2.N) (d) : (dat1 V c).before 4 t d = d := by
  refine Dat.before_out_reset _ 4 rfl t ?_ d
  by_cases h : t.val = 0
  · exact .inl h
  · exact .inr ⟨h, flush2_4 _⟩

theorem idleAt1_5 : ∀ t : Fin cfg2.N, ¬cond1_1 (grid2.coords t) → cfg2.idle 5 (grid2.coords t) = true := by decide +kernel
theorem noFlush1_5 : ∀ t : Fin cfg2.N, ¬cond1_1 (grid2.coords t) → (cfg2.win 5).flush t = false := by decide +kernel
theorem liveAt1_5 : ∀ t : Fin cfg2.N, cond1_1 (grid2.coords t) → cfg2.idle 5 (grid2.coords t) = false := by decide +kernel

theorem leaves1_0 (c : Dev nD) (t : Fin cfg2.N) :
    (dat1 V c).leaves 0 t = iprop(∃ d, owns (c : Thread nD τ) (st2_0 t) fullShare (blk0 V c t d)) := by
  have h : (dat1 V c).leaves 0 t
      = iprop(∃ d, owns (c : Thread nD τ) (st2_0 t) fullShare (win2_0.fill (grid2.coords t) d (win2_0.cut (grid2.coords t) ((dat1 V c).after 0 t)))) := rfl
  rw [h]
  simp only [after1_0, blk0, Window.cut_fill]
  rfl
theorem leaves1_1 (c : Dev nD) (t : Fin cfg2.N) : (dat1 V c).leaves 1 t = owns (c : Thread nD τ) (st2_1 t) fullShare (iblk1 V c 1 t) := rfl
theorem leaves1_2 (c : Dev nD) (t : Fin cfg2.N) : (dat1 V c).leaves 2 t = owns (c : Thread nD τ) (st2_2 t) fullShare (iblk1 V c 2 t) := rfl
theorem leaves1_3 (c : Dev nD) (t : Fin cfg2.N) : (dat1 V c).leaves 3 t = owns (c : Thread nD τ) (st2_3 t) fullShare (iblk1 V c 3 t) := rfl
theorem leaves1_4 (c : Dev nD) (t : Fin cfg2.N) :
    (dat1 V c).leaves 4 t = owns (c : Thread nD τ) (st2_4 t) fullShare (out1_4 (grid2.coords t) (blk0 V c t fill0) (iblk1 V c 1 t) (iblk1 V c 2 t) (iblk1 V c 3 t)) := by
  have h : (dat1 V c).leaves 4 t = owns (c : Thread nD τ) (st2_4 t) fullShare ((dat1 V c).after 4 t) := rfl
  rw [h, after1_4]
-- the statistics memref, at the folded words at the last point and as found elsewhere, is what the postcondition asks of it
theorem leaves1_5_of (c : Dev nD) (t : Fin cfg2.N) (d5) :
    owns (c : Thread nD τ) (st2_5 t) fullShare (if cond1_1 (grid2.coords t) then scVec (scStep (scAt V c t.val) (scoAt V c t)) else (dat1 V c).before 5 t d5)
      ⊢ (dat1 V c).leaves 5 t := by
  by_cases hc1 : cond1_1 (grid2.coords t)
  · rw [if_pos hc1, ← scAt_succ]
    unfold Dat.leaves; rw [liveAt1_5 t hc1, after1_5]
  · rw [if_neg hc1, Dat.leaves_idle (dat1 V c) 5 t (idleAt1_5 t hc1) (noFlush1_5 t hc1)]
    iintro H; iexists d5; iexact H

-- the invariant hands over the scratch at contents whose two words, or the reset pair at the first point, are the running words
theorem Phi1_open (c : Dev nD) (t : Fin cfg2.N) :
    Phi1 V c t.val ⊢ iprop(∃ xs, ⌜(if cond1_0 (grid2.coords t) then scInit else scW xs) = scAt V c t.val⌝
      ∗ owns (c : Thread nD τ) scM fullShare xs ∗ restBut (F := F) c ∗ ∃ r, prngReg c r) := by
  by_cases h0 : t.val = 0
  · rw [Phi1_zero V c _ h0, h0]
    simp only [if_pos ((hcond1_0 t).mpr h0)]
    iintro ⟨⟨⟨%ds, HS⟩, HR⟩, Hg⟩
    iexists ds; iframe; ipureintro; rfl
  · rw [Phi1_pos V c _ h0]
    simp only [if_neg fun h => h0 ((hcond1_0 t).mp h)]
    iintro ⟨HS, HR, Hg⟩
    iexists _; iframe; ipureintro; exact scW_scVec _

-- the body's obligation at any point, the rows past the array's end unread: the three control cases share one run
theorem body_obligation1 (hloc : ScoresLocal (F := F)) (c : Dev nD) (ι : SparseCore.Cfg.HIx 1) :
    Pipeline.BodyObligationLoose (dat1 (F := F) V c) (defs₀ (F := F)) Variants.none ι Set.univ := fun t => by
  show iprop((dat1 V c).Φ t.castSucc ∗ (dat1 V c).owesAt ι t.castSucc
      ∗ bigSep Finset.univ fun w : Fin cfg2.W => iprop(∃ d, owns (c : Thread nD τ) ((cfg2.win w).stage (cfg2.slots t w)) fullShare ((dat1 V c).before w t d)))
    ⊢ wp frame (wpE (defs₀ (F := F)) Variants.none c none) Set.univ (bodyAt2 t) fun _ =>
      iprop((dat1 V c).Φ t.succ ∗ (dat1 V c).owesAt ι t.castSucc ∗ bigSep Finset.univ fun w : Fin cfg2.W => (dat1 V c).leaves w t)
  rw [bigSep_W2, bigSep_W2]
  unfold bodyAt2
  simp only [before1_0, before1_1, before1_2, before1_3, before1_4]
  rw [Phi1_castSucc, Phi1_succ,
    leaves1_0, leaves1_1, leaves1_2, leaves1_3, leaves1_4, Phi1_pos V c _ (Nat.succ_ne_zero _), scAt_succ]
  have hsco : ∀ d, sco1 (grid2.coords t) (blk0 V c t d) (iblk1 V c 1 t) (iblk1 V c 2 t) (iblk1 V c 3 t) = scoAt V c t :=
    fun d => sco1_local hloc t d fill0 _ _ _ _
  have hout : ∀ d, out1_4 (grid2.coords t) (blk0 V c t d) (iblk1 V c 1 t) (iblk1 V c 2 t) (iblk1 V c 3 t)
      = out1_4 (grid2.coords t) (blk0 V c t fill0) (iblk1 V c 1 t) (iblk1 V c 2 t) (iblk1 V c 3 t) := fun d => by
    unfold out1_4; rw [hsco d, hsco fill0]
  have hcc : ¬(cond1_0 (grid2.coords t) ∧ cond1_1 (grid2.coords t)) := fun h => by
    have := (hcond1_0 t).mp h.1; have := (hcond1_1 t).mp h.2; omega
  refine (sep_mono_left (Phi1_open V c t)).trans ?_
  simp only [cc2__pass1_body_eq_skeleton]; unfold cc2__pass1_body_skel
  simp only [k2_part1_eq_skeleton]
  unfold owns
  iintro ⟨⟨%xs, %hxs, ⟨%fs, %hfs, HS⟩, HR, Hg⟩, Ho, ⟨%d0, %f0, %hf0, H0⟩, ⟨%d1, %f1, %hf1, H1⟩, ⟨%d2, %f2, %hf2, H2⟩, ⟨%d3, %f3, %hf3, H3⟩,
    ⟨%d4, %f4, -, H4⟩, ⟨%d5, %f5, %hf5, H5⟩⟩
  subst hfs
  by_cases hc0 : cond1_0 (grid2.coords t) <;> by_cases hc1 : cond1_1 (grid2.coords t)
  · exact absurd ⟨hc0, hc1⟩ hcc
  all_goals
    sl_exec (disch := first | exact hc0 | exact hc1)
    sl_step
    iframe HR Hg Ho
    isplitl [HS]; rotate_left
    isplitl [H0]; rotate_left
    isplitl [H1]; rotate_left
    isplitl [H2]; rotate_left
    isplitl [H3]; rotate_left
    isplitl [H4]; rotate_left
    iapply leaves1_5_of V c t d5
    unfold owns
    all_goals
      first | iexists _, _ | iexists _
      isplitr; swap; · iassumption
      ipureintro
      first
        | assumption
        | rw [if_neg hc1]; exact hf5
        | rw [← hout d0, ← hf0, ← hf1, ← hf2, ← hf3]; exact View.read_writes_eq_canon _ _ _ (cover1_4 _)
        | (try rw [if_pos hc1]); rw [← hsco d0, ← hf0, ← hf1, ← hf2, ← hf3, ← hxs]
          first
            | rw [if_neg hc0]; exact View.read_writes_eq_canon _ _ _ (coverS _ _)
            | rw [if_pos hc0]; exact (View.read_writes_eq_canon _ _ _ (coverS4 _ _ _ _)).trans (canon_two _ _ _)

end Region

end Cert.Proof.KI.R1

end
-- ==== Proof.KIRegion2.lean ====
import proofs.«211030_g66005057405235_cont_9to1c4b_431_51_alg».proof.Proof.KICommon
import Idealize.ShloMosaic.Lib.Pipeline.FrameBody
import Idealize.ShloMosaic.Lib.Pipeline.FrameSuffix
import Idealize.ShloMosaic.Lib.Pipeline.Value
import Idealize.ShloMosaic.Lib.Tactic
import Idealize.ShloMosaic.PureOps.Ideal
import Idealize.ShloMosaic.PureOps.Ideal.Laws

noncomputable section

namespace Cert.Proof.KI.R2

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig (SparseCore.Cfg.HIx 1) (Elt F) ℕ Cert.Proof.KI.UU ℕ

section Regions
variable (V : (c : Dev nD) → (b : Ref sig .tc) → Buf (Elt F) ((c : Thread nD τ).loc b))

-- window w's block at point t, read off the array's contents at entry
def iblk2 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r2_0 : Rect S4096x128 := Rect.unit (s := S4096x128) ![0, 0] S4096x128.size inb_S4096x128_S4096x128_0_0
abbrev r2_2 : Rect S1x4096 := Rect.unit (s := S1x4096) ![0, 0] S1x4096.size inb_S1x4096_S1x4096_0_0
abbrev r2_3a : Rect S2 := Rect.unit (s := S2) ![0] S1.size inb_S2_S1_0
abbrev r2_3b : Rect S2 := Rect.unit (s := S2) ![1] S1.size inb_S2_S1_1
abbrev r2_4 : Rect S128x128 := Rect.unit (s := S128x128) ![0, 0] S128x128.size inb_S128x128_S128x128_0_0
abbrev r2_5 : Rect S1x128 := Rect.unit (s := S1x128) ![0, 0] S1x128.size inb_S1x128_S1x128_0_0
abbrev r2_6 : Rect S1000x128 := Rect.unit (s := S1000x128) ![0, 0] S1000x128.size inb_S1000x128_S1000x128_0_0
abbrev r2_7 : Rect S1000x1 := Rect.unit (s := S1000x1) ![0, 0] S1000x1.size inb_S1000x1_S1000x1_0_0
abbrev r2_8 : Rect S1000x4096 := Rect.unit (s := S1000x4096) ![0, 0] S1000x4096.size inb_S1000x4096_S1000x4096_0_0

def stat2_0 (x3 : Vec F S2 .f32) : Elt F .f32 := View.ld x3 r2_3a (Shape.Idx.first (by decide))
def stat2_1 (x3 : Vec F S2 .f32) : Elt F .f32 := View.ld x3 r2_3b (Shape.Idx.first (by decide))

-- what the one whole store of the payload leaves in window 8's memref
def out2_8 (x0 x1 : Vec F S4096x128 .f32) (x2 : Vec F S1x4096 .f32) (s0 s1 : Elt F .f32) (x4 : Vec F S128x128 .f32)
    (x5 : Vec F S1x128 .f32) (x6 : Vec F S1000x128 .f32) (x7 : Vec F S1000x1 .f32) : Vec F S1000x4096 .f32 :=
  View.canon [⟨r2_8, k3_pay1 s0 s1 (View.ld x2 r2_2) (View.ld x0 r2_0) (View.ld x4 r2_4) (View.ld x5 r2_5) (View.ld x6 r2_6)
    (View.ld x6 r2_6) (View.ld x1 r2_0) (View.ld x7 r2_7)⟩]

theorem cover2_8 (p0 : Vec F S1000x4096 .f32) (y : S1000x4096.Idx) :
    ∃ pc ∈ ([⟨r2_8, p0⟩] : List (View.Piece (Elt F) S1000x4096 .f32)), y ∈ pc.1.set :=
  View.cover_of_tiled [⟨r2_8, p0⟩] S1000x4096.size (by rfl) y

def ΦA2 (c : Dev nD) : sProp 𝕄 :=
  iprop(Pipeline.scopedRest (Ix := SparseCore.Cfg.HIx 1) (Name := ℕ) (U := Cert.Proof.KI.UU) (Lvl := ℕ) (Val := Elt F) spec3 c
    ∗ ∃ r, prngReg c r)

abbrev fillWord : Elt F .f32 := Scalar.ofBits .f32 0#32

def full2_0 (c : Dev nD) (t : Fin cfg3.N) : Vec F S4096x128 .f32 :=
  win3_0.fill (grid3.coords t) (fun _ => fillWord) (iblk2 V c 0 t)
def full2_1 (c : Dev nD) (t : Fin cfg3.N) : Vec F S4096x128 .f32 :=
  win3_1.fill (grid3.coords t) (fun _ => fillWord) (iblk2 V c 1 t)

-- the postcondition's contents window by window; a block cut by its array's edge is filled out with zero
def dat2 (c : Dev nD) : Dat τ (Elt F) (SparseCore.Cfg.HIx 1) ℕ Cert.Proof.KI.UU ℕ cfg3 c where
  A w := V c (Pipeline.arrRef spec3 w)
  after w t := match w with
    | ⟨0, _⟩ => full2_0 V c t
    | ⟨1, _⟩ => full2_1 V c t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (full2_0 V c t) (full2_1 V c t) (iblk2 V c 2 t) (stat2_0 (iblk2 V c 3 t)) (stat2_1 (iblk2 V c 3 t))
        (iblk2 V c 4 t) (iblk2 V c 5 t) (iblk2 V c 6 t) (iblk2 V c 7 t)
  Φ _ := ΦA2 c
  q _ := fullShare
  owed _ := 0

theorem after2_8 (c : Dev nD) (t : Fin cfg3.N) : (dat2 V c).after 8 t =
    out2_8 (full2_0 V c t) (full2_1 V c t) (iblk2 V c 2 t) (stat2_0 (iblk2 V c 3 t)) (stat2_1 (iblk2 V c 3 t))
      (iblk2 V c 4 t) (iblk2 V c 5 t) (iblk2 V c 6 t) (iblk2 V c 7 t) := by dsimp only [dat2]

theorem before2_0 (c : Dev nD) (t : Fin cfg3.N) (d) :
    (dat2 V c).before 0 t d = win3_0.fill (grid3.coords t) d (iblk2 V c 0 t) :=
  Dat.before_fetched _ 0 t (fetch3_0 t) d
theorem before2_1 (c : Dev nD) (t : Fin cfg3.N) (d) :
    (dat2 V c).before 1 t d = win3_1.fill (grid3.coords t) d (iblk2 V c 1 t) :=
  Dat.before_fetched _ 1 t (fetch3_1 t) d
theorem before2_2 (c : Dev nD) (t : Fin cfg3.N) (d) : (dat2 V c).before 2 t d = iblk2 V c 2 t :=
  Dat.before_fetched _ 2 t (fetch3_2 t) d
theorem before2_3 (c : Dev nD) (t : Fin cfg3.N) (d) : (dat2 V c).before 3 t d = iblk2 V c 3 t :=
  (dat2 V c).before_in_eq_fetched 3 rfl (fun _ => rfl) (fun _ _ _ => rfl) (fun _ => rfl) t d
theorem before2_4 (c : Dev nD) (t : Fin cfg3.N) (d) : (dat2 V c).before 4 t d = iblk2 V c 4 t :=
  (dat2 V c).before_in_eq_fetched 4 rfl (fun _ => rfl) (fun _ _ _ => rfl) (fun _ => rfl) t d
theorem before2_5 (c : Dev nD) (t : Fin cfg3.N) (d) : (dat2 V c).before 5 t d = iblk2 V c 5 t :=
  (dat2 V c).before_in_eq_fetched 5 rfl (fun _ => rfl) (fun _ _ _ => rfl) (fun _ => rfl) t d
theorem before2_6 (c : Dev nD) (t : Fin cfg3.N) (d) : (dat2 V c).before 6 t d = iblk2 V c 6 t :=
  (dat2 V c).before_in_eq_fetched 6 rfl (fun _ => rfl) (fun _ _ _ => rfl) (fun _ => rfl) t d
theorem before2_7 (c : Dev nD) (t : Fin cfg3.N) (d) : (dat2 V c).before 7 t d = iblk2 V c 7 t :=
  (dat2 V c).before_in_eq_fetched 7 rfl (fun _ => rfl) (fun _ _ _ => rfl) (fun _ => rfl) t d

-- column j of the stored value reads row j only of either 4096-row operand
def PayLocal {F : FTy → Type} [FloatOps F] [Named F] : Prop :=
  ∀ (s0 s1 : Elt F .f32) (v3 : Vec F S1x4096 .f32) (v10 v10' : Vec F S4096x128 .f32) (v11 : Vec F S128x128 .f32)
    (v14 : Vec F S1x128 .f32) (v18 v20 : Vec F S1000x128 .f32) (v21 v21' : Vec F S4096x128 .f32) (v27 : Vec F S1000x1 .f32)
    (o : S1000x4096.Idx),
    (∀ i : S4096x128.Idx, (i 0).val = (o 1).val → v10 i = v10' i) →
    (∀ i : S4096x128.Idx, (i 0).val = (o 1).val → v21 i = v21' i) →
    k3_pay1 s0 s1 v3 v10 v11 v14 v18 v20 v21 v27 o = k3_pay1 s0 s1 v3 v10' v11 v14 v18 v20 v21' v27 o

theorem fill_eq_of_moved {G : Pipeline.Grid} (w : Pipeline.Window sig G) {α : Type} (i : G.Coords) (d d' : w.block.Idx → α)
    (g : (w.xblock i).Idx → α) {j : w.block.Idx} (h : w.moved i j = true) : w.fill i d g j = w.fill i d' g j := by
  unfold Pipeline.Window.fill; rw [dif_pos h, dif_pos h]

-- a 4096-block of a 50000-array is cut no later than the same block of a 50176-array
theorem extent_le_extent (n : Nat) :
    (Pipeline.Clip.of n 4096 50000).extent 4096 ≤ (Pipeline.Clip.of n 4096 50176).extent 4096 := by
  unfold Pipeline.Clip.of; split <;> split <;> simp only [Pipeline.Clip.extent] <;> omega

theorem moved2_0 (i : grid3.Coords) (y : S4096x128.Idx) (h : (y 0).val < win3_8.xsize i 1) : win3_0.moved i y = true :=
  (win3_0.moved_iff i y).mpr (Fin.forall_fin_two.mpr ⟨h, (y 1).isLt⟩)

theorem moved2_1 (i : grid3.Coords) (y : S4096x128.Idx) (h : (y 0).val < win3_8.xsize i 1) : win3_1.moved i y = true :=
  (win3_1.moved_iff i y).mpr (Fin.forall_fin_two.mpr ⟨Nat.lt_of_lt_of_le h (extent_le_extent _), (y 1).isLt⟩)

-- on the columns inside the array the stored value does not depend on what fills the operands' rows past their arrays' ends
theorem cut_out2_8 (hloc : PayLocal (F := F)) (i : grid3.Coords) (d0 d0' d1 d1' : Vec F S4096x128 .f32)
    (b0 : (win3_0.xblock i).Idx → Elt F .f32) (b1 : (win3_1.xblock i).Idx → Elt F .f32)
    (x2 : Vec F S1x4096 .f32) (s0 s1 : Elt F .f32) (x4 : Vec F S128x128 .f32)
    (x5 : Vec F S1x128 .f32) (x6 : Vec F S1000x128 .f32) (x7 : Vec F S1000x1 .f32) :
    win3_8.cut i (out2_8 (win3_0.fill i d0 b0) (win3_1.fill i d1 b1) x2 s0 s1 x4 x5 x6 x7)
      = win3_8.cut i (out2_8 (win3_0.fill i d0' b0) (win3_1.fill i d1' b1) x2 s0 s1 x4 x5 x6 x7) := by
  funext j
  show out2_8 (win3_0.fill i d0 b0) (win3_1.fill i d1 b1) x2 s0 s1 x4 x5 x6 x7 (win3_8.xinj i j)
    = out2_8 (win3_0.fill i d0' b0) (win3_1.fill i d1' b1) x2 s0 s1 x4 x5 x6 x7 (win3_8.xinj i j)
  obtain ⟨pc, hpc, hy⟩ := cover2_8 (F := F) (fun _ => fillWord) (win3_8.xinj i j)
  obtain rfl := List.mem_singleton.mp hpc
  obtain ⟨x, hx⟩ := r2_8.exists_idx_of_mem hy
  have hcol : (x 1).val = (j 1).val := by
    have := congrArg (fun y : S1000x4096.Idx => (y 1).val) hx
    simpa using this
  have hlt : (x 1).val < win3_8.xsize i 1 := hcol ▸ (j 1).isLt
  unfold out2_8
  rw [← hx]
  show View.canon [⟨r2_8, _⟩] (r2_8.emb x) = View.canon [⟨r2_8, _⟩] (r2_8.emb x)
  rw [View.canon_cons_emb, View.canon_cons_emb]
  refine hloc _ _ _ _ _ _ _ _ _ _ _ _ x ?_ ?_
  · intro y hy0
    exact fill_eq_of_moved win3_0 i d0 d0' b0 (moved2_0 i _ (by simpa using hy0 ▸ hlt))
  · intro y hy0
    exact fill_eq_of_moved win3_1 i d1 d1' b1 (moved2_1 i _ (by simpa using hy0 ▸ hlt))

-- the conjunct for window w of the body's precondition, and of its postcondition: exact, or on the part inside the array
def finds2 (c : Dev nD) (t : Fin cfg3.N) (w : Fin cfg3.W) : sProp 𝕄 :=
  iprop(∃ d, owns (c : Thread nD τ) ((cfg3.win w).stage (cfg3.slots t w)) fullShare ((dat2 V c).before w t d))
def exact2 (c : Dev nD) (t : Fin cfg3.N) (w : Fin cfg3.W) : sProp 𝕄 :=
  owns (c : Thread nD τ) ((cfg3.win w).stage (cfg3.slots t w)) fullShare ((dat2 V c).after w t)
def loose2 (c : Dev nD) (t : Fin cfg3.N) (w : Fin cfg3.W) : sProp 𝕄 :=
  iprop(∃ d, owns (c : Thread nD τ) ((cfg3.win w).stage (cfg3.slots t w)) fullShare
    ((cfg3.win w).fill (cfg3.grid.coords t) d ((cfg3.win w).cut (cfg3.grid.coords t) ((dat2 V c).after w t))))

def bodyPre2 (c : Dev nD) (ι : SparseCore.Cfg.HIx 1) (t : Fin cfg3.N) : sProp 𝕄 :=
  iprop((dat2 V c).Φ t.castSucc ∗ (dat2 V c).owesAt ι t.castSucc ∗ finds2 V c t 0 ∗ finds2 V c t 1 ∗ finds2 V c t 2 ∗ finds2 V c t 3
    ∗ finds2 V c t 4 ∗ finds2 V c t 5 ∗ finds2 V c t 6 ∗ finds2 V c t 7 ∗ finds2 V c t 8)

def bodyPost2 (c : Dev nD) (ι : SparseCore.Cfg.HIx 1) (t : Fin cfg3.N) : sProp 𝕄 :=
  iprop((dat2 V c).Φ t.succ ∗ (dat2 V c).owesAt ι t.succ ∗ loose2 V c t 0 ∗ loose2 V c t 1 ∗ exact2 V c t 2 ∗ exact2 V c t 3
    ∗ exact2 V c t 4 ∗ exact2 V c t 5 ∗ exact2 V c t 6 ∗ exact2 V c t 7 ∗ loose2 V c t 8)

-- the body at any point: its stores leave window 8's memref at out2_8 of the inputs, which on the columns inside the array is the postcondition's
theorem sound_body2 (hloc : PayLocal (F := F)) (c : Dev nD) (ι : SparseCore.Cfg.HIx 1) (t : Fin cfg3.N) :
    bodyPre2 V c ι t ⊢ wp frame (wpE (defs₀ (F := F)) Variants.none c none) Set.univ (bodyAt3 t) (fun _ => bodyPost2 V c ι t) := by
  unfold bodyPre2 bodyPost2 bodyAt3 finds2 exact2 loose2
  simp only [before2_0, before2_1, before2_2, before2_3, before2_4, before2_5, before2_6, before2_7]
  rw [show (dat2 V c).Φ t.succ = (dat2 V c).Φ t.castSucc from rfl,
    show (dat2 V c).owesAt ι t.succ = (dat2 V c).owesAt ι t.castSucc from rfl]
  dsimp only [dat2]
  generalize iblk2 V c 2 t = x2, iblk2 V c 3 t = x3, iblk2 V c 4 t = x4, iblk2 V c 5 t = x5, iblk2 V c 6 t = x6, iblk2 V c 7 t = x7
  simp only [cc3__pass2_body_eq_skeleton]; unfold cc3__pass2_body_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, %hf7, H7⟩, ⟨%d8, %f8, -, H8⟩⟩
  subst hf2 hf3 hf4 hf5 hf6 hf7
  sl_exec
  sl_step
  iframe HΦ Ho
  isplitl [H0]
  · iexists d0, f0; isplitr; swap; · iexact H0
    ipureintro; exact hf0.trans (congrArg (win3_0.fill _ d0) (win3_0.cut_fill _ _ _).symm)
  isplitl [H1]
  · iexists d1, f1; isplitr; swap; · iexact H1
    ipureintro; exact hf1.trans (congrArg (win3_1.fill _ d1) (win3_1.cut_fill _ _ _).symm)
  isplitl [H2]; rotate_left
  isplitl [H3]; rotate_left
  isplitl [H4]; rotate_left
  isplitl [H5]; rotate_left
  isplitl [H6]; rotate_left
  isplitl [H7]; rotate_left
  iexists _, _; isplitr; swap; · iexact H8
  · ipureintro
    refine (View.read_writes_eq_canon _ _ _ (cover2_8 _)).trans ?_
    show out2_8 ((stage3_0 (cfg3.slots t 0)).view.read (Elt F) f0) ((stage3_1 (cfg3.slots t 1)).view.read (Elt F) f1) _ _ _ _ _ _ _ = _
    rw [hf0, hf1]
    exact (win3_8.fill_congr_cut _ (cut_out2_8 hloc _ d0 _ d1 _ _ _ _ _ _ _ _ _ _)).symm
  all_goals
    iexists _; isplitr; swap; · iassumption
    ipureintro; rfl

theorem body_obligation2 (hloc : PayLocal (F := F)) (c : Dev nD) (ι : SparseCore.Cfg.HIx 1) :
    Pipeline.BodyObligationLoose (dat2 (F := F) V c) (defs₀ (F := F)) Variants.none ι Set.univ := fun t => by
  rw [bigSep_W3, bigSep_W3]
  exact sound_body2 V hloc c ι t

end Regions

-- a product's entry depends on its operands only at the entries the contraction reads
theorem mm_congr {sl sr so : Shape} (d : DotDims sl sr so) (lhs lhs' : FVec Ideal sl .f32) (rhs rhs' : FVec Ideal sr .f32)
    (acc : FVec Ideal so .f32) (o : so.Idx) (hl : ∀ k, lhs (d.lhsIdx o k) = lhs' (d.lhsIdx o k))
    (hr : ∀ k, rhs (d.rhsIdx o k) = rhs' (d.rhsIdx o k)) :
    matmul d none lhs rhs acc o = matmul d none lhs' rhs' acc o := by
  simp only [matmul]
  rw [Ideal.matmul_apply, Ideal.matmul_apply]
  exact congrArg (acc o + ·) (Finset.sum_congr rfl fun k _ => by rw [hl k, hr k])

-- at the extended reals a product's entry is its accumulator plus a sum over the contraction
theorem payLocal_ideal : PayLocal (F := Ideal) := by
  intro s0 s1 v3 v10 v10' v11 v14 v18 v20 v21 v21' v27 o h10 h21
  unfold k3_pay1
  simp only [addf, mulf]
  congr 1; congr 1
  · exact mm_congr _ _ _ _ _ _ o (fun _ => rfl) fun k => by
      show FloatOps.addf _ _ = FloatOps.addf _ _
      congr 1
      exact mm_congr _ _ _ _ _ _ _ (fun _ => h10 _ rfl) fun _ => rfl
  · congr 1
    exact mm_congr _ _ _ _ _ _ o (fun _ => rfl) fun k => by
      rw [shapeCast_self, shapeCast_self]; exact h21 _ rfl

end Cert.Proof.KI.R2

end
-- ==== Proof.KITile.lean ====
import proofs.«211030_g66005057405235_cont_9to1c4b_431_51_alg».proof.Proof.KICommon
import Idealize.ShloMosaic.Lib.SparseCore.Launch
import Idealize.ShloMosaic.Lib.SparseCore.Stream
import Idealize.ShloMosaic.Lib.Transfers
import Idealize.ShloMosaic.Lib.Tactic
import Idealize.ShloMosaic.Lib.ValueIdx

noncomputable section

namespace Cert.Proof.KI.Tile

open Cert.KernelIdeal Cert.KernelIdeal.Gen
open Cert.Proof.KI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (SparseCore.Cfg.HIx 1) (Elt F) ℕ Cert.Proof.KI.UU ℕ

abbrev idxLoc (d : Dev nD) : Loc nD τ sig := (SparseCore.T d).loc main_v9
abbrev tabLoc (d : Dev nD) : Loc nD τ sig := (SparseCore.T d).loc main_v8_1
abbrev outLoc (d : Dev nD) : Loc nD τ sig := (SparseCore.T d).loc main_v10

def wOf (n : Fin 50176) : Fin 32 := ⟨n.val / 1568, by have := n.isLt; omega⟩
def cOf (n : Fin 50176) : Fin 14 := ⟨n.val % 1568 / 112, by have := n.isLt; omega⟩
def rOf (n : Fin 50176) : Fin 112 := ⟨n.val % 112, Nat.mod_lt _ (by norm_num)⟩

def rowOf (w : BitVec 32) : Fin 1000 := ⟨w.toNat % 1000, Nat.mod_lt _ (by norm_num)⟩

def geOf (I : (d : Dev nD) → Buf (Elt F) (idxLoc d)) (G : (d : Dev nD) → Buf (Elt F) (tabLoc d)) (d : Dev nD) : Buf (Elt F) (outLoc d) :=
  fun (j : S50176x128.Idx) =>
    (G d (ix2 (rowOf (I d (ix3 (wOf (j 0)) (cOf (j 0)) (rOf (j 0))))) (j 1)) : Elt F .f32)

abbrev iV : Memref sig .scVector .hbm S32x14x112 .i32 := Memref.whole main_v9_scv
abbrev tV : Memref sig .scVector .hbm S1000x128 .f32 := Memref.whole main_v8_1_scv
abbrev oV : Memref sig .scVector .hbm S50176x128 .f32 := Memref.whole main_v10_scv
abbrev sI : Memref sig .scVector .vmem S14x112 .i32 := Memref.whole cc1_scratch0
abbrev sA : Memref sig .scVector .vmem S112x128 .f32 := Memref.whole cc1_scratch1
abbrev sB : Memref sig .scVector .vmem S112x128 .f32 := Memref.whole cc1_scratch2

abbrev cV (L : grid1.Coords) : Fin τ.nSC := (L 0).castLE hcore1
abbrev jV (L : grid1.Coords) : Fin τ.nSub := (L 1).castLE hsub1

def coordsV (c : Fin (grid1.bound 0)) (s : Fin (grid1.bound 1)) : grid1.Coords :=
  fun | 0 => c | 1 => s | ⟨_ + 2, h⟩ => absurd h (Nat.not_lt.2 (Nat.le_add_left _ _))

abbrev iBlk (L : grid1.Coords) : Memref sig .scVector .hbm S14x112 .i32 :=
  (iV.slice (Rect.unit (s := S32x14x112) (k1_off1 L) S1x14x112.size (k1_off1_inb L)) (fun _ => rfl)).squeeze S14x112 squeezes_S1x14x112_S14x112

abbrev oChk (L : grid1.Coords) (r : Fin 14) : Memref sig .scVector .hbm S112x128 .f32 :=
  oV.slice (Rect.unit (s := S50176x128) (k1_off2 L (BitVec.ofNat 32 (112 * r.val))) S112x128.size (k1_off2_inb L r)) (fun _ => rfl)

def tokIx (L : grid1.Coords) (b : Fin 2) : Fin 64 := ⟨32 * (L 0).val + 2 * (L 1).val + b.val, by
  have h0 : (L 0).val < 2 := (L 0).isLt
  have h1 : (L 1).val < 16 := (L 1).isLt
  have := b.isLt; omega⟩
abbrev tokQ (L : grid1.Coords) (b : Fin 2) : PosShare TreeShare := Transfers.shareTok fullShare 64 (tokIx L b)

variable (I : (d : Dev nD) → Buf (Elt F) (idxLoc d)) (G : (d : Dev nD) → Buf (Elt F) (tabLoc d)) (O : (d : Dev nD) → Buf (Elt F) (outLoc d))

-- A subcore's share: its block of the index array, two read shares of the table, its 14 chunks of the result at contents fo.
def tile (d : Dev nD) (L : grid1.Coords) (fo : Buf (Elt F) (outLoc d)) : sProp 𝕄 :=
  iprop((idxLoc d ↦[(iBlk L).view.set]{fullShare} I d) ∗ (tabLoc d ↦{tokQ L 0} G d) ∗ (tabLoc d ↦{tokQ L 1} G d)
    ∗ bigSep Finset.univ fun r : Fin 14 => outLoc d ↦[(oChk L r).view.set]{fullShare} fo)
def tileGo (d : Dev nD) (L : grid1.Coords) : sProp 𝕄 := tile I G d L (O d)
def tileTd (d : Dev nD) (L : grid1.Coords) : sProp 𝕄 := tile I G d L (geOf I G d)

def tabRest (d : Dev nD) (c : ℕ) : sProp 𝕄 := if c = 0 then iprop(tabLoc d ↦{Transfers.shareDrop fullShare 64} G d) else iprop(emp)

instance tabRest_storable (d : Dev nD) (c : ℕ) : BI.Storable (upEmb : UEmb _ 𝕄) (tabRest (F := F) G d c) := by
  unfold tabRest; split <;> infer_instance
instance tileGo_storable (d : Dev nD) (L : grid1.Coords) : BI.Storable (upEmb : UEmb _ 𝕄) (tileGo (F := F) I G O d L) := by
  unfold tileGo tile; infer_instance
instance tileTd_storable (d : Dev nD) (L : grid1.Coords) : BI.Storable (upEmb : UEmb _ 𝕄) (tileTd (F := F) I G d L) := by
  unfold tileTd tile; infer_instance

def P : (K (F := F)).Pay (nD := nD) (Val := Elt F) (Name := ℕ) (U := UU) where
  st := fun q d c => match q with
    | 0 => iprop(tabRest G d c.val ∗ bigSep Finset.univ fun i : Fin ((K (F := F)).nSub 0) => tileGo I G O d (coordsV c i))
  dn := fun q d c => match q with
    | 0 => iprop(tabRest G d c.val ∗ bigSep Finset.univ fun i : Fin ((K (F := F)).nSub 0) => tileTd I G d (coordsV c i))
  go := fun q d c i => match q with | 0 => tileGo I G O d (coordsV c i)
  td := fun q d c i => match q with | 0 => tileTd I G d (coordsV c i)
  x := fun _ _ => iprop(emp)

instance P_storable : (P (F := F) I G O).IsStorable where
  st q d c := match q with
    | 0 => by
      haveI : ∀ i : Fin ((K (F := F)).nSub 0), BI.Storable (upEmb : UEmb _ 𝕄) (tileGo I G O d (coordsV c i)) :=
        fun i => tileGo_storable I G O d _
      dsimp only [P]; infer_instance
  dn q d c := match q with
    | 0 => by
      haveI : ∀ i : Fin ((K (F := F)).nSub 0), BI.Storable (upEmb : UEmb _ 𝕄) (tileTd I G d (coordsV c i)) :=
        fun i => tileTd_storable I G d _
      dsimp only [P]; infer_instance
  go q d c i := match q with | 0 => tileGo_storable I G O d _
  td q d c i := match q with | 0 => tileTd_storable I G d _

theorem P_x (q : Fin 1) (thr : Thread nD τ) : (P (F := F) I G O).x q thr = iprop(emp) := rfl
theorem P_held : (P (F := F) I G O).held = ∅ := rfl

section Value

variable (d : Dev nD) (L : grid1.Coords)

def wL (L : grid1.Coords) : Fin 32 := ⟨2 * (L 1).val + (L 0).val, by
  have h0 : (L 0).val < 2 := (L 0).isLt
  have h1 : (L 1).val < 16 := (L 1).isLt
  omega⟩

def geAt (r : Fin 14) (x : S112x128.Idx) : Elt F .f32 :=
  G d (ix2 (rowOf (I d (ix3 (wL L) r (x 0)))) (x 1))

def oAt (L : grid1.Coords) (r : Fin 14) (x : S112x128.Idx) : S50176x128.Idx := (oChk L r).view.emb x

theorem oChk_emb_row (r : Fin 14) (x : S112x128.Idx) :
    (oAt L r x 0).val = 3136 * (L 1).val + 1568 * (L 0).val + 112 * r.val + (x 0).val := by
  show (k1_off2 L (BitVec.ofNat 32 (112 * r.val))) 0 + 1 * (x 0).val = _
  rw [k1_off2_eq L r]
  simp
theorem oChk_emb_col (r : Fin 14) (x : S112x128.Idx) :
    (oAt L r x 1).val = (x 1).val := by
  show (k1_off2 L (BitVec.ofNat 32 (112 * r.val))) 1 + 1 * (x 1).val = _
  rw [k1_off2_eq L r]
  simp

theorem geOf_oChk (r : Fin 14) (x : S112x128.Idx) : geOf I G d (oAt L r x) = geAt I G d L r x := by
  have h0 := oChk_emb_row L r x
  have h1 := oChk_emb_col L r x
  have hL0 : (L 0).val < 2 := (L 0).isLt
  have hL1 : (L 1).val < 16 := (L 1).isLt
  have hx0 : (x 0).val < 112 := (x 0).isLt
  have hr : r.val < 14 := r.isLt
  unfold geOf geAt
  have ew : wOf (oAt L r x 0) = wL L := Fin.ext (by simp only [wOf, wL]; omega)
  have ec : cOf (oAt L r x 0) = r := Fin.ext (by simp only [cOf]; omega)
  have er : rOf (oAt L r x 0) = x 0 := Fin.ext (by simp only [rOf]; omega)
  have e1 : oAt L r x 1 = x 1 := Fin.ext h1
  show G d (ix2 (rowOf (I d (ix3 (wOf (oAt L r x 0)) (cOf (oAt L r x 0)) (rOf (oAt L r x 0))))) (oAt L r x 1)) = _
  rw [ew, ec, er, e1]

-- A chunk written whole with a payload that is the gathered rows entry by entry holds the gathered rows.
theorem chunk_done (r : Fin 14) (pay : S112x128.Idx → Elt F .f32) (hpay : ∀ x, geAt I G d L r x = pay x) :
    ((oChk L r).view.loc (V d (cV L) (jV L)) ↦[(oChk L r).view.set]{fullShare}
        (oChk L r).view.writes (Elt F) (O d) [⟨Rect.whole S112x128, pay⟩] : sProp 𝕄)
      = ((oChk L r).view.loc (V d (cV L) (jV L)) ↦[(oChk L r).view.set]{fullShare} geOf I G d) := by
  refine pointsTo_congr fun i hi => ?_
  obtain ⟨x, -, rfl⟩ := Finset.mem_map.mp hi
  have h1 := View.read_writes_cons_emb (oChk L r).view (O d) (Rect.whole S112x128) pay [] x
  rw [Rect.emb_whole_apply, View.read_apply] at h1
  show (oChk L r).view.writes (Elt F) (O d) [⟨Rect.whole S112x128, pay⟩] ((oChk L r).view.emb x) = geOf I G d (oAt L r x)
  rw [geOf_oChk, hpay, ← h1]
  rfl

end Value

section Payload

variable (d : Dev nD) (L : grid1.Coords)

-- Row r of the index scratch as a rank-1 view, and the scratch written whole with the subcore's block of the index array.
abbrev winV (r : Fin 14) (pr : ∀ a, (![r.val, 0] : Fin 2 → Nat) a + S1x112.size a ≤ S14x112.size a)
    (hs : ∀ a, (Rect.unit (s := S14x112) ![r.val, 0] S1x112.size pr).stride a = 1) :=
  ((sI.slice (Rect.unit (s := S14x112) ![r.val, 0] S1x112.size pr) hs).squeeze S112 squeezes_S1x112_S112).view
abbrev scr (f0 : Buf (Elt F) ((V d (cV L) (jV L)).loc cc1_scratch0)) :=
  View.write (Elt F) sI.view f0 (ReadAs.same.apply ((iBlk L).view.read (Elt F) (I d))) Finset.univ

omit [FloatOps F] [Named F] in
theorem read_whole_piece (v : View sig .scVector .vmem S112x128 .f32) (f : v.ty.Contents (Elt F))
    (w : S112x128.Idx → Elt F .f32) (Lw : List (View.Piece (Elt F) S112x128 .f32)) (x : S112x128.Idx) :
    v.read (Elt F) (v.writes (Elt F) f (⟨Rect.whole S112x128, w⟩ :: Lw)) x = w x := by
  have h := View.read_writes_cons_emb v f (Rect.whole S112x128) w Lw x
  rwa [Rect.emb_whole_apply] at h

omit [FloatOps F] [Named F] in
theorem tab_read (p : ∀ a, (![0, 0] : Fin 2 → Nat) a + S1000x128.size a ≤ S1000x128.size a)
    (h : ∀ a, (Rect.unit (s := S1000x128) ![0, 0] S1000x128.size p).stride a = 1) (y : S1000x128.Idx) :
    View.read (Elt F) (tV.slice (Rect.unit (s := S1000x128) ![0, 0] S1000x128.size p) h).view (G d) y = G d y := by
  rw [View.read_apply]
  have e : (tV.slice (Rect.unit (s := S1000x128) ![0, 0] S1000x128.size p) h).view.emb y = y := by
    funext a; apply Fin.ext
    show (![0, 0] : Fin 2 → Nat) a + 1 * (y a).val = (y a).val
    fin_cases a <;> simp
  rw [e]; rfl

omit [FloatOps F] [Named F] in
theorem win_emb (r : Fin 14) (pr : ∀ a, (![r.val, 0] : Fin 2 → Nat) a + S1x112.size a ≤ S14x112.size a)
    (hs : ∀ a, (Rect.unit (s := S14x112) ![r.val, 0] S1x112.size pr).stride a = 1) (z : S112.Idx) :
    (winV r pr hs).emb z = (ix2 r (z 0) : S14x112.Idx) := by
  have e : Shape.reshapeEquiv squeezes_S1x112_S112.numel_eq z = (ix2 (0 : Fin 1) (z 0) : S1x112.Idx) :=
    Shape.reshapeEquiv_eq_of_rowMajor _ (by rw [Shape.rowMajor_val_two, Shape.rowMajor_val_one]; simp)
  show (Rect.unit (s := S14x112) ![r.val, 0] S1x112.size pr).emb (Shape.reshapeEquiv squeezes_S1x112_S112.numel_eq z) = _
  rw [e]
  funext a; apply Fin.ext
  match a with
  | ⟨0, _⟩ => show r.val + 1 * 0 = r.val; omega
  | ⟨1, _⟩ => show 0 + 1 * (z 0).val = (z 0).val; omega

omit [FloatOps F] [Named F] in
theorem blk_emb (c : Fin 14) (z : Fin 112) :
    (iBlk L).view.emb (ix2 c z : S14x112.Idx) = (ix3 (wL L) c z : S32x14x112.Idx) := by
  have e : Shape.reshapeEquiv squeezes_S1x14x112_S14x112.numel_eq (ix2 c z : S14x112.Idx) = (ix3 (0 : Fin 1) c z : S1x14x112.Idx) :=
    Shape.reshapeEquiv_eq_of_rowMajor _ (by rw [Shape.rowMajor_val_three, Shape.rowMajor_val_two]; simp)
  show (Rect.unit (s := S32x14x112) (k1_off1 L) S1x14x112.size (k1_off1_inb L)).emb
      (Shape.reshapeEquiv squeezes_S1x14x112_S14x112.numel_eq (ix2 c z : S14x112.Idx)) = _
  rw [e]
  funext a; apply Fin.ext
  match a with
  | ⟨0, _⟩ => show (k1_off1 L) 0 + 1 * 0 = 2 * (L 1).val + (L 0).val; rw [k1_off1_eq]; simp
  | ⟨1, _⟩ => show (k1_off1 L) 1 + 1 * c.val = c.val; rw [k1_off1_eq]; simp
  | ⟨2, _⟩ => show (k1_off1 L) 2 + 1 * z.val = z.val; rw [k1_off1_eq]; simp

theorem scratch_read (r : Fin 14) (pr : ∀ a, (![r.val, 0] : Fin 2 → Nat) a + S1x112.size a ≤ S14x112.size a)
    (hs : ∀ a, (Rect.unit (s := S14x112) ![r.val, 0] S1x112.size pr).stride a = 1)
    (f0 : Buf (Elt F) ((V d (cV L) (jV L)).loc cc1_scratch0)) (z : S112.Idx) :
    View.read (Elt F) (winV r pr hs) (scr I d L f0) z = I d (ix3 (wL L) r (z 0)) := by
  rw [show scr I d L f0 = (iBlk L).view.read (Elt F) (I d) from View.write_whole_univ _ _ _, View.read_apply, View.read_apply, win_emb]
  exact Eq.trans rfl (congrArg (I d) (blk_emb L r (z 0)))

omit [FloatOps F] [Named F] in
theorem rowMajor_symm_one (k : Fin S112.numel) : ((S112.rowMajor.symm k) 0).val = k.val := by
  have h := Shape.rowMajor_val_one (S112.rowMajor.symm k)
  rw [Equiv.apply_symm_apply] at h
  exact h.symm

theorem pay_value (r : Fin 14) (pr : ∀ a, (![r.val, 0] : Fin 2 → Nat) a + S1x112.size a ≤ S14x112.size a)
    (hs : ∀ a, (Rect.unit (s := S14x112) ![r.val, 0] S1x112.size pr).stride a = 1)
    (sX : Memref sig .scVector .vmem S112x128 .f32) (fX : sX.view.ty.Contents (Elt F)) (older : List (View.Piece (Elt F) S112x128 .f32))
    (p0 : ∀ a, (![0, 0] : Fin 2 → Nat) a + S1000x128.size a ≤ S1000x128.size a)
    (h0 : ∀ a, (Rect.unit (s := S1000x128) ![0, 0] S1000x128.size p0).stride a = 1)
    (f0 : Buf (Elt F) ((V d (cV L) (jV L)).loc cc1_scratch0))
    (hg : S1000x128.Gathers 0 S112x128) (hn : S112.numel = S112x128.size hg.axis')
    (hin' : ∀ z, (View.read (Elt F) (winV r pr hs) (scr I d L f0) z).toNat < S1000x128.size hg.axis)
    (x : S112x128.Idx) :
    geAt I G d L r x = ReadAs.same.apply (View.read (Elt F) sX.view (sX.view.writes (Elt F) fX
        (⟨Rect.whole S112x128, SparseCore.gatherPayload hg
            (View.read (Elt F) (tV.slice (Rect.unit (s := S1000x128) ![0, 0] S1000x128.size p0) h0).view (G d))
            (SparseCore.rows (View.read (Elt F) (winV r pr hs) (scr I d L f0)) hn hin')⟩ :: older))) x := by
  symm
  show View.read (Elt F) sX.view _ x = _
  rw [read_whole_piece]
  unfold SparseCore.gatherPayload geAt
  rw [tab_read]
  congr 1
  funext a; apply Fin.ext
  match a with
  | ⟨0, _⟩ =>
    have hz : (S112.rowMajor.symm ((x hg.axis').cast hn.symm)) 0 = x 0 := Fin.ext (rowMajor_symm_one _)
    have hr := scratch_read (F := F) I d L r pr hs f0 (S112.rowMajor.symm ((x hg.axis').cast hn.symm))
    have hlt := hin' (S112.rowMajor.symm ((x hg.axis').cast hn.symm))
    rw [hr, hz] at hlt
    show (hg.idx _ x hg.axis).val = (I d (ix3 (wL L) r (x 0))).toNat % 1000
    rw [Shape.Gathers.idx_axis hg]
    simp only [SparseCore.rows]
    rw [hr, hz, Nat.mod_eq_of_lt (show _ < 1000 from hlt)]
  | ⟨1, _⟩ => exact Shape.Gathers.idx_of_ne hg _ x 1 (by decide)

end Payload

-- A big separating conjunction over a set puts any duplicate-free list of its members first, as a chain.
theorem bigSepL_foldr {α : Type} (Φ : α → sProp 𝕄) : ∀ l : List α, bigSepL l Φ = l.foldr (fun a acc => iprop(Φ a ∗ acc)) iprop(emp)
  | [] => rfl
  | a :: l => by rw [bigSepL_cons, bigSepL_foldr Φ l]; rfl

theorem bigSep_list {α : Type} [DecidableEq α] (Φ : α → sProp 𝕄) (l : List α) (s : Finset α) (hl : l.Nodup) (hm : ∀ a ∈ l, a ∈ s) :
    bigSep s Φ = iprop((l.foldr (fun a acc => iprop(Φ a ∗ acc)) iprop(emp)) ∗ bigSep (s \ l.toFinset) Φ) := by
  rw [bigSep_sdiff_split (t := l.toFinset) fun a ha => hm a (List.mem_toFinset.mp ha), bigSep_eq_bigSepL l hl, bigSepL_foldr]
  rfl

section Tile

variable (d : Dev nD) (L : grid1.Coords)

-- The scratch holds the subcore's block of the index array, so any window of it reads words of that array, below 1000.
theorem idx_inb (fI : Buf (Elt F) (idxLoc d)) (hI : ∀ j, (fI j).toNat < 1000) :
    ∀ (off : Fin 2 → Nat) (p : ∀ a, off a + S1x112.size a ≤ S14x112.size a)
      (f0 : Buf (Elt F) ((V d (cV L) (jV L)).loc cc1_scratch0)) (x : S112.Idx),
      (((sI.slice (Rect.unit (s := S14x112) off S1x112.size p) (fun _ => rfl)).squeeze S112 squeezes_S1x112_S112).view.read (Elt F)
          (View.write (Elt F) sI.view f0 (ReadAs.same.apply ((iBlk L).view.read (Elt F) fI)) Finset.univ) x).toNat < 1000 := by
  intro off p f0 x
  rw [View.write_whole_univ, View.read_apply]
  exact hI _

def semList : List (SemLoc sig) :=
  [.dma cc1_scratch3.sem, .dma cc1_scratch4.sem, .dma cc1_scoped0.sem, .dma cc1_scoped1.sem, .dma cc1_scoped2.sem, .dma cc1_scoped3.sem, .dma cc1_scoped4.sem, .dma cc1_scoped5.sem, .dma cc1_scoped6.sem, .dma cc1_scoped7.sem, .dma cc1_scoped8.sem, .dma cc1_scoped9.sem, .dma cc1_scoped10.sem, .dma cc1_scoped11.sem, .dma cc1_scoped12.sem, .dma cc1_scoped13.sem, .dma cc1_scoped14.sem]

-- The subcore's own semaphores at zero: the 17 its task uses, one by one, and the rest.
theorem ownSems0_list :
    (ownSems0 (V d (cV L) (jV L)) : sProp 𝕄) =
      iprop(((semList.map fun sm => (((V d (cV L) (jV L)), sm) : GSem nD τ sig)).foldr (fun g acc => iprop(semVal g 0 ∗ acc)) iprop(emp))
        ∗ bigSep (ownCells (V d (cV L) (jV L)) \ (semList.map fun sm => (((V d (cV L) (jV L)), sm) : GSem nD τ sig)).toFinset) fun g => semVal g 0) :=
  bigSep_list _ _ _ ((by decide : semList.Nodup).map fun a b e => (Prod.mk.inj e).2) fun g hg => by
    obtain ⟨sm, hsm, rfl⟩ := List.mem_map.mp hg
    exact mem_ownCells.mpr ⟨rfl, (by decide : ∀ sm ∈ semList, sm.isScoped .scVector = true) sm hsm⟩

def bufList : List (DevRef τ sig) := [cc1_scratch0, cc1_scratch1, cc1_scratch2].map (Proc.scVector (cV L) (jV L)).devRef

-- The subcore's own buffers: its three scratch buffers, one by one, and the rest.
theorem ownBufs_list :
    (ownBufs (V d (cV L) (jV L)) : sProp 𝕄) =
      iprop(((∃ f, sI.view.loc (V d (cV L) (jV L)) ↦{fullShare} f)
        ∗ (∃ f, sA.view.loc (V d (cV L) (jV L)) ↦{fullShare} f)
        ∗ (∃ f, sB.view.loc (V d (cV L) (jV L)) ↦{fullShare} f) ∗ emp)
        ∗ bigSep (ownRefs (τ := τ) (.scVector (cV L) (jV L)) \ (bufList L).toFinset) fun b => iprop(∃ f, ((d, b) : Loc nD τ sig) ↦{fullShare} f)) :=
  bigSep_list (F := F) (fun b : DevRef τ sig => iprop(∃ f, ((d, b) : Loc nD τ sig) ↦{fullShare} f)) (bufList L) _
    ((by decide : [cc1_scratch0, cc1_scratch1, cc1_scratch2].Nodup).map (Proc.devRef_injective _)) fun b hb => by
      simp only [bufList, List.map_cons, List.map_nil, List.mem_cons, List.not_mem_nil, or_false] at hb
      rcases hb with rfl | rfl | rfl <;> exact SparseCore.Cfg.mem_ownRefs_of_owner (p := Proc.scVector (cV L) (jV L)) rfl

theorem chunks_list (Φ : Fin 14 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [bigSep_univ_eq_bigSepL [0, 1, 2, 3, 4, 5, 6, 7, 8, 9, 10, 11, 12, 13] (by decide) (by decide)]; rfl

-- A subcore's share, each array addressed through the subcore's own memref of it.
theorem tile_eq (fo : Buf (Elt F) (outLoc d)) :
    tile I G d L fo = iprop(((iBlk L).view.loc (V d (cV L) (jV L)) ↦[(iBlk L).view.set]{fullShare} I d)
      ∗ (tV.view.loc (V d (cV L) (jV L)) ↦{tokQ L 0} G d)
      ∗ (tV.view.loc (V d (cV L) (jV L)) ↦{tokQ L 1} G d)
      ∗ bigSep Finset.univ fun r : Fin 14 => (oChk L r).view.loc (V d (cV L) (jV L)) ↦[(oChk L r).view.set]{fullShare} fo) := rfl

theorem waits_insert {W W' : Waits sig (HIx 1)} {sm : SemLoc sig} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

theorem tile_body (hF : (K (F := F)).Facts) (hI : ∀ d j, (I d j).toNat < 1000)
    (O' : CellTallies nD τ sig (HIx 1)) (W : Waits sig (HIx 1)) (hO : ∀ g, O' g none = 0) :
    iprop(levAts (K (F := F)).L (K (F := F)).lev ∗ emp ∗ tileGo I G O d L
        ∗ scopedBufs (V d (cV L) (jV L)) ∗ scopedSems0 (V d (cV L) (jV L)) ∗ owes (V d (cV L) (jV L)) O' W)
      ⊢ wp frame (wpE (defs₀ (F := F)) 𝒱₀ (V d (cV L) (jV L)) none) Set.univ
          (cc1__sc_gather_body L iV (Memref.isWhole_whole _) tV (Memref.isWhole_whole _) oV (Memref.isWhole_whole _)
            sI (Memref.isWhole_whole _) sA (Memref.isWhole_whole _) sB (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14)
          fun _ => iprop(tileTd I G d L ∗ scopedBufs (V d (cV L) (jV L)) ∗ scopedSems0 (V d (cV L) (jV L))
            ∗ ∃ W', ⌜∀ p ∈ W', p ∈ W ∨ p.2 = none⌝ ∗ owes (V d (cV L) (jV L)) O' W') := by
  rw [SparseCore.Cfg.scopedSems0_V, ownSems0_list (F := F) d L]
  simp only [semList, List.map_cons, List.map_nil, List.foldr_cons, List.foldr_nil]
  rw [(K (F := F)).scopedBufs_V hF, ownBufs_list (F := F) d L, tileGo, tileTd, tile_eq, tile_eq, chunks_list, chunks_list,
    cc1__sc_gather_body_eq_skeleton]
  iintro ⟨#Hlv, -, ⟨Hi, Ht0, Ht1, Ho0, Ho1, Ho2, Ho3, Ho4, Ho5, Ho6, Ho7, Ho8, Ho9, Ho10, Ho11, Ho12, Ho13⟩, ⟨⟨⟨%f0, Hs0⟩, ⟨%f1, Hs1⟩, ⟨%f2, Hs2⟩, -⟩, Hbrest⟩, ⟨⟨Hsem0, Hsem1, Hsem2, Hsem3, Hsem4, Hsem5, Hsem6, Hsem7, Hsem8, Hsem9, Hsem10, Hsem11, Hsem12, Hsem13, Hsem14, Hsem15, Hsem16, -⟩, Hsrest⟩, HO⟩
  have hin := idx_inb (F := F) d L (I d) (hI d)
  ihave Hmw := ((K (F := F)).mayWaits_none (thr := V d (cV L) (jV L)) hO) $$ Hlv
  sl_exec
  sl_step
  have cd := fun r pay h => Entails.of_eq (chunk_done (F := F) I G O d L r pay h)
  ihave Ho0 := (cd 0 _ ?_) $$ Ho0; swap
  ihave Ho1 := (cd 1 _ ?_) $$ Ho1; swap
  ihave Ho2 := (cd 2 _ ?_) $$ Ho2; swap
  ihave Ho3 := (cd 3 _ ?_) $$ Ho3; swap
  ihave Ho4 := (cd 4 _ ?_) $$ Ho4; swap
  ihave Ho5 := (cd 5 _ ?_) $$ Ho5; swap
  ihave Ho6 := (cd 6 _ ?_) $$ Ho6; swap
  ihave Ho7 := (cd 7 _ ?_) $$ Ho7; swap
  ihave Ho8 := (cd 8 _ ?_) $$ Ho8; swap
  ihave Ho9 := (cd 9 _ ?_) $$ Ho9; swap
  ihave Ho10 := (cd 10 _ ?_) $$ Ho10; swap
  ihave Ho11 := (cd 11 _ ?_) $$ Ho11; swap
  ihave Ho12 := (cd 12 _ ?_) $$ Ho12; swap
  ihave Ho13 := (cd 13 _ ?_) $$ Ho13; swap
  iframe Hi Ht0 Ht1 Ho0 Ho1 Ho2 Ho3 Ho4 Ho5 Ho6 Ho7 Ho8 Ho9 Ho10 Ho11 Ho12 Ho13 Hbrest Hsrest
  isplitl [Hs0 Hs1 Hs2]
  · isplitl [Hs0]; · iexists _; iexact Hs0
    isplitl [Hs1]; · iexists _; iexact Hs1
    isplitl [Hs2]; · iexists _; iexact Hs2
    iempintro
  isplitl [Hsem0 Hsem1 Hsem2 Hsem3 Hsem4 Hsem5 Hsem6 Hsem7 Hsem8 Hsem9 Hsem10 Hsem11 Hsem12 Hsem13 Hsem14 Hsem15 Hsem16]
  · isplitl [Hsem0]; · iexact Hsem0
    isplitl [Hsem1]; · iexact Hsem1
    isplitl [Hsem2]; · iexact Hsem2
    isplitl [Hsem3]; · iexact Hsem3
    isplitl [Hsem4]; · iexact Hsem4
    isplitl [Hsem5]; · iexact Hsem5
    isplitl [Hsem6]; · iexact Hsem6
    isplitl [Hsem7]; · iexact Hsem7
    isplitl [Hsem8]; · iexact Hsem8
    isplitl [Hsem9]; · iexact Hsem9
    isplitl [Hsem10]; · iexact Hsem10
    isplitl [Hsem11]; · iexact Hsem11
    isplitl [Hsem12]; · iexact Hsem12
    isplitl [Hsem13]; · iexact Hsem13
    isplitl [Hsem14]; · iexact Hsem14
    isplitl [Hsem15]; · iexact Hsem15
    isplitl [Hsem16]; · iexact Hsem16
    iempintro
  iexists _; isplitr
  swap; · iexact HO
  ipureintro
  repeat refine waits_insert ?_
  exact fun _ hp => Or.inl hp
  all_goals exact fun x => pay_value (F := F) I G d L _ _ _ _ _ _ _ _ _ _ _ _ x

end Tile

theorem defs₀_vector (c : Fin τ.nSC) (s : Fin τ.nSub) :
    defs₀ (F := F) (.scVector c s) 1 ()
      = SparseCore.onTile hcore1 hsub1 (fun c s => cc1__sc_gather_body (coordsV c s)
          iV (Memref.isWhole_whole _) tV (Memref.isWhole_whole _) oV (Memref.isWhole_whole _)
            sI (Memref.isWhole_whole _) sA (Memref.isWhole_whole _) sB (Memref.isWhole_whole _) cc1_scratch3 cc1_scratch4
            cc1_scoped0 cc1_scoped1 cc1_scoped2 cc1_scoped3 cc1_scoped4 cc1_scoped5 cc1_scoped6 cc1_scoped7 cc1_scoped8 cc1_scoped9 cc1_scoped10 cc1_scoped11 cc1_scoped12 cc1_scoped13 cc1_scoped14) ⟨⟩ c s := rfl

omit [FloatOps F] [Named F] in
theorem obl_post {thr : Thread nD τ} {A B C : sProp 𝕄} {O' : CellTallies nD τ sig (HIx 1)} {W : Waits sig (HIx 1)} {q : Fin 1} :
    iprop(A ∗ B ∗ C ∗ ∃ W', ⌜∀ p ∈ W', p ∈ W ∨ p.2 = none⌝ ∗ owes thr O' W')
      ⊢ iprop(A ∗ B ∗ C ∗ ∃ W', ⌜∀ p ∈ W', p ∈ W ∨ p.2 = none ∨ p.2 = some q⌝ ∗ owes thr O' W') := by
  iintro ⟨HA, HB, HC, %W', %hW', HO⟩
  iframe HA HB HC
  iexists W'; isplitr
  · ipureintro; exact fun p hp => (hW' p hp).imp_right Or.inl
  · iexact HO

theorem tileObl (hF : (K (F := F)).Facts) (hI : ∀ d j, (I d j).toNat < 1000) :
    (K (F := F)).TileObl (D (F := F)) 𝒱 (P I G O) v₀ 0 := by
  intro d c i O' W hO _ _
  simp only [show (P I G O).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body I G O d (coordsV ⟨_, hc.1⟩ ⟨_, hc.2⟩) hF hI O' W hO).trans (wp_mono frame _ _ fun _ => obl_post)

namespace Split

-- Subcore 2 i + c, chunk 14 (2 i + c) + r and read share 32 c + 2 i + b, as mixed-radix digits.
def e32 : Fin 2 × Fin 16 ≃ Fin 32 := (Equiv.prodComm _ _).trans finProdFinEquiv
def e448 : Fin 2 × (Fin 16 × Fin 14) ≃ Fin 448 := (Equiv.prodAssoc _ _ _).symm.trans ((e32.prodCongr (Equiv.refl _)).trans finProdFinEquiv)
def e64 : Fin 2 × (Fin 16 × Fin 2) ≃ Fin 64 := ((Equiv.refl _).prodCongr finProdFinEquiv).trans finProdFinEquiv
theorem e32_val (c : Fin 2) (i : Fin 16) : (e32 (c, i)).val = c.val + 2 * i.val := rfl
theorem e448_val (c : Fin 2) (i : Fin 16) (r : Fin 14) : (e448 (c, i, r)).val = r.val + 14 * (c.val + 2 * i.val) := rfl
theorem e64_val (c : Fin 2) (i : Fin 16) (b : Fin 2) : (e64 (c, i, b)).val = b.val + 2 * i.val + 32 * c.val := rfl

theorem off1_eq : ∀ (c : Fin 2) (i : Fin 16), k1_off1 (coordsV c i) = ![2 * i.val + c.val, 0, 0] := by decide +kernel
theorem off2_eq : ∀ (c : Fin 2) (i : Fin 16) (r : Fin 14),
    k1_off2 (coordsV c i) (BitVec.ofNat 32 (112 * r.val)) = ![(2 * i.val + c.val) * 1568 + 112 * r.val, 0] := by decide +kernel

theorem h32 : 32 ∣ S32x14x112.size 0 := ⟨1, rfl⟩
theorem h448 : 448 ∣ S50176x128.size 0 := ⟨112, rfl⟩

theorem iRect_eq (c : Fin 2) (i : Fin 16) :
    Rect.unit (s := S32x14x112) (k1_off1 (coordsV c i)) S1x14x112.size (k1_off1_inb (coordsV c i))
      = Rect.part (s := S32x14x112) (a₀ := 0) h32 (e32 (c, i)) := by
  unfold Rect.part Rect.block
  congr 1 <;> funext a
  · rw [off1_eq]; fin_cases a <;> simp [Shape.partIx, Shape.partSize, e32_val] <;> omega
  · fin_cases a <;> simp [Shape.partSize]

theorem set_iBlk (c : Fin 2) (i : Fin 16) :
    (iBlk (coordsV c i)).view.set = (Rect.part (s := S32x14x112) (a₀ := 0) h32 (e32 (c, i))).set := by
  show ((iV.view.slice
      (Rect.unit (s := S32x14x112) (k1_off1 (coordsV c i)) S1x14x112.size (k1_off1_inb (coordsV c i)))).reshape S14x112
        squeezes_S1x14x112_S14x112.numel_eq).set = _
  rw [View.set_reshape]
  show ((View.whole (main_v9_scv : Ref sig .scVector)).slice
      (Rect.unit (s := S32x14x112) (k1_off1 (coordsV c i)) S1x14x112.size (k1_off1_inb (coordsV c i)))).set = _
  rw [View.set_slice_whole, iRect_eq]

theorem oRect_eq (c : Fin 2) (i : Fin 16) (r : Fin 14) :
    Rect.unit (s := S50176x128) (k1_off2 (coordsV c i) (BitVec.ofNat 32 (112 * r.val))) S112x128.size (k1_off2_inb (coordsV c i) r)
      = Rect.part (s := S50176x128) (a₀ := 0) h448 (e448 (c, i, r)) := by
  unfold Rect.part Rect.block
  congr 1 <;> funext a
  · rw [off2_eq]; fin_cases a <;> simp [Shape.partIx, Shape.partSize, e448_val] <;> omega
  · fin_cases a <;> simp [Shape.partSize]

theorem set_oChk (c : Fin 2) (i : Fin 16) (r : Fin 14) :
    (oChk (coordsV c i) r).view.set = (Rect.part (s := S50176x128) (a₀ := 0) h448 (e448 (c, i, r))).set := by
  show ((View.whole (main_v10_scv : Ref sig .scVector)).slice
      (Rect.unit (s := S50176x128) (k1_off2 (coordsV c i) (BitVec.ofNat 32 (112 * r.val))) S112x128.size (k1_off2_inb (coordsV c i) r))).set = _
  rw [View.set_slice_whole, oRect_eq]

theorem idx_split (d : Dev nD) (f : Buf (Elt F) (idxLoc d)) :
    (idxLoc d ↦{fullShare} f : sProp 𝕄)
      = bigSep Finset.univ fun c : Fin 2 => bigSep Finset.univ fun i : Fin 16 =>
          idxLoc d ↦[(iBlk (coordsV c i)).view.set]{fullShare} f := by
  have h1 : (idxLoc d ↦{fullShare} f : sProp 𝕄)
      = bigSep Finset.univ fun j : Fin 32 => idxLoc d ↦[(Rect.part (s := S32x14x112) (a₀ := 0) h32 j).set]{fullShare} f := by
    rw [← pointsTo_biUnion Finset.univ (ℓ := idxLoc d) (fun j : Fin 32 => (Rect.part (s := S32x14x112) (a₀ := 0) h32 j).set)
      (fun j _ j' _ h => Rect.part_disjoint h32 h), Rect.biUnion_part h32]; try rfl
  rw [h1, BI.bigSep_univ_equiv e32, BI.bigSep_univ_prod]
  exact bigSep_congr fun c _ => bigSep_congr fun i _ => by rw [set_iBlk]

theorem out_split (d : Dev nD) (f : Buf (Elt F) (outLoc d)) :
    (outLoc d ↦{fullShare} f : sProp 𝕄)
      = bigSep Finset.univ fun c : Fin 2 => bigSep Finset.univ fun i : Fin 16 => bigSep Finset.univ fun r : Fin 14 =>
          outLoc d ↦[(oChk (coordsV c i) r).view.set]{fullShare} f := by
  have h1 : (outLoc d ↦{fullShare} f : sProp 𝕄)
      = bigSep Finset.univ fun j : Fin 448 => outLoc d ↦[(Rect.part (s := S50176x128) (a₀ := 0) h448 j).set]{fullShare} f := by
    rw [← pointsTo_biUnion Finset.univ (ℓ := outLoc d) (fun j : Fin 448 => (Rect.part (s := S50176x128) (a₀ := 0) h448 j).set)
      (fun j _ j' _ h => Rect.part_disjoint h448 h), Rect.biUnion_part h448]; try rfl
  rw [h1, BI.bigSep_univ_equiv e448, BI.bigSep_univ_prod]
  refine bigSep_congr fun c _ => ?_
  rw [BI.bigSep_univ_prod]
  exact bigSep_congr fun i _ => bigSep_congr fun r _ => by rw [set_oChk]

theorem tab_split (d : Dev nD) (f : Buf (Elt F) (tabLoc d)) :
    (tabLoc d ↦{fullShare} f : sProp 𝕄) ⊣⊢ iprop((tabLoc d ↦{Transfers.shareDrop fullShare 64} f)
      ∗ bigSep Finset.univ fun c : Fin 2 => bigSep Finset.univ fun i : Fin 16 =>
          iprop((tabLoc d ↦{tokQ (coordsV c i) 0} f) ∗ (tabLoc d ↦{tokQ (coordsV c i) 1} f))) := by
  have hb : (bigSep Finset.univ fun t : Fin 64 => (tabLoc d ↦{Transfers.shareTok fullShare 64 t} f : sProp 𝕄))
      = bigSep Finset.univ fun c : Fin 2 => bigSep Finset.univ fun i : Fin 16 =>
          iprop((tabLoc d ↦{tokQ (coordsV c i) 0} f) ∗ (tabLoc d ↦{tokQ (coordsV c i) 1} f)) := by
    rw [BI.bigSep_univ_equiv e64, BI.bigSep_univ_prod]
    refine bigSep_congr fun c _ => ?_
    rw [BI.bigSep_univ_prod]
    refine bigSep_congr fun i _ => ?_
    rw [bigSep_univ_two]
    have e0 : e64 (c, i, 0) = tokIx (coordsV c i) 0 := Fin.ext (by simp [tokIx, e64_val, coordsV] <;> omega)
    have e1 : e64 (c, i, 1) = tokIx (coordsV c i) 1 := Fin.ext (by simp [tokIx, e64_val, coordsV] <;> omega)
    rw [e0, e1]
  rw [← hb]
  exact Transfers.pointsTo_toks (ℓ := tabLoc d) (S := Finset.univ) fullShare 64

theorem tabRest_zero (d : Dev nD) : tabRest (F := F) G d (0 : Fin 2).val = iprop(tabLoc d ↦{Transfers.shareDrop fullShare 64} G d) :=
  if_pos rfl
theorem tabRest_one (d : Dev nD) : tabRest (F := F) G d (1 : Fin 2).val = iprop(emp) := if_neg (by decide)

theorem split_eq (d : Dev nD) (fo : Buf (Elt F) (outLoc d)) :
    (bigSep Finset.univ fun c : Fin 2 => iprop(tabRest G d c.val ∗ bigSep Finset.univ fun i : Fin 16 => tile I G d (coordsV c i) fo) : sProp 𝕄)
      ⊣⊢ iprop((idxLoc d ↦{fullShare} I d) ∗ (tabLoc d ↦{fullShare} G d) ∗ (outLoc d ↦{fullShare} fo)) := by
  have hT := tab_split (F := F) d (G d)
  simp only [tile, bigSep_sep'] at hT ⊢
  rw [idx_split d (I d), out_split d fo, bigSep_univ_two (fun c : Fin 2 => tabRest G d c.val), tabRest_zero, tabRest_one]
  constructor
  · iintro ⟨⟨Hd, -⟩, Hi, Ht0, Ht1, Ho⟩
    iframe Hi Ho
    iapply hT.2
    iframe
  · iintro ⟨Hi, Ht, Ho⟩
    icases (hT.1) $$ Ht with ⟨Hd, Ht0, Ht1⟩
    iframe

end Split

theorem vecSplit : (K (F := F)).VecSplit' (P I G O) 0 := by
  intro d c
  dsimp only [P]
  iintro ⟨Hr, Hgo⟩
  imodintro
  isplitl [Hgo]; · iexact Hgo
  iintro Htd
  iframe

theorem st_intro (d : Dev nD) :
    iprop((idxLoc d ↦{fullShare} I d) ∗ (tabLoc d ↦{fullShare} G d) ∗ (outLoc d ↦{fullShare} O d))
      ⊢ (bigSep Finset.univ fun c : Fin ((K (F := F)).nCore 0) => (P (F := F) I G O).st 0 d c : sProp 𝕄) := by
  exact (Split.split_eq I G d (O d)).2

theorem dn_elim (d : Dev nD) :
    (bigSep Finset.univ fun c : Fin ((K (F := F)).nCore 0) => (P (F := F) I G O).dn 0 d c : sProp 𝕄)
      ⊢ iprop((idxLoc d ↦{fullShare} I d) ∗ (tabLoc d ↦{fullShare} G d) ∗ (outLoc d ↦{fullShare} geOf I G d)) := by
  exact (Split.split_eq I G d (geOf I G d)).1

end Cert.Proof.KI.Tile

end
-- ==== Proof.KILaunchData.lean ====
import proofs.«211030_g66005057405235_cont_9to1c4b_431_51_alg».proof.Proof.KILaunchCommon
import proofs.«211030_g66005057405235_cont_9to1c4b_431_51_alg».proof.Proof.KIRegion0
import proofs.«211030_g66005057405235_cont_9to1c4b_431_51_alg».proof.Proof.KIRegion1
import proofs.«211030_g66005057405235_cont_9to1c4b_431_51_alg».proof.Proof.KIRegion2
import proofs.«211030_g66005057405235_cont_9to1c4b_431_51_alg».proof.Proof.KITile
import Idealize.ShloMosaic.Lib.Pipeline.FrameSuffix
import Idealize.ShloMosaic.Lib.Pipeline.RegionsLoop

noncomputable section

namespace Cert.Proof.KI.Launch

open Cert.KernelIdeal Cert.KernelIdeal.Gen
open Cert.Proof.KI
open Idealize.ShloMosaic Idealize.ShloMosaic.TcCoe
open Idealize.ShloMosaic.SparseCore.Cfg (HIx Pay)
open Idealize.SL.Sem
open Idealize.ShloMosaic.Pipeline (Dat)

variable {F : FTy → Type} [FloatOps F] [Named F]

abbrev hostOps0 : List (HloOp τ sig (Elt F)) :=
  [ StableHlo.unary main_arg2 main_v0 ((extractStridedSlice S1x50000 ![1, 0] · slices_S2x50000_S1x50000_1_0) : (⟨S2x50000, .i32⟩ : BufTy).Contents (Elt F) → (⟨S1x50000, .i32⟩ : BufTy).Contents (Elt F)),
    StableHlo.reshape main_v0 main_v1 rfl shapeCasts_S1x50000_S50000,
    StableHlo.nullary main_c (constantI S_ 32 0#32),
    StableHlo.TRef.unary (.of main_c : StableHlo.TRef sig ⟨S_, .i32⟩) main_call0.v0 id,
    StableHlo.TRef.binary (.of main_v1 : StableHlo.TRef sig ⟨S50000, .i32⟩) main_call0.v0 main_call0.v1 (fun x v => pad S50176 ![0] ![176] ![0] x v pads_S50000_S50176_01760 h_S_),
    StableHlo.nullary main_c_0 (constantI S_ 32 0#32),
    StableHlo.TRef.unary (.of main_c_0 : StableHlo.TRef sig ⟨S_, .i32⟩) main_call1.v0 id,
    StableHlo.TRef.binary (.of main_v1 : StableHlo.TRef sig ⟨S50000, .i32⟩) main_call1.v0 main_call1.v1 (fun x v => pad S53248 ![0] ![3248] ![0] x v pads_S50000_S53248_032480 h_S_),
    StableHlo.reshape main_v3 main_v4 rfl shapeCasts_S53248_S13x1x4096,
    StableHlo.nullary main_c_1 (constantI S_ 32 0#32),
    StableHlo.TRef.unary (.of main_c_1 : StableHlo.TRef sig ⟨S_, .i32⟩) main_call2.v0 (sitofp .f32),
    StableHlo.TRef.binary (.of main_arg1 : StableHlo.TRef sig ⟨S1000x128, .f32⟩) main_call2.v0 main_call2.v1 (fun x v => pad S1024x128 ![0, 0] ![24, 0] ![0, 0] x v pads_S1000x128_S1024x128_0240_000 h_S_),
    StableHlo.reshape main_arg6 main_v6 rfl shapeCasts_S128_S1x128,
    StableHlo.reshape main_arg8 main_v7 rfl shapeCasts_S128_S1x128 ]

abbrev hostOps1 : List (HloOp τ sig (Elt F)) :=
  [ StableHlo.reshape main_v2 main_v9 rfl shapeCasts_S50176_S32x14x112 ]

abbrev hostOps2 : List (HloOp τ sig (Elt F)) :=
  [ StableHlo.reshape main_arg10 main_v12 rfl shapeCasts_S1000_S1000x1 ]

abbrev hostOps3 : List (HloOp τ sig (Elt F)) :=
  [ StableHlo.unary main_v13 main_v14 ((transpose S50000x1000 [1, 0] · transposes_S1000x50000_S50000x1000_1_0) : (⟨S1000x50000, .f32⟩ : BufTy).Contents (Elt F) → (⟨S50000x1000, .f32⟩ : BufTy).Contents (Elt F)) ]

theorem hostOps0_sub : (hostOps0 : List (HloOp τ sig (Elt F))).Forall fun op => op.bufs ⊆ StableHlo.tcRefs τ sig := by
  simp only [hostOps0, List.Forall, StableHlo.TRef.unary, StableHlo.TRef.binary, StableHlo.unary_bufs_sub, StableHlo.reshape_bufs_sub,
    StableHlo.nullary_bufs_sub, StableHlo.binary_bufs_sub, and_self]
theorem hostOps1_sub : (hostOps1 : List (HloOp τ sig (Elt F))).Forall fun op => op.bufs ⊆ StableHlo.tcRefs τ sig :=
  StableHlo.reshape_bufs_sub ..
theorem hostOps2_sub : (hostOps2 : List (HloOp τ sig (Elt F))).Forall fun op => op.bufs ⊆ StableHlo.tcRefs τ sig :=
  StableHlo.reshape_bufs_sub ..
theorem hostOps3_sub : (hostOps3 : List (HloOp τ sig (Elt F))).Forall fun op => op.bufs ⊆ StableHlo.tcRefs τ sig :=
  StableHlo.unary_bufs_sub ..

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ :=
  rfl
theorem hostOps2_fresh : (hostOps2 : List (HloOp τ sig (Elt F))).Forall fun op => op.fresh = ∅ :=
  rfl
theorem hostOps3_fresh : (hostOps3 : List (HloOp τ sig (Elt F))).Forall fun op => op.fresh = ∅ :=
  rfl

theorem main_chain (d : Dev nD) : main (F := F) d = (Pipeline.chain
  [ StableHlo.seq hostOps0,
    Prog.lift (.customCall (SparseCore.inner (Pipeline.entry 0)) ()),
    StableHlo.seq hostOps1,
    (sc (F := F)).run d 0,
    Prog.lift (.customCall (SparseCore.inner (Pipeline.entry 1)) ()),
    StableHlo.seq hostOps2,
    Prog.lift (.customCall (SparseCore.inner (Pipeline.entry 2)) ()),
    StableHlo.seq hostOps3 ] : Prog (TpuEff nD τ sig (Elt F) (SparseCore.Sig (Pipeline.Sig Λ₀ (Fin 3) fun p => (pcfgs (F := F) p).Adm) 1) .tc) PUnit) := by
  chain_rfl

section

variable (W : Dev nD → Valuation τ sig (Elt F))

def pdats :
    (p : Fin 3) → (c : Dev nD) → Dat τ (Elt F) (HIx 1) ℕ UU ℕ (Pipeline.pin (pcfgs (F := F)) adm p) c
  | ⟨0, _⟩ => fun c => R0.dat0 (atTc W) c
  | ⟨1, _⟩ => fun c => R1.dat1 (atTc W) c
  | ⟨2, _⟩ => fun c => R2.dat2 (atTc W) c

section

variable (c : Dev nD)

def out0 : Valuation τ sig (Elt F) :=
  Pipeline.withArrays spec0 c (W c) fun w => (R0.dat0 (atTc W) c).arrAt w cfg0.N

def out1 : Valuation τ sig (Elt F) :=
  Pipeline.withArrays spec2 c (W c) fun w => (R1.dat1 (atTc W) c).arrAt w cfg2.N

def out2 : Valuation τ sig (Elt F) :=
  Pipeline.withArrays spec3 c (W c) fun w => (R2.dat2 (atTc W) c).arrAt w cfg3.N

theorem out0_arr (w : Fin cfg0.W) :
    out0 W c (Proc.devRef .tc (Pipeline.arrRef spec0 w)) = (R0.dat0 (atTc W) c).arrAt w cfg0.N :=
  Pipeline.withArrays_arr spec0 launch0.win.arr_inj c _ _ w
theorem out0_of_ne (b : Ref sig .tc) (hb : ∀ w, Pipeline.arrRef spec0 w ≠ b) :
    out0 W c (Proc.devRef .tc b) = W c (Proc.devRef .tc b) :=
  Pipeline.withArrays_of_ne spec0 c _ _ b hb
theorem out1_arr (w : Fin cfg2.W) :
    out1 W c (Proc.devRef .tc (Pipeline.arrRef spec2 w)) = (R1.dat1 (atTc W) c).arrAt w cfg2.N :=
  Pipeline.withArrays_arr spec2 launch2.win.arr_inj c _ _ w
theorem out1_of_ne (b : Ref sig .tc) (hb : ∀ w, Pipeline.arrRef spec2 w ≠ b) :
    out1 W c (Proc.devRef .tc b) = W c (Proc.devRef .tc b) :=
  Pipeline.withArrays_of_ne spec2 c _ _ b hb
theorem out2_arr (w : Fin cfg3.W) :
    out2 W c (Proc.devRef .tc (Pipeline.arrRef spec3 w)) = (R2.dat2 (atTc W) c).arrAt w cfg3.N :=
  Pipeline.withArrays_arr spec3 launch3.win.arr_inj c _ _ w
theorem out2_of_ne (b : Ref sig .tc) (hb : ∀ w, Pipeline.arrRef spec3 w ≠ b) :
    out2 W c (Proc.devRef .tc b) = W c (Proc.devRef .tc b) :=
  Pipeline.withArrays_of_ne spec3 c _ _ b hb

theorem out0_keeps (b : Ref sig .tc)
    (h : ∀ w, Pipeline.arrRef spec0 w = b → (cfg0.win w).isOut = false) : out0 W c (Proc.devRef .tc b) = W c (Proc.devRef .tc b) := by
  by_cases hb : ∃ w, Pipeline.arrRef spec0 w = b
  · obtain ⟨w, rfl⟩ := hb
    rw [out0_arr, (R0.dat0 (atTc W) c).arrAt_in w (h w rfl)]; rfl
  · exact out0_of_ne W c b fun w e => hb ⟨w, e⟩
theorem out1_keeps (b : Ref sig .tc)
    (h : ∀ w, Pipeline.arrRef spec2 w = b → (cfg2.win w).isOut = false) : out1 W c (Proc.devRef .tc b) = W c (Proc.devRef .tc b) := by
  by_cases hb : ∃ w, Pipeline.arrRef spec2 w = b
  · obtain ⟨w, rfl⟩ := hb
    rw [out1_arr, (R1.dat1 (atTc W) c).arrAt_in w (h w rfl)]; rfl
  · exact out1_of_ne W c b fun w e => hb ⟨w, e⟩
theorem out2_keeps (b : Ref sig .tc)
    (h : ∀ w, Pipeline.arrRef spec3 w = b → (cfg3.win w).isOut = false) : out2 W c (Proc.devRef .tc b) = W c (Proc.devRef .tc b) := by
  by_cases hb : ∃ w, Pipeline.arrRef spec3 w = b
  · obtain ⟨w, rfl⟩ := hb
    rw [out2_arr, (R2.dat2 (atTc W) c).arrAt_in w (h w rfl)]; rfl
  · exact out2_of_ne W c b fun w e => hb ⟨w, e⟩

end

abbrev idxOf : (d : Dev nD) → Buf (Elt F) (Tile.idxLoc d) := fun d => W d (Proc.devRef .tc main_v9)
abbrev tabOf : (d : Dev nD) → Buf (Elt F) (Tile.tabLoc d) := fun d => W d (Proc.devRef .tc main_v8_1)
abbrev dstOf : (d : Dev nD) → Buf (Elt F) (Tile.outLoc d) := fun d => W d (Proc.devRef .tc main_v10)

def outG (d : Dev nD) : Valuation τ sig (Elt F) :=
  Function.update (W d) (Proc.devRef .tc main_v10) (Tile.geOf (idxOf W) (tabOf W) d)

theorem outG_dst (d : Dev nD) :
    outG W d (Proc.devRef .tc main_v10) = Tile.geOf (idxOf W) (tabOf W) d := Function.update_self _ _ _
theorem outG_of_ne (d : Dev nD) (b : DevRef τ sig) (hb : b ≠ Proc.devRef .tc main_v10) :
    outG W d b = W d b := Function.update_of_ne hb _ _

end

section

variable (V : Valuation τ sig (Elt F)) (b : Ref sig .tc)

theorem after_keeps (ops : List (HloOp τ sig (Elt F)))
    (h : ops.Forall fun op => Proc.devRef .tc b ∉ op.writes) : StableHlo.after ops V (Proc.devRef .tc b) = V (Proc.devRef .tc b) :=
  StableHlo.after_of_forall_not_mem _ _ (List.forall_iff_forall_mem.mp h)

theorem after0_keeps (hb : b ∉ [main_v0, main_v1, main_c, main_call0_v0, main_v2, main_c_0, main_call1_v0, main_v3, main_v4, main_c_1, main_call2_v0, main_v5, main_v6, main_v7]) :
    StableHlo.after hostOps0 V (Proc.devRef .tc b) = V (Proc.devRef .tc b) :=
  after_keeps V b _ (by simpa only [hostOps0, List.Forall, StableHlo.nullary_writes, StableHlo.unary_writes, StableHlo.binary_writes, StableHlo.reshape_writes, Finset.mem_singleton, (Proc.devRef_injective _).eq_iff, List.mem_cons, List.not_mem_nil, or_false, not_or] using hb)
theorem after1_keeps (hb : b ≠ main_v9) :
    StableHlo.after hostOps1 V (Proc.devRef .tc b) = V (Proc.devRef .tc b) :=
  after_keeps V b _ fun h => hb (Proc.devRef_injective _ (Finset.mem_singleton.mp h))
theorem after2_keeps (hb : b ≠ main_v12) :
    StableHlo.after hostOps2 V (Proc.devRef .tc b) = V (Proc.devRef .tc b) :=
  after_keeps V b _ fun h => hb (Proc.devRef_injective _ (Finset.mem_singleton.mp h))
theorem after3_keeps (hb : b ≠ main_v14) :
    StableHlo.after hostOps3 V (Proc.devRef .tc b) = V (Proc.devRef .tc b) :=
  after_keeps V b _ fun h => hb (Proc.devRef_injective _ (Finset.mem_singleton.mp h))

end

section Fold

variable (m : (ℓ : Loc nD τ sig) → Buf (Elt F) ℓ)

abbrev W0 : Dev nD → Valuation τ sig (Elt F) := fun c b => m (c, b)

abbrev W1 := fun c => StableHlo.after hostOps0 (W0 m c)

abbrev W2 := out0 (W1 m)

abbrev W3 := fun c => StableHlo.after hostOps1 (W2 m c)

abbrev W4 := outG (W3 m)

abbrev W5 := out1 (W4 m)

abbrev W6 := fun c => StableHlo.after hostOps2 (W5 m c)

abbrev W7 := out2 (W6 m)

abbrev W8 := fun c => StableHlo.after hostOps3 (W7 m c)

def Wres (c : Dev nD) : Buf (Elt F) ((c.tc : Thread nD τ).loc main_v14) := W8 m c (Proc.devRef .tc main_v14)

end Fold

end Cert.Proof.KI.Launch

end
-- ==== Proof.KILaunchCore.lean ====
import proofs.«211030_g66005057405235_cont_9to1c4b_431_51_alg».proof.Proof.KILaunchData
import Idealize.ShloMosaic.Lib.SparseCore.Launch
import Idealize.ShloMosaic.Lib.Pipeline.Regions
import Idealize.ShloMosaic.Lib.Pipeline.RegionsLoop
import Idealize.ShloMosaic.Lib.Pipeline.FrameSuffix
import Idealize.ShloMosaic.Lib.Pipeline.Kit
import Idealize.ShloMosaic.Lib.StableHlo.Run

noncomputable section

namespace Cert.Proof.KI.Launch

open Cert.KernelIdeal Cert.KernelIdeal.Gen
open Cert.Proof.KI
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (SparseCore.Cfg.HIx 1) (Elt F) ℕ Cert.Proof.KI.UU ℕ

set_option backward.isDefEq.respectTransparency.types false in
def reg0 (W : Dev nD → Valuation τ sig (Elt F)) :
    Pipeline.RegionSeg (pcfgs (F := F)) adm (pdats W) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (R0.body_obligation0 (atTc W) c none).loose
  hwaits c := Pipeline.cellsWaits_intro (Pipeline.pin (pcfgs (F := F)) adm) (pdats W) (none : HIx 1) 0 c (R := levAts (K (F := F)).L (K (F := F)).lev) fun w s t =>
    (K (F := F)).mayWait_none (thr := (c : Thread nD τ)) _ (Otc_none c 0)
  pre c := TS c (W c) 0
  post c := TS c (out0 W c) 0
  X c := iprop(∃ r, prngReg c r)
  Y c := iprop(∃ r, prngReg c r)
  Z c := Pipeline.unscopedRest (Ix := HIx 1) (Name := ℕ) (U := UU) (Lvl := ℕ) spec0 c (atTc W c)
  hentry c := by
    rw [Pipeline.ownSems0_none]
    have hsplit := Pipeline.arrays_of_unscopedBufs (p := 0) (pcfgs (F := F)) adm (pdats W) launch0.win launch0.arr_whole c
      ((pdats W 0 c).share_full fun _ => rfl) (atTc W c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesSt
      icases HO with ⟨%Wt, %hW, HO⟩; iexists Wt; isplitr
      · ipureintro; exact fun p hp => Or.inl (idx_none_of_WBelow hW p hp)
      iexact HO
    isplitl [Hp]; · iexact Hp
    iexact Hrest
  hin c := by
    rw [show (pdats W 0 c).Φ 0 = R0.ΦA0 c from rfl]; unfold R0.ΦA0
    iintro ⟨Hp, -, Hr⟩
    isplitl [Hr]; · iexact Hr
    iexact Hp
  hout c := by
    rw [Pipeline.ownSems0_none]
    rw [show (pdats W 0 c).Φ (Fin.last _) = R0.ΦA0 c from rfl]; unfold R0.ΦA0
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats W) ((pdats W 0 c).share_full fun _ => rfl)
      (atTc W c) (atTc (out0 W) c) ((pdats W 0 c).arrAt · cfg0.N) (fun w => (out0_arr W c w).symm)
      (fun b hb => out0_of_ne W c b fun w e => hb (Finset.mem_image.mpr ⟨w, Finset.mem_univ _, e⟩))
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin owesSt
    icases HO with ⟨%Wt, %hW, HO⟩; iexists Wt; isplitr
    · ipureintro
      intro p hp
      have hp2 : p.2 = none := by
        rcases hW hp with h | ⟨w, s, rfl⟩
        · exact h
        · rfl
      rw [hp2, SparseCore.Cfg.lev_none]
    iexact HO

section Steps

variable [∀ e, Nonempty (Elt F e)] {p : Fin 3} (W : Dev nD → Valuation τ sig (Elt F))
    (R : Pipeline.RegionSeg (pcfgs (F := F)) adm (pdats W) (none : HIx 1) defs₀ 𝒱₀ (K (F := F)).L (K (F := F)).lev p)
    (d : Dev nD)

set_option backward.isDefEq.respectTransparency.types false in
theorem step_region' (Q : PUnit → sProp 𝕄) :
    iprop((iprop(boundary (d.tc : Thread nD τ) ∗ R.post d) -∗ Q ⟨⟩)
        ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) (Variants.lift 𝒱₀) (d.tc : Thread nD τ) none) Set.univ
          (.op (.customCall (Pipeline.entry p) ()) fun _ => .ret ⟨⟩) Q := by
  have h := Pipeline.RegionSeg.wp (pcfgs (F := F)) adm (pdats W) (none : HIx 1) cellOf_inj (EP (F := F)) defs₀ 𝒱₀ (K (F := F)).L (K (F := F)).lev R d none
    (fun _ h => nomatch h) (fun _ => .ret ⟨⟩) Q
  refine BIBase.Entails.trans ?_ h
  iintro ⟨Hk, Hb, HT, Hlev, Hg, Ht⟩
  isplitl [Hk]
  · iintro H; rw [wp_ret]; imodintro; iapply Hk; iexact H
  isplitl [Hb]; · iexact Hb
  isplitl [HT]; · iexact HT
  isplitl [Hlev]; · iexact Hlev
  isplitl [Hg] <;> iassumption

set_option backward.isDefEq.respectTransparency.types false in
theorem step_region {β : Type} (k : PUnit → Prog (TpuEff nD τ sig (Elt F) (SparseCore.Sig (ΛP (F := F)) 1) .tc) β) (Q : β → sProp 𝕄) :
    iprop(levAts (K (F := F)).L (K (F := F)).lev ∗ boundary (T d) ∗ R.pre d ∗ ghostAt p d
        ∗ (iprop(boundary (T d) ∗ R.post d) -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry p)) ()) : Prog (TpuEff nD τ sig (Elt F) (SparseCore.Sig (ΛP (F := F)) 1) .tc) PUnit) >>= k) Q := by
  rw [wp_bind]
  have h1 := step_region' W R d (fun a => wp frame (wpE ((K (F := F)).defs (D (F := F))) 𝒱 (T d) none) Set.univ (k a) Q)
  have h2 := (K (F := F)).wp_liftProg (D (F := F)) 𝒱 (T d) Set.univ none
    (.op (.customCall (Pipeline.entry p) ()) fun _ => (.ret ⟨⟩ : Prog (TpuEff nD τ sig (Elt F) (ΛP (F := F)) .tc) PUnit))
    (fun a => wp frame (wpE ((K (F := F)).defs (D (F := F))) 𝒱 (T d) none) Set.univ (k a) Q)
  refine BIBase.Entails.trans ?_ (BIBase.Entails.trans h1 h2)
  iintro ⟨Hlev, Hb, HT, ⟨Hg, Ht⟩, Hk⟩
  isplitl [Hk]; · iexact Hk
  isplitl [Hb]; · iexact Hb
  isplitl [HT]; · iexact HT
  isplitl [Hlev]; · iexact Hlev
  isplitl [Hg] <;> iassumption

end Steps

def u₀ : UU :=
  (initOf (K (F := F)).hsCells (K (F := F)).hsToks, (initOf (Pipeline.cells cfgs cellOf_inj) (Pipeline.launchToks cfgs cellOf_inj), 1))

def G (d : Dev nD) : sProp 𝕄 := bigSep Finset.univ fun p : Fin 3 => ghostAt (F := F) p d

theorem G_eq (d : Dev nD) : (G (F := F) d : sProp 𝕄) = iprop(ghostAt 0 d ∗ ghostAt 1 d ∗ ghostAt 2 d) := by
  unfold G
  rw [show (Finset.univ : Finset (Fin 3)) = {0, 1, 2} by decide, SparseCore.bigSep_insert' (by decide), SparseCore.bigSep_insert' (by decide), bigSep_singleton]

theorem bigSep_emp' {I : Type} (s : Finset I) : (bigSep s fun _ => iprop(emp)) = (iprop(emp) : sProp 𝕄) := bigSep_emp_const s

theorem hu₀ (P : (K (F := F)).Pay (nD := nD) (Val := Elt F) (Name := ℕ) (U := UU)) (hx : ∀ q thr, P.x q thr = iprop(emp)) :
    (ownU (u₀ (F := F)) : sProp 𝕄)
      ⊢ |={Set.univ}=> iprop(BI.own (EH (initOf (K (F := F)).hsCells (K (F := F)).hsToks)) ∗ (bigSep Finset.univ fun d : Dev nD => G (F := F) d)
          ∗ bigSep Finset.univ fun thr : Thread nD τ => bigSep Finset.univ fun q : Fin 1 => P.x q thr) := by
  unfold u₀
  iintro Hu
  icases (ownU_pair _ _) $$ Hu with ⟨HH, HR⟩
  icases (own_pair_emb embR _ _) $$ HR with ⟨HP, -⟩
  rw [show (Emb.inl : Emb UP (UP × Counters)).trans embR = EP (F := F) from rfl]
  imod (Pipeline.fund_ghost cfgs (EP (F := F)) cellOf_inj) $$ HP with ⟨Hg, Ht⟩
  imodintro
  isplitl [HH]; · iexact HH
  isplitl [Hg Ht]
  · unfold G
    simp only [bigSep_sep']
    isplitl [Hg] <;> iassumption
  · simp only [hx]
    rw [show (bigSep Finset.univ fun _ : Thread nD τ => bigSep Finset.univ fun _ : Fin 1 => (iprop(emp) : sProp 𝕄)) = iprop(emp) from by
      rw [bigSep_congr fun _ _ => bigSep_emp' _, bigSep_emp']]
    iempintro

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

section Main

variable [∀ e, Nonempty (Elt F e)]

def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt EH d n : sProp 𝕄) = iprop(owesSt (F := F) d n ∗ tcRest (F := F) d n) := rfl

theorem held_gather (d : Dev nD) (Wv : Valuation τ sig (Elt F)) :
    (StableHlo.held (T d) (Pipeline.ucRefs τ sig) Wv : sProp 𝕄)
      = iprop(((Tile.idxLoc d ↦{fullShare} Wv (Proc.devRef .tc main_v9)) ∗ (Tile.tabLoc d ↦{fullShare} Wv (Proc.devRef .tc main_v8_1))
            ∗ (Tile.outLoc d ↦{fullShare} Wv (Proc.devRef .tc main_v10)))
          ∗ StableHlo.held (T d) (Pipeline.ucRefs τ sig \ {Proc.devRef .tc main_v9, Proc.devRef .tc main_v8_1, Proc.devRef .tc main_v10}) Wv) := by
  rw [StableHlo.held_sub_split (T d) (T := {Proc.devRef .tc main_v9, Proc.devRef .tc main_v8_1, Proc.devRef .tc main_v10}) (by decide) Wv]
  congr 1
  unfold StableHlo.held
  rw [SparseCore.bigSep_insert' (by decide), SparseCore.bigSep_insert' (by decide), bigSep_singleton]

theorem wp_run0 (P : (K (F := F)).Pay (nD := nD) (Val := Elt F) (Name := ℕ) (U := UU)) (κ : GSem nD τ sig → ℕ) (d : Dev nD) (Φ : PUnit → sProp 𝕄) :
    iprop((K (F := F)).ctx EH P κ ∗ (K (F := F)).tcSt EH d 0 ∗ (bigSep Finset.univ fun c : Fin ((K (F := F)).nCore 0) => P.st 0 d c)
        ∗ (((K (F := F)).tcSt EH d 1 ∗ bigSep Finset.univ fun c : Fin ((K (F := F)).nCore 0) => P.dn 0 d c) -∗ Φ ⟨⟩))
      ⊢ wp frame (wpE ((K (F := F)).defs (D (F := F))) 𝒱 (T d) none) Set.univ ((K (F := F)).run d 0) Φ :=
  (K (F := F)).wp_run (D (F := F)) 𝒱 (EH := EH) (P := P) κ d 0

theorem step_gather (κ : GSem nD τ sig → ℕ) (d : Dev nD) (W : Dev nD → Valuation τ sig (Elt F))
    {β : Type} (k : PUnit → Prog (TpuEff nD τ sig (Elt F) (SparseCore.Sig (ΛP (F := F)) 1) .tc) β) (Q : β → sProp 𝕄) :
    iprop((K (F := F)).ctx EH (Tile.P (idxOf W) (tabOf W) (dstOf W)) κ ∗ tcRest (F := F) d 0 ∗ TS d (W d) 0
        ∗ (iprop(tcRest (F := F) d 1 ∗ TS d (outG W d) 1) -∗ wp frame (wpE ((K (F := F)).defs (D (F := F))) 𝒱 (T d) none) Set.univ (k ⟨⟩) Q))
      ⊢ wp frame (wpE ((K (F := F)).defs (D (F := F))) 𝒱 (T d) none) Set.univ ((K (F := F)).run d 0 >>= k) Q := by
  rw [wp_bind]
  unfold TS
  rw [held_gather d (W d), held_gather d (outG W d)]
  iintro ⟨#Hctx, Hrest, ⟨⟨⟨Hi, Ht, Ho⟩, Hoth⟩, Hp, HO⟩, Hk⟩
  iapply (wp_run0 (Tile.P (idxOf W) (tabOf W) (dstOf W)) κ d _)
  isplitr; · iexact Hctx
  isplitl [Hrest HO]
  · rw [tcSt_eq]; isplitl [HO] <;> iassumption
  isplitl [Hi Ht Ho]
  · iapply (Tile.st_intro (idxOf W) (tabOf W) (dstOf W) d)
    isplitl [Hi]; · iexact Hi
    isplitl [Ht] <;> iassumption
  iintro ⟨Hst, Hdn⟩
  ihave H := (Tile.dn_elim (idxOf W) (tabOf W) (dstOf W) d) $$ Hdn
  icases H with ⟨Hi, Ht, Ho⟩
  ihave Hst' := (BIBase.Entails.of_eq (tcSt_eq (F := F) d 1)) $$ Hst
  icases Hst' with ⟨HO, Hrest⟩
  iapply Hk
  isplitl [Hrest]; · iexact Hrest
  isplitl [Hi Ht Ho Hoth]
  · isplitl [Hi Ht Ho]
    · rw [outG_of_ne W d _ (show Proc.devRef .tc main_v9 ≠ Proc.devRef .tc main_v10 by decide),
        outG_of_ne W d _ (show Proc.devRef .tc main_v8_1 ≠ Proc.devRef .tc main_v10 by decide), outG_dst]
      isplitl [Hi]; · iexact Hi
      isplitl [Ht] <;> iassumption
    · rw [StableHlo.held_congr (T d) (V := outG W d) (V' := W d) fun b hb => outG_of_ne W d b fun e => by
        rw [e] at hb; exact (Finset.mem_sdiff.mp hb).2 (by simp)]
      iexact Hoth
  isplitl [Hp]; · iexact Hp
  iexact HO

variable (m : (ℓ : Loc nD τ sig) → Buf (Elt F) ℓ) (ρ : Dev nD → PrngReg)

theorem tcRes_eq (d : Dev nD) :
    ((K (F := F)).tcRes m ρ d : sProp 𝕄)
      = iprop(boundary (T d) ∗ StableHlo.held (T d) (Pipeline.ucRefs τ sig) (W0 m d) ∗ (K (F := F)).tcSems0 d ∗ prngReg d (ρ d)) := by
  unfold SparseCore.Cfg.tcRes
  rw [← Pipeline.unscopedBufs_held d (W0 m d)]

set_option backward.isDefEq.respectTransparency.types false in
theorem step_host (ops : List (HloOp τ sig (Elt F))) (hsub : ops.Forall fun op => op.bufs ⊆ StableHlo.tcRefs τ sig)
    (hfresh : ops.Forall fun op => op.fresh = ∅) (d : Dev nD) (Wv : Valuation τ sig (Elt F)) (n : ℕ)
    {β : Type} (k : PUnit → Prog (TpuEff nD τ sig (Elt F) (SparseCore.Sig (ΛP (F := F)) 1) .tc) β) (Q : β → sProp 𝕄) :
    iprop(boundary (T d) ∗ TS d Wv n
        ∗ (iprop(boundary (T d) ∗ TS d (StableHlo.after ops Wv) n) -∗ wp frame (wpE ((K (F := F)).defs (D (F := F))) 𝒱 (T d) none) Set.univ (k ⟨⟩) Q))
      ⊢ wp frame (wpE ((K (F := F)).defs (D (F := F))) 𝒱 (T d) none) Set.univ (StableHlo.seq ops >>= k) Q := by
  have hseq := StableHlo.wp_seq (defs := (K (F := F)).defs (D (F := F))) 𝒱 none Set.univ d (Pipeline.ucRefs τ sig) k (K := Q) ops
    (fun op h => Pipeline.sub_ucRefs op ((List.forall_iff_forall_mem.mp hsub) op h)) (fun op h => (List.forall_iff_forall_mem.mp hfresh) op h) Wv
  unfold TS
  iintro ⟨Hb, ⟨Hh, HR⟩, Hk⟩
  iapply hseq $$ [Hb Hh]
  · isplitl [Hb] <;> iassumption
  iintro ⟨Hb, Hh⟩
  iapply Hk
  isplitl [Hb]; · iexact Hb
  isplitl [Hh] <;> iassumption

theorem step_reg0 (W : Dev nD → Valuation τ sig (Elt F)) (d : Dev nD)
    {β : Type} (k : PUnit → Prog (TpuEff nD τ sig (Elt F) (SparseCore.Sig (ΛP (F := F)) 1) .tc) β) (Q : β → sProp 𝕄) :
    iprop(levAts (K (F := F)).L (K (F := F)).lev ∗ boundary (T d) ∗ TS d (W d) 0 ∗ ghostAt 0 d
        ∗ (iprop(boundary (T d) ∗ TS d (out0 W d) 0) -∗ wp frame (wpE ((K (F := F)).defs (D (F := F))) 𝒱 (T d) none) Set.univ (k ⟨⟩) Q))
      ⊢ wp frame (wpE ((K (F := F)).defs (D (F := F))) 𝒱 (T d) none) Set.univ
          ((Prog.lift (.customCall (SparseCore.inner (Pipeline.entry 0)) ()) : Prog (TpuEff nD τ sig (Elt F) (SparseCore.Sig (ΛP (F := F)) 1) .tc) PUnit) >>= k) Q :=
  step_region W (reg0 W) d k Q

abbrev PP (m : (ℓ : Loc nD τ sig) → Buf (Elt F) ℓ) : (K (F := F)).Pay (nD := nD) (Val := Elt F) (Name := ℕ) (U := UU) :=
  Tile.P (idxOf (W3 m)) (tabOf (W3 m)) (dstOf (W3 m))

end Main

section Range

theorem pad_forall {α : Type} {s t u : Shape} (p : α → Prop) (lo hi interior : Fin s.rank → Nat) (x : s.Idx → α) (v : u.Idx → α)
    (h : s.Pads lo hi interior t) (hu : 0 < u.numel) (hx : ∀ k, p (x k)) (hv : ∀ k, p (v k)) :
    ∀ j, p (pad t lo hi interior x v h hu j) := fun j => by
  unfold pad; split
  · exact hx _
  · exact hv _

variable (m : (ℓ : Loc nD τ sig) → Buf (Elt F) ℓ)

theorem idx_eq (d : Dev nD) :
    idxOf (W3 m) d = fun i => shapeCast S32x14x112
      (pad S50176 ![0] ![176] ![0]
        (shapeCast S50000 (extractStridedSlice S1x50000 ![1, 0] (m ((d.tc : Thread nD τ).loc main_arg2)) slices_S2x50000_S1x50000_1_0) shapeCasts_S1x50000_S50000)
        (constantI S_ 32 0#32) pads_S50000_S50176_01760 h_S_) shapeCasts_S50176_S32x14x112 i := by
  show StableHlo.after hostOps1 (W2 m d) (Proc.devRef .tc main_v9) = _
  after_results
  rw [show W2 m d (Proc.devRef .tc main_v2) = StableHlo.after hostOps0 (W0 m d) (Proc.devRef .tc main_v2) from out0_of_ne (W1 m) d main_v2 (by decide)]
  after_results
  rfl

theorem idx_range (hI : ∀ (c : Dev nD) j, (m ((c.tc : Thread nD τ).loc main_arg2) j).toNat < 1000) :
    ∀ d j, (idxOf (W3 m) d j).toNat < 1000 := fun d j => by
  rw [idx_eq]
  exact pad_forall (fun v : Elt F .i32 => v.toNat < 1000) _ _ _ _ _ _ _ (fun _ => hI d _) (fun _ => (by decide : (0#32).toNat < 1000)) _

end Range

end Cert.Proof.KI.Launch

end
-- ==== Proof.KILaunch.lean ====
import proofs.«211030_g66005057405235_cont_9to1c4b_431_51_alg».proof.Proof.KILaunchCore

noncomputable section

namespace Cert.Proof.KI.Launch

open Cert.KernelIdeal Cert.KernelIdeal.Gen
open Cert.Proof.KI
open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (SparseCore.Cfg.HIx 1) (Elt F) ℕ Cert.Proof.KI.UU ℕ

set_option backward.isDefEq.respectTransparency.types false in

abbrev reg1 (W : Dev nD → Valuation τ sig (Elt F)) (hloc : R1.ScoresLocal (F := F)) :
    Pipeline.RegionSeg (pcfgs (F := F)) adm (pdats W) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := R1.body_obligation1 (atTc W) hloc c none
  hwaits c := Pipeline.hwaits_of_owed_zero _ _ _ _ (K (F := F)).L (K (F := F)).lev 1 (fun _ _ => rfl) c
  pre c := TS c (W c) 1
  post c := TS c (out1 W c) 1
  X c := iprop(∃ r, prngReg c r)
  Y c := iprop(∃ r, prngReg c r)
  Z c := Pipeline.unscopedRest (Ix := HIx 1) (Name := ℕ) (U := UU) (Lvl := ℕ) spec2 c (atTc W c)
  hentry c := by
    rw [Pipeline.ownSems0_none]
    have hsplit := Pipeline.arrays_of_unscopedBufs (p := 1) (pcfgs (F := F)) adm (pdats W) launch2.win launch2.arr_whole c
      ((pdats W 1 c).share_full fun _ => rfl) (atTc W c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesSt
      icases HO with ⟨%Wt, %hW, HO⟩; iexists Wt; isplitr
      · ipureintro; exact fun _ _ => Or.inl trivial
      rw [(K (F := F)).Otc_end c (le_refl 1)]; iexact HO
    isplitl [Hp]; · iexact Hp
    iexact Hrest
  hin c := by
    rw [show (pdats W 1 c).Φ 0 = (R1.dat1 (atTc W) c).Φ 0 from rfl]
    iintro ⟨Hp, -, Hr⟩
    iapply (R1.Φ1_in (atTc W) c)
    isplitl [Hr]; · iexact Hr
    iexact Hp
  hout c := by
    rw [Pipeline.ownSems0_none]
    rw [show (pdats W 1 c).Φ (Fin.last _) = (R1.dat1 (atTc W) c).Φ (Fin.last cfg2.N) from rfl]
    iintro H
    ihave H' := (R1.Φ1_out (atTc W) c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats W) ((pdats W 1 c).share_full fun _ => rfl)
      (atTc W c) (atTc (out1 W) c) ((pdats W 1 c).arrAt · cfg2.N) (fun w => (out1_arr W c w).symm)
      (fun b hb => out1_of_ne W c b fun w e => hb (Finset.mem_image.mpr ⟨w, Finset.mem_univ _, e⟩))
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin owesSt
    icases HO with ⟨%Wt, %hW, HO⟩; iexists Wt; isplitr
    · ipureintro
      exact WBelow_one c Wt
    rw [(K (F := F)).Otc_end c (le_refl 1)]; iexact HO

set_option backward.isDefEq.respectTransparency.types false in

abbrev reg2 (W : Dev nD → Valuation τ sig (Elt F)) (hloc : R2.PayLocal (F := F)) :
    Pipeline.RegionSeg (pcfgs (F := F)) adm (pdats W) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := R2.body_obligation2 (atTc W) hloc c none
  hwaits c := Pipeline.hwaits_of_owed_zero _ _ _ _ (K (F := F)).L (K (F := F)).lev 2 (fun _ _ => rfl) c
  pre c := TS c (W c) 1
  post c := TS c (out2 W c) 1
  X c := iprop(∃ r, prngReg c r)
  Y c := iprop(∃ r, prngReg c r)
  Z c := Pipeline.unscopedRest (Ix := HIx 1) (Name := ℕ) (U := UU) (Lvl := ℕ) spec3 c (atTc W c)
  hentry c := by
    rw [Pipeline.ownSems0_none]
    have hsplit := Pipeline.arrays_of_unscopedBufs (p := 2) (pcfgs (F := F)) adm (pdats W) launch3.win launch3.arr_whole c
      ((pdats W 2 c).share_full fun _ => rfl) (atTc W c) fun _ => rfl
    rw [Pipeline.unscopedBufs_held] at hsplit
    unfold TS
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owesSt
      icases HO with ⟨%Wt, %hW, HO⟩; iexists Wt; isplitr
      · ipureintro; exact fun _ _ => Or.inl trivial
      rw [(K (F := F)).Otc_end c (le_refl 1)]; iexact HO
    isplitl [Hp]; · iexact Hp
    iexact Hrest
  hin c := by
    rw [show (pdats W 2 c).Φ 0 = R2.ΦA2 c from rfl]; unfold R2.ΦA2
    iintro ⟨Hp, -, Hr⟩
    isplitl [Hr]; · iexact Hr
    iexact Hp
  hout c := by
    rw [Pipeline.ownSems0_none]
    rw [show (pdats W 2 c).Φ (Fin.last _) = R2.ΦA2 c from rfl]; unfold R2.ΦA2
    iintro ⟨Hr, Hp⟩
    isplitl [Hp]; · iexact Hp
    isplitr; · iempintro
    iexact Hr
  hexit c := by
    have hjoin := Pipeline.unscopedBufs_of_arrays (p := 2) (pcfgs (F := F)) adm (Ix := HIx 1) (Name := ℕ) (U := UU) (Lvl := ℕ)
      launch3.win launch3.arr_whole c (pdats W) ((pdats W 2 c).share_full fun _ => rfl)
      (atTc W c) (atTc (out2 W) c) ((pdats W 2 c).arrAt · cfg3.N) (fun w => (out2_arr W c w).symm)
      (fun b hb => out2_of_ne W c b fun w e => hb (Finset.mem_image.mpr ⟨w, Finset.mem_univ _, e⟩))
    rw [Pipeline.unscopedBufs_held] at hjoin
    unfold TS
    iintro ⟨Ha, HO, HY, Hrest⟩
    imodintro
    isplitl [Ha Hrest]
    · iapply hjoin; isplitl [Ha] <;> iassumption
    isplitl [HY]; · iexact HY
    unfold Pipeline.Dat.owesAt Pipeline.owesWithin owesSt
    icases HO with ⟨%Wt, %hW, HO⟩; iexists Wt; isplitr
    · ipureintro
      exact WBelow_one c Wt
    rw [(K (F := F)).Otc_end c (le_refl 1)]; iexact HO

section Final

variable (m : (ℓ : Loc nD τ sig) → Buf (Elt F) ℓ)

abbrev FIN (d : Dev nD) : sProp 𝕄 := StableHlo.held (T d) (Pipeline.ucRefs τ sig) (W8 m d)

def fq (d : Dev nD) (s' : Phys nD τ sig (Elt F)) : Prop := ∀ b ∈ Pipeline.ucRefs τ sig, s'.mem.mem (d, b) = W8 m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave H := (pointsTo_read_all (Pipeline.ucRefs τ sig) (fun b => (d, b)) (W8 m d) s') $$ [Hh HSI]
  · isplitl [Hh] <;> iassumption
  icases H with ⟨%h, -⟩
  ipureintro; exact h

abbrev args : List (Ref sig .tc) :=
  [main_arg0, main_arg1, main_arg2, main_arg3, main_arg4, main_arg5, main_arg6, main_arg7, main_arg8, main_arg9, main_arg10]

def QC : PUnit × MemSt nD τ sig (Elt F) → Prop := fun r => ∀ c : Dev nD,
  r.2.mem ((c.tc : Thread nD τ).loc main_v14) = Wres m c
  ∧ args.Forall fun b => r.2.mem ((c.tc : Thread nD τ).loc b) = m ((c.tc : Thread nD τ).loc b)

theorem W8_args (c : Dev nD) : ∀ b ∈ args, W8 m c (Proc.devRef .tc b) = m ((c.tc : Thread nD τ).loc b) :=
  List.forall_iff_forall_mem.mp (by
    refine ⟨?_, ?_, ?_, ?_, ?_, ?_, ?_, ?_, ?_, ?_, ?_⟩ <;>
      exact (after3_keeps _ _ (by decide)).trans <| (out2_keeps _ c _ (by decide)).trans <| (after2_keeps _ _ (by decide)).trans <|
        (out1_keeps _ c _ (by decide)).trans <| (outG_of_ne _ c _ (StableHlo.devRef_ne_of_ne (by decide))).trans <|
        (after1_keeps _ _ (by decide)).trans <| (out0_keeps _ c _ (by decide)).trans (after0_keeps _ _ (by decide)))

theorem hQ (s' : Phys nD τ sig (Elt F)) (h : ∀ d, fq m d s') : QC m (⟨⟩, s'.mem) := fun c =>
  ⟨h c _ (mem_uc main_v14 (by decide)), List.forall_iff_forall_mem.mpr fun b hb =>
    (h c _ (mem_uc b ((by decide : ∀ b ∈ args, ¬ (Proc.devRef .tc b : DevRef τ sig).isScoped) b hb))).trans (W8_args m c b hb)⟩

end Final

section Run

variable [∀ e, Nonempty (Elt F e)]

variable (m : (ℓ : Loc nD τ sig) → Buf (Elt F) ℓ) (ρ : Dev nD → PrngReg)
variable (hloc1 : R1.ScoresLocal (F := F)) (hloc2 : R2.PayLocal (F := F))

include hloc1 hloc2 in

theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d) := by
  rw [main_chain, tcSt_eq, tcRes_eq, G_eq]
  simp only [Pipeline.chain_cons, Pipeline.chain_nil]
  iintro ⟨#Hctx, ⟨HO, Hrest⟩, ⟨Hb, Hh, -, Hp⟩, ⟨Hg0, Hg1, Hg2⟩⟩
  ihave #Hlev := (SparseCore.Cfg.ctx_levAts κ) $$ Hctx

  iapply (step_host hostOps0 hostOps0_sub hostOps0_fresh d (W0 m d) 0 _ _)
  isplitl [Hb]; · iexact Hb
  isplitl [Hh Hp HO]
  · unfold TS; isplitl [Hh]; · iexact Hh
    isplitl [Hp]; · iexists _; iexact Hp
    iexact HO
  iintro ⟨Hb, HT⟩

  iapply (step_reg0 (W1 m) d _ _)
  isplitr; · iexact Hlev
  isplitl [Hb]; · iexact Hb
  isplitl [HT]; · iexact HT
  isplitl [Hg0]; · iexact Hg0
  iintro ⟨Hb, HT⟩

  iapply (step_host hostOps1 hostOps1_sub hostOps1_fresh d (W2 m d) 0 _ _)
  isplitl [Hb]; · iexact Hb
  isplitl [HT]; · iexact HT
  iintro ⟨Hb, HT⟩

  iapply (step_gather κ d (W3 m) _ _)
  isplitr; · iexact Hctx
  isplitl [Hrest]; · iexact Hrest
  isplitl [HT]; · iexact HT
  iintro ⟨Hrest, HT⟩

  iapply (step_region (W4 m) (reg1 (W4 m) hloc1) d _ _)
  isplitr; · iexact Hlev
  isplitl [Hb]; · iexact Hb
  isplitl [HT]; · iexact HT
  isplitl [Hg1]; · iexact Hg1
  iintro ⟨Hb, HT⟩

  iapply (step_host hostOps2 hostOps2_sub hostOps2_fresh d (W5 m d) 1 _ _)
  isplitl [Hb]; · iexact Hb
  isplitl [HT]; · iexact HT
  iintro ⟨Hb, HT⟩

  iapply (step_region (W6 m) (reg2 (W6 m) hloc2) d _ _)
  isplitr; · iexact Hlev
  isplitl [Hb]; · iexact Hb
  isplitl [HT]; · iexact HT
  isplitl [Hg2]; · iexact Hg2
  iintro ⟨Hb, HT⟩

  iapply (step_host hostOps3 hostOps3_sub hostOps3_fresh d (W7 m d) 1 _ _)
  isplitl [Hb]; · iexact Hb
  isplitl [HT]; · iexact HT
  iintro ⟨Hb, HT⟩
  rw [wp_pure]; imodintro
  unfold TS
  icases HT with ⟨Hh, -, HO⟩
  isplitl [HO Hrest]
  · iapply (BIBase.Entails.of_eq (tcSt_eq (F := F) d 1).symm); isplitl [HO] <;> iassumption
  iexact Hh

end Run

section Claim

variable [∀ e, Nonempty (Elt F e)]

theorem run_main (hloc1 : R1.ScoresLocal (F := F)) (hloc2 : R2.PayLocal (F := F))
    (m : (ℓ : Loc nD τ sig) → Buf (Elt F) ℓ) (ρ : Dev nD → PrngReg)
    (hI : ∀ (c : Dev nD) j, (m ((c.tc : Thread nD τ).loc main_arg2) j).toNat < 1000) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := PP m) facts v₀
    (fun q hq => match q with | 0 => nomatch hq)
    (fun q _ => match q with | 0 => Tile.tileObl _ _ _ facts (idx_range m hI))
    (fun q _ => match q with | 0 => SparseCore.Cfg.VecSplit.of_plain (Tile.vecSplit _ _ _))
    m ρ main (G (F := F)) (FIN m) (u₀ (F := F)) (sep_elim_left.trans (hu₀ (PP m) (Tile.P_x _ _ _)))
    (hmain m ρ hloc1 hloc2) (fq m) (hfin m) (QC m) (hQ m) (Tile.P_held _ _ _)

end Claim

end Cert.Proof.KI.Launch

end
-- ==== Proof.KIRegion1Local.lean ====
import proofs.«211030_g66005057405235_cont_9to1c4b_431_51_alg».proof.Proof.KIRegion1
import Idealize.ShloMosaic.PureOps.Ideal.Laws
import Idealize.ShloMosaic.Lib.Affine

noncomputable section

namespace Cert.Proof.KI.R1

open Cert.KernelIdeal Cert.KernelIdeal.Gen
open Idealize.ShloMosaic Idealize.ShloMosaic.TcCoe
open Idealize.ShloMosaic.Pipeline (Dat Cfg Window)

-- a lane-wise select between vectors that agree wherever the condition holds
theorem select_congr_left {α : Type} {s : Shape} (cnd : IVec s 1) (a a' b : s.Idx → α) (h : ∀ j, cnd j = 1#1 → a j = a' j) :
    select cnd a b = select cnd a' b := by
  funext j
  show Scalar.select (cnd j) (a j) (b j) = Scalar.select (cnd j) (a' j) (b j)
  unfold Scalar.select
  by_cases hc : cnd j = 1
  · rw [if_pos hc, if_pos hc]; exact h j hc
  · rw [if_neg hc, if_neg hc]

-- off the last point the features block lies inside the array
theorem clip1_none : ∀ t : Fin cfg2.N, t.val ≠ 12 → ∀ a, win2_0.clip (grid2.coords t) a = none := by decide +kernel

-- at the last point the first 848 rows are inside: 12 * 4096 + 848 = 50000
theorem xsize1_last : win2_0.xsize (grid2.coords t2_12) 0 = 848 ∧ win2_0.xsize (grid2.coords t2_12) 1 = 128 := by decide +kernel

theorem moved1_last (j : win2_0.block.Idx) (h : (j 0).val < 848) : win2_0.moved (grid2.coords t2_12) j = true :=
  (win2_0.moved_iff _ j).mpr (Fin.forall_fin_two.mpr ⟨xsize1_last.1 ▸ h, xsize1_last.2 ▸ (j 1).isLt⟩)

-- the last block's mask at a column says the column is one of the first 848
theorem mask1_last (n : Nat) (hn : n < 4096)
    (h : IntOp.cmpi .slt (IntOp.addi (IntOp.muli (BitVec.ofNat 32 12) 4096#32) (BitVec.ofNat 32 n)) 50000#32 = 1#1) : n < 848 := by
  have h' := IntOp.cmpi_slt.mp h
  have e0 : IntOp.muli (BitVec.ofNat 32 12) 4096#32 = 49152#32 := by decide
  rw [e0] at h'
  have e1 : (IntOp.addi 49152#32 (BitVec.ofNat 32 n)).toNat = 49152 + n := by
    show (49152#32 + BitVec.ofNat 32 n).toNat = _
    rw [BitVec.toNat_add, BitVec.toNat_ofNat]
    simp only [BitVec.toNat_ofNat]
    omega
  rw [BitVec.toInt_eq_toNat_of_lt (by rw [e1]; omega), e1,
    show (50000#32 : BitVec 32).toInt = 50000 from by decide] at h'
  omega

-- a score's column is its features row, and a column past the array's end is masked to the fill constant
theorem scoresLocal_ideal : ScoresLocal (F := Ideal) := by
  intro t d d' g v4 v6 v18
  by_cases h12 : t.val = 12
  swap
  · rw [Pipeline.fill_of_clip_none (cfg := cfg2) (0 : Fin 6) (grid2.coords t) (clip1_none t h12) d d' g]
  · obtain rfl : t = t2_12 := Fin.ext h12
    unfold k2_pay3
    refine select_congr_left _ _ _ _ fun j hj => ?_
    have hcol : (j 1).val < 848 := by
      refine mask1_last (j 1).val (j 1).isLt ?_
      have hj' := hj
      change IntOp.cmpi .slt (IntOp.addi (IntOp.muli (BitVec.ofNat 32 12) 4096#32) (iota Kind.tc S1x4096 32 [1] iota_S1x4096_d1_w32 j)) 50000#32 = 1#1 at hj'
      rw [iota_single_apply] at hj'
      exact hj'
    show FloatOps.addf _ _ = FloatOps.addf _ _
    congr 1
    simp only [matmul]
    rw [Ideal.matmul_apply, Ideal.matmul_apply]
    congr 1
    refine Finset.sum_congr rfl fun k _ => ?_
    congr 1
    have hm : win2_0.moved (grid2.coords t2_12) (dot_S1x128_S4096x128_S1x4096_1_1_0_0_n_n.rhsIdx j k) = true :=
      moved1_last _ hcol
    unfold Window.fill
    rw [dif_pos hm, dif_pos hm]

end Cert.Proof.KI.R1

end
-- ==== Proof.Frames.lean ====
import proofs.«211030_g66005057405235_cont_9to1c4b_431_51_alg».proof.Proof.PreDecode
import proofs.«211030_g66005057405235_cont_9to1c4b_431_51_alg».proof.Proof.KBLaunch
import proofs.«211030_g66005057405235_cont_9to1c4b_431_51_alg».proof.Proof.KILaunch
import proofs.«211030_g66005057405235_cont_9to1c4b_431_51_alg».proof.Proof.KIRegion1Local

noncomputable section

open Idealize.ShloMosaic Idealize.SL.Sem

namespace Cert.Proof

attribute [local instance] Cert.Kernel.Gen.facts Cert.KernelIdeal.Gen.facts Cert.Pre_input_domain.Gen.facts

-- Both runs ask only that every edge word names a class; the precondition says so at either instance.
theorem frameK : Cert.frame_Kernel := fun m g hpre =>
  KB.Launch.run_main m g fun c => PreDecode.inRange_of_pre _ _ _ _ _ _ _ _ _ _ _ (hpre c)

theorem frameKI : Cert.frame_KernelIdeal := fun m g hpre =>
  (θ_run _ _ _).mono (fun _ h c => (h c).2)
    (KI.Launch.run_main (F := Ideal) KI.R1.scoresLocal_ideal KI.R2.payLocal_ideal m g fun c =>
      PreDecode.inRange_of_pre _ _ _ _ _ _ _ _ _ _ _ (hpre c))

end Cert.Proof

end
-- ==== Proof.SpecLinear.lean ====
import proofs.«211030_g66005057405235_cont_9to1c4b_431_51_alg».proof.Proof.Spec

noncomputable section

namespace Cert.Proof.Spec

open Idealize.ShloMosaic

variable (pf : Fin 50000 → Fin 128 → EReal) (ct : Fin 1000 → Fin 128 → EReal) (e : Fin 50000 → Fin 1000)
  (watt : Fin 256 → EReal) (batt : EReal) (wpdt : Fin 128 → Fin 128 → EReal) (bpdt : Fin 128 → EReal)
  (wcomb : Fin 128 → Fin 256 → EReal) (bcomb : Fin 128 → EReal) (wout : Fin 1000 → Fin 128 → EReal) (bout : Fin 1000 → EReal)

namespace Linear

theorem coe_sum {ι : Type*} (s : Finset ι) (f : ι → ℝ) :
    ((∑ x ∈ s, f x : ℝ) : EReal) = ∑ x ∈ s, (f x : EReal) :=
  map_sum (⟨⟨Real.toEReal, EReal.coe_zero⟩, EReal.coe_add⟩ : ℝ →+ EReal) f s

theorem linear_real (p c : Fin 128 → ℝ) (wp : Fin 128 → Fin 128 → ℝ) (bp : Fin 128 → ℝ) (wc : Fin 128 → Fin 256 → ℝ)
    (bc : Fin 128 → ℝ) (wo : Fin 128 → ℝ) (bo w : ℝ) :
    (∑ h, wo h * ((∑ d, p d * (∑ j, wp j d * wc h (lo j))) + ((∑ j, bp j * wc h (lo j)) + bc h)))
        + w * (∑ h, wo h * (∑ d, c d * wc h (hi d))) + bo
      = (∑ h, ((∑ j, ((∑ d, p d * wp j d) + bp j) * wc h (lo j)) + (∑ d, (w * c d) * wc h (hi d)) + bc h) * wo h) + bo := by

  rw [Finset.mul_sum, ← Finset.sum_add_distrib]
  congr 1
  refine Finset.sum_congr rfl fun h _ => ?_
  have hA : (∑ j, ((∑ d, p d * wp j d) + bp j) * wc h (lo j))
      = (∑ d, p d * ∑ j, wp j d * wc h (lo j)) + ∑ j, bp j * wc h (lo j) := by
    simp only [add_mul, Finset.sum_add_distrib, Finset.sum_mul, Finset.mul_sum]
    rw [Finset.sum_comm]
    simp only [mul_assoc]
  rw [hA, show (∑ d, (w * c d) * wc h (hi d)) = w * ∑ d, c d * wc h (hi d) by simp only [Finset.mul_sum, mul_assoc]]
  ring

section

variable (hfin : Finite pf ct watt batt wpdt bpdt wcomb bcomb wout bout)
include hfin

theorem refScore_real (i : Fin 50000) :
    ∃ r : ℝ, refScore pf ct e watt batt i = r := by
  choose pfr hpf using hfin.pf
  choose ctr hct using hfin.ct
  choose wattr hwatt using hfin.watt
  obtain ⟨battr, hbatt⟩ := hfin.batt
  refine ⟨(∑ d, pfr i d * wattr (lo d)) + (∑ d, ctr (e i) d * wattr (hi d)) + battr, ?_⟩
  simp only [refScore, hpf, hct, hwatt, hbatt, EReal.coe_add, EReal.coe_mul, coe_sum]

theorem refMax_real :
    ∃ r : ℝ, refMax pf ct e watt batt = r := by
  obtain ⟨i, -, hi⟩ := Finset.exists_mem_eq_sup (Finset.univ : Finset (Fin 50000)) ⟨⟨0, by omega⟩, Finset.mem_univ _⟩
    (refScore pf ct e watt batt)
  obtain ⟨r, hr⟩ := refScore_real _ _ e _ _ _ _ _ _ _ _ hfin i
  exact ⟨r, by rw [refMax, hi, hr]⟩

theorem refZ_real :
    ∃ z : ℝ, 0 < z ∧ refZ pf ct e watt batt = z := by
  choose s hs using refScore_real _ _ e _ _ _ _ _ _ _ _ hfin
  obtain ⟨m, hm⟩ := refMax_real _ _ e _ _ _ _ _ _ _ _ hfin
  refine ⟨∑ i, Real.exp (s i - m), Finset.sum_pos (fun i _ => Real.exp_pos _) ⟨⟨0, by omega⟩, Finset.mem_univ _⟩, ?_⟩
  rw [refZ, coe_sum]
  refine Finset.sum_congr rfl (fun i _ => ?_)
  rw [hs i, hm, ← EReal.coe_sub, Ideal.exp_coe]

theorem refW_real (i : Fin 50000) :
    ∃ w : ℝ, refW pf ct e watt batt i = w := by
  obtain ⟨s, hs⟩ := refScore_real _ _ e _ _ _ _ _ _ _ _ hfin i
  obtain ⟨m, hm⟩ := refMax_real _ _ e _ _ _ _ _ _ _ _ hfin
  obtain ⟨z, hz, hZ⟩ := refZ_real _ _ e _ _ _ _ _ _ _ _ hfin
  refine ⟨Real.exp (s - m) * (1 / z), ?_⟩
  rw [refW, hZ, Ideal.div_coe hz.ne', hs, hm, ← EReal.coe_sub, Ideal.exp_coe, ← EReal.coe_mul]

end

end Linear

theorem kerOut_eq_refOut_of_weights (hfin : Finite pf ct watt batt wpdt bpdt wcomb bcomb wout bout)
    (hw : ∀ i, kerW pf ct e watt i = refW pf ct e watt batt i) (i : Fin 50000) (k : Fin 1000) :
    kerOut pf ct e watt wpdt bpdt wcomb bcomb wout bout i k = refOut pf ct e watt batt wpdt bpdt wcomb bcomb wout bout i k := by
  obtain ⟨w, hwr⟩ := Linear.refW_real _ _ e _ _ _ _ _ _ _ _ hfin i
  choose pfr hpf using hfin.pf
  choose ctr hct using hfin.ct
  choose wpdtr hwpdt using hfin.wpdt
  choose bpdtr hbpdt using hfin.bpdt
  choose wcombr hwcomb using hfin.wcomb
  choose bcombr hbcomb using hfin.bcomb
  choose woutr hwout using hfin.wout
  choose boutr hbout using hfin.bout
  rw [kerOut, refOut, hw i]
  simp only [refHid, refPf, kerHid0, gTab, mMat, c0, hwr, hpf, hct, hwpdt, hbpdt, hwcomb, hbcomb, hwout, hbout,
    ← EReal.coe_mul, ← EReal.coe_add, ← Linear.coe_sum]
  exact congrArg _ (Linear.linear_real (pfr i) (ctr (e i)) wpdtr bpdtr wcombr bcombr (woutr k) (boutr k) w)

end Cert.Proof.Spec

end
-- ==== Proof.SpecSoftmax.lean ====
import proofs.«211030_g66005057405235_cont_9to1c4b_431_51_alg».proof.Proof.Spec
import proofs.«211030_g66005057405235_cont_9to1c4b_431_51_alg».proof.Proof.SpecLinear

noncomputable section

namespace Cert.Proof.Spec

open Idealize.ShloMosaic

variable (pf : Fin 50000 → Fin 128 → EReal) (ct : Fin 1000 → Fin 128 → EReal) (e : Fin 50000 → Fin 1000)
  (watt : Fin 256 → EReal) (batt : EReal) (wpdt : Fin 128 → Fin 128 → EReal) (bpdt : Fin 128 → EReal)
  (wcomb : Fin 128 → Fin 256 → EReal) (bcomb : Fin 128 → EReal) (wout : Fin 1000 → Fin 128 → EReal) (bout : Fin 1000 → EReal)

private theorem scores_real (hpf : ∀ i d, ∃ r : ℝ, pf i d = r) (hct : ∀ k d, ∃ r : ℝ, ct k d = r)
    (hw : ∀ k, ∃ r : ℝ, watt k = r) (hb : ∃ r : ℝ, batt = r) :
    ∃ (s : Fin 50000 → ℝ) (b : ℝ), (∀ i, kerScore pf ct e watt i = ((s i : ℝ) : EReal))
      ∧ (∀ i, refScore pf ct e watt batt i = ((s i + b : ℝ) : EReal)) := by
  choose pfr hpfr using hpf
  choose ctr hctr using hct
  choose wr hwr using hw
  obtain ⟨b, hb⟩ := hb
  refine ⟨fun i => (∑ d, wr (lo d) * pfr i d) + ∑ d, wr (hi d) * ctr (e i) d, b, ?_, ?_⟩
  · intro i
    simp only [kerScore, sTab, hpfr, hctr, hwr, EReal.coe_add, Linear.coe_sum, EReal.coe_mul]
  · intro i
    have h1 : ∀ d, wr (lo d) * pfr i d = pfr i d * wr (lo d) := fun d => mul_comm _ _
    have h2 : ∀ d, wr (hi d) * ctr (e i) d = ctr (e i) d * wr (hi d) := fun d => mul_comm _ _
    simp only [refScore, hpfr, hctr, hwr, hb, h1, h2, EReal.coe_add, Linear.coe_sum, EReal.coe_mul]

section Wgt

variable (s : Fin 50000 → ℝ)

private def wgt (m : ℝ) (t : Fin 13) (j : Fin 4096) : ℝ :=
  if h : 4096 * t.val + j.val < 50000 then Real.exp (s ⟨4096 * t.val + j.val, h⟩ - m) else 0

private theorem wgt_shift (m m' : ℝ) (t : Fin 13) (j : Fin 4096) :
    wgt s m t j * Real.exp (m - m') = wgt s m' t j := by
  unfold wgt
  split
  · rw [← Real.exp_add]; congr 1; ring
  · rw [zero_mul]

private theorem sum_blocks (m : ℝ) : ∑ t : Fin 13, ∑ j : Fin 4096, wgt s m t j = ∑ i : Fin 50000, Real.exp (s i - m) := by
  rw [← Fintype.sum_prod_type' (f := fun t j => wgt s m t j)]
  symm
  refine Finset.sum_bij_ne_zero
    (fun (a : Fin 50000) _ _ => ((⟨a.val / 4096, by have := a.isLt; omega⟩ : Fin 13), (⟨a.val % 4096, by omega⟩ : Fin 4096)))
    (fun _ _ _ => Finset.mem_univ _) ?_ ?_ ?_
  · intro a₁ _ _ a₂ _ _ h
    simp only [Prod.mk.injEq, Fin.mk.injEq] at h
    apply Fin.ext
    omega
  · intro p _ hp
    have hv : 4096 * p.1.val + p.2.val < 50000 := by
      by_contra hn
      exact hp (by simp only [wgt, dif_neg hn])
    refine ⟨⟨4096 * p.1.val + p.2.val, hv⟩, Finset.mem_univ _, (Real.exp_pos _).ne', ?_⟩
    have := p.2.isLt
    apply Prod.ext <;> apply Fin.ext <;> simp only <;> omega
  · intro a _ _
    have hv : 4096 * (a.val / 4096) + a.val % 4096 < 50000 := by have := a.isLt; omega
    simp only [wgt, dif_pos hv]
    congr 3
    apply Fin.ext
    simp only
    omega

private def Inv (l : List (Fin 13)) (mz : EReal × EReal) : Prop :=
  (l = [] ∧ mz = (⊥, 0)) ∨
  ∃ m : ℝ, mz = (((m : ℝ) : EReal), (((l.map fun t => ∑ j, wgt s m t j).sum : ℝ) : EReal))
    ∧ (∀ t ∈ l, ∀ (j : Fin 4096) (h : 4096 * t.val + j.val < 50000), s ⟨4096 * t.val + j.val, h⟩ ≤ m)
    ∧ (∃ t ∈ l, ∃ (j : Fin 4096) (h : 4096 * t.val + j.val < 50000), s ⟨4096 * t.val + j.val, h⟩ = m)

end Wgt

section Online

variable {pf ct e watt} {s : Fin 50000 → ℝ} (hs : ∀ i, kerScore pf ct e watt i = ((s i : ℝ) : EReal))
include hs

private theorem laneScore_eq (t : Fin 13) (j : Fin 4096) :
    laneScore pf ct e watt t j
      = if h : 4096 * t.val + j.val < 50000 then ((s ⟨4096 * t.val + j.val, h⟩ : ℝ) : EReal) else ⊥ := by
  simp only [laneScore, hs]

private theorem exp_lane (m : ℝ) (t : Fin 13) (j : Fin 4096) :
    Ideal.exp (laneScore pf ct e watt t j - (m : EReal)) = ((wgt s m t j : ℝ) : EReal) := by
  rw [laneScore_eq hs, wgt]
  split
  · rw [← EReal.coe_sub, Ideal.exp_coe]
  · rw [EReal.bot_sub, Ideal.exp_bot, EReal.coe_zero]

private theorem sum_exp_lane (m : ℝ) (t : Fin 13) :
    ∑ j, Ideal.exp (laneScore pf ct e watt t j - (m : EReal)) = ((∑ j, wgt s m t j : ℝ) : EReal) := by
  rw [Linear.coe_sum]
  exact Finset.sum_congr rfl fun j _ => exp_lane hs m t j

private theorem blockMax (t : Fin 13) :
    ∃ bt : ℝ, Finset.univ.sup (laneScore pf ct e watt t) = ((bt : ℝ) : EReal)
      ∧ (∀ (j : Fin 4096) (h : 4096 * t.val + j.val < 50000), s ⟨4096 * t.val + j.val, h⟩ ≤ bt)
      ∧ (∃ (j : Fin 4096) (h : 4096 * t.val + j.val < 50000), s ⟨4096 * t.val + j.val, h⟩ = bt) := by
  obtain ⟨j₀, -, hj₀⟩ := Finset.exists_mem_eq_sup Finset.univ ⟨(0 : Fin 4096), Finset.mem_univ _⟩
    (laneScore pf ct e watt t)
  have hle : ∀ j, laneScore pf ct e watt t j ≤ laneScore pf ct e watt t j₀ := fun j => hj₀ ▸ Finset.le_sup (Finset.mem_univ j)
  simp only [laneScore_eq hs] at hle
  have h0 : 4096 * t.val + (0 : Fin 4096).val < 50000 := by
    have := t.isLt
    show 4096 * t.val + 0 < 50000
    omega
  by_cases hv : 4096 * t.val + j₀.val < 50000
  · refine ⟨s ⟨_, hv⟩, by rw [hj₀, laneScore_eq hs, dif_pos hv], fun j h => ?_, j₀, hv, rfl⟩
    have := hle j
    rw [dif_pos h, dif_pos hv] at this
    exact EReal.coe_le_coe_iff.mp this
  · have := hle 0
    rw [dif_neg hv, dif_pos h0] at this
    exact absurd (le_bot_iff.mp this) (EReal.coe_ne_bot _)

private theorem step_inv (l : List (Fin 13)) (mz : EReal × EReal)
    (t : Fin 13) (hinv : Inv s l mz) : Inv s (l ++ [t]) (onlineStep pf ct e watt mz t) := by
  obtain ⟨bt, hbt, hle, j₁, h₁, hj₁⟩ := blockMax hs t
  rcases hinv with ⟨rfl, rfl⟩ | ⟨m, rfl, hbd, t₀, ht₀, j₀, h₀, hj₀⟩
  · refine Or.inr ⟨bt, ?_, ?_, ⟨t, by simp, j₁, h₁, hj₁⟩⟩
    · simp only [onlineStep, hbt, max_eq_right (bot_le : (⊥ : EReal) ≤ _), zero_mul, zero_add,
        sum_exp_lane hs, List.nil_append, List.map_cons, List.map_nil, List.sum_cons, List.sum_nil, add_zero]
    · intro t' ht' j h
      obtain rfl : t' = t := by simpa using ht'
      exact hle j h
  · have hmax : max ((m : ℝ) : EReal) ((bt : ℝ) : EReal) = ((max m bt : ℝ) : EReal) :=
      (EReal.coe_strictMono.monotone.map_max).symm
    refine Or.inr ⟨max m bt, ?_, ?_, ?_⟩
    · have hsum : (l.map fun t => ∑ j, wgt s (max m bt) t j).sum
          = (l.map fun t => ∑ j, wgt s m t j).sum * Real.exp (m - max m bt) := by
        rw [← List.sum_map_mul_right]
        congr 1
        apply List.map_congr_left
        intro t' _
        rw [Finset.sum_mul]
        exact Finset.sum_congr rfl fun j _ => (wgt_shift s m (max m bt) t' j).symm
      simp only [onlineStep, hbt, hmax, sum_exp_lane hs, ← EReal.coe_sub, Ideal.exp_coe, ← EReal.coe_mul,
        ← EReal.coe_add, List.map_append, List.sum_append, List.map_cons, List.map_nil, List.sum_cons, List.sum_nil, add_zero,
        hsum]
    · intro t' ht' j h
      rcases List.mem_append.mp ht' with h' | h'
      · exact le_trans (hbd t' h' j h) (le_max_left _ _)
      · obtain rfl : t' = t := by simpa using h'
        exact le_trans (hle j h) (le_max_right _ _)
    · rcases max_choice m bt with hc | hc
      · exact ⟨t₀, List.mem_append.mpr (Or.inl ht₀), j₀, h₀, by rw [hc]; exact hj₀⟩
      · exact ⟨t, by simp, j₁, h₁, by rw [hc]; exact hj₁⟩

private theorem foldl_inv (l : List (Fin 13)) :
    Inv s l (l.foldl (onlineStep pf ct e watt) (⊥, 0)) := by
  induction l using List.reverseRecOn with
  | nil => exact Or.inl ⟨rfl, rfl⟩
  | append_singleton l t ih =>
    rw [List.foldl_append, List.foldl_cons, List.foldl_nil]
    exact step_inv hs l _ t ih

private theorem onlineStats_eq :
    ∃ M : ℝ, onlineStats pf ct e watt = (((M : ℝ) : EReal), ((∑ i, Real.exp (s i - M) : ℝ) : EReal))
      ∧ (∀ i, s i ≤ M) ∧ ∃ i, s i = M := by
  rcases foldl_inv hs (List.finRange 13) with ⟨hnil, -⟩ | ⟨M, hM, hbd, t₀, -, j₀, h₀, hj₀⟩
  · exact absurd hnil (by simp)
  · refine ⟨M, ?_, ?_, ⟨⟨_, h₀⟩, hj₀⟩⟩
    · rw [onlineStats, hM, ← Fin.sum_univ_def, sum_blocks]
    · intro i
      have hv : 4096 * (i.val / 4096) + i.val % 4096 < 50000 := by have := i.isLt; omega
      have := hbd ⟨i.val / 4096, by have := i.isLt; omega⟩ (List.mem_finRange _) ⟨i.val % 4096, by omega⟩ hv
      have hi : (⟨4096 * (i.val / 4096) + i.val % 4096, hv⟩ : Fin 50000) = i := by apply Fin.ext; simp only; omega
      simpa only [hi] using this

end Online

theorem kerW_eq_refW (hfin : Finite pf ct watt batt wpdt bpdt wcomb bcomb wout bout) (i : Fin 50000) :
    kerW pf ct e watt i = refW pf ct e watt batt i := by
  obtain ⟨s, b, hk, hr⟩ := scores_real pf ct e watt batt hfin.pf hfin.ct hfin.watt hfin.batt
  obtain ⟨M, hst, hle, i₀, hi₀⟩ := onlineStats_eq hk
  have hmax : refMax pf ct e watt batt = ((M + b : ℝ) : EReal) :=
    le_antisymm (Finset.sup_le fun i' _ => by rw [hr]; exact EReal.coe_le_coe_iff.mpr (by linarith [hle i']))
      (by have h := Finset.le_sup (f := refScore pf ct e watt batt) (Finset.mem_univ i₀); rwa [hr, hi₀] at h)
  have hexp : ∀ i', Ideal.exp (refScore pf ct e watt batt i' - refMax pf ct e watt batt)
      = ((Real.exp (s i' - M) : ℝ) : EReal) := fun i' => by
    rw [hr, hmax, ← EReal.coe_sub, Ideal.exp_coe, add_sub_add_right_eq_sub]
  have hZ : refZ pf ct e watt batt = ((∑ i', Real.exp (s i' - M) : ℝ) : EReal) :=
    (Finset.sum_congr rfl fun i' _ => hexp i').trans (Linear.coe_sum _ _).symm
  have hpos : (∑ i', Real.exp (s i' - M) : ℝ) ≠ 0 :=
    ne_of_gt (Finset.sum_pos (fun i' _ => Real.exp_pos _) ⟨i₀, Finset.mem_univ _⟩)
  unfold kerW refW
  rw [hexp, hZ, hst, hk]
  simp only
  rw [Ideal.div_coe hpos, Ideal.div_coe hpos, ← EReal.coe_sub, Ideal.exp_coe, one_mul]

end Cert.Proof.Spec

end
-- ==== Proof.SpecMain.lean ====
import proofs.«211030_g66005057405235_cont_9to1c4b_431_51_alg».proof.Proof.Spec
import proofs.«211030_g66005057405235_cont_9to1c4b_431_51_alg».proof.Proof.SpecSoftmax
import proofs.«211030_g66005057405235_cont_9to1c4b_431_51_alg».proof.Proof.SpecLinear

noncomputable section

namespace Cert.Proof.Spec

open Idealize.ShloMosaic

variable (pf : Fin 50000 → Fin 128 → EReal) (ct : Fin 1000 → Fin 128 → EReal) (e : Fin 50000 → Fin 1000)
  (watt : Fin 256 → EReal) (batt : EReal) (wpdt : Fin 128 → Fin 128 → EReal) (bpdt : Fin 128 → EReal)
  (wcomb : Fin 128 → Fin 256 → EReal) (bcomb : Fin 128 → EReal) (wout : Fin 1000 → Fin 128 → EReal) (bout : Fin 1000 → EReal)

theorem kerOut_eq_refOut (hfin : Finite pf ct watt batt wpdt bpdt wcomb bcomb wout bout) (i : Fin 50000) (k : Fin 1000) :
    kerOut pf ct e watt wpdt bpdt wcomb bcomb wout bout i k = refOut pf ct e watt batt wpdt bpdt wcomb bcomb wout bout i k :=
  kerOut_eq_refOut_of_weights pf ct e watt batt wpdt bpdt wcomb bcomb wout bout hfin
    (kerW_eq_refW pf ct e watt batt wpdt bpdt wcomb bcomb wout bout hfin) i k

end Cert.Proof.Spec

end
-- ==== Proof.RefOpsIdx.lean ====
import Idealize.ShloMosaic.Lib.ValueIdx
import Idealize.ShloMosaic.Lib.StableHlo.Predicate
import Idealize.ShloMosaic.PureOps.Ideal

noncomputable section

namespace Cert.Proof.Ref

open Idealize.ShloMosaic Idealize.ShloMosaic.ValueIdx Idealize.ShloMosaic.StableHlo

theorem select_wrap_of_lt {w n : BitVec 32} (hw : w.toNat < 2 ^ 31) :
    Scalar.select (IntOp.cmpi .slt w 0#32) (IntOp.addi w n) w = w := by
  have h0 : ¬ IntOp.cmpi .slt w 0#32 = 1#1 := fun h =>
    Nat.not_lt_zero _ ((Predicate.slt_iff_toNat hw (by decide)).mp h)
  rw [eq_zero_of_ne_one h0, select_zero]

theorem clamp_of_lt {w : BitVec 32} {N : Nat} (hN : N ≤ 2 ^ 31) (hw : w.toNat < N) :
    min w.toInt.toNat (N - 1) = w.toNat := by
  rw [Predicate.toInt_eq_toNat_of_lt (by omega), Int.toNat_natCast]
  omega

theorem toInt_ofNat_of_lt {a : Nat} (ha : a < 2 ^ 31) : (BitVec.ofNat 32 a).toInt = (a : Int) :=
  Predicate.toInt_ofNat_small a ha

theorem toNat_ofNat_of_lt {a : Nat} (ha : a < 2 ^ 31) : (BitVec.ofNat 32 a).toNat = a := by
  rw [BitVec.toNat_ofNat]; exact Nat.mod_eq_of_lt (by omega)

abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (i : Fin R) (k : Fin C) :
    Host.gather (rowsDims N C R wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowsDims N C R wf).start (ix2 i k) idx 0 + (rowsDims N C R wf).batchCoord (ix2 i k) 0
        + (rowsDims N C R wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 i k) ⟨List.idxOf (0 : Fin 2) (rowsDims N C R wf).startIndexMap,
        List.idxOf_lt_length_iff.2 (List.mem_singleton.mpr rfl)⟩ = ix2 i (0 : Fin 1) := (eq_ix2 _).trans rfl
    rw [hsi]
    rfl
  | ⟨1, _⟩ =>
    show (rowsDims N C R wf).start (ix2 i k) idx 1 + (rowsDims N C R wf).batchCoord (ix2 i k) 1
        + (rowsDims N C R wf).offCoord (ix2 i k) 1 = k.val
    have h10 : (1 : Fin 2) ∉ ([0] : List (Fin 2)) := by decide
    have hs : (rowsDims N C R wf).start (ix2 i k) idx 1 = 0 := by
      unfold GatherDims.start
      exact dif_neg h10
    have ho : (rowsDims N C R wf).offCoord (ix2 i k) 1 = k.val := by
      unfold GatherDims.offCoord
      rw [dif_pos ((GatherDims.mem_sKept _ _).mpr ⟨h10, List.not_mem_nil⟩)]
      rfl
    rw [hs, GatherDims.batchCoord_eq_zero _ _ _ List.not_mem_nil, ho]
    omega

abbrev rowsScatter (N C M : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

theorem resultIdx_rows {N C M w : Nat}
    (wf : ScatterDims.WF ⟨2, ![N, C]⟩ ⟨2, ![M, 1]⟩ ⟨2, ![M, C]⟩ [1] [0] [0] 1)
    (idx : IVec ⟨2, ![M, 1]⟩ w) (i : Fin M) (k : Fin C) (r : Fin N)
    (hidx : (idx (ix2 i (0 : Fin 1))).toInt = (r.val : Int)) :
    (rowsScatter N C M wf).resultIdx? (ix2 i k) idx = some (ix2 r k) := by
  have hs0 : (rowsScatter N C M wf).start (ix2 i k) idx 0 = (r.val : Int) := by
    unfold ScatterDims.start
    rw [dif_pos (show (0 : Fin 2) ∈ (rowsScatter N C M wf).scatterDimsToOperandDims from List.mem_singleton.mpr rfl)]
    have hsi : (rowsScatter N C M wf).siIdx (ix2 i k) ⟨List.idxOf (0 : Fin 2) (rowsScatter N C M wf).scatterDimsToOperandDims,
        List.idxOf_lt_length_iff.2 (List.mem_singleton.mpr rfl)⟩ = ix2 i (0 : Fin 1) := (eq_ix2 _).trans rfl
    rw [hsi, hidx]
  have h10 : (1 : Fin 2) ∉ ([0] : List (Fin 2)) := by decide
  have hk : ∀ a : Fin 2, a ∈ (rowsScatter N C M wf).sKept ↔ a ∉ ([0] : List (Fin 2)) := fun a => by
    simp [ScatterDims.sKept, Shape.kept, List.mem_filter, List.mem_finRange]
  have hs1 : (rowsScatter N C M wf).start (ix2 i k) idx 1 = 0 := by
    unfold ScatterDims.start
    exact dif_neg h10
  have hw0 : (rowsScatter N C M wf).window (ix2 i k) 0 = 0 := by
    unfold ScatterDims.window
    exact dif_neg (fun h => (hk 0).mp h (List.mem_singleton.mpr rfl))
  have hw1 : (rowsScatter N C M wf).window (ix2 i k) 1 = k.val := by
    unfold ScatterDims.window
    rw [dif_pos ((hk 1).mpr h10)]
    rfl
  have hr := r.isLt
  have hkC := k.isLt
  unfold ScatterDims.resultIdx?
  split
  · congr 1
    funext a
    refine Fin.ext ?_
    match a with
    | ⟨0, _⟩ =>
      show ((rowsScatter N C M wf).start (ix2 i k) idx 0 + ((rowsScatter N C M wf).window (ix2 i k) 0 : Int)).toNat = r.val
      rw [hs0, hw0]; omega
    | ⟨1, _⟩ =>
      show ((rowsScatter N C M wf).start (ix2 i k) idx 1 + ((rowsScatter N C M wf).window (ix2 i k) 1 : Int)).toNat = k.val
      rw [hs1, hw1]; omega
  · next h =>
    exfalso
    apply h
    intro a
    match a with
    | ⟨0, _⟩ =>
      show 0 ≤ (rowsScatter N C M wf).start (ix2 i k) idx 0 + ((rowsScatter N C M wf).window (ix2 i k) 0 : Int)
        ∧ (rowsScatter N C M wf).start (ix2 i k) idx 0 + ((rowsScatter N C M wf).window (ix2 i k) 0 : Int) < (N : Int)
      rw [hs0, hw0]; omega
    | ⟨1, _⟩ =>
      show 0 ≤ (rowsScatter N C M wf).start (ix2 i k) idx 1 + ((rowsScatter N C M wf).window (ix2 i k) 1 : Int)
        ∧ (rowsScatter N C M wf).start (ix2 i k) idx 1 + ((rowsScatter N C M wf).window (ix2 i k) 1 : Int) < (C : Int)
      rw [hs1, hw1]; omega

theorem scatterAdd_rows_id_apply {N C w : Nat}
    (wf : ScatterDims.WF ⟨2, ![N, C]⟩ ⟨2, ![N, 1]⟩ ⟨2, ![N, C]⟩ [1] [0] [0] 1)
    (x upd : (⟨2, ![N, C]⟩ : Shape).Idx → EReal) (idx : IVec ⟨2, ![N, 1]⟩ w)
    (hidx : ∀ i : Fin N, (idx (ix2 i (0 : Fin 1))).toInt = (i.val : Int)) (i : Fin N) (k : Fin C) :
    Ideal.hostScatterAdd (rowsScatter N C N wf) x idx upd (ix2 i k) = x (ix2 i k) + upd (ix2 i k) := by
  unfold Ideal.hostScatterAdd
  congr 1
  have hset : (Finset.univ.filter fun j : (⟨2, ![N, C]⟩ : Shape).Idx =>
      (rowsScatter N C N wf).resultIdx? j idx = some (ix2 i k)) = {ix2 i k} := by
    ext j
    obtain ⟨a, b, rfl⟩ : ∃ a b, j = ix2 a b := ⟨j 0, j 1, eq_ix2 j⟩
    rw [Finset.mem_filter, Finset.mem_singleton, resultIdx_rows wf idx a b a (hidx a)]
    simp only [Finset.mem_univ, true_and, Option.some.injEq]
  rw [hset, Finset.sum_singleton]

end Cert.Proof.Ref

end
-- ==== Proof.RefOpsSum.lean ====
import proofs.«211030_g66005057405235_cont_9to1c4b_431_51_alg».proof.Proof.Spec
import Idealize.ShloMosaic.Lib.ValueIdx
import Idealize.ShloMosaic.Lib.Pipeline.Value
import Idealize.ShloMosaic.PureOps.Ideal.Laws
import Idealize.ShloMosaic.PureOps.Reduce
import Mathlib.Algebra.BigOperators.Fin

noncomputable section

namespace Cert.Proof.Ref

open Idealize.ShloMosaic Idealize.ShloMosaic.ValueIdx Cert.Proof.Spec

theorem ofBits_neg_inf_f32 : Ideal.ofBits .f32 0xFF800000#32 = ⊥ := by simp [Ideal.ofBits, Ideal.ieee]

theorem concat_cols_lo {α : Type} {R : Nat} (a b : (⟨2, ![R, 128]⟩ : Shape).Idx → α)
    (h : Shape.Concatenates [(⟨2, ![R, 128]⟩ : Shape), ⟨2, ![R, 128]⟩] ⟨2, ![R, 256]⟩ 1) (i : Fin R) (d : Fin 128) :
    concatenate ⟨2, ![R, 256]⟩ 1 [⟨⟨2, ![R, 128]⟩, a⟩, ⟨⟨2, ![R, 128]⟩, b⟩] h (ix2 i (lo d)) = a (ix2 i d) :=
  concatenate_pair_apply_left 1 a b h (ix2 i (lo d)) rfl (ix2 i d)
    (fun c => match c with | ⟨0, _⟩ => rfl | ⟨1, _⟩ => rfl)

theorem concat_cols_hi {α : Type} {R : Nat} (a b : (⟨2, ![R, 128]⟩ : Shape).Idx → α)
    (h : Shape.Concatenates [(⟨2, ![R, 128]⟩ : Shape), ⟨2, ![R, 128]⟩] ⟨2, ![R, 256]⟩ 1) (i : Fin R) (d : Fin 128) :
    concatenate ⟨2, ![R, 256]⟩ 1 [⟨⟨2, ![R, 128]⟩, a⟩, ⟨⟨2, ![R, 128]⟩, b⟩] h (ix2 i (hi d)) = b (ix2 i d) :=
  concatenate_pair_apply_right 1 a b h (ix2 i (hi d)) rfl rfl (ix2 i d)
    (fun c hc => match c, hc with
      | ⟨0, _⟩, _ => rfl
      | ⟨1, _⟩, hc => (hc (Fin.ext rfl)).elim)
    (by show d.val + 128 = 128 + d.val; omega)

theorem sum_fin256_split {M : Type*} [AddCommMonoid M] (f : Fin 256 → M) :
    ∑ k : Fin 256, f k = (∑ d : Fin 128, f (lo d)) + ∑ d : Fin 128, f (hi d) :=
  Fin.sum_univ_add (a := 128) (b := 128) f

theorem reduce_max_col {R : Nat} (x : (⟨2, ![R, 1]⟩ : Shape).Idx → EReal) (init : (⟨0, ![]⟩ : Shape).Idx → EReal)
    (h' : (⟨2, ![R, 1]⟩ : Shape).ReducesTo [0] ⟨1, ![1]⟩) (h : (⟨2, ![R, 1]⟩ : Shape).Reduces [0] ⟨1, ![1]⟩)
    (hu : 0 < (⟨0, ![]⟩ : Shape).numel) (hinit : init (Shape.Idx.first hu) = ⊥) (j : (⟨1, ![1]⟩ : Shape).Idx) :
    Host.reduce (FloatOps.maximumf (F := Ideal) (φ := .f32)) x init h' hu j
      = Finset.univ.sup fun i : Fin R => x (ix2 i (0 : Fin 1)) := by
  rw [Host.reduce_eq_fold_single (FloatOps.maximumf (F := Ideal) (φ := .f32)) x init h' h hu j, hinit]
  have hx : (x ∘ h.lift j) = fun i : Fin R => x (ix2 i (0 : Fin 1)) := by
    funext k
    show x (h.lift j k) = x (ix2 k (0 : Fin 1))
    congr 1
    funext c
    refine Fin.ext ?_
    rw [h.lift_val]
    unfold Shape.Reduces.liftVal
    match c with
    | ⟨0, _⟩ => exact dif_pos rfl
    | ⟨1, _⟩ =>
      split
      · next hc => exact absurd hc Nat.one_ne_zero
      · split
        · next hlt => exact absurd hlt (Nat.not_lt_zero 1)
        · exact Nat.lt_one_iff.mp (j _).isLt
  rw [hx]
  rfl

end Cert.Proof.Ref

end
-- ==== Proof.RefRead.lean ====
import proofs.«211030_g66005057405235_cont_9to1c4b_431_51_alg».proof.Proof.Inputs
import proofs.«211030_g66005057405235_cont_9to1c4b_431_51_alg».proof.Proof.RefReadP
import proofs.«211030_g66005057405235_cont_9to1c4b_431_51_alg».proof.Proof.RefOpsIdx
import proofs.«211030_g66005057405235_cont_9to1c4b_431_51_alg».proof.Proof.RefOpsSum

noncomputable section

namespace Cert.Proof.Ref

open Idealize.ShloMosaic Idealize.ShloMosaic.ValueIdx Cert.Proof.Inputs Cert.Proof.Spec
open Cert.ReferenceIdeal Cert.ReferenceIdeal.Gen Cert.ReferenceIdeal.Read

attribute [local instance] Cert.ReferenceIdeal.Gen.facts

variable (A : Args)

theorem v1_apply (i : Fin 50000) : val_main_v1 (F := Ideal) A.a2 (ix1 i) = A.a2 (ix2 (1 : Fin 2) i) := by
  rw [val_main_v1_apply, val_main_v0_apply]
  congr 1
  funext a
  refine Fin.ext ?_
  match a with
  | ⟨0, _⟩ => rfl
  | ⟨1, _⟩ => exact Nat.mod_eq_of_lt i.isLt

theorem v6_apply (hr : A.InRange) (i : Fin 50000) : val_main_v6 (F := Ideal) A.a2 (ix1 i) = A.a2 (ix2 (1 : Fin 2) i) := by
  have hw := hr (ix2 (1 : Fin 2) i)
  rw [val_main_v6_apply, val_main_v3_apply, val_main_v5_apply, v1_apply, val_main_v2_apply, val_main_c_apply, val_main_v4_apply,
    val_main_c_0_apply]
  exact select_wrap_of_lt (by omega)

theorem v7_apply (hr : A.InRange) (i : Fin 50000) :
    val_main_v7 (F := Ideal) A.a2 (ix2 i (0 : Fin 1)) = A.a2 (ix2 (1 : Fin 2) i) := by
  have e : idx_main_v7 (ix2 i (0 : Fin 1)) = ix1 i := (eq_ix1 _).trans rfl
  rw [val_main_v7_apply, e, v6_apply A hr]

theorem v8_apply (hr : A.InRange) (i : Fin 50000) (d : Fin 128) :
    val_main_v8 (F := Ideal) A.a1 A.a2 (ix2 i d) = A.ct (A.e i) d := by
  have hw := hr (ix2 (1 : Fin 2) i)
  unfold val_main_v8
  show Host.gather (rowsDims 1000 128 50000 gather_S1000x128_S50000x1_S50000x128_1_0_n_n_0_1_1128_wf) A.a1
      (val_main_v7 (F := Ideal) A.a2) (ix2 i d) = _
  rw [gather_rows_apply (by norm_num)]
  show A.a1 _ = A.a1 _
  congr 1
  funext a
  refine Fin.ext ?_
  match a with
  | ⟨0, _⟩ =>
    show min (val_main_v7 (F := Ideal) A.a2 (ix2 i (0 : Fin 1))).toInt.toNat (1000 - 1)
      = (A.a2 (ix2 (1 : Fin 2) i)).toNat % 1000
    rw [v7_apply A hr, clamp_of_lt (N := 1000) (by norm_num) hw, Nat.mod_eq_of_lt hw]
  | ⟨1, _⟩ => rfl

theorem v10_apply (k : Fin 256) (c : Fin 1) : val_main_v10 (F := Ideal) A.a3 (ix2 k c) = A.watt k := by
  have e : idx_main_v10 (ix2 k c) = ix2 (0 : Fin 1) k := by
    funext a
    match a with
    | ⟨0, _⟩ =>
      refine Fin.ext ?_
      have hc : c.val < 1 := c.isLt
      show c.val = 0
      omega
    | ⟨1, _⟩ => rfl
  rw [val_main_v10_apply, e]
  rfl

theorem v14_apply (hr : A.InRange) (i : Fin 50000) :
    val_main_v14 (F := Ideal) A.a0 A.a1 A.a2 A.a3 A.a4 (ix2 i (0 : Fin 1)) = refScore A.pf A.ct A.e A.watt A.batt i := by
  have el : ∀ k : Fin 256, lidx_main_v11 (ix2 i (0 : Fin 1)) k = ix2 i k := fun k => (eq_ix2 _).trans rfl
  have er : ∀ k : Fin 256, ridx_main_v11 (ix2 i (0 : Fin 1)) k = ix2 k (0 : Fin 1) := fun k => (eq_ix2 _).trans rfl
  have e13 : idx_main_v12 (idx_main_v13 (ix2 i (0 : Fin 1))) = ix1 (0 : Fin 1) := (eq_ix1 _).trans rfl
  rw [val_main_v14_apply, val_main_v11_apply, val_main_v13_apply, val_main_v12_apply, e13]
  show (∑ k : Fin 256, _) + A.a4 (ix1 (0 : Fin 1)) = _
  rw [sum_fin256_split]
  unfold refScore
  congr 1
  congr 1
  all_goals refine Finset.sum_congr rfl fun d _ => ?_; rw [el, er, v10_apply]; unfold val_main_v9
  · rw [concat_cols_lo]; rfl
  · rw [concat_cols_hi, v8_apply A hr]

theorem v17_apply (hr : A.InRange) (j : S1.Idx) :
    val_main_v17 (F := Ideal) A.a0 A.a1 A.a2 A.a3 A.a4 j = refMax A.pf A.ct A.e A.watt A.batt := by
  rw [val_main_v17_apply, val_main_v16_apply, val_main_cst_1_apply]
  unfold val_main_v15
  rw [reduce_max_col _ _ reducesTo_S50000x1_S1_d0 (by decide) h_S_
    (by rw [val_main_cst_apply]; exact ofBits_neg_inf_f32) j]
  show max (Ideal.ofBits .f32 0xFF800000#32) _ = _
  rw [ofBits_neg_inf_f32, max_eq_right bot_le]
  unfold refMax
  congr 1
  funext i
  exact v14_apply A hr i

theorem v21_apply (hr : A.InRange) (i : Fin 50000) :
    val_main_v21 (F := Ideal) A.a0 A.a1 A.a2 A.a3 A.a4 (ix2 i (0 : Fin 1))
      = Ideal.exp (refScore A.pf A.ct A.e A.watt A.batt i - refMax A.pf A.ct A.e A.watt A.batt) := by
  rw [val_main_v21_apply, val_main_v20_apply, v14_apply A hr, val_main_v19_apply, val_main_v18_apply, v17_apply A hr]
  rfl

theorem v22_apply (hr : A.InRange) (j : S1.Idx) :
    val_main_v22 (F := Ideal) A.a0 A.a1 A.a2 A.a3 A.a4 j = refZ A.pf A.ct A.e A.watt A.batt := by
  rw [val_main_v22_apply, val_main_cst_2_apply]
  show Ideal.ofBits .f32 0x00000000#32 + _ = _
  rw [Ideal.ofBits_zero_f32, zero_add]
  unfold refZ
  refine Finset.sum_congr rfl fun k _ => ?_
  have e : idx_main_v22 j k = ix2 k (0 : Fin 1) := by
    funext a
    match a with
    | ⟨0, _⟩ => rfl
    | ⟨1, _⟩ =>
      refine Fin.ext ?_
      have hj : (j 0).val < 1 := (j 0).isLt
      show (j 0).val = 0
      omega
  rw [e, v21_apply A hr]

theorem v25_apply (hr : A.InRange) (i : Fin 50000) :
    val_main_v25 (F := Ideal) A.a0 A.a1 A.a2 A.a3 A.a4 (ix2 i (0 : Fin 1)) = refW A.pf A.ct A.e A.watt A.batt i := by
  rw [val_main_v25_apply, v21_apply A hr, val_main_v24_apply, val_main_v23_apply, v22_apply A hr]
  rfl

theorem v27_apply (hr : A.InRange) (i : Fin 50000) (d : Fin 128) :
    val_main_v27 (F := Ideal) A.a0 A.a1 A.a2 A.a3 A.a4 (ix2 i d) = refW A.pf A.ct A.e A.watt A.batt i * A.ct (A.e i) d := by
  have e : idx_main_v26 (ix2 i d) = ix2 i (0 : Fin 1) := (eq_ix2 _).trans rfl
  rw [val_main_v27_apply, val_main_v26_apply, e, v25_apply A hr, v8_apply A hr]
  rfl

theorem v34_apply (i : Fin 50000) : val_main_v34 (F := Ideal) (ix1 i) = BitVec.ofNat 32 i.val := by
  have hi : i.val < 2 ^ 31 := by have := i.isLt; omega
  rw [val_main_v34_apply, val_main_v31_apply, val_main_v33_apply, val_main_v28_apply, val_main_v30_apply, val_main_c_4_apply,
    val_main_v32_apply, val_main_c_5_apply]
  exact select_wrap_of_lt (w := BitVec.ofNat 32 i.val) (by rw [toNat_ofNat_of_lt hi]; exact hi)

theorem v35_apply (i : Fin 50000) : val_main_v35 (F := Ideal) (ix2 i (0 : Fin 1)) = BitVec.ofNat 32 i.val := by
  have e : idx_main_v35 (ix2 i (0 : Fin 1)) = ix1 i := (eq_ix1 _).trans rfl
  rw [val_main_v35_apply, e, v34_apply]

theorem v47_apply (i : Fin 50000) : val_main_v47 (F := Ideal) (ix2 i (0 : Fin 1)) = BitVec.ofNat 32 i.val :=
  v35_apply i

theorem v29_apply (j : S50000x128.Idx) : val_main_v29 (F := Ideal) j = 0 := by
  rw [val_main_v29_apply, val_main_cst_3_apply]
  exact Ideal.ofBits_zero_f32

theorem v36_apply (hr : A.InRange) (i : Fin 50000) (d : Fin 128) :
    val_main_v36 (F := Ideal) A.a0 A.a1 A.a2 A.a3 A.a4 (ix2 i d) = refW A.pf A.ct A.e A.watt A.batt i * A.ct (A.e i) d := by
  unfold val_main_v36
  show Ideal.hostScatterAdd (rowsScatter 50000 128 50000 scatter_S50000x128_S50000x1_S50000x128_1_0_0_1_wf)
      (val_main_v29 (F := Ideal)) (val_main_v35 (F := Ideal)) (val_main_v27 (F := Ideal) A.a0 A.a1 A.a2 A.a3 A.a4) (ix2 i d) = _
  rw [scatterAdd_rows_id_apply _ _ _ _
      (fun r => by rw [v35_apply]; exact toInt_ofNat_of_lt (by have := r.isLt; omega)),
    v29_apply, zero_add, v27_apply A hr]

theorem v48_apply (hr : A.InRange) (i : Fin 50000) (d : Fin 128) :
    val_main_v48 (F := Ideal) A.a0 A.a1 A.a2 A.a3 A.a4 (ix2 i d) = refW A.pf A.ct A.e A.watt A.batt i * A.ct (A.e i) d := by
  have hi : i.val < 2 ^ 31 := by have := i.isLt; omega
  unfold val_main_v48
  show Host.gather (rowsDims 50000 128 50000 gather_S50000x128_S50000x1_S50000x128_1_0_n_n_0_1_1128_wf)
      (val_main_v36 (F := Ideal) A.a0 A.a1 A.a2 A.a3 A.a4) (val_main_v47 (F := Ideal)) (ix2 i d) = _
  rw [gather_rows_apply (by norm_num), ← v36_apply A hr i d]
  congr 1
  funext a
  refine Fin.ext ?_
  match a with
  | ⟨0, _⟩ =>
    show min (val_main_v47 (F := Ideal) (ix2 i (0 : Fin 1))).toInt.toNat (50000 - 1) = i.val
    rw [v47_apply, clamp_of_lt (N := 50000) (by norm_num) (by rw [toNat_ofNat_of_lt hi]; exact i.isLt), toNat_ofNat_of_lt hi]
  | ⟨1, _⟩ => rfl

theorem v41_apply (i : Fin 50000) (j : Fin 128) :
    val_main_v41 (F := Ideal) A.a0 A.a5 A.a6 (ix2 i j) = refPf A.pf A.wpdt A.bpdt i j := by
  have el : ∀ k : Fin 128, lidx_main_v38 (ix2 i j) k = ix2 i k := fun k => (eq_ix2 _).trans rfl
  have er : ∀ k : Fin 128, idx_main_v37 (ridx_main_v38 (ix2 i j) k) = ix2 j k := fun k => (eq_ix2 _).trans rfl
  have e40 : idx_main_v39 (idx_main_v40 (ix2 i j)) = ix1 j := (eq_ix1 _).trans rfl
  rw [val_main_v41_apply, val_main_v38_apply, val_main_v40_apply, val_main_v39_apply, e40]
  unfold refPf
  show (∑ k : Fin 128, _) + A.a6 (ix1 j) = _
  congr 1
  refine Finset.sum_congr rfl fun k _ => ?_
  rw [el, val_main_v37_apply, er]
  rfl

theorem v54_apply (hr : A.InRange) (i : Fin 50000) (h : Fin 128) :
    val_main_v54 (F := Ideal) A.a0 A.a1 A.a2 A.a3 A.a4 A.a5 A.a6 A.a7 A.a8 (ix2 i h)
      = refHid A.pf A.ct A.e A.watt A.batt A.wpdt A.bpdt A.wcomb A.bcomb i h := by
  have el : ∀ k : Fin 256, lidx_main_v51 (ix2 i h) k = ix2 i k := fun k => (eq_ix2 _).trans rfl
  have er : ∀ k : Fin 256, idx_main_v50 (ridx_main_v51 (ix2 i h) k) = ix2 h k := fun k => (eq_ix2 _).trans rfl
  have e53 : idx_main_v52 (idx_main_v53 (ix2 i h)) = ix1 h := (eq_ix1 _).trans rfl
  rw [val_main_v54_apply, val_main_v51_apply, val_main_v53_apply, val_main_v52_apply, e53]
  show (∑ k : Fin 256, _) + A.a8 (ix1 h) = _
  rw [sum_fin256_split]
  unfold refHid
  refine congrArg₂ (· + ·) (congrArg₂ (· + ·) (Finset.sum_congr rfl fun j _ => ?_) (Finset.sum_congr rfl fun d _ => ?_)) rfl
  all_goals rw [el, val_main_v50_apply, er]; unfold val_main_v49
  · rw [concat_cols_lo, v41_apply]; rfl
  · rw [concat_cols_hi, v48_apply A hr]; rfl

theorem v59_apply (hr : A.InRange) (i : Fin 50000) (k : Fin 1000) :
    val_main_v59 (F := Ideal) A.a0 A.a1 A.a2 A.a3 A.a4 A.a5 A.a6 A.a7 A.a8 A.a9 A.a10 (ix2 i k)
      = refOut A.pf A.ct A.e A.watt A.batt A.wpdt A.bpdt A.wcomb A.bcomb A.wout A.bout i k := by
  have el : ∀ h : Fin 128, lidx_main_v56 (ix2 i k) h = ix2 i h := fun h => (eq_ix2 _).trans rfl
  have er : ∀ h : Fin 128, idx_main_v55 (ridx_main_v56 (ix2 i k) h) = ix2 k h := fun h => (eq_ix2 _).trans rfl
  have e58 : idx_main_v57 (idx_main_v58 (ix2 i k)) = ix1 k := (eq_ix1 _).trans rfl
  rw [val_main_v59_apply, val_main_v56_apply, val_main_v58_apply, val_main_v57_apply, e58]
  unfold refOut
  show (∑ h : Fin 128, _) + A.a10 (ix1 k) = _
  congr 1
  refine Finset.sum_congr rfl fun h _ => ?_
  rw [el, v54_apply A hr, val_main_v55_apply, er]
  rfl

theorem val_refG (hr : A.InRange) :
    val_main_v59 (F := Ideal) A.a0 A.a1 A.a2 A.a3 A.a4 A.a5 A.a6 A.a7 A.a8 A.a9 A.a10 = A.refG := by
  funext j
  obtain ⟨i, k, rfl⟩ : ∃ i k, j = ix2 i k := ⟨j 0, j 1, eq_ix2 j⟩
  exact v59_apply A hr i k

end Cert.Proof.Ref

end
-- ==== Proof.RefValue.lean ====
import proofs.«211030_g66005057405235_cont_9to1c4b_431_51_alg».proof.Defs
import proofs.«211030_g66005057405235_cont_9to1c4b_431_51_alg».proof.Proof.Inputs
import proofs.«211030_g66005057405235_cont_9to1c4b_431_51_alg».proof.Proof.Gen.ReferenceIdeal
import proofs.«211030_g66005057405235_cont_9to1c4b_431_51_alg».proof.Proof.Gen.Pre_input_domain
import proofs.«211030_g66005057405235_cont_9to1c4b_431_51_alg».proof.Proof.RefRunP
import proofs.«211030_g66005057405235_cont_9to1c4b_431_51_alg».proof.Proof.RefReadP
import proofs.«211030_g66005057405235_cont_9to1c4b_431_51_alg».proof.Proof.RefRead

noncomputable section

open Idealize.ShloMosaic Idealize.SL.Sem

namespace Cert.Proof.Ref

open Cert.Proof.Inputs

attribute [local instance] Cert.ReferenceIdeal.Gen.facts Cert.Pre_input_domain.Gen.facts

def argsOf (m : (ℓ : Loc Cert.ReferenceIdeal.nD Cert.ReferenceIdeal.τ Cert.ReferenceIdeal.sig) → Buf (Elt Ideal) ℓ) (c : Dev Cert.ReferenceIdeal.nD) : Args where
  a0 := m ((c.tc : Thread Cert.ReferenceIdeal.nD Cert.ReferenceIdeal.τ).loc Cert.ReferenceIdeal.main_arg0)
  a1 := m ((c.tc : Thread Cert.ReferenceIdeal.nD Cert.ReferenceIdeal.τ).loc Cert.ReferenceIdeal.main_arg1)
  a2 := m ((c.tc : Thread Cert.ReferenceIdeal.nD Cert.ReferenceIdeal.τ).loc Cert.ReferenceIdeal.main_arg2)
  a3 := m ((c.tc : Thread Cert.ReferenceIdeal.nD Cert.ReferenceIdeal.τ).loc Cert.ReferenceIdeal.main_arg3)
  a4 := m ((c.tc : Thread Cert.ReferenceIdeal.nD Cert.ReferenceIdeal.τ).loc Cert.ReferenceIdeal.main_arg4)
  a5 := m ((c.tc : Thread Cert.ReferenceIdeal.nD Cert.ReferenceIdeal.τ).loc Cert.ReferenceIdeal.main_arg5)
  a6 := m ((c.tc : Thread Cert.ReferenceIdeal.nD Cert.ReferenceIdeal.τ).loc Cert.ReferenceIdeal.main_arg6)
  a7 := m ((c.tc : Thread Cert.ReferenceIdeal.nD Cert.ReferenceIdeal.τ).loc Cert.ReferenceIdeal.main_arg7)
  a8 := m ((c.tc : Thread Cert.ReferenceIdeal.nD Cert.ReferenceIdeal.τ).loc Cert.ReferenceIdeal.main_arg8)
  a9 := m ((c.tc : Thread Cert.ReferenceIdeal.nD Cert.ReferenceIdeal.τ).loc Cert.ReferenceIdeal.main_arg9)
  a10 := m ((c.tc : Thread Cert.ReferenceIdeal.nD Cert.ReferenceIdeal.τ).loc Cert.ReferenceIdeal.main_arg10)

-- The frame is the generated run with the result's value dropped.
theorem frame : Cert.frame_ReferenceIdeal :=
  fun m ρ _ => (θ_run Cert.ReferenceIdeal.defs _ _).mono (fun _ h c => (h c).2) (Cert.ReferenceIdeal.Value.run (F := Ideal) m ρ)

end Cert.Proof.Ref

end
-- ==== Proof.HostVals.lean ====
import Idealize.ShloMosaic.Lib.ValueIdx
import Idealize.ShloMosaic.Lib.Pipeline.Value
import Idealize.ShloMosaic.Lib.KernelVsHost

noncomputable section

namespace Cert.Proof.HostVals

open Idealize.ShloMosaic Idealize.ShloMosaic.ValueIdx

variable {α : Type}

theorem pad1_apply {n p : Nat} (x : (⟨1, ![n]⟩ : Shape).Idx → α) (v : (⟨0, ![]⟩ : Shape).Idx → α)
    (h : (⟨1, ![n]⟩ : Shape).Pads (![0] : Fin 1 → Nat) ![p] ![0] ⟨1, ![n + p]⟩) (hu : 0 < (⟨0, ![]⟩ : Shape).numel) (k : Fin (n + p)) :
    pad (⟨1, ![n + p]⟩ : Shape) ![0] ![p] ![0] x v h hu (ix1 k) = if hk : k.val < n then x (ix1 ⟨k.val, hk⟩) else v ix0 := by
  split
  · rename_i hk
    refine pad_apply_of_inside _ _ _ x v h hu _ (ix1 ⟨k.val, hk⟩) fun a => ?_
    obtain rfl : a = 0 := Subsingleton.elim _ _
    show k.val = 0 + k.val * (0 + 1)
    omega
  · rename_i hk
    rw [pad_apply_of_not_inside _ _ _ x v h hu _ (0 : Fin 1) (by
      show ¬(0 ≤ k.val ∧ (k.val - 0) % (0 + 1) = 0 ∧ (k.val - 0) / (0 + 1) < n)
      omega)]
    exact congrArg v (eq_ix0 _)

theorem pad2_rows_apply {n p c : Nat} (x : (⟨2, ![n, c]⟩ : Shape).Idx → α) (v : (⟨0, ![]⟩ : Shape).Idx → α)
    (h : (⟨2, ![n, c]⟩ : Shape).Pads (![0, 0] : Fin 2 → Nat) ![p, 0] ![0, 0] ⟨2, ![n + p, c]⟩) (hu : 0 < (⟨0, ![]⟩ : Shape).numel)
    (k : Fin (n + p)) (d : Fin c) :
    pad (⟨2, ![n + p, c]⟩ : Shape) ![0, 0] ![p, 0] ![0, 0] x v h hu (ix2 k d) = if hk : k.val < n then x (ix2 ⟨k.val, hk⟩ d) else v ix0 := by
  split
  · rename_i hk
    refine pad_apply_of_inside _ _ _ x v h hu _ (ix2 ⟨k.val, hk⟩ d) fun a => ?_
    match a with
    | ⟨0, _⟩ => show k.val = 0 + k.val * (0 + 1); omega
    | ⟨1, _⟩ => show d.val = 0 + d.val * (0 + 1); omega
  · rename_i hk
    rw [pad_apply_of_not_inside _ _ _ x v h hu _ (0 : Fin 2) (by
      show ¬(0 ≤ k.val ∧ (k.val - 0) % (0 + 1) = 0 ∧ (k.val - 0) / (0 + 1) < n)
      omega)]
    exact congrArg v (eq_ix0 _)

theorem reshape_1_3_apply {a b c : Nat} (x : (⟨1, ![a * b * c]⟩ : Shape).Idx → α)
    (h : (⟨1, ![a * b * c]⟩ : Shape).ShapeCasts ⟨3, ![a, b, c]⟩) (i : Fin a) (j : Fin b) (k : Fin c)
    (hlt : b * c * i.val + c * j.val + k.val < a * b * c) :
    shapeCast (⟨3, ![a, b, c]⟩ : Shape) x h (ix3 i j k) = x (ix1 ⟨b * c * i.val + c * j.val + k.val, hlt⟩) := by
  refine shapeCast_apply x h _ _ ?_
  rw [Shape.rowMajor_val_one, Shape.rowMajor_val_three]
  show b * c * i.val + c * j.val + k.val = (i.val * b + j.val) * c + k.val
  ring

theorem slice_row_apply {n : Nat} (x : (⟨2, ![2, n]⟩ : Shape).Idx → α)
    (h : (⟨2, ![2, n]⟩ : Shape).Slices ![1, 0] ⟨2, ![1, n]⟩) (i : Fin n) :
    extractStridedSlice (⟨2, ![1, n]⟩ : Shape) ![1, 0] x h (ix2 (0 : Fin 1) i) = x (ix2 (1 : Fin 2) i) := by
  refine extractStridedSlice_apply _ x h _ _ fun a => ?_
  match a with
  | ⟨0, _⟩ => rfl
  | ⟨1, _⟩ => show i.val = 0 + i.val; omega

theorem reshape_row_vec_apply {n : Nat} (x : (⟨2, ![1, n]⟩ : Shape).Idx → α) (h : (⟨2, ![1, n]⟩ : Shape).ShapeCasts ⟨1, ![n]⟩) (i : Fin n) :
    shapeCast (⟨1, ![n]⟩ : Shape) x h (ix1 i) = x (ix2 (0 : Fin 1) i) := by
  refine shapeCast_apply x h _ _ ?_
  rw [Shape.rowMajor_val_one, Shape.rowMajor_val_two]
  show 0 * n + i.val = i.val
  omega
theorem reshape_vec_row_apply {n : Nat} (x : (⟨1, ![n]⟩ : Shape).Idx → α) (h : (⟨1, ![n]⟩ : Shape).ShapeCasts ⟨2, ![1, n]⟩) (i : Fin n) :
    shapeCast (⟨2, ![1, n]⟩ : Shape) x h (ix2 (0 : Fin 1) i) = x (ix1 i) := by
  refine shapeCast_apply x h _ _ ?_
  rw [Shape.rowMajor_val_one, Shape.rowMajor_val_two]
  show i.val = 0 * n + i.val
  omega
theorem reshape_vec_col_apply {n : Nat} (x : (⟨1, ![n]⟩ : Shape).Idx → α) (h : (⟨1, ![n]⟩ : Shape).ShapeCasts ⟨2, ![n, 1]⟩) (i : Fin n) :
    shapeCast (⟨2, ![n, 1]⟩ : Shape) x h (ix2 i (0 : Fin 1)) = x (ix1 i) := by
  refine shapeCast_apply x h _ _ ?_
  rw [Shape.rowMajor_val_one, Shape.rowMajor_val_two]
  show i.val = i.val * 1 + 0
  omega

theorem transpose2_apply {a b : Nat} (x : (⟨2, ![a, b]⟩ : Shape).Idx → α)
    (h : (⟨2, ![a, b]⟩ : Shape).Transposes [1, 0] ⟨2, ![b, a]⟩) (i : Fin b) (k : Fin a) :
    transpose (⟨2, ![b, a]⟩ : Shape) [1, 0] x h (ix2 i k) = x (ix2 k i) := by
  refine transpose_apply _ x h _ _ fun bb => ?_
  match bb with
  | ⟨0, _⟩ => rfl
  | ⟨1, _⟩ => rfl

end Cert.Proof.HostVals

end
-- ==== Proof.KIValW1.lean ====
import proofs.«211030_g66005057405235_cont_9to1c4b_431_51_alg».proof.Proof.KILaunchData
import proofs.«211030_g66005057405235_cont_9to1c4b_431_51_alg».proof.Proof.HostVals
import Idealize.ShloMosaic.Lib.StableHlo.Run

noncomputable section

namespace Cert.Proof.KI.Val

open Cert.KernelIdeal Cert.KernelIdeal.Gen Cert.Proof.KI Cert.Proof.KI.Launch Cert.Proof.HostVals
open Idealize.ShloMosaic Idealize.ShloMosaic.TcCoe Idealize.ShloMosaic.ValueIdx Idealize.SL.Sem

variable {F : FTy → Type} [FloatOps F] [Named F]
variable (m : (ℓ : Loc nD τ sig) → Buf (Elt F) ℓ)

def clsVec (c : Dev nD) : S50000.Idx → BitVec 32 :=
  shapeCast S50000 (extractStridedSlice S1x50000 ![1, 0] (m ((c.tc : Thread nD τ).loc main_arg2)) slices_S2x50000_S1x50000_1_0) shapeCasts_S1x50000_S50000

theorem clsVec_apply (c : Dev nD) (i : Fin 50000) : clsVec m c (ix1 i) = m ((c.tc : Thread nD τ).loc main_arg2) (ix2 (1 : Fin 2) i) := by
  unfold clsVec
  rw [reshape_row_vec_apply, slice_row_apply]

theorem W1_v5_apply (c : Dev nD) (k : Fin 1000) (d : Fin 128) :
    (W1 m c (Proc.devRef .tc main_v5) : S1024x128.Idx → Elt F .f32) (ix2 (⟨k.val, by omega⟩ : Fin 1024) d) = m ((c.tc : Thread nD τ).loc main_arg1) (ix2 k d) := by
  have h := pad2_rows_apply (n := 1000) (p := 24) (c := 128) (m ((c.tc : Thread nD τ).loc main_arg1)) (sitofp .f32 (constantI S_ 32 0#32))
    pads_S1000x128_S1024x128_0240_000 h_S_ (⟨k.val, by omega⟩ : Fin (1000 + 24)) d
  rw [dif_pos k.isLt] at h
  refine Eq.trans ?_ h
  · show StableHlo.after hostOps0 (W0 m c) (Proc.devRef .tc main_v5) _ = _
    after_results
    rfl

theorem W1_v6_apply (c : Dev nD) (j : Fin 128) :
    (W1 m c (Proc.devRef .tc main_v6) : S1x128.Idx → Elt F .f32) (ix2 (0 : Fin 1) j) = m ((c.tc : Thread nD τ).loc main_arg6) (ix1 j) := by
  refine Eq.trans ?_ (reshape_vec_row_apply (m ((c.tc : Thread nD τ).loc main_arg6)) shapeCasts_S128_S1x128 j)
  · show StableHlo.after hostOps0 (W0 m c) (Proc.devRef .tc main_v6) _ = _
    after_results
    rfl
theorem W1_v7_apply (c : Dev nD) (j : Fin 128) :
    (W1 m c (Proc.devRef .tc main_v7) : S1x128.Idx → Elt F .f32) (ix2 (0 : Fin 1) j) = m ((c.tc : Thread nD τ).loc main_arg8) (ix1 j) := by
  refine Eq.trans ?_ (reshape_vec_row_apply (m ((c.tc : Thread nD τ).loc main_arg8)) shapeCasts_S128_S1x128 j)
  · show StableHlo.after hostOps0 (W0 m c) (Proc.devRef .tc main_v7) _ = _
    after_results
    rfl

theorem W1_v2_apply (c : Dev nD) (n : Fin 50176) :
    (W1 m c (Proc.devRef .tc main_v2) : S50176.Idx → BitVec 32) (ix1 n)
      = if h : n.val < 50000 then m ((c.tc : Thread nD τ).loc main_arg2) (ix2 (1 : Fin 2) ⟨n.val, h⟩) else 0#32 := by
  refine Eq.trans ?_ ((pad1_apply (n := 50000) (p := 176) (clsVec m c) (constantI S_ 32 0#32) pads_S50000_S50176_01760 h_S_ n).trans ?_)
  · show StableHlo.after hostOps0 (W0 m c) (Proc.devRef .tc main_v2) _ = _
    after_results
    rfl
  by_cases hn : n.val < 50000
  · rw [dif_pos hn, dif_pos hn]; exact clsVec_apply m c _
  · rw [dif_neg hn, dif_neg hn]; rfl

theorem W1_v4_apply (c : Dev nD) (t : Fin 13) (j : Fin 4096) :
    (W1 m c (Proc.devRef .tc main_v4) : S13x1x4096.Idx → BitVec 32) (ix3 t (0 : Fin 1) j)
      = if h : 4096 * t.val + j.val < 50000 then m ((c.tc : Thread nD τ).loc main_arg2) (ix2 (1 : Fin 2) ⟨4096 * t.val + j.val, h⟩) else 0#32 := by
  have hlt : 1 * 4096 * t.val + 4096 * (0 : Fin 1).val + j.val < 13 * 1 * 4096 := by have := t.isLt; have := j.isLt; simp; omega
  refine Eq.trans ?_ ((reshape_1_3_apply (a := 13) (b := 1) (c := 4096)
    (pad S53248 ![0] ![3248] ![0] (clsVec m c) (constantI S_ 32 0#32) pads_S50000_S53248_032480 h_S_) shapeCasts_S53248_S13x1x4096 t (0 : Fin 1) j hlt).trans ?_)
  · show StableHlo.after hostOps0 (W0 m c) (Proc.devRef .tc main_v4) _ = _
    after_results
    rfl
  rw [pad1_apply (n := 50000) (p := 3248) (clsVec m c) (constantI S_ 32 0#32) pads_S50000_S53248_032480 h_S_
    (⟨1 * 4096 * t.val + 4096 * (0 : Fin 1).val + j.val, hlt⟩ : Fin (50000 + 3248))]
  have e : 1 * 4096 * t.val + 4096 * (0 : Fin 1).val + j.val = 4096 * t.val + j.val := by simp
  split
  · rename_i hh
    rw [dif_pos (e ▸ hh), clsVec_apply]
    congr 2 <;> first | rfl | exact Fin.ext e
  · rename_i hh
    rw [dif_neg (e ▸ hh)]
    rfl

end Cert.Proof.KI.Val

end
-- ==== Proof.KIArr0.lean ====
import proofs.«211030_g66005057405235_cont_9to1c4b_431_51_alg».proof.Proof.KIRegion0
import Idealize.ShloMosaic.Lib.Pipeline.Value

noncomputable section

namespace Cert.Proof.KI.Arr0

open Cert.KernelIdeal Cert.KernelIdeal.Gen
open Idealize.ShloMosaic Idealize.ShloMosaic.TcCoe Idealize.SL.Sem
open Idealize.ShloMosaic.Pipeline (Dat)

variable {F : FTy → Type} [FloatOps F] [Named F]

variable (V : (c : Dev nD) → (b : Ref sig .tc) → Buf (Elt F) ((c : Thread nD τ).loc b))

-- The access through a whole buffer's own sizes at zero offsets is the whole buffer, so every index is under it.
theorem mem_access_unit_zero {κ : Kind} (b : Ref sig κ) {off : Fin b.ty.shape.rank → Nat}
    (h : off = fun _ => 0) (inb : ∀ a, off a + b.ty.shape.size a ≤ b.ty.shape.size a) (i : b.ty.shape.Idx) :
    i ∈ ((Memref.whole b).access (Rect.unit off b.ty.shape.size inb) : View sig κ _ _ _).set := by
  subst h
  show i ∈ ((Memref.whole b).access (Rect.whole _) : View sig κ _ _ _).set
  rw [Memref.set_access_whole]; exact Finset.mem_univ i

-- An input's block at the one point is its whole array as found on entry.
theorem iblk0_0 (c : Dev nD) (t : Fin cfg0.N) : R0.iblk0 V c 0 t = V c (Pipeline.arrRef spec0 0) :=
  Memref.read_access_unit_zero (Elt F) main_v5 (funext fun a => Nat.zero_mul _) _ _
theorem iblk0_1 (c : Dev nD) (t : Fin cfg0.N) : R0.iblk0 V c 1 t = V c (Pipeline.arrRef spec0 1) :=
  Memref.read_access_unit_zero (Elt F) main_arg3 (funext fun a => Nat.zero_mul _) _ _
theorem iblk0_2 (c : Dev nD) (t : Fin cfg0.N) : R0.iblk0 V c 2 t = V c (Pipeline.arrRef spec0 2) :=
  Memref.read_access_unit_zero (Elt F) main_arg5 (funext fun a => Nat.zero_mul _) _ _
theorem iblk0_3 (c : Dev nD) (t : Fin cfg0.N) : R0.iblk0 V c 3 t = V c (Pipeline.arrRef spec0 3) :=
  Memref.read_access_unit_zero (Elt F) main_v6 (funext fun a => Nat.zero_mul _) _ _
theorem iblk0_4 (c : Dev nD) (t : Fin cfg0.N) : R0.iblk0 V c 4 t = V c (Pipeline.arrRef spec0 4) :=
  Memref.read_access_unit_zero (Elt F) main_arg7 (funext fun a => Nat.zero_mul _) _ _
theorem iblk0_5 (c : Dev nD) (t : Fin cfg0.N) : R0.iblk0 V c 5 t = V c (Pipeline.arrRef spec0 5) :=
  Memref.read_access_unit_zero (Elt F) main_v7 (funext fun a => Nat.zero_mul _) _ _

-- An output's one block covers its array, so the array ends at what the body leaves there, a function of the six input arrays.
theorem arr0_6 (c : Dev nD) : (R0.dat0 V c).arrAt 6 cfg0.N
    = R0.out0_6 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (R0.dat0 V c).arrAt_eq_of_cover 6 _ (fun t _ => by
    show (cfg0.win 6).cut (grid0.coords t) ((R0.dat0 V c).after 6 t) = _
    dsimp only [R0.dat0]
    rw [iblk0_0, iblk0_1, iblk0_2, iblk0_3, iblk0_4, iblk0_5]
    exact (Memref.read_access_unit_zero (Elt F) main_v8_0 (funext fun a => Nat.zero_mul _) _ _).symm)
    fun i => ⟨t0_0, flush0_6 _, mem_access_unit_zero main_v8_0 (funext fun a => Nat.zero_mul _) _ i⟩
theorem arr0_7 (c : Dev nD) : (R0.dat0 V c).arrAt 7 cfg0.N
    = R0.out0_7 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (R0.dat0 V c).arrAt_eq_of_cover 7 _ (fun t _ => by
    show (cfg0.win 7).cut (grid0.coords t) ((R0.dat0 V c).after 7 t) = _
    dsimp only [R0.dat0]
    rw [iblk0_0, iblk0_1, iblk0_2, iblk0_3, iblk0_4, iblk0_5]
    exact (Memref.read_access_unit_zero (Elt F) main_v8_1 (funext fun a => Nat.zero_mul _) _ _).symm)
    fun i => ⟨t0_0, flush0_7 _, mem_access_unit_zero main_v8_1 (funext fun a => Nat.zero_mul _) _ i⟩
theorem arr0_8 (c : Dev nD) : (R0.dat0 V c).arrAt 8 cfg0.N
    = R0.out0_8 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (R0.dat0 V c).arrAt_eq_of_cover 8 _ (fun t _ => by
    show (cfg0.win 8).cut (grid0.coords t) ((R0.dat0 V c).after 8 t) = _
    dsimp only [R0.dat0]
    rw [iblk0_0, iblk0_1, iblk0_2, iblk0_3, iblk0_4, iblk0_5]
    exact (Memref.read_access_unit_zero (Elt F) main_v8_2 (funext fun a => Nat.zero_mul _) _ _).symm)
    fun i => ⟨t0_0, flush0_8 _, mem_access_unit_zero main_v8_2 (funext fun a => Nat.zero_mul _) _ i⟩
theorem arr0_9 (c : Dev nD) : (R0.dat0 V c).arrAt 9 cfg0.N
    = R0.out0_9 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) :=
  (R0.dat0 V c).arrAt_eq_of_cover 9 _ (fun t _ => by
    show (cfg0.win 9).cut (grid0.coords t) ((R0.dat0 V c).after 9 t) = _
    dsimp only [R0.dat0]
    rw [iblk0_0, iblk0_1, iblk0_2, iblk0_3, iblk0_4, iblk0_5]
    exact (Memref.read_access_unit_zero (Elt F) main_v8_3 (funext fun a => Nat.zero_mul _) _ _).symm)
    fun i => ⟨t0_0, flush0_9 _, mem_access_unit_zero main_v8_3 (funext fun a => Nat.zero_mul _) _ i⟩

end Cert.Proof.KI.Arr0

end
-- ==== Proof.KIPayloads.lean ====
import proofs.«211030_g66005057405235_cont_9to1c4b_431_51_alg».proof.Proof.Gen.KernelIdeal.Skeleton
import Idealize.ShloMosaic.Lib.ValueIdx
import Idealize.ShloMosaic.PureOps.Ideal.Laws
import Idealize.ShloMosaic.Lib.Pipeline.Value
import Idealize.ShloMosaic.Lib.ValueLayout

noncomputable section

namespace Cert.Proof.KI.Pay

open Cert.KernelIdeal Cert.KernelIdeal.Gen Idealize.ShloMosaic Idealize.ShloMosaic.ValueIdx

-- With one contracted axis and a zero accumulator, an entry of the product is the sum over that axis of the products of the operands' entries.
theorem mm_apply {sl sr so : Shape} (D : DotDims sl sr so) (n : ℕ) (hr : D.contr.rank = 1) (hs : D.contr.size ⟨0, by omega⟩ = n)
    (prec : Option ContractPrecision) (lhs : FVec Ideal sl .f32) (rhs : FVec Ideal sr .f32) (j : so.Idx)
    (L : Fin n → sl.Idx) (R : Fin n → sr.Idx)
    (hL : ∀ c, D.lhsIdx j ((contrEquiv1 D n hr hs).symm c) = L c := by intro c; funext ax; fin_cases ax <;> rfl)
    (hR : ∀ c, D.rhsIdx j ((contrEquiv1 D n hr hs).symm c) = R c := by intro c; funext ax; fin_cases ax <;> rfl) :
    FloatOps.matmul D prec lhs rhs (constant so .f32 0x00000000#32) j = ∑ c : Fin n, lhs (L c) * rhs (R c) := by
  rw [Ideal.matmul_constant_zero_apply, ← Equiv.sum_comp (contrEquiv1 D n hr hs).symm]
  exact Finset.sum_congr rfl fun c _ => by rw [hL, hR]

theorem pay5_apply (v0 : Vec Ideal S1024x128 .f32) (v6 : Vec Ideal S1x128 .f32) (k : Fin 1024) :
    k0_pay5 (F := Ideal) v0 v6 (ix2 (0 : Fin 1) k) = ∑ d : Fin 128, v6 (ix2 (0 : Fin 1) d) * v0 (ix2 k d) := by
  simp only [k0_pay5, k0_pay3, shapeCast_self, matmul]
  exact mm_apply _ _ rfl rfl none v6 v0 _ _ _

theorem pay14_apply (v0 : Vec Ideal S1024x128 .f32) (v3 : Vec Ideal S128x256 .f32) (k : Fin 1000) (h : Fin 128) :
    k0_pay14 (F := Ideal) v0 v3 (ix2 k h)
      = ∑ d : Fin 128, v0 (ix2 (⟨k.val, by omega⟩ : Fin 1024) d) * v3 (ix2 h (⟨128 + d.val, by omega⟩ : Fin 256)) := by
  simp only [k0_pay14, k0_pay3, shapeCast_self, matmul]
  rw [mm_apply dot_S1000x128_S128x128_S1000x128_1_1_0_0_n_n 128 rfl rfl none _ _ (ix2 k h) (ix2 k) (ix2 h)]
  exact Finset.sum_congr rfl fun d _ => congrArg₂ _ (slice2_axis0_apply 0 v0 _ k d _ (Nat.zero_add _).symm)
    (slice2_axis1_apply 128 v3 _ h d _ rfl)

theorem pay1_apply (v4 : FVec Ideal S128x128 .f32) (v26 : Vec Ideal S128x128 .f32) (d h : Fin 128) :
    k0_pay1 (F := Ideal) v4 v26 (ix2 d h) = ∑ j : Fin 128, v26 (ix2 j d) * v4 (ix2 h j) := by
  simp only [k0_pay1, matmul]
  exact mm_apply _ _ rfl rfl none v26 v4 _ _ _

theorem pay2_apply (v4 : FVec Ideal S128x128 .f32) (v29 : Vec Ideal S1x128 .f32) (v32 : Vec Ideal S1x128 .f32) (h : Fin 128) :
    k0_pay2 (F := Ideal) v4 v29 v32 (ix2 (0 : Fin 1) h)
      = (∑ j : Fin 128, v29 (ix2 (0 : Fin 1) j) * v4 (ix2 h j)) + v32 (ix2 (0 : Fin 1) h) := by
  simp only [k0_pay2, shapeCast_self, matmul]
  rw [addf_apply, mm_apply dot_S1x128_S128x128_S1x128_1_1_0_0_n_n 128 rfl rfl none _ _ (ix2 0 h) (ix2 0) (ix2 h)]

theorem pay4_apply (v3 : Vec Ideal S128x256 .f32) (h j : Fin 128) :
    k0_pay4 (F := Ideal) v3 (ix2 h j) = v3 (ix2 h (⟨j.val, by omega⟩ : Fin 256)) := by
  simp only [k0_pay4]; exact slice2_axis1_apply 0 v3 _ h j _ (Nat.zero_add _).symm

section Rows

variable (v0 : Vec Ideal S1024x128 .f32) (v6 : Vec Ideal S1x128 .f32) (l : Fin 128)

-- Row r of the eight stored rows is the cut of the 1024 scores from column 128 r.
theorem pay6_apply :
    k0_pay6 (F := Ideal) v0 v6 (ix2 (0 : Fin 1) l) = k0_pay5 (F := Ideal) v0 v6 (ix2 (0 : Fin 1) (⟨l.val, by omega⟩ : Fin 1024)) := by
  simp only [k0_pay6]; exact slice2_axis1_apply 0 _ _ 0 l _ (Nat.zero_add _).symm
theorem pay7_apply :
    k0_pay7 (F := Ideal) v0 v6 (ix2 (0 : Fin 1) l) = k0_pay5 (F := Ideal) v0 v6 (ix2 (0 : Fin 1) (⟨128 + l.val, by omega⟩ : Fin 1024)) := by
  simp only [k0_pay7]; exact slice2_axis1_apply 128 _ _ 0 l _ rfl
theorem pay8_apply :
    k0_pay8 (F := Ideal) v0 v6 (ix2 (0 : Fin 1) l) = k0_pay5 (F := Ideal) v0 v6 (ix2 (0 : Fin 1) (⟨256 + l.val, by omega⟩ : Fin 1024)) := by
  simp only [k0_pay8]; exact slice2_axis1_apply 256 _ _ 0 l _ rfl
theorem pay9_apply :
    k0_pay9 (F := Ideal) v0 v6 (ix2 (0 : Fin 1) l) = k0_pay5 (F := Ideal) v0 v6 (ix2 (0 : Fin 1) (⟨384 + l.val, by omega⟩ : Fin 1024)) := by
  simp only [k0_pay9]; exact slice2_axis1_apply 384 _ _ 0 l _ rfl
theorem pay10_apply :
    k0_pay10 (F := Ideal) v0 v6 (ix2 (0 : Fin 1) l) = k0_pay5 (F := Ideal) v0 v6 (ix2 (0 : Fin 1) (⟨512 + l.val, by omega⟩ : Fin 1024)) := by
  simp only [k0_pay10]; exact slice2_axis1_apply 512 _ _ 0 l _ rfl
theorem pay11_apply :
    k0_pay11 (F := Ideal) v0 v6 (ix2 (0 : Fin 1) l) = k0_pay5 (F := Ideal) v0 v6 (ix2 (0 : Fin 1) (⟨640 + l.val, by omega⟩ : Fin 1024)) := by
  simp only [k0_pay11]; exact slice2_axis1_apply 640 _ _ 0 l _ rfl
theorem pay12_apply :
    k0_pay12 (F := Ideal) v0 v6 (ix2 (0 : Fin 1) l) = k0_pay5 (F := Ideal) v0 v6 (ix2 (0 : Fin 1) (⟨768 + l.val, by omega⟩ : Fin 1024)) := by
  simp only [k0_pay12]; exact slice2_axis1_apply 768 _ _ 0 l _ rfl
theorem pay13_apply :
    k0_pay13 (F := Ideal) v0 v6 (ix2 (0 : Fin 1) l) = k0_pay5 (F := Ideal) v0 v6 (ix2 (0 : Fin 1) (⟨896 + l.val, by omega⟩ : Fin 1024)) := by
  simp only [k0_pay13]; exact slice2_axis1_apply 896 _ _ 0 l _ rfl

end Rows

-- Broadcasting a single column along the second axis forgets the column coordinate.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k3_pay1_apply (v0 v1 : Elt Ideal .f32) (v3 : Vec Ideal S1x4096 .f32) (v10 : Vec Ideal S4096x128 .f32)
    (v11 : Vec Ideal S128x128 .f32) (v14 : Vec Ideal S1x128 .f32) (v18 : Vec Ideal S1000x128 .f32) (v20 : Vec Ideal S1000x128 .f32)
    (v21 : Vec Ideal S4096x128 .f32) (v27 : Vec Ideal S1000x1 .f32) (k : Fin 1000) (j : Fin 4096) :
    k3_pay1 (F := Ideal) v0 v1 v3 v10 v11 v14 v18 v20 v21 v27 (ix2 k j)
      = (∑ h : Fin 128, v18 (ix2 k h) * ((∑ d : Fin 128, v10 (ix2 j d) * v11 (ix2 d h)) + v14 (ix2 (0 : Fin 1) h)))
        + (Ideal.exp (v3 (ix2 (0 : Fin 1) j) - v0) * Ideal.div 1 v1) * (∑ h : Fin 128, v20 (ix2 k h) * v21 (ix2 j h))
        + v27 (ix2 k (0 : Fin 1)) := by
  have mm19 := fun l r => mm_apply dot_S1000x128_S4096x128_S1000x4096_1_1_0_0_n_n 128 rfl rfl none l r (ix2 k j) (ix2 k) (ix2 j)
  have mm13 : ∀ (l : FVec Ideal S4096x128 .f32) (r : FVec Ideal S128x128 .f32) (b : Fin 128),
      FloatOps.matmul dot_S4096x128_S128x128_S4096x128_1_0_0_1_n_n none l r (constant S4096x128 .f32 0x00000000#32) (ix2 j b)
        = ∑ c : Fin 128, l (ix2 j c) * r (ix2 c b) := fun l r b => mm_apply _ _ rfl rfl none l r _ _ _
  simp only [k3_pay1, shapeCast_self, matmul]
  rw [addf_apply, addf_apply, mulf_apply, mm19, mm19, broadcastTo_1b_ab_apply, broadcastTo_a1_ab_apply, mulf_apply]
  simp only [addf_apply, mm13, broadcastTo_1b_ab_apply]
  rw [show Scalar.ofBits (F := Ideal) .f32 0x3F800000#32 = (1 : EReal) from IdealRules.sign_bit.ideal_onePat .f32]
  rfl

end Cert.Proof.KI.Pay

end
-- ==== Proof.KIValue0.lean ====
import proofs.«211030_g66005057405235_cont_9to1c4b_431_51_alg».proof.Proof.KIRegion0
import proofs.«211030_g66005057405235_cont_9to1c4b_431_51_alg».proof.Proof.KIPayloads
import proofs.«211030_g66005057405235_cont_9to1c4b_431_51_alg».proof.Proof.Spec
import Idealize.ShloMosaic.Lib.Pipeline.FrameBody

noncomputable section

namespace Cert.Proof.KI.Val0

open Cert.KernelIdeal Cert.KernelIdeal.Gen Idealize.ShloMosaic Idealize.ShloMosaic.ValueIdx
open Cert.Proof.KI.R0 Cert.Proof.KI.Pay Cert.Proof

theorem zeros2 : (![0, 0] : Fin 2 → ℕ) = fun _ => 0 :=
  funext fun a => match a with | ⟨0, _⟩ => rfl | ⟨1, _⟩ => rfl

variable (ct : Fin 1000 → Fin 128 → EReal) (watt : Fin 256 → EReal) (wpdt : Fin 128 → Fin 128 → EReal) (bpdt : Fin 128 → EReal)
  (wcomb : Fin 128 → Fin 256 → EReal) (bcomb : Fin 128 → EReal)
  (x0 : Vec Ideal S1024x128 .f32) (x1 : Vec Ideal S1x256 .f32) (x2 : Vec Ideal S128x128 .f32)
  (x3 : Vec Ideal S1x128 .f32) (x4 : Vec Ideal S128x256 .f32) (x5 : Vec Ideal S1x128 .f32)

-- The load of the query row's second half reads, at lane d, the row's entry 128 + d.
theorem ld_x1_apply (d : Fin 128) : View.ld x1 r0_2 (ix2 (0 : Fin 1) d) = x1 (ix2 (0 : Fin 1) (Spec.hi d)) :=
  congrArg x1 (funext fun a => match a with
    | ⟨0, _⟩ => Fin.ext (by show 0 + 1 * 0 = 0; rfl)
    | ⟨1, _⟩ => Fin.ext (by show 128 + 1 * d.val = 128 + d.val; omega))

-- The score table as one function of the index: at (r, l) the 1024-lane score row at lane 128 r + l.
def scoreTab : Vec Ideal S8x128 .f32 :=
  fun y => k0_pay5 (F := Ideal) x0 (View.ld x1 r0_2)
    (ix2 (0 : Fin 1) (⟨128 * (y 0).val + (y 1).val, by have := idx2_lt0 y; have := idx2_lt1 y; omega⟩ : Fin 1024))

-- Row r's store, whose payload reads the score row from lane o = 128 r, agrees with the table on its rectangle.
theorem piece_eq (r o : ℕ) (ho : o = 128 * r) (hr : r < 8)
    (inb : ∀ a, (![r, 0] : Fin 2 → ℕ) a + S1x128.size a ≤ S8x128.size a)
    (P : Vec Ideal S1x128 .f32)
    (hP : ∀ l : Fin 128, P (ix2 (0 : Fin 1) l)
      = k0_pay5 (F := Ideal) x0 (View.ld x1 r0_2) (ix2 (0 : Fin 1) (⟨o + l.val, by omega⟩ : Fin 1024)))
    (x : S1x128.Idx) :
    P x = scoreTab x0 x1 ((Rect.unit (s := S8x128) ![r, 0] S1x128.size inb).emb x) := by
  have h0 := idx2_lt0 x
  have hx : x = ix2 (0 : Fin 1) (x 1) := funext fun a => match a with
    | ⟨0, _⟩ => Fin.ext (by show (x 0).val = 0; omega)
    | ⟨1, _⟩ => rfl
  refine ((congrArg P hx).trans (hP (x 1))).trans ?_
  unfold scoreTab
  refine congrArg _ (congrArg _ (Fin.ext ?_))
  show o + (x 1).val = 128 * (r + 1 * (x 0).val) + (0 + 1 * (x 1).val)
  omega

-- The eight row stores tile the 8 × 128 block and each agrees with the table, so what they leave is the table.
theorem out0_6_eq : out0_6 (F := Ideal) x0 x1 x2 x3 x4 x5 = scoreTab x0 x1 := by
  funext y
  unfold out0_6
  rw [View.ld_unit_zero (S := S1024x128) zeros2]
  refine View.canon_apply_of_pieces (scoreTab x0 x1) _ ?_ y (cover0_6 _ _ _ _ _ _ _ _ y)
  intro p hp x
  simp only [List.mem_cons, List.mem_singleton, List.not_mem_nil, or_false] at hp
  rcases hp with rfl | rfl | rfl | rfl | rfl | rfl | rfl | rfl
  all_goals refine piece_eq x0 x1 _ _ rfl (by decide) (by decide) _ ?_ x
  exacts [pay13_apply x0 _, pay12_apply x0 _, pay11_apply x0 _, pay10_apply x0 _, pay9_apply x0 _, pay8_apply x0 _, pay7_apply x0 _,
    fun l => (pay6_apply x0 _ l).trans (congrArg _ (congrArg _ (Fin.ext (Nat.zero_add _).symm)))]

-- When the blocks hold the inputs, the four outputs read at an index are the specification's four tables.
theorem out0_6_eq_sTab
    (hx0 : ∀ (k : Fin 1000) (d : Fin 128), x0 (ix2 (⟨k.val, by omega⟩ : Fin 1024) d) = ct k d)
    (hx1 : ∀ c : Fin 256, x1 (ix2 (0 : Fin 1) c) = watt c)
    (r : Fin 8) (l : Fin 128) (hlt : 128 * r.val + l.val < 1000) :
    out0_6 (F := Ideal) x0 x1 x2 x3 x4 x5 (ix2 r l) = Spec.sTab ct watt ⟨128 * r.val + l.val, hlt⟩ := by
  rw [out0_6_eq, Spec.sTab]
  show k0_pay5 (F := Ideal) x0 (View.ld x1 r0_2) (ix2 (0 : Fin 1) (⟨128 * r.val + l.val, _⟩ : Fin 1024)) = _
  rw [pay5_apply]
  exact Finset.sum_congr rfl fun d _ => by
    rw [ld_x1_apply, hx1]
    exact congrArg (watt (Spec.hi d) * ·) (hx0 ⟨128 * r.val + l.val, hlt⟩ d)

theorem out0_7_eq_gTab
    (hx0 : ∀ (k : Fin 1000) (d : Fin 128), x0 (ix2 (⟨k.val, by omega⟩ : Fin 1024) d) = ct k d)
    (hx4 : ∀ (h : Fin 128) (c : Fin 256), x4 (ix2 h c) = wcomb h c)
    (k : Fin 1000) (h : Fin 128) :
    out0_7 (F := Ideal) x0 x1 x2 x3 x4 x5 (ix2 k h) = Spec.gTab ct wcomb k h := by
  unfold out0_7
  rw [View.canon_unit_zero (S := S1000x128) zeros2, View.ld_unit_zero (S := S1024x128) zeros2,
    View.ld_unit_zero (S := S128x256) zeros2, pay14_apply, Spec.gTab]
  exact Finset.sum_congr rfl fun d _ => by rw [hx0, hx4]; rfl

theorem out0_8_eq_mMat
    (hx2 : ∀ j d : Fin 128, x2 (ix2 j d) = wpdt j d)
    (hx4 : ∀ (h : Fin 128) (c : Fin 256), x4 (ix2 h c) = wcomb h c)
    (d h : Fin 128) :
    out0_8 (F := Ideal) x0 x1 x2 x3 x4 x5 (ix2 d h) = Spec.mMat wpdt wcomb d h := by
  unfold out0_8
  rw [View.canon_unit_zero (S := S128x128) zeros2, View.ld_unit_zero (S := S128x256) zeros2,
    View.ld_unit_zero (S := S128x128) zeros2, pay1_apply, Spec.mMat]
  exact Finset.sum_congr rfl fun j _ => by rw [pay4_apply, hx2, hx4]; rfl

theorem out0_9_eq_c0
    (hx3 : ∀ j : Fin 128, x3 (ix2 (0 : Fin 1) j) = bpdt j)
    (hx4 : ∀ (h : Fin 128) (c : Fin 256), x4 (ix2 h c) = wcomb h c)
    (hx5 : ∀ h : Fin 128, x5 (ix2 (0 : Fin 1) h) = bcomb h)
    (h : Fin 128) :
    out0_9 (F := Ideal) x0 x1 x2 x3 x4 x5 (ix2 (0 : Fin 1) h) = Spec.c0 bpdt wcomb bcomb h := by
  unfold out0_9
  rw [View.canon_unit_zero (S := S1x128) zeros2, View.ld_unit_zero (S := S128x256) zeros2,
    View.ld_unit_zero (S := S1x128) zeros2, View.ld_unit_zero (S := S1x128) zeros2, pay2_apply, Spec.c0, hx5]
  exact congrArg (· + bcomb h) (Finset.sum_congr rfl fun j _ => by rw [pay4_apply, hx3, hx4]; rfl)

end Cert.Proof.KI.Val0

end
-- ==== Proof.KIArgs.lean ====
import proofs.«211030_g66005057405235_cont_9to1c4b_431_51_alg».proof.Defs
import proofs.«211030_g66005057405235_cont_9to1c4b_431_51_alg».proof.Proof.Inputs

noncomputable section

open Idealize.ShloMosaic Idealize.SL.Sem

namespace Cert.Proof

open Cert.Proof.Inputs

def argsOfK (m : (ℓ : Loc Cert.KernelIdeal.nD Cert.KernelIdeal.τ Cert.KernelIdeal.sig) → Buf (Elt Ideal) ℓ) (c : Dev Cert.KernelIdeal.nD) : Args where
  a0 := m ((c.tc : Thread Cert.KernelIdeal.nD Cert.KernelIdeal.τ).loc Cert.KernelIdeal.main_arg0)
  a1 := m ((c.tc : Thread Cert.KernelIdeal.nD Cert.KernelIdeal.τ).loc Cert.KernelIdeal.main_arg1)
  a2 := m ((c.tc : Thread Cert.KernelIdeal.nD Cert.KernelIdeal.τ).loc Cert.KernelIdeal.main_arg2)
  a3 := m ((c.tc : Thread Cert.KernelIdeal.nD Cert.KernelIdeal.τ).loc Cert.KernelIdeal.main_arg3)
  a4 := m ((c.tc : Thread Cert.KernelIdeal.nD Cert.KernelIdeal.τ).loc Cert.KernelIdeal.main_arg4)
  a5 := m ((c.tc : Thread Cert.KernelIdeal.nD Cert.KernelIdeal.τ).loc Cert.KernelIdeal.main_arg5)
  a6 := m ((c.tc : Thread Cert.KernelIdeal.nD Cert.KernelIdeal.τ).loc Cert.KernelIdeal.main_arg6)
  a7 := m ((c.tc : Thread Cert.KernelIdeal.nD Cert.KernelIdeal.τ).loc Cert.KernelIdeal.main_arg7)
  a8 := m ((c.tc : Thread Cert.KernelIdeal.nD Cert.KernelIdeal.τ).loc Cert.KernelIdeal.main_arg8)
  a9 := m ((c.tc : Thread Cert.KernelIdeal.nD Cert.KernelIdeal.τ).loc Cert.KernelIdeal.main_arg9)
  a10 := m ((c.tc : Thread Cert.KernelIdeal.nD Cert.KernelIdeal.τ).loc Cert.KernelIdeal.main_arg10)

end Cert.Proof

end
-- ==== Proof.KIValW2.lean ====
import proofs.«211030_g66005057405235_cont_9to1c4b_431_51_alg».proof.Proof.KIValW1
import proofs.«211030_g66005057405235_cont_9to1c4b_431_51_alg».proof.Proof.KIArr0
import proofs.«211030_g66005057405235_cont_9to1c4b_431_51_alg».proof.Proof.KIValue0
import proofs.«211030_g66005057405235_cont_9to1c4b_431_51_alg».proof.Proof.KIArgs

noncomputable section

namespace Cert.Proof.KI.Val

open Cert.KernelIdeal Cert.KernelIdeal.Gen Cert.Proof Cert.Proof.KI Cert.Proof.KI.Launch Cert.Proof.Inputs
open Idealize.ShloMosaic Idealize.ShloMosaic.TcCoe Idealize.ShloMosaic.ValueIdx Idealize.SL.Sem

variable (m : (ℓ : Loc nD τ sig) → Buf (Elt Ideal) ℓ) (c : Dev nD)

theorem in0_x0 (k : Fin 1000) (d : Fin 128) :
    (atTc (W1 m) c (Pipeline.arrRef spec0 0) : S1024x128.Idx → EReal) (ix2 (⟨k.val, by omega⟩ : Fin 1024) d) = (argsOfK m c).ct k d :=
  W1_v5_apply m c k d
theorem in0_x1 (k : Fin 256) : (atTc (W1 m) c (Pipeline.arrRef spec0 1) : S1x256.Idx → EReal) (ix2 (0 : Fin 1) k) = (argsOfK m c).watt k :=
  congrFun (after0_keeps (W0 m c) main_arg3 (by decide)) _
theorem in0_x2 (j d : Fin 128) : (atTc (W1 m) c (Pipeline.arrRef spec0 2) : S128x128.Idx → EReal) (ix2 j d) = (argsOfK m c).wpdt j d :=
  congrFun (after0_keeps (W0 m c) main_arg5 (by decide)) _
theorem in0_x3 (j : Fin 128) : (atTc (W1 m) c (Pipeline.arrRef spec0 3) : S1x128.Idx → EReal) (ix2 (0 : Fin 1) j) = (argsOfK m c).bpdt j :=
  W1_v6_apply m c j
theorem in0_x4 (h : Fin 128) (k : Fin 256) : (atTc (W1 m) c (Pipeline.arrRef spec0 4) : S128x256.Idx → EReal) (ix2 h k) = (argsOfK m c).wcomb h k :=
  congrFun (after0_keeps (W0 m c) main_arg7 (by decide)) _
theorem in0_x5 (h : Fin 128) : (atTc (W1 m) c (Pipeline.arrRef spec0 5) : S1x128.Idx → EReal) (ix2 (0 : Fin 1) h) = (argsOfK m c).bcomb h :=
  W1_v7_apply m c h

theorem W2_s2_apply (r : Fin 8) (l : Fin 128) (hlt : 128 * r.val + l.val < 1000) :
    (W2 m c (Proc.devRef .tc main_v8_0) : S8x128.Idx → EReal) (ix2 r l) = Spec.sTab (argsOfK m c).ct (argsOfK m c).watt ⟨128 * r.val + l.val, hlt⟩ := by
  rw [show W2 m c (Proc.devRef .tc main_v8_0) = _ from out0_arr (W1 m) c 6, Arr0.arr0_6]
  exact Val0.out0_6_eq_sTab (argsOfK m c).ct (argsOfK m c).watt _ _ _ _ _ _ (in0_x0 m c) (in0_x1 m c) r l hlt

theorem W2_g_apply (k : Fin 1000) (h : Fin 128) :
    (W2 m c (Proc.devRef .tc main_v8_1) : S1000x128.Idx → EReal) (ix2 k h) = Spec.gTab (argsOfK m c).ct (argsOfK m c).wcomb k h := by
  rw [show W2 m c (Proc.devRef .tc main_v8_1) = _ from out0_arr (W1 m) c 7, Arr0.arr0_7]
  exact Val0.out0_7_eq_gTab (argsOfK m c).ct (argsOfK m c).wcomb _ _ _ _ _ _ (in0_x0 m c) (in0_x4 m c) k h

theorem W2_m_apply (d h : Fin 128) :
    (W2 m c (Proc.devRef .tc main_v8_2) : S128x128.Idx → EReal) (ix2 d h) = Spec.mMat (argsOfK m c).wpdt (argsOfK m c).wcomb d h := by
  rw [show W2 m c (Proc.devRef .tc main_v8_2) = _ from out0_arr (W1 m) c 8, Arr0.arr0_8]
  exact Val0.out0_8_eq_mMat (argsOfK m c).wpdt (argsOfK m c).wcomb _ _ _ _ _ _ (in0_x2 m c) (in0_x4 m c) d h
theorem W2_c0_apply (h : Fin 128) :
    (W2 m c (Proc.devRef .tc main_v8_3) : S1x128.Idx → EReal) (ix2 (0 : Fin 1) h)
      = Spec.c0 (argsOfK m c).bpdt (argsOfK m c).wcomb (argsOfK m c).bcomb h := by
  rw [show W2 m c (Proc.devRef .tc main_v8_3) = _ from out0_arr (W1 m) c 9, Arr0.arr0_9]
  exact Val0.out0_9_eq_c0 (argsOfK m c).bpdt (argsOfK m c).wcomb (argsOfK m c).bcomb _ _ _ _ _ _ (in0_x3 m c) (in0_x4 m c) (in0_x5 m c) h

end Cert.Proof.KI.Val

end
-- ==== Proof.KIValW3.lean ====
import proofs.«211030_g66005057405235_cont_9to1c4b_431_51_alg».proof.Proof.KIValW1

noncomputable section

namespace Cert.Proof.KI.Val

open Cert.KernelIdeal Cert.KernelIdeal.Gen Cert.Proof.KI Cert.Proof.KI.Launch Cert.Proof.HostVals
open Idealize.ShloMosaic Idealize.ShloMosaic.TcCoe Idealize.ShloMosaic.ValueIdx Idealize.SL.Sem

variable {F : FTy → Type} [FloatOps F] [Named F]
variable (m : (ℓ : Loc nD τ sig) → Buf (Elt F) ℓ)

theorem W3_v9_apply (c : Dev nD) (w : Fin 32) (j : Fin 14) (r : Fin 112) :
    (W3 m c (Proc.devRef .tc main_v9) : S32x14x112.Idx → BitVec 32) (ix3 w j r)
      = if h : 1568 * w.val + 112 * j.val + r.val < 50000 then m ((c.tc : Thread nD τ).loc main_arg2) (ix2 (1 : Fin 2) ⟨1568 * w.val + 112 * j.val + r.val, h⟩) else 0#32 := by
  have hlt : 14 * 112 * w.val + 112 * j.val + r.val < 32 * 14 * 112 := by have := w.isLt; have := j.isLt; have := r.isLt; omega
  refine Eq.trans ?_ ((reshape_1_3_apply (a := 32) (b := 14) (c := 112) (W2 m c (Proc.devRef .tc main_v2) : S50176.Idx → BitVec 32)
    shapeCasts_S50176_S32x14x112 w j r hlt).trans ?_)
  · show StableHlo.after hostOps1 (W2 m c) (Proc.devRef .tc main_v9) _ = _
    after_results
    rfl
  rw [show W2 m c (Proc.devRef .tc main_v2) = _ from out0_of_ne (W1 m) c main_v2 (by decide)]
  exact W1_v2_apply m c ⟨14 * 112 * w.val + 112 * j.val + r.val, hlt⟩
-- Between the valuations W2 and W4 only main_v9 and main_v10 change.
theorem W4_of_W2 (c : Dev nD) (b : Ref sig .tc) (hg : b ≠ main_v10) (h1 : b ≠ main_v9) :
    W4 m c (Proc.devRef .tc b) = W2 m c (Proc.devRef .tc b) :=
  (outG_of_ne _ c _ (StableHlo.devRef_ne_of_ne hg)).trans (after1_keeps _ b h1)
theorem W4_v4 (c : Dev nD) : W4 m c (Proc.devRef .tc main_v4) = W1 m c (Proc.devRef .tc main_v4) :=
  (W4_of_W2 m c main_v4 (by decide) (by decide)).trans (out0_of_ne (W1 m) c main_v4 (by decide))

end Cert.Proof.KI.Val

end
-- ==== Proof.KIValW4a.lean ====
import proofs.«211030_g66005057405235_cont_9to1c4b_431_51_alg».proof.Proof.KIValW2
import proofs.«211030_g66005057405235_cont_9to1c4b_431_51_alg».proof.Proof.KIValW3

noncomputable section

namespace Cert.Proof.KI.Val

open Cert.KernelIdeal Cert.KernelIdeal.Gen Cert.Proof Cert.Proof.KI Cert.Proof.KI.Launch Cert.Proof.Inputs
open Idealize.ShloMosaic Idealize.ShloMosaic.TcCoe Idealize.ShloMosaic.ValueIdx Idealize.SL.Sem

variable (m : (ℓ : Loc nD τ sig) → Buf (Elt Ideal) ℓ) (c : Dev nD)

theorem W4_keeps_arg (b : Ref sig .tc)
    (h0 : b ∉ [main_v0, main_v1, main_c, main_call0_v0, main_v2, main_c_0, main_call1_v0, main_v3, main_v4, main_c_1, main_call2_v0, main_v5, main_v6, main_v7])
    (hr0 : ∀ w, Pipeline.arrRef spec0 w = b → (cfg0.win w).isOut = false) (h1 : b ≠ main_v9) (hg : b ≠ main_v10) :
    W4 m c (Proc.devRef .tc b) = m ((c.tc : Thread nD τ).loc b) :=
  ((W4_of_W2 m c b hg h1).trans (out0_keeps _ c b hr0)).trans (after0_keeps _ b h0)
theorem W4_arg0 : W4 m c (Proc.devRef .tc main_arg0) = m ((c.tc : Thread nD τ).loc main_arg0) :=
  W4_keeps_arg m c main_arg0 (by decide) (by decide) (by decide) (by decide)
theorem W4_arg3 : W4 m c (Proc.devRef .tc main_arg3) = m ((c.tc : Thread nD τ).loc main_arg3) :=
  W4_keeps_arg m c main_arg3 (by decide) (by decide) (by decide) (by decide)

theorem W4_v4_apply (hr : (argsOfK m c).InRange) (t : Fin 13) (j : Fin 4096) :
    ((W4 m c (Proc.devRef .tc main_v4) : S13x1x4096.Idx → BitVec 32) (ix3 t (0 : Fin 1) j)).toNat
      = if h : 4096 * t.val + j.val < 50000 then ((argsOfK m c).e ⟨4096 * t.val + j.val, h⟩).val else 0 := by
  rw [W4_v4, W1_v4_apply]
  by_cases h : 4096 * t.val + j.val < 50000
  · rw [dif_pos h, dif_pos h]
    exact (Nat.mod_eq_of_lt (hr _)).symm
  · rw [dif_neg h, dif_neg h]
    rfl

theorem W4_s2 : W4 m c (Proc.devRef .tc main_v8_0) = W2 m c (Proc.devRef .tc main_v8_0) :=
  W4_of_W2 m c main_v8_0 (by decide) (by decide)

end Cert.Proof.KI.Val

end
-- ==== Proof.KIValW6.lean ====
import proofs.«211030_g66005057405235_cont_9to1c4b_431_51_alg».proof.Proof.KIValW4a

noncomputable section

namespace Cert.Proof.KI.Val

open Cert.KernelIdeal Cert.KernelIdeal.Gen Cert.Proof Cert.Proof.KI Cert.Proof.KI.Launch Cert.Proof.Inputs Cert.Proof.HostVals
open Idealize.ShloMosaic Idealize.ShloMosaic.TcCoe Idealize.ShloMosaic.ValueIdx Idealize.SL.Sem

variable (m : (ℓ : Loc nD τ sig) → Buf (Elt Ideal) ℓ) (c : Dev nD)

theorem W6_of_W4 (b : Ref sig .tc) (hr1 : ∀ w, Pipeline.arrRef spec2 w = b → (cfg2.win w).isOut = false) (h2 : b ≠ main_v12) :
    W6 m c (Proc.devRef .tc b) = W4 m c (Proc.devRef .tc b) :=
  calc W6 m c (Proc.devRef .tc b)
    _ = W5 m c (Proc.devRef .tc b) := after2_keeps _ b h2
    _ = W4 m c (Proc.devRef .tc b) := out1_keeps _ c b hr1

theorem W6_arg0 : W6 m c (Proc.devRef .tc main_arg0) = m ((c.tc : Thread nD τ).loc main_arg0) :=
  (W6_of_W4 m c main_arg0 (by decide) (by decide)).trans (W4_arg0 m c)
theorem W6_arg9 : W6 m c (Proc.devRef .tc main_arg9) = m ((c.tc : Thread nD τ).loc main_arg9) :=
  (W6_of_W4 m c main_arg9 (by decide) (by decide)).trans (W4_keeps_arg m c main_arg9 (by decide) (by decide) (by decide) (by decide))

theorem W6_v12_apply (k : Fin 1000) :
    (W6 m c (Proc.devRef .tc main_v12) : S1000x1.Idx → EReal) (ix2 k (0 : Fin 1)) = (argsOfK m c).bout k := by
  have e : (W6 m c (Proc.devRef .tc main_v12) : S1000x1.Idx → EReal)
      = shapeCast S1000x1 (W5 m c (Proc.devRef .tc main_arg10) : S1000.Idx → EReal) shapeCasts_S1000_S1000x1 := by
    show StableHlo.after hostOps2 (W5 m c) (Proc.devRef .tc main_v12) = _
    after_results
    all_goals rfl
  rw [e, reshape_vec_col_apply]
  have h10 : W5 m c (Proc.devRef .tc main_arg10) = m ((c.tc : Thread nD τ).loc main_arg10) :=
    (out1_keeps _ c main_arg10 (by decide)).trans (W4_keeps_arg m c main_arg10 (by decide) (by decide) (by decide) (by decide))
  rw [h10]
  rfl

-- Between W2 and W6 only main_v9, main_v10, main_v12 and the second call's two outputs change.
theorem W6_of_W2 (b : Ref sig .tc) (hr1 : ∀ w, Pipeline.arrRef spec2 w = b → (cfg2.win w).isOut = false) (h2 : b ≠ main_v12)
    (hg : b ≠ main_v10) (h1 : b ≠ main_v9) : W6 m c (Proc.devRef .tc b) = W2 m c (Proc.devRef .tc b) :=
  (W6_of_W4 m c b hr1 h2).trans (W4_of_W2 m c b hg h1)
theorem W6_m : W6 m c (Proc.devRef .tc main_v8_2) = W2 m c (Proc.devRef .tc main_v8_2) :=
  W6_of_W2 m c main_v8_2 (by decide) (by decide) (by decide) (by decide)
theorem W6_c0 : W6 m c (Proc.devRef .tc main_v8_3) = W2 m c (Proc.devRef .tc main_v8_3) :=
  W6_of_W2 m c main_v8_3 (by decide) (by decide) (by decide) (by decide)
theorem W6_ge : W6 m c (Proc.devRef .tc main_v10) = W4 m c (Proc.devRef .tc main_v10) :=
  W6_of_W4 m c main_v10 (by decide) (by decide)
theorem W6_scores : W6 m c (Proc.devRef .tc main_v11_0) = W5 m c (Proc.devRef .tc main_v11_0) :=
  after2_keeps _ main_v11_0 (by decide)
theorem W6_stats : W6 m c (Proc.devRef .tc main_v11_1) = W5 m c (Proc.devRef .tc main_v11_1) :=
  after2_keeps _ main_v11_1 (by decide)

theorem W3_tab : W3 m c (Proc.devRef .tc main_v8_1) = W2 m c (Proc.devRef .tc main_v8_1) :=
  after1_keeps _ main_v8_1 (by decide)

end Cert.Proof.KI.Val

end
-- ==== Proof.KIValW4b.lean ====
import proofs.«211030_g66005057405235_cont_9to1c4b_431_51_alg».proof.Proof.KIValW6

noncomputable section

namespace Cert.Proof.KI.Val

open Cert.KernelIdeal Cert.KernelIdeal.Gen Cert.Proof Cert.Proof.KI Cert.Proof.KI.Launch Cert.Proof.Inputs
open Idealize.ShloMosaic Idealize.ShloMosaic.TcCoe Idealize.ShloMosaic.ValueIdx Idealize.SL.Sem

variable (m : (ℓ : Loc nD τ sig) → Buf (Elt Ideal) ℓ) (c : Dev nD)

theorem idx_at_product (n : Fin 50176) (hn : n.val < 50000) :
    (W3 m c (Proc.devRef .tc main_v9) : S32x14x112.Idx → BitVec 32) (ix3 (Tile.wOf n) (Tile.cOf n) (Tile.rOf n))
      = m ((c.tc : Thread nD τ).loc main_arg2) (ix2 (1 : Fin 2) ⟨n.val, hn⟩) := by
  have e : 1568 * (Tile.wOf n).val + 112 * (Tile.cOf n).val + (Tile.rOf n).val = n.val := by
    show 1568 * (n.val / 1568) + 112 * (n.val % 1568 / 112) + n.val % 112 = n.val
    omega
  rw [W3_v9_apply, dif_pos (by rw [e]; exact hn)]
  congr 2
  exact Fin.ext e
theorem W4_ge_apply (i : Fin 50000) (h : Fin 128) :
    (W4 m c (Proc.devRef .tc main_v10) : S50176x128.Idx → EReal) (ix2 (⟨i.val, by omega⟩ : Fin 50176) h)
      = Spec.gTab (argsOfK m c).ct (argsOfK m c).wcomb ((argsOfK m c).e i) h := by
  have e0 : W4 m c (Proc.devRef .tc main_v10) = Tile.geOf (idxOf (W3 m)) (tabOf (W3 m)) c := outG_dst (W3 m) c
  rw [e0]
  show (tabOf (W3 m) c : S1000x128.Idx → EReal)
      (ix2 (Tile.rowOf (idxOf (W3 m) c (ix3 (Tile.wOf ⟨i.val, _⟩) (Tile.cOf ⟨i.val, _⟩) (Tile.rOf ⟨i.val, _⟩)))) h) = _
  have e1 : idxOf (W3 m) c (ix3 (Tile.wOf ⟨i.val, by omega⟩) (Tile.cOf ⟨i.val, by omega⟩) (Tile.rOf ⟨i.val, by omega⟩))
      = m ((c.tc : Thread nD τ).loc main_arg2) (ix2 (1 : Fin 2) i) := idx_at_product m c ⟨i.val, by omega⟩ i.isLt
  rw [e1]
  have e2 : Tile.rowOf (m ((c.tc : Thread nD τ).loc main_arg2) (ix2 (1 : Fin 2) i)) = (argsOfK m c).e i := rfl
  rw [e2]
  have e3 : tabOf (W3 m) c = W2 m c (Proc.devRef .tc main_v8_1) := W3_tab m c
  rw [e3]
  exact W2_g_apply m c ((argsOfK m c).e i) h

end Cert.Proof.KI.Val

end
-- ==== Proof.KIPayloads1.lean ====
import proofs.«211030_g66005057405235_cont_9to1c4b_431_51_alg».proof.Proof.Gen.KernelIdeal.Skeleton
import proofs.«211030_g66005057405235_cont_9to1c4b_431_51_alg».proof.Proof.Spec
import proofs.«211030_g66005057405235_cont_9to1c4b_431_51_alg».proof.Proof.KIPayloads
import Idealize.ShloMosaic.Lib.ValueIdx
import Idealize.ShloMosaic.PureOps.Ideal.Laws
import Idealize.ShloMosaic.Lib.Pipeline.Value
import Idealize.ShloMosaic.Lib.ValueLayout

noncomputable section

namespace Cert.Proof.KI.Pay1

open Cert.KernelIdeal Cert.KernelIdeal.Gen Idealize.ShloMosaic Idealize.ShloMosaic.ValueIdx

def laneEquiv : S1x1x4096.Idx ≃ Fin 4096 where
  toFun i := i 2
  invFun j := ix3 0 0 j
  left_inv i := by
    funext a
    match a with
    | ⟨0, _⟩ => exact Subsingleton.elim (α := Fin 1) _ _
    | ⟨1, _⟩ => exact Subsingleton.elim (α := Fin 1) _ _
    | ⟨2, _⟩ => rfl
  right_inv _ := rfl

-- An index of shape [1, 1, 4096] is determined by its last coordinate, so sums and suprema over it run over `Fin 4096`.
theorem sum_lanes (f : S1x1x4096.Idx → EReal) : ∑ i, f i = ∑ j : Fin 4096, f (ix3 0 0 j) :=
  (Equiv.sum_comp laneEquiv.symm f).symm

theorem sup_lanes (f : S1x1x4096.Idx → EReal) : Finset.univ.sup f = Finset.univ.sup fun j : Fin 4096 => f (ix3 0 0 j) := by
  rw [← Finset.map_univ_equiv laneEquiv.symm, Finset.sup_map]
  rfl

theorem ofBits_neg_inf : Ideal.ofBits .f32 0xFF800000#32 = ⊥ := by simp [Ideal.ofBits, Ideal.ieee]

theorem idx_S1_eq (a b : S1.Idx) : a = b := by
  funext c
  match c with
  | ⟨0, _⟩ => exact Subsingleton.elim (α := Fin 1) _ _

theorem maxRed (src : FVec Ideal S1x1x4096 .f32) (h : S1x1x4096.Reduces [1, 2] S1) (hφ : FKind.Formats .f32)
    (hacc : (0xFF800000#32 : BitVec 32) = FKind.maximumf.neutral .f32 hφ) (j : S1.Idx) :
    multiReduction (F := Ideal) .maximumf [1, 2] S1 src 0xFF800000#32 h hφ hacc j
      = Finset.univ.sup fun l : Fin 4096 => src (ix3 0 0 l) := by
  rw [multiReduction_maximumf_eq_fold, Finset.filter_true_of_mem (fun i _ => idx_S1_eq _ _), Ideal.ofBits_def, ofBits_neg_inf,
    ← sup_lanes]
  rfl

theorem addRed (src : FVec Ideal S1x1x4096 .f32) (h : S1x1x4096.Reduces [1, 2] S1) (hφ : FKind.Formats .f32)
    (hacc : (0x00000000#32 : BitVec 32) = FKind.add.neutral .f32 hφ) (j : S1.Idx) :
    multiReduction (F := Ideal) .add [1, 2] S1 src 0x00000000#32 h hφ hacc j = ∑ l : Fin 4096, src (ix3 0 0 l) := by
  rw [Ideal.multiReduction_add_total src _ h (by decide) hφ hacc j, sum_lanes]

theorem pay1_apply (v37 : FVec Ideal S1x4096 .f32) (v39 : Elt Ideal .f32) :
    k2_pay1 (F := Ideal) v37 v39 = max v39 (Finset.univ.sup fun j : Fin 4096 => v37 (ix2 0 j)) := by
  unfold k2_pay1
  refine congrArg (max v39) ((maxRed _ _ (by decide) rfl _).trans ?_)
  refine Finset.sup_congr rfl fun j _ => ?_
  exact shapeCast_ab_1ab_apply v37 _ 0 0 j

theorem pay2_apply (v37 : FVec Ideal S1x4096 .f32) (v39 v40 : Elt Ideal .f32) :
    k2_pay2 (F := Ideal) v37 v39 v40
      = v40 * Ideal.exp (v39 - k2_pay1 (F := Ideal) v37 v39)
        + ∑ j : Fin 4096, Ideal.exp (v37 (ix2 0 j) - k2_pay1 (F := Ideal) v37 v39) := by
  unfold k2_pay2
  refine congrArg (v40 * Ideal.exp (v39 - k2_pay1 (F := Ideal) v37 v39) + ·) ((addRed _ _ (by decide) rfl _).trans ?_)
  refine Finset.sum_congr rfl fun j _ => ?_
  exact shapeCast_ab_1ab_apply _ _ 0 0 j

-- For a word below 1000 the sign bit is clear, so the arithmetic shift by seven is division by 128.
theorem shrsi7 (cls : BitVec 32) (hcls : cls.toNat < 1000) :
    IntOp.shrsi .vector cls 7#32 = BitVec.ofNat 32 (cls.toNat / 128) := by
  have hm : cls.msb = false := by rw [BitVec.msb_eq_false_iff_two_mul_lt]; omega
  rw [IntOp.shrsi, if_pos (by decide), BitVec.sshiftRight_eq', BitVec.sshiftRight_eq_of_msb_false hm]
  apply BitVec.eq_of_toNat_eq
  rw [BitVec.toNat_ushiftRight, Nat.shiftRight_eq_div_pow, BitVec.toNat_ofNat, BitVec.toNat_ofNat]
  show cls.toNat / 128 = cls.toNat / 128 % 4294967296
  omega

-- Masking with 2⁷ − 1 is the remainder modulo 128.
theorem andi127 (cls : BitVec 32) : IntOp.andi cls 127#32 = BitVec.ofNat 32 (cls.toNat % 128) := by
  apply BitVec.eq_of_toNat_eq
  rw [IntOp.andi, BitVec.toNat_and, BitVec.toNat_ofNat, BitVec.toNat_ofNat]
  show cls.toNat &&& 2 ^ 7 - 1 = cls.toNat % 128 % 4294967296
  rw [Nat.and_two_pow_sub_one_eq_mod]
  omega

theorem cmpi_eq_ofNat (a b : Nat) (ha : a < 2 ^ 32) (hb : b < 2 ^ 32) :
    IntOp.cmpi .eq (BitVec.ofNat 32 a) (BitVec.ofNat 32 b) = 1#1 ↔ a = b := by
  rw [IntOp.cmpi_eq, ← BitVec.toNat_inj, BitVec.toNat_ofNat, BitVec.toNat_ofNat, Nat.mod_eq_of_lt ha, Nat.mod_eq_of_lt hb]

-- A one-bit comparison result, widened and converted, is the indicator of the compared property.
theorem onehot_word (b : BitVec 1) (p : Prop) [Decidable p] (h : b = 1#1 ↔ p) :
    FloatOps.sitofp (F := Ideal) .f32 (b.setWidth 32) = if p then (1 : EReal) else 0 := by
  rcases BitVec.eq_zero_or_eq_one b with rfl | rfl
  · have hp : ¬p := fun hp => absurd (h.mpr hp) (by decide)
    rw [if_neg hp]
    show (((((0#1 : BitVec 1).setWidth 32).toInt : ℝ)) : EReal) = 0
    have h0 : ((0#1 : BitVec 1).setWidth 32).toInt = 0 := by decide
    rw [h0]; simp
  · rw [if_pos (h.mp rfl)]
    show (((((1#1 : BitVec 1).setWidth 32).toInt : ℝ)) : EReal) = 1
    have h1 : ((1#1 : BitVec 1).setWidth 32).toInt = 1 := by decide
    rw [h1]; simp

-- The signed comparison of 4096 t + j with 50000 does not overflow for t < 13, j < 4096.
theorem cmp_valid (t j : Nat) (ht : t < 13) (hj : j < 4096) :
    IntOp.cmpi .slt (IntOp.addi (Scalar.muli (BitVec.ofNat 32 t) 4096#32) (BitVec.ofNat 32 j)) 50000#32 = 1#1
      ↔ 4096 * t + j < 50000 := by
  have hw : IntOp.addi (Scalar.muli (BitVec.ofNat 32 t) 4096#32) (BitVec.ofNat 32 j) = BitVec.ofNat 32 (4096 * t + j) := by
    apply BitVec.eq_of_toNat_eq
    rw [IntOp.addi, Scalar.muli, IntOp.muli, BitVec.toNat_add, BitVec.toNat_mul]
    simp only [BitVec.toNat_ofNat]
    show (t % 4294967296 * 4096 % 4294967296 + j % 4294967296) % 4294967296 = (4096 * t + j) % 4294967296
    omega
  rw [hw, IntOp.cmpi_slt, BitVec.toInt_eq_toNat_of_lt (by rw [BitVec.toNat_ofNat]; omega),
    BitVec.toInt_eq_toNat_of_lt (by decide)]
  simp only [BitVec.toNat_ofNat]
  show ((4096 * t + j) % 4294967296 : Int) < (50000 : Nat) ↔ _
  omega

-- A double sum against two indicator factors keeps exactly the entry they select.
theorem onehot_select (T : Fin 8 → Fin 128 → EReal) (hi : Fin 8) (lo : Fin 128) :
    ∑ l : Fin 128, (if l.val = lo.val then (1 : EReal) else 0) * ∑ h : Fin 8, T h l * (if h.val = hi.val then (1 : EReal) else 0)
      = T hi lo := by
  rw [Finset.sum_eq_single lo, if_pos rfl, one_mul, Finset.sum_eq_single hi, if_pos rfl, mul_one]
  · intro h _ hne
    rw [if_neg (fun hh => hne (Fin.ext hh)), mul_zero]
  · intro hn; exact absurd (Finset.mem_univ _) hn
  · intro l _ hne
    rw [if_neg (fun hh => hne (Fin.ext hh)), zero_mul]
  · intro hn; exact absurd (Finset.mem_univ _) hn

theorem neg_big : Named.named (F := Ideal) κ "neg_big" (φ := .f32) 0xF149F2CA#32 = ⊥ :=
  IdealRules.named_const.ideal_named_scalar _ _ _ _ rfl

theorem colSum_apply (src : FVec Ideal S128x4096 .f32) (h : S128x4096.Reduces [0] S4096) (hφ : FKind.Formats .f32)
    (hacc : (0x00000000#32 : BitVec 32) = FKind.add.neutral .f32 hφ) (j : Fin 4096) :
    multiReduction (F := Ideal) .add [0] S4096 src 0x00000000#32 h hφ hacc (ix1 j) = ∑ l : Fin 128, src (ix2 l j) := by
  refine (Ideal.multiReduction_add_single src _ h hφ hacc (ix1 j)).trans ?_
  refine Finset.sum_congr rfl fun l _ => congrArg src ?_
  funext a
  match a with
  | ⟨0, _⟩ => rfl
  | ⟨1, _⟩ => rfl

section Pay3

variable (i : grid2.Coords) (v3 : Vec Ideal S4096x128 .f32) (v4 : Vec Ideal S1x128 .f32) (v6 : Vec Ideal S1x1x4096 .i32)
  (v18 : Vec Ideal S8x128 .f32)

def clsRow : IVec S1x4096 32 :=
  shapeCast S1x4096 (shapeCast S1x1x4096 v6 shapeCasts_S1x1x4096_S1x1x4096) shapeCasts_S1x1x4096_S1x4096

def hotHi : FVec Ideal S8x4096 .f32 :=
  sitofp .f32 (extui 32 (cmpi .eq (iota .tc S8x4096 32 [0] iota_S8x4096_d0_w32)
    (broadcastTo S8x4096 (shrsi (clsRow v6) (broadcast S1x4096 7#32)) broadcasts_S1x4096_S8x4096)) natLt_1_32)

def hotLo : FVec Ideal S128x4096 .f32 :=
  sitofp .f32 (extui 32 (cmpi .eq (iota .tc S128x4096 32 [0] iota_S128x4096_d0_w32)
    (broadcastTo S128x4096 (andi (clsRow v6) (broadcast S1x4096 127#32)) broadcasts_S1x4096_S128x4096)) natLt_1_32)

def featPart : FVec Ideal S1x4096 .f32 :=
  matmul (φ₁ := .f32) (φ₂ := .f32) dot_S1x128_S4096x128_S1x4096_1_1_0_0_n_n none v4 v3 (constant S1x4096 .f32 0x00000000#32)

def tabCols : FVec Ideal S128x4096 .f32 :=
  matmul (φ₁ := .f32) (φ₂ := .f32) dot_S8x128_S8x4096_S128x4096_0_0_1_1_n_n none (shapeCast (α := Ideal .f32) S8x128 v18 shapeCasts_S8x128_S8x128) (hotHi v6)
    (constant S128x4096 .f32 0x00000000#32)

def clsPart : FVec Ideal S1x4096 .f32 :=
  shapeCast S1x4096 (multiReduction .add [0] S4096 (mulf (hotLo v6) (tabCols v6 v18)) 0x00000000#32 reduces_S128x4096_S4096
    (.inl rfl) rfl) shapeCasts_S4096_S1x4096

def laneMask : IVec S1x4096 1 :=
  cmpi .slt (addi (broadcast S1x4096 (Scalar.muli (BitVec.ofNat 32 (i 0).val) 4096#32)) (iota .tc S1x4096 32 [1] iota_S1x4096_d1_w32))
    (broadcast S1x4096 50000#32)

set_option maxRecDepth 65536 in

theorem pay3_eq : k2_pay3 (F := Ideal) i v3 v4 v6 v18
    = select (laneMask i) (addf (featPart v3 v4) (clsPart v6 v18)) (broadcast S1x4096 (Named.named κ "neg_big" 0xF149F2CA#32)) := rfl

theorem clsRow_apply (j : Fin 4096) : clsRow v6 (ix2 0 j) = v6 (ix3 0 0 j) := by
  unfold clsRow
  rw [shapeCast_1ab_ab_apply, shapeCast_self]

theorem hotHi_apply (j : Fin 4096) (hcls : BitVec.toNat (v6 (ix3 0 0 j)) < 1000) (h : Fin 8) :
    hotHi v6 (ix2 h j) = if h.val = BitVec.toNat (v6 (ix3 0 0 j)) / 128 then (1 : EReal) else 0 := by
  show FloatOps.sitofp (F := Ideal) .f32 ((IntOp.cmpi .eq (iota _ _ _ _ _ (ix2 h j)) (broadcastTo _ _ _ (ix2 h j))).setWidth 32) = _
  rw [iota_single_apply, broadcastTo_1b_ab_apply]
  show FloatOps.sitofp (F := Ideal) .f32 ((IntOp.cmpi .eq (BitVec.ofNat 32 h.val)
    (IntOp.shrsi .vector (clsRow v6 (ix2 0 j)) 7#32)).setWidth 32) = _
  rw [clsRow_apply, shrsi7 _ hcls]
  exact onehot_word _ _ (cmpi_eq_ofNat _ _ (by omega) (by omega))

theorem hotLo_apply (j : Fin 4096) (l : Fin 128) :
    hotLo v6 (ix2 l j) = if l.val = BitVec.toNat (v6 (ix3 0 0 j)) % 128 then (1 : EReal) else 0 := by
  show FloatOps.sitofp (F := Ideal) .f32 ((IntOp.cmpi .eq (iota _ _ _ _ _ (ix2 l j)) (broadcastTo _ _ _ (ix2 l j))).setWidth 32) = _
  rw [iota_single_apply, broadcastTo_1b_ab_apply]
  show FloatOps.sitofp (F := Ideal) .f32 ((IntOp.cmpi .eq (BitVec.ofNat 32 l.val)
    (IntOp.andi (clsRow v6 (ix2 0 j)) 127#32)).setWidth 32) = _
  rw [clsRow_apply, andi127]
  exact onehot_word _ _ (cmpi_eq_ofNat _ _ (by omega) (by omega))

theorem laneMask_apply (j : Fin 4096) : laneMask i (ix2 0 j) = 1#1 ↔ 4096 * (i 0).val + j.val < 50000 := by
  show IntOp.cmpi .slt (IntOp.addi (Scalar.muli (BitVec.ofNat 32 (i 0).val) 4096#32)
    (iota _ _ _ _ _ (ix2 0 j))) 50000#32 = 1#1 ↔ _
  rw [iota_single_apply]
  exact cmp_valid _ _ (i 0).isLt j.isLt

theorem featPart_apply (j : Fin 4096) : featPart v3 v4 (ix2 0 j) = ∑ d : Fin 128, v4 (ix2 0 d) * v3 (ix2 j d) := by
  unfold featPart
  exact Pay.mm_apply _ _ rfl rfl none v4 v3 _ _ _

theorem tabCols_apply (l : Fin 128) (j : Fin 4096) :
    tabCols v6 v18 (ix2 l j) = ∑ h : Fin 8, v18 (ix2 h l) * hotHi v6 (ix2 h j) := by
  unfold tabCols
  rw [shapeCast_self]
  exact Pay.mm_apply _ _ rfl rfl none v18 (hotHi v6) _ _ _

theorem clsPart_apply (j : Fin 4096) (hcls : BitVec.toNat (v6 (ix3 0 0 j)) < 1000) :
    clsPart v6 v18 (ix2 0 j)
      = v18 (ix2 ⟨BitVec.toNat (v6 (ix3 0 0 j)) / 128, by omega⟩ ⟨BitVec.toNat (v6 (ix3 0 0 j)) % 128, by omega⟩) := by
  unfold clsPart
  rw [shapeCast_a_1a_apply]
  refine (colSum_apply _ _ (.inl rfl) rfl j).trans ?_
  simp only [mulf_apply, hotLo_apply, tabCols_apply, hotHi_apply v6 j hcls]
  exact onehot_select (fun h l => v18 (ix2 h l)) ⟨_, _⟩ ⟨_, _⟩

theorem pay3_apply (j : Fin 4096) (hcls : BitVec.toNat (v6 (ix3 0 0 j)) < 1000) :
    k2_pay3 (F := Ideal) i v3 v4 v6 v18 (ix2 0 j)
      = if 4096 * (i 0).val + j.val < 50000 then
          (∑ d : Fin 128, v4 (ix2 0 d) * v3 (ix2 j d))
            + v18 (ix2 ⟨BitVec.toNat (v6 (ix3 0 0 j)) / 128, by omega⟩ ⟨BitVec.toNat (v6 (ix3 0 0 j)) % 128, by omega⟩)
        else ⊥ := by
  rw [pay3_eq, select_apply, addf_apply, broadcast_apply, featPart_apply, clsPart_apply v6 v18 j hcls, neg_big]
  by_cases hv : 4096 * (i 0).val + j.val < 50000
  · rw [if_pos hv, (laneMask_apply i j).mpr hv, select_one]
  · rw [if_neg hv, eq_zero_of_ne_one (fun h => hv ((laneMask_apply i j).mp h)), select_zero]

end Pay3

-- The two reductions together are one step of the running (maximum, denominator) recurrence.
theorem pay_onlineStep (pf : Fin 50000 → Fin 128 → EReal) (ct : Fin 1000 → Fin 128 → EReal) (e : Fin 50000 → Fin 1000)
    (watt : Fin 256 → EReal) (t : Fin 13) (S' : FVec Ideal S1x4096 .f32) (m z : EReal)
    (hS : ∀ j : Fin 4096, S' (ix2 0 j) = Spec.laneScore pf ct e watt t j) :
    (k2_pay1 (F := Ideal) S' m, k2_pay2 (F := Ideal) S' m z) = Spec.onlineStep pf ct e watt (m, z) t := by
  rw [pay2_apply, pay1_apply]
  simp only [Spec.onlineStep, hS]

end Cert.Proof.KI.Pay1

end
-- ==== Proof.KIValue1.lean ====
import proofs.«211030_g66005057405235_cont_9to1c4b_431_51_alg».proof.Proof.KIPayloads1
import proofs.«211030_g66005057405235_cont_9to1c4b_431_51_alg».proof.Proof.Spec

noncomputable section

namespace Cert.Proof.KI.Val1

open Cert.KernelIdeal Cert.KernelIdeal.Gen Idealize.ShloMosaic Idealize.ShloMosaic.ValueIdx Cert.Proof.KI.Pay1

variable (pf : Fin 50000 → Fin 128 → EReal) (ct : Fin 1000 → Fin 128 → EReal) (e : Fin 50000 → Fin 1000) (watt : Fin 256 → EReal)

theorem scores_lane (t : Fin 13) (i : grid2.Coords) (hi : (i 0).val = t.val)
    (v3 : Vec Ideal S4096x128 .f32) (v4 : Vec Ideal S1x128 .f32) (v6 : Vec Ideal S1x1x4096 .i32) (v18 : Vec Ideal S8x128 .f32)
    (hv3 : ∀ (j : Fin 4096) (d : Fin 128) (h : 4096 * t.val + j.val < 50000), v3 (ix2 j d) = pf ⟨4096 * t.val + j.val, h⟩ d)
    (hv4 : ∀ d : Fin 128, v4 (ix2 0 d) = watt (Spec.lo d))
    (hv6 : ∀ j : Fin 4096, BitVec.toNat (v6 (ix3 0 0 j))
      = if h : 4096 * t.val + j.val < 50000 then (e ⟨4096 * t.val + j.val, h⟩).val else 0)
    (hv18 : ∀ (h : Fin 8) (l : Fin 128) (hk : 128 * h.val + l.val < 1000),
      v18 (ix2 h l) = Spec.sTab ct watt ⟨128 * h.val + l.val, hk⟩)
    (j : Fin 4096) : k2_pay3 (F := Ideal) i v3 v4 v6 v18 (ix2 0 j) = Spec.laneScore pf ct e watt t j := by
  have hcls : BitVec.toNat (v6 (ix3 0 0 j)) < 1000 := by
    rw [hv6 j]
    split
    · exact (e _).isLt
    · omega
  rw [pay3_apply i v3 v4 v6 v18 j hcls, Spec.laneScore, hi]
  by_cases hv : 4096 * t.val + j.val < 50000
  · have hc : BitVec.toNat (v6 (ix3 0 0 j)) = (e ⟨4096 * t.val + j.val, hv⟩).val := by rw [hv6 j, dif_pos hv]
    rw [if_pos hv, dif_pos hv, Spec.kerScore]
    congr 1
    · exact Finset.sum_congr rfl fun d _ => by rw [hv4, hv3 j d hv]
    · rw [hv18 _ _ (by show 128 * (BitVec.toNat (v6 (ix3 0 0 j)) / 128) + BitVec.toNat (v6 (ix3 0 0 j)) % 128 < 1000; omega)]
      congr 1
      apply Fin.ext
      show 128 * (BitVec.toNat (v6 (ix3 0 0 j)) / 128) + BitVec.toNat (v6 (ix3 0 0 j)) % 128 = _
      omega
  · rw [if_neg hv, dif_neg hv]

-- A sequence that starts at `init` and advances by `step` is, after `n` terms, the left fold of `step` over `0, …, n - 1`.
theorem iter_eq_foldl {σ : Type*} : ∀ (n : Nat) (step : σ → Fin n → σ) (s : Nat → σ) (init : σ), s 0 = init →
    (∀ t : Fin n, s (t.val + 1) = step (s t.val) t) → s n = (List.finRange n).foldl step init
  | 0, _, _, _, h0, _ => by simpa using h0
  | n + 1, step, s, init, h0, hs => by
    rw [List.finRange_succ_last, List.foldl_append, List.foldl_map, List.foldl_cons, List.foldl_nil,
      ← iter_eq_foldl n (fun a t => step a t.castSucc) s init h0 (fun t => by simpa using hs t.castSucc)]
    simpa using hs (Fin.last n)

-- Thirteen (maximum, denominator) updates from (⊥, 0) are the fold that defines the statistics.
theorem stats_of_lanes (S : Fin 13 → FVec Ideal S1x4096 .f32)
    (hS : ∀ (t : Fin 13) (j : Fin 4096), S t (ix2 0 j) = Spec.laneScore pf ct e watt t j)
    (s : Nat → EReal × EReal) (h0 : s 0 = (⊥, 0))
    (hs : ∀ t : Fin 13, s (t.val + 1)
      = (k2_pay1 (F := Ideal) (S t) (s t.val).1, k2_pay2 (F := Ideal) (S t) (s t.val).1 (s t.val).2)) :
    s 13 = Spec.onlineStats pf ct e watt :=
  iter_eq_foldl 13 (Spec.onlineStep pf ct e watt) s (⊥, 0) h0 fun t => by
    rw [hs t, pay_onlineStep pf ct e watt t (S t) _ _ (hS t)]

end Cert.Proof.KI.Val1

end
-- ==== Proof.KIValue1b.lean ====
import proofs.«211030_g66005057405235_cont_9to1c4b_431_51_alg».proof.Proof.KIRegion1
import proofs.«211030_g66005057405235_cont_9to1c4b_431_51_alg».proof.Proof.KIValue1

set_option maxRecDepth 16384

noncomputable section

namespace Cert.Proof.KI.Val1

open Cert.KernelIdeal Cert.KernelIdeal.Gen Idealize.ShloMosaic Idealize.ShloMosaic.ValueIdx Idealize.ShloMosaic.TcCoe
open Cert.Proof.KI.Pay1 Cert.Proof.KI.R1

section Stats

variable (V : (c : Dev nD) → (b : Ref sig .tc) → Buf (Elt Ideal) ((c : Thread nD τ).loc b))
variable (pf : Fin 50000 → Fin 128 → EReal) (ct : Fin 1000 → Fin 128 → EReal) (e : Fin 50000 → Fin 1000) (watt : Fin 256 → EReal)

theorem N13 : cfg2.N = 13 := N_2

abbrev pt (t : Fin 13) : Fin cfg2.N := Fin.cast N13.symm t

theorem coords_pt : ∀ t : Fin 13, ((grid2.coords (pt t)) 0).val = t.val := by decide

theorem scInit_ideal : (scInit (F := Ideal) : EReal × EReal) = (⊥, 0) := by
  show ((Named.named (F := Ideal) κ "neg_big" (φ := .f32) 0xF149F2CA#32 : EReal), (Ideal.ofBits .f32 0x00000000#32 : EReal)) = (⊥, 0)
  rw [neg_big, Ideal.ofBits_zero_f32]

theorem lanes_of_blocks (c : Dev nD)
    (hv3 : ∀ (t : Fin 13) (j : Fin 4096) (d : Fin 128) (h : 4096 * t.val + j.val < 50000),
      (blk0 (F := Ideal) V c (pt t) fill0 : Vec Ideal S4096x128 .f32) (ix2 j d) = pf ⟨4096 * t.val + j.val, h⟩ d)
    (hv4 : ∀ (t : Fin 13) (d : Fin 128),
      (View.ld (iblk1 (F := Ideal) V c 3 (pt t) : Vec Ideal S1x256 .f32) r1_3 : Vec Ideal S1x128 .f32) (ix2 0 d) = watt (Spec.lo d))
    (hv6 : ∀ (t : Fin 13) (j : Fin 4096), BitVec.toNat ((iblk1 (F := Ideal) V c 1 (pt t) : Vec Ideal S1x1x4096 .i32) (ix3 0 0 j))
      = if h : 4096 * t.val + j.val < 50000 then (e ⟨4096 * t.val + j.val, h⟩).val else 0)
    (hv18 : ∀ (t : Fin 13) (h : Fin 8) (l : Fin 128) (hk : 128 * h.val + l.val < 1000),
      (iblk1 (F := Ideal) V c 2 (pt t) : Vec Ideal S8x128 .f32) (ix2 h l) = Spec.sTab ct watt ⟨128 * h.val + l.val, hk⟩)
    (t : Fin 13) (j : Fin 4096) : scoAt (F := Ideal) V c (pt t) (ix2 0 j) = Spec.laneScore pf ct e watt t j := by
  unfold scoAt
  rw [sco1_eq]
  exact scores_lane pf ct e watt t _ (coords_pt t) _ _ _ _ (hv3 t) (hv4 t) (hv6 t) (hv18 t) j

theorem idx1_4 : ∀ t : Fin cfg2.N, win2_4.index t 0 = 0 ∧ win2_4.index t 1 = t.val :=
  (by decide +kernel : ∀ t : Fin grid2.N, _)
theorem idx1_5 : ∀ t : Fin cfg2.N, win2_5.index t 0 = 0 :=
  (by decide +kernel : ∀ t : Fin grid2.N, _)

def scoresArr : Vec Ideal S1x53248 .f32 := fun i =>
  Spec.laneScore pf ct e watt ⟨(i 1).val / 4096, by have := idx2_lt1 i; omega⟩ ⟨(i 1).val % 4096, Nat.mod_lt _ (by norm_num)⟩

theorem laneScore_congr {t t' : Fin 13} {j j' : Fin 4096} (ht : t.val = t'.val) (hj : j.val = j'.val) :
    Spec.laneScore pf ct e watt t j = Spec.laneScore pf ct e watt t' j' := by
  obtain rfl : t = t' := Fin.ext ht
  obtain rfl : j = j' := Fin.ext hj
  rfl

theorem xs1_4 : ∀ t : Fin cfg2.N, win2_4.xsize (grid2.coords t) 0 = 1 ∧ win2_4.xsize (grid2.coords t) 1 = 4096 :=
  (by decide +kernel : ∀ t : Fin grid2.N, _)
theorem xs1_5 : ∀ t : Fin cfg2.N, win2_5.xsize (grid2.coords t) 0 = 2 :=
  (by decide +kernel : ∀ t : Fin grid2.N, _)

theorem mem_blk1_4 (t : Fin cfg2.N) (i : S1x53248.Idx) :
    i ∈ ((cfg2.win 4).blk t).view.set ↔ 4096 * t.val ≤ (i 1).val ∧ (i 1).val < 4096 * t.val + 4096 := by
  show i ∈ ((View.whole main_v11_0).slice (win2_4.rect t)).set ↔ _
  rw [View.set_slice_whole, Rect.mem_set_unit]
  have h0 : (i 0 : ℕ) < 1 := idx2_lt0 i
  have e0 : win2_4.index t 0 * win2_4.size 0 = 0 := by rw [(idx1_4 t).1]; exact Nat.zero_mul _
  have e1 : win2_4.index t 1 * win2_4.size 1 = 4096 * t.val := by
    rw [(idx1_4 t).2]; show t.val * 4096 = _; omega
  refine ⟨fun h => ?_, fun h a => ?_⟩
  · have h1 := h 1
    rw [e1, (xs1_4 t).2] at h1
    exact h1
  · match a with
    | ⟨0, _⟩ =>
      show win2_4.index t 0 * win2_4.size 0 ≤ (i 0 : ℕ)
        ∧ (i 0 : ℕ) < win2_4.index t 0 * win2_4.size 0 + win2_4.xsize (grid2.coords t) 0
      rw [e0, (xs1_4 t).1]; omega
    | ⟨1, _⟩ =>
      show win2_4.index t 1 * win2_4.size 1 ≤ (i 1 : ℕ)
        ∧ (i 1 : ℕ) < win2_4.index t 1 * win2_4.size 1 + win2_4.xsize (grid2.coords t) 1
      rw [e1, (xs1_4 t).2]; exact h

theorem covered1_4 (i : S1x53248.Idx) :
    ∃ t : Fin cfg2.N, (cfg2.win 4).flush t = true ∧ i ∈ ((cfg2.win 4).blk t).view.set := by
  have h1 : (i 1 : ℕ) < 53248 := idx2_lt1 i
  refine ⟨⟨(i 1).val / 4096, by rw [N13]; omega⟩, flush2_4 _, ?_⟩
  rw [mem_blk1_4]
  show 4096 * ((i 1).val / 4096) ≤ (i 1).val ∧ (i 1).val < 4096 * ((i 1).val / 4096) + 4096
  omega

section Scores

variable (c : Dev nD) (hS : ∀ (t : Fin 13) (j : Fin 4096), scoAt (F := Ideal) V c (pt t) (ix2 0 j) = Spec.laneScore pf ct e watt t j)
include hS

theorem scAt_eq_onlineStats :
    (scAt (F := Ideal) V c 13 : EReal × EReal) = Spec.onlineStats pf ct e watt :=
  stats_of_lanes pf ct e watt (fun t => scoAt (F := Ideal) V c (pt t)) hS (scAt (F := Ideal) V c)
    ((scAt_zero V c).trans scInit_ideal) (fun t => scAt_succ V c (pt t))

theorem flushed1_4 (t : Fin cfg2.N) :
    (dat1 (F := Ideal) V c).flushed 4 t = ((cfg2.win 4).blk t).view.read (Elt Ideal) (scoresArr pf ct e watt) := by
  show (cfg2.win 4).cut (grid2.coords t) ((dat1 V c).after 4 t) = _
  rw [after1_4, out1_4_eq]
  funext y
  show scoAt (F := Ideal) V c t y = scoresArr pf ct e watt ((win2_4.rect t).emb y)
  have hN : t.val < 13 := lt_of_lt_of_eq t.isLt N13
  have hj : (y 1).val < 4096 := idx2_lt1 (n0 := 1) (n1 := 4096) y
  have hy : (y : S1x4096.Idx) = ix2 (0 : Fin 1) (⟨(y 1).val, hj⟩ : Fin 4096) :=
    funext fun a => match a with
      | ⟨0, _⟩ => Fin.ext (by have := idx2_lt0 (n0 := 1) (n1 := 4096) y; show (y 0).val = 0; omega)
      | ⟨1, _⟩ => rfl
  have h1 : ((win2_4.rect t).emb y 1 : ℕ) = t.val * 4096 + (y 1).val := by
    have h := win2_4.rect_emb_val t y 1
    rw [(idx1_4 t).2] at h
    exact h
  have hS' : scoAt (F := Ideal) V c t (ix2 (0 : Fin 1) (⟨(y 1).val, hj⟩ : Fin 4096))
      = Spec.laneScore pf ct e watt ⟨t.val, hN⟩ ⟨(y 1).val, hj⟩ := hS ⟨t.val, hN⟩ ⟨(y 1).val, hj⟩
  refine (congrArg (scoAt (F := Ideal) V c t) hy).trans (hS'.trans ?_)
  unfold scoresArr
  refine laneScore_congr pf ct e watt ?_ ?_
  · show t.val = ((win2_4.rect t).emb y 1 : ℕ) / 4096
    rw [h1]; omega
  · show (y 1).val = ((win2_4.rect t).emb y 1 : ℕ) % 4096
    rw [h1]; omega

theorem arr1_4 :
    (dat1 (F := Ideal) V c).arrAt 4 cfg2.N = scoresArr pf ct e watt :=
  (dat1 (F := Ideal) V c).arrAt_eq_of_cover 4 (scoresArr pf ct e watt) (fun t _ => flushed1_4 V pf ct e watt c hS t) covered1_4

theorem arr1_4_apply (t : Fin 13) (j : Fin 4096) :
    ((dat1 (F := Ideal) V c).arrAt 4 cfg2.N : Vec Ideal S1x53248 .f32)
        (ix2 (0 : Fin 1) (⟨4096 * t.val + j.val, by have := t.isLt; have := j.isLt; omega⟩ : Fin 53248))
      = Spec.laneScore pf ct e watt t j := by
  rw [arr1_4 V pf ct e watt c hS]
  unfold scoresArr
  refine laneScore_congr pf ct e watt ?_ ?_
  · show (4096 * t.val + j.val) / 4096 = t.val
    have := j.isLt; omega
  · show (4096 * t.val + j.val) % 4096 = j.val
    have := j.isLt; omega

end Scores

theorem rd1_5 (c : Dev nD) (t : Fin cfg2.N) (X : Buf (Elt Ideal) ((cfg2.win 5).arr.view.loc (c : Thread nD τ))) :
    ((cfg2.win 5).blk t).view.read (Elt Ideal) X = X :=
  Memref.read_access_unit_zero (Elt Ideal) main_v11_1
    (funext fun a => match a with
      | ⟨0, _⟩ => by show win2_5.index t 0 * win2_5.size 0 = 0; rw [idx1_5 t]; exact Nat.zero_mul _) _ X

theorem mem1_5 (t : Fin cfg2.N) (i : S2.Idx) : i ∈ ((cfg2.win 5).blk t).view.set := by
  show i ∈ ((View.whole main_v11_1).slice (win2_5.rect t)).set
  rw [View.set_slice_whole, Rect.mem_set_unit]
  intro a
  match a with
  | ⟨0, _⟩ =>
    show win2_5.index t 0 * win2_5.size 0 ≤ (i 0 : ℕ)
      ∧ (i 0 : ℕ) < win2_5.index t 0 * win2_5.size 0 + win2_5.xsize (grid2.coords t) 0
    have h2 : (i 0 : ℕ) < 2 := (i 0).isLt
    rw [idx1_5 t, xs1_5 t]; omega

theorem arr1_5 (c : Dev nD) : (dat1 (F := Ideal) V c).arrAt 5 cfg2.N = scVec (scAt (F := Ideal) V c 13) := by
  refine (dat1 (F := Ideal) V c).arrAt_eq_of_cover 5 (scVec (scAt (F := Ideal) V c 13)) (fun t hf => ?_)
    (fun i => ⟨⟨12, by rw [N13]; omega⟩, (flush2_5 _).mpr rfl, mem1_5 _ i⟩)
  have hN : t.val < 13 := lt_of_lt_of_eq t.isLt N13
  have h12 : t.val + 1 = 13 := by have := (flush2_5 t).mp hf; omega
  show (cfg2.win 5).cut (grid2.coords t) ((dat1 V c).after 5 t) = _
  rw [after1_5, rd1_5 c t, h12]
  rfl

end Stats

end Cert.Proof.KI.Val1

end
-- ==== Proof.KIValue1c.lean ====
import proofs.«211030_g66005057405235_cont_9to1c4b_431_51_alg».proof.Proof.KIValue1b

set_option maxRecDepth 16384

noncomputable section

namespace Cert.Proof.KI.Val1

open Cert.KernelIdeal Cert.KernelIdeal.Gen Idealize.ShloMosaic Idealize.ShloMosaic.ValueIdx Idealize.ShloMosaic.TcCoe
open Cert.Proof.KI.Pay1 Cert.Proof.KI.R1

section ArraysIn

variable (V : (c : Dev nD) → (b : Ref sig .tc) → Buf (Elt Ideal) ((c : Thread nD τ).loc b))

theorem idx1_0 : ∀ t : Fin cfg2.N, win2_0.index t 0 = t.val ∧ win2_0.index t 1 = 0 :=
  (by decide +kernel : ∀ t : Fin grid2.N, _)
theorem xs1_0 : ∀ t : Fin cfg2.N, win2_0.xsize (grid2.coords t) 0 = min 4096 (50000 - 4096 * t.val)
    ∧ win2_0.xsize (grid2.coords t) 1 = 128 :=
  (by decide +kernel : ∀ t : Fin grid2.N, _)
theorem idx1_1 : ∀ t : Fin cfg2.N, win2_1.index t 0 = t.val ∧ win2_1.index t 1 = 0 ∧ win2_1.index t 2 = 0 :=
  (by decide +kernel : ∀ t : Fin grid2.N, _)
theorem idx1_23 : ∀ t : Fin cfg2.N, (∀ a, win2_2.index t a = 0) ∧ ∀ a, win2_3.index t a = 0 :=
  (by decide +kernel : ∀ t : Fin grid2.N, _)

theorem blk0_apply (c : Dev nD) (t : Fin 13) (j : Fin 4096) (d : Fin 128) (h : 4096 * t.val + j.val < 50000) :
    (blk0 (F := Ideal) V c (pt t) fill0 : Vec Ideal S4096x128 .f32) (ix2 j d)
      = (V c (Pipeline.arrRef spec2 0) : S50000x128.Idx → EReal) (ix2 ⟨4096 * t.val + j.val, h⟩ d) := by
  have hm : win2_0.moved (grid2.coords (pt t)) (ix2 j d) = true := by
    rw [Pipeline.Window.moved_iff]
    intro a
    match a with
    | ⟨0, _⟩ =>
      show j.val < win2_0.xsize (grid2.coords (pt t)) 0
      rw [(xs1_0 (pt t)).1]
      show j.val < min 4096 (50000 - 4096 * t.val)
      have := j.isLt; omega
    | ⟨1, _⟩ =>
      show d.val < win2_0.xsize (grid2.coords (pt t)) 1
      rw [(xs1_0 (pt t)).2]; exact d.isLt
  unfold blk0
  rw [Pipeline.Window.fill, dif_pos hm]
  show (V c (Pipeline.arrRef spec2 0) : S50000x128.Idx → EReal) ((win2_0.rect (pt t)).emb _) = _
  congr 1
  funext a
  apply Fin.ext
  rw [Pipeline.Window.rect_emb_val]
  match a with
  | ⟨0, _⟩ =>
    show win2_0.index (pt t) 0 * win2_0.size 0 + j.val = 4096 * t.val + j.val
    rw [(idx1_0 (pt t)).1]
    show t.val * 4096 + j.val = _
    omega
  | ⟨1, _⟩ =>
    show win2_0.index (pt t) 1 * win2_0.size 1 + d.val = d.val
    rw [(idx1_0 (pt t)).2]
    omega

theorem iblk1_1_apply (c : Dev nD) (t : Fin 13) (j : Fin 4096) :
    (iblk1 (F := Ideal) V c 1 (pt t) : Vec Ideal S1x1x4096 .i32) (ix3 0 0 j)
      = (V c (Pipeline.arrRef spec2 1) : S13x1x4096.Idx → BitVec 32) (ix3 t (0 : Fin 1) j) := by
  show (V c (Pipeline.arrRef spec2 1) : S13x1x4096.Idx → BitVec 32) ((win2_1.rect (pt t)).emb (ix3 0 0 j)) = _
  congr 1
  funext a
  apply Fin.ext
  rw [Pipeline.Window.rect_emb_val]
  match a with
  | ⟨0, _⟩ =>
    show win2_1.index (pt t) 0 * win2_1.size 0 + 0 = t.val
    rw [(idx1_1 (pt t)).1]
    show t.val * 1 + 0 = t.val
    omega
  | ⟨1, _⟩ =>
    show win2_1.index (pt t) 1 * win2_1.size 1 + 0 = 0
    rw [(idx1_1 (pt t)).2.1]
    omega
  | ⟨2, _⟩ =>
    show win2_1.index (pt t) 2 * win2_1.size 2 + j.val = j.val
    rw [(idx1_1 (pt t)).2.2]
    omega

theorem iblk1_2_eq (c : Dev nD) (t : Fin cfg2.N) : iblk1 (F := Ideal) V c 2 t = V c (Pipeline.arrRef spec2 2) :=
  Memref.read_access_unit_zero (Elt Ideal) main_v8_0
    (funext fun a => by show win2_2.index t a * win2_2.size a = 0; rw [(idx1_23 t).1 a]; exact Nat.zero_mul _) _ _
theorem iblk1_3_eq (c : Dev nD) (t : Fin cfg2.N) : iblk1 (F := Ideal) V c 3 t = V c (Pipeline.arrRef spec2 3) :=
  Memref.read_access_unit_zero (Elt Ideal) main_arg3
    (funext fun a => by show win2_3.index t a * win2_3.size a = 0; rw [(idx1_23 t).2 a]; exact Nat.zero_mul _) _ _

theorem ld_row_apply (x3 : Vec Ideal S1x256 .f32) (d : Fin 128) :
    (View.ld x3 r1_3 : Vec Ideal S1x128 .f32) (ix2 (0 : Fin 1) d) = x3 (ix2 (0 : Fin 1) (Spec.lo d)) :=
  congrArg x3 (funext fun a => match a with
    | ⟨0, _⟩ => Fin.ext (by show 0 + 1 * 0 = 0; rfl)
    | ⟨1, _⟩ => Fin.ext (by show 0 + 1 * d.val = d.val; omega))

theorem region1_of_arrays (pf : Fin 50000 → Fin 128 → EReal) (ct : Fin 1000 → Fin 128 → EReal) (e : Fin 50000 → Fin 1000)
    (watt : Fin 256 → EReal) (c : Dev nD)
    (ha0 : ∀ (i : Fin 50000) (d : Fin 128), (V c (Pipeline.arrRef spec2 0) : S50000x128.Idx → EReal) (ix2 i d) = pf i d)
    (ha1 : ∀ (t : Fin 13) (j : Fin 4096),
      BitVec.toNat ((V c (Pipeline.arrRef spec2 1) : S13x1x4096.Idx → BitVec 32) (ix3 t (0 : Fin 1) j))
        = if h : 4096 * t.val + j.val < 50000 then (e ⟨4096 * t.val + j.val, h⟩).val else 0)
    (ha2 : ∀ (h : Fin 8) (l : Fin 128) (hk : 128 * h.val + l.val < 1000),
      (V c (Pipeline.arrRef spec2 2) : S8x128.Idx → EReal) (ix2 h l) = Spec.sTab ct watt ⟨128 * h.val + l.val, hk⟩)
    (ha3 : ∀ k : Fin 256, (V c (Pipeline.arrRef spec2 3) : S1x256.Idx → EReal) (ix2 (0 : Fin 1) k) = watt k) :
    (∀ (t : Fin 13) (j : Fin 4096),
        ((dat1 (F := Ideal) V c).arrAt 4 cfg2.N : Vec Ideal S1x53248 .f32)
            (ix2 (0 : Fin 1) (⟨4096 * t.val + j.val, by have := t.isLt; have := j.isLt; omega⟩ : Fin 53248))
          = Spec.laneScore pf ct e watt t j)
      ∧ (dat1 (F := Ideal) V c).arrAt 5 cfg2.N = scVec (F := Ideal) (Spec.onlineStats pf ct e watt) := by
  have hS : ∀ (t : Fin 13) (j : Fin 4096), scoAt (F := Ideal) V c (pt t) (ix2 0 j) = Spec.laneScore pf ct e watt t j :=
    lanes_of_blocks V pf ct e watt c
      (fun t j d h => (blk0_apply V c t j d h).trans (ha0 _ d))
      (fun t d => by rw [ld_row_apply, iblk1_3_eq]; exact ha3 _)
      (fun t j => by rw [iblk1_1_apply]; exact ha1 t j)
      (fun t h l hk => by rw [iblk1_2_eq]; exact ha2 h l hk)
  refine ⟨fun t j => arr1_4_apply V pf ct e watt c hS t j, ?_⟩
  rw [arr1_5]
  exact congrArg (scVec (F := Ideal)) (scAt_eq_onlineStats V pf ct e watt c hS)

end ArraysIn

end Cert.Proof.KI.Val1

end
-- ==== Proof.KIValW5.lean ====
import proofs.«211030_g66005057405235_cont_9to1c4b_431_51_alg».proof.Proof.KIValW4a
import proofs.«211030_g66005057405235_cont_9to1c4b_431_51_alg».proof.Proof.KIValue1c

noncomputable section

namespace Cert.Proof.KI.Val

open Cert.KernelIdeal Cert.KernelIdeal.Gen Cert.Proof Cert.Proof.KI Cert.Proof.KI.Launch Cert.Proof.Inputs
open Idealize.ShloMosaic Idealize.ShloMosaic.TcCoe Idealize.ShloMosaic.ValueIdx Idealize.SL.Sem

variable (m : (ℓ : Loc nD τ sig) → Buf (Elt Ideal) ℓ) (c : Dev nD)

theorem W5_region1 (hr : (argsOfK m c).InRange) :
    (∀ (t : Fin 13) (j : Fin 4096), ((R1.dat1 (F := Ideal) (atTc (W4 m)) c).arrAt 4 cfg2.N : Vec Ideal S1x53248 .f32)
        (ix2 (0 : Fin 1) (⟨4096 * t.val + j.val, by have := t.isLt; have := j.isLt; omega⟩ : Fin 53248))
        = Spec.laneScore (argsOfK m c).pf (argsOfK m c).ct (argsOfK m c).e (argsOfK m c).watt t j)
    ∧ (R1.dat1 (F := Ideal) (atTc (W4 m)) c).arrAt 5 cfg2.N
        = R1.scVec (F := Ideal) (Spec.onlineStats (argsOfK m c).pf (argsOfK m c).ct (argsOfK m c).e (argsOfK m c).watt) :=
  Val1.region1_of_arrays (atTc (W4 m)) (argsOfK m c).pf (argsOfK m c).ct (argsOfK m c).e (argsOfK m c).watt c
    (fun i d => congrFun (W4_arg0 m c) (ix2 i d))
    (fun t j => W4_v4_apply m c hr t j)
    (fun h l hk => by
      have e : atTc (W4 m) c (Pipeline.arrRef spec2 2) = W2 m c (Proc.devRef .tc main_v8_0) := W4_s2 m c
      rw [e]; exact W2_s2_apply m c h l hk)
    (fun k => congrFun (W4_arg3 m c) (ix2 (0 : Fin 1) k))

theorem W5_scores_apply (hr : (argsOfK m c).InRange) (t : Fin 13) (j : Fin 4096) :
    (W5 m c (Proc.devRef .tc main_v11_0) : S1x53248.Idx → EReal)
        (ix2 (0 : Fin 1) (⟨4096 * t.val + j.val, by have := t.isLt; have := j.isLt; omega⟩ : Fin 53248))
      = Spec.laneScore (argsOfK m c).pf (argsOfK m c).ct (argsOfK m c).e (argsOfK m c).watt t j := by
  have e : W5 m c (Proc.devRef .tc main_v11_0) = (R1.dat1 (atTc (W4 m)) c).arrAt 4 cfg2.N := out1_arr (W4 m) c 4
  rw [e]
  exact (W5_region1 m c hr).1 t j

theorem W5_stats (hr : (argsOfK m c).InRange) :
    (W5 m c (Proc.devRef .tc main_v11_1) : S2.Idx → EReal)
      = R1.scVec (F := Ideal) (Spec.onlineStats (argsOfK m c).pf (argsOfK m c).ct (argsOfK m c).e (argsOfK m c).watt) := by
  have e : W5 m c (Proc.devRef .tc main_v11_1) = (R1.dat1 (atTc (W4 m)) c).arrAt 5 cfg2.N := out1_arr (W4 m) c 5
  rw [e]
  exact (W5_region1 m c hr).2

theorem scVec_word0 (p : EReal × EReal) : (R1.scVec (F := Ideal) p : S2.Idx → EReal) (ix1 (0 : Fin 2)) = p.1 := by
  have h := congrArg Prod.fst (R1.scW_scVec (F := Ideal) p)
  have e : (R1.rS0.emb R1.j1 : S2.Idx) = ix1 (0 : Fin 2) := (eq_ix1 _).trans rfl
  rw [← e]; exact h
theorem scVec_word1 (p : EReal × EReal) : (R1.scVec (F := Ideal) p : S2.Idx → EReal) (ix1 (1 : Fin 2)) = p.2 := by
  have h := congrArg Prod.snd (R1.scW_scVec (F := Ideal) p)
  have e : (R1.rS1.emb R1.j1 : S2.Idx) = ix1 (1 : Fin 2) := (eq_ix1 _).trans rfl
  rw [← e]; exact h

end Cert.Proof.KI.Val

end
-- ==== Proof.KIValW8.lean ====
import proofs.«211030_g66005057405235_cont_9to1c4b_431_51_alg».proof.Proof.KILaunchData
import proofs.«211030_g66005057405235_cont_9to1c4b_431_51_alg».proof.Proof.HostVals
import Idealize.ShloMosaic.Lib.StableHlo.Run

noncomputable section

namespace Cert.Proof.KI.Val

open Cert.KernelIdeal Cert.KernelIdeal.Gen Cert.Proof.KI Cert.Proof.KI.Launch Cert.Proof.HostVals
open Idealize.ShloMosaic Idealize.ShloMosaic.TcCoe Idealize.ShloMosaic.ValueIdx Idealize.SL.Sem

variable {F : FTy → Type} [FloatOps F] [Named F]
variable (m : (ℓ : Loc nD τ sig) → Buf (Elt F) ℓ)

theorem Wres_apply (c : Dev nD) (i : Fin 50000) (k : Fin 1000) :
    (Wres m c : S50000x1000.Idx → Elt F .f32) (ix2 i k) = (W7 m c (Proc.devRef .tc main_v13) : S1000x50000.Idx → Elt F .f32) (ix2 k i) := by
  refine Eq.trans ?_ (transpose2_apply (W7 m c (Proc.devRef .tc main_v13) : S1000x50000.Idx → Elt F .f32) transposes_S1000x50000_S50000x1000_1_0 i k)
  show StableHlo.after hostOps3 (W7 m c) (Proc.devRef .tc main_v14) _ = _
  after_results
  all_goals rfl

end Cert.Proof.KI.Val

end
-- ==== Proof.KIValue2.lean ====
import proofs.«211030_g66005057405235_cont_9to1c4b_431_51_alg».proof.Proof.KIRegion2
import proofs.«211030_g66005057405235_cont_9to1c4b_431_51_alg».proof.Proof.KIPayloads
import proofs.«211030_g66005057405235_cont_9to1c4b_431_51_alg».proof.Proof.Spec
import Idealize.ShloMosaic.Lib.Pipeline.Value

set_option maxRecDepth 16384

noncomputable section

namespace Cert.Proof.KI.Val2

open Cert.KernelIdeal Cert.KernelIdeal.Gen Idealize.ShloMosaic Idealize.ShloMosaic.ValueIdx
open Idealize.ShloMosaic.TcCoe
open Idealize.ShloMosaic.Pipeline (Dat Cfg Window)
open Cert.Proof.KI.R2 Cert.Proof.KI.Pay Cert.Proof

theorem zeros2 : (![0, 0] : Fin 2 → ℕ) = fun _ => 0 :=
  funext fun a => match a with | ⟨0, _⟩ => rfl | ⟨1, _⟩ => rfl

theorem out2_8_eq {F : FTy → Type} [FloatOps F] [Named F] (x0 x1 : Vec F S4096x128 .f32) (x2 : Vec F S1x4096 .f32)
    (s0 s1 : Elt F .f32) (x4 : Vec F S128x128 .f32) (x5 : Vec F S1x128 .f32) (x6 : Vec F S1000x128 .f32) (x7 : Vec F S1000x1 .f32) :
    out2_8 x0 x1 x2 s0 s1 x4 x5 x6 x7 = k3_pay1 s0 s1 x2 x0 x4 x5 x6 x6 x1 x7 := by
  unfold out2_8
  simp only [View.canon_unit_zero (S := ⟨2, _⟩) zeros2, View.ld_unit_zero (S := ⟨2, _⟩) zeros2]

theorem idx_facts : ∀ t : Fin cfg3.N,
    win3_0.index t 0 = t.val ∧ win3_0.index t 1 = 0
    ∧ win3_1.index t 0 = t.val ∧ win3_1.index t 1 = 0
    ∧ win3_2.index t 0 = 0 ∧ win3_2.index t 1 = t.val
    ∧ win3_3.index t 0 = 0
    ∧ win3_8.index t 0 = 0 ∧ win3_8.index t 1 = t.val :=
  (by decide +kernel : ∀ t : Fin grid3.N, _)

theorem stay_facts : ∀ t : Fin cfg3.N, (∀ a, win3_4.index t a = 0) ∧ (∀ a, win3_5.index t a = 0) ∧ (∀ a, win3_6.index t a = 0)
    ∧ ∀ a, win3_7.index t a = 0 :=
  (by decide +kernel : ∀ t : Fin grid3.N, _)

theorem cut_facts : ∀ t : Fin cfg3.N,
    t.val * 4096 + win3_0.xsize (grid3.coords t) 0 = min ((t.val + 1) * 4096) 50000
    ∧ win3_0.xsize (grid3.coords t) 1 = 128
    ∧ t.val * 4096 + win3_1.xsize (grid3.coords t) 0 = min ((t.val + 1) * 4096) 50176
    ∧ win3_1.xsize (grid3.coords t) 1 = 128
    ∧ win3_8.xsize (grid3.coords t) 0 = 1000
    ∧ t.val * 4096 + win3_8.xsize (grid3.coords t) 1 = min ((t.val + 1) * 4096) 50000 :=
  (by decide +kernel : ∀ t : Fin grid3.N, _)

theorem recompose (i : ℕ) : i / 4096 * 4096 + 1 * (i % 4096) = i := by omega

theorem lane_lt (t X B y : ℕ) (c : t * 4096 + X = min ((t + 1) * 4096) B) (h : y < X) : y < 4096 := by
  have := Nat.min_le_left ((t + 1) * 4096) B
  omega

-- A coordinate below the bound B lies in the part of the 4096-wide segment number i / 4096 that is below B, at offset i mod 4096.
theorem in_block (i X B : ℕ) (hi : i < B) (c : i / 4096 * 4096 + X = min ((i / 4096 + 1) * 4096) B) :
    i / 4096 * 4096 ≤ i ∧ i < i / 4096 * 4096 + X ∧ i % 4096 < X := by
  have hmin := Nat.le_min.mpr ⟨(show i + 1 ≤ (i / 4096 + 1) * 4096 by omega), (show i + 1 ≤ B by omega)⟩
  omega

section Array

variable (V : (c : Dev nD) → (b : Ref sig .tc) → Buf (Elt Ideal) ((c : Thread nD τ).loc b))

def stored (c : Dev nD) (t : Fin cfg3.N) : Vec Ideal S1000x4096 .f32 :=
  out2_8 (full2_0 V c t) (full2_1 V c t) (iblk2 V c 2 t) (stat2_0 (iblk2 V c 3 t)) (stat2_1 (iblk2 V c 3 t))
    (iblk2 V c 4 t) (iblk2 V c 5 t) (iblk2 V c 6 t) (iblk2 V c 7 t)

abbrev ptOf (i : Fin 50000) : Fin cfg3.N := ⟨i.val / 4096, by show i.val / 4096 < 13; omega⟩

abbrev laneOf (i : Fin 50000) : Fin 4096 := ⟨i.val % 4096, Nat.mod_lt _ (by decide)⟩

def finalArr (c : Dev nD) : S1000x50000.Idx → Elt Ideal .f32 := fun idx =>
  stored V c (ptOf (idx 1)) (ix2 (idx 0) (laneOf (idx 1)))

theorem flushed8_eq (c : Dev nD) (t : Fin cfg3.N) :
    (dat2 V c).flushed 8 t = ((cfg3.win 8).blk t).view.read (Elt Ideal) (finalArr V c) := by
  show (cfg3.win 8).cut (grid3.coords t) ((dat2 V c).after 8 t) = _
  rw [after2_8]
  funext y
  have hread : ∀ Gf : ((cfg3.win 8).blk t).view.ty.Contents (Elt Ideal),
      ((cfg3.win 8).blk t).view.read (Elt Ideal) Gf y = Gf (((cfg3.win 8).blk t).view.emb y) := fun _ => rfl
  rw [hread]
  show stored V c t (win3_8.xinj (grid3.coords t) y) = _
  obtain ⟨-, -, -, -, -, -, -, e0, e1⟩ := idx_facts t
  obtain ⟨-, -, -, -, -, c1⟩ := cut_facts t
  have a0 : ((((cfg3.win 8).blk t).view.emb y) 0).val = (y 0).val := by
    show win3_8.index t 0 * 1000 + 1 * (y 0).val = (y 0).val
    rw [e0, Nat.zero_mul, Nat.zero_add, Nat.one_mul]
  have a1 : ((((cfg3.win 8).blk t).view.emb y) 1).val = t.val * 4096 + (y 1).val := by
    show win3_8.index t 1 * 4096 + 1 * (y 1).val = t.val * 4096 + (y 1).val
    rw [e1, Nat.one_mul]
  have hy1' : (y 1).val < 4096 := lane_lt t.val _ 50000 _ c1 (y 1).isLt
  show _ = stored V c (ptOf ((((cfg3.win 8).blk t).view.emb y) 1)) (ix2 ((((cfg3.win 8).blk t).view.emb y) 0)
    (laneOf ((((cfg3.win 8).blk t).view.emb y) 1)))
  refine congr (congrArg (stored V c) (Fin.ext ?_)) (funext fun a => Fin.ext ?_)
  · show t.val = ((((cfg3.win 8).blk t).view.emb y) 1).val / 4096
    rw [a1]; omega
  · match a with
    | ⟨0, _⟩ => exact a0.symm
    | ⟨1, _⟩ =>
      show (y 1).val = ((((cfg3.win 8).blk t).view.emb y) 1).val % 4096
      rw [a1]; omega

theorem mem_ptOf (k : Fin 1000) (i : Fin 50000) : (ix2 k i : S1000x50000.Idx) ∈ ((cfg3.win 8).blk (ptOf i)).view.set := by
  show _ ∈ ((View.whole main_v13).slice (win3_8.rect (ptOf i))).set
  rw [View.set_slice_whole, Rect.mem_set_unit]
  obtain ⟨-, -, -, -, -, -, -, e0, e1⟩ := idx_facts (ptOf i)
  obtain ⟨-, -, -, -, c0, c1⟩ := cut_facts (ptOf i)
  have hb := in_block i.val _ 50000 i.isLt c1
  intro a
  match a with
  | ⟨0, _⟩ =>
    show win3_8.index (ptOf i) 0 * 1000 ≤ k.val
      ∧ k.val < win3_8.index (ptOf i) 0 * 1000 + win3_8.xsize (grid3.coords (ptOf i)) 0
    rw [e0, c0, Nat.zero_mul, Nat.zero_add]
    exact ⟨Nat.zero_le _, k.isLt⟩
  | ⟨1, _⟩ =>
    show win3_8.index (ptOf i) 1 * 4096 ≤ i.val
      ∧ i.val < win3_8.index (ptOf i) 1 * 4096 + win3_8.xsize (grid3.coords (ptOf i)) 1
    rw [e1]
    exact ⟨hb.1, hb.2.1⟩

-- Column i of the result is column i mod 4096 of the piece computed at point i / 4096.
theorem final_apply (c : Dev nD) (k : Fin 1000) (i : Fin 50000) :
    (dat2 V c).arrAt 8 cfg3.N (ix2 k i) = stored V c (ptOf i) (ix2 k (laneOf i)) :=
  (dat2 V c).arrAt_apply_of_mem 8 (finalArr V c) (fun t _ => flushed8_eq V c t) cfg3.N (ptOf i) (ix2 k i) (ptOf i).isLt
    (flush3_8 _) (mem_ptOf k i)

end Array

section Blocks

variable (V : (c : Dev nD) → (b : Ref sig .tc) → Buf (Elt Ideal) ((c : Thread nD τ).loc b))

theorem fill_apply_of_lt {G : Pipeline.Grid} (w : Window sig G) {α : Type} (i : G.Coords) (d : w.block.Idx → α)
    (g : (w.xblock i).Idx → α) (o : w.block.Idx) (h : ∀ a, (o a).val < w.xsize i a) :
    w.fill i d g o = g (fun a => ⟨(o a).val, h a⟩) := by
  unfold Window.fill
  rw [dif_pos ((w.moved_iff i o).mpr h)]

theorem blk0_apply (c : Dev nD) (i : Fin 50000) (d : Fin 128) :
    full2_0 V c (ptOf i) (ix2 (laneOf i) d) = (V c (Pipeline.arrRef spec3 0) : S50000x128.Idx → Elt Ideal .f32) (ix2 i d) := by
  obtain ⟨e0, e1, -⟩ := idx_facts (ptOf i)
  obtain ⟨c0, c1, -⟩ := cut_facts (ptOf i)
  have hb := in_block i.val _ 50000 (Nat.lt_of_lt_of_le i.isLt (by decide)) c0
  have hlt : ∀ a, ((ix2 (laneOf i) d : S4096x128.Idx) a).val < win3_0.xsize (grid3.coords (ptOf i)) a :=
    Fin.forall_fin_two.2 ⟨hb.2.2, lt_of_lt_of_eq d.isLt c1.symm⟩
  unfold full2_0
  rw [fill_apply_of_lt win3_0 _ _ _ _ hlt]
  show (V c (Pipeline.arrRef spec3 0) : S50000x128.Idx → Elt Ideal .f32) (((cfg3.win 0).blk (ptOf i)).view.emb _) = _
  refine congrArg _ (funext fun a => Fin.ext ?_)
  match a with
  | ⟨0, _⟩ =>
    show win3_0.index (ptOf i) 0 * 4096 + 1 * (i.val % 4096) = i.val
    rw [e0]; exact recompose i.val
  | ⟨1, _⟩ =>
    show win3_0.index (ptOf i) 1 * 128 + 1 * d.val = d.val
    rw [e1, Nat.zero_mul, Nat.zero_add, Nat.one_mul]

theorem blk1_apply (c : Dev nD) (i : Fin 50000) (h : Fin 128) :
    full2_1 V c (ptOf i) (ix2 (laneOf i) h)
      = (V c (Pipeline.arrRef spec3 1) : S50176x128.Idx → Elt Ideal .f32) (ix2 (⟨i.val, by omega⟩ : Fin 50176) h) := by
  obtain ⟨-, -, e0, e1, -⟩ := idx_facts (ptOf i)
  obtain ⟨-, -, c0, c1, -⟩ := cut_facts (ptOf i)
  have hb := in_block i.val _ 50176 (Nat.lt_of_lt_of_le i.isLt (by decide)) c0
  have hlt : ∀ a, ((ix2 (laneOf i) h : S4096x128.Idx) a).val < win3_1.xsize (grid3.coords (ptOf i)) a :=
    Fin.forall_fin_two.2 ⟨hb.2.2, lt_of_lt_of_eq h.isLt c1.symm⟩
  unfold full2_1
  rw [fill_apply_of_lt win3_1 _ _ _ _ hlt]
  show (V c (Pipeline.arrRef spec3 1) : S50176x128.Idx → Elt Ideal .f32) (((cfg3.win 1).blk (ptOf i)).view.emb _) = _
  refine congrArg _ (funext fun a => Fin.ext ?_)
  match a with
  | ⟨0, _⟩ =>
    show win3_1.index (ptOf i) 0 * 4096 + 1 * (i.val % 4096) = i.val
    rw [e0]; exact recompose i.val
  | ⟨1, _⟩ =>
    show win3_1.index (ptOf i) 1 * 128 + 1 * h.val = h.val
    rw [e1, Nat.zero_mul, Nat.zero_add, Nat.one_mul]

theorem blk2_apply (c : Dev nD) (i : Fin 50000) :
    iblk2 V c 2 (ptOf i) (ix2 (0 : Fin 1) (laneOf i))
      = (V c (Pipeline.arrRef spec3 2) : S1x53248.Idx → Elt Ideal .f32) (ix2 (0 : Fin 1) (⟨i.val, by omega⟩ : Fin 53248)) := by
  obtain ⟨-, -, -, -, e0, e1, -⟩ := idx_facts (ptOf i)
  show (V c (Pipeline.arrRef spec3 2) : S1x53248.Idx → Elt Ideal .f32) (((cfg3.win 2).blk (ptOf i)).view.emb _) = _
  refine congrArg _ (funext fun a => Fin.ext ?_)
  match a with
  | ⟨0, _⟩ =>
    show win3_2.index (ptOf i) 0 * 1 + 1 * 0 = 0
    rw [e0]
  | ⟨1, _⟩ =>
    show win3_2.index (ptOf i) 1 * 4096 + 1 * (i.val % 4096) = i.val
    rw [e1]; exact recompose i.val

theorem stat_apply (c : Dev nD) (t : Fin cfg3.N) :
    stat2_0 (iblk2 V c 3 t) = (V c (Pipeline.arrRef spec3 3) : S2.Idx → Elt Ideal .f32) (ix1 (0 : Fin 2))
      ∧ stat2_1 (iblk2 V c 3 t) = (V c (Pipeline.arrRef spec3 3) : S2.Idx → Elt Ideal .f32) (ix1 (1 : Fin 2)) := by
  obtain ⟨-, -, -, -, -, -, e0, -⟩ := idx_facts t
  constructor <;>
  · show (V c (Pipeline.arrRef spec3 3) : S2.Idx → Elt Ideal .f32) (((cfg3.win 3).blk t).view.emb _) = _
    refine congrArg _ (funext fun a => Fin.ext ?_)
    match a with
    | ⟨0, _⟩ =>
      show win3_3.index t 0 * 2 + 1 * (_ + 1 * 0) = _
      rw [e0]; rfl

theorem blk4_apply (c : Dev nD) (t : Fin cfg3.N) (d h : Fin 128) :
    iblk2 V c 4 t (ix2 d h) = (V c (Pipeline.arrRef spec3 4) : S128x128.Idx → Elt Ideal .f32) (ix2 d h) :=
  congrArg _ (funext fun a => Fin.ext (win3_4.rect_emb_val_of_index_zero t a ((stay_facts t).1 a) _))
theorem blk5_apply (c : Dev nD) (t : Fin cfg3.N) (h : Fin 128) :
    iblk2 V c 5 t (ix2 (0 : Fin 1) h) = (V c (Pipeline.arrRef spec3 5) : S1x128.Idx → Elt Ideal .f32) (ix2 (0 : Fin 1) h) :=
  congrArg _ (funext fun a => Fin.ext (win3_5.rect_emb_val_of_index_zero t a ((stay_facts t).2.1 a) _))
theorem blk6_apply (c : Dev nD) (t : Fin cfg3.N) (k : Fin 1000) (h : Fin 128) :
    iblk2 V c 6 t (ix2 k h) = (V c (Pipeline.arrRef spec3 6) : S1000x128.Idx → Elt Ideal .f32) (ix2 k h) :=
  congrArg _ (funext fun a => Fin.ext (win3_6.rect_emb_val_of_index_zero t a ((stay_facts t).2.2.1 a) _))
theorem blk7_apply (c : Dev nD) (t : Fin cfg3.N) (k : Fin 1000) :
    iblk2 V c 7 t (ix2 k (0 : Fin 1)) = (V c (Pipeline.arrRef spec3 7) : S1000x1.Idx → Elt Ideal .f32) (ix2 k (0 : Fin 1)) :=
  congrArg _ (funext fun a => Fin.ext (win3_7.rect_emb_val_of_index_zero t a ((stay_facts t).2.2.2 a) _))

end Blocks

section Final

variable (V : (c : Dev nD) → (b : Ref sig .tc) → Buf (Elt Ideal) ((c : Thread nD τ).loc b))

-- With the specification's tables in the input arrays, entry (k, i) of the result is the specification's value for product i and class k.
theorem final_eq_kerOut (pf : Fin 50000 → Fin 128 → EReal) (ct : Fin 1000 → Fin 128 → EReal) (e : Fin 50000 → Fin 1000)
    (watt : Fin 256 → EReal) (wpdt : Fin 128 → Fin 128 → EReal) (bpdt : Fin 128 → EReal) (wcomb : Fin 128 → Fin 256 → EReal)
    (bcomb : Fin 128 → EReal) (wout : Fin 1000 → Fin 128 → EReal) (bout : Fin 1000 → EReal) (c : Dev nD)
    (h0 : ∀ (i : Fin 50000) (d : Fin 128),
      (V c (Pipeline.arrRef spec3 0) : S50000x128.Idx → Elt Ideal .f32) (ix2 i d) = pf i d)
    (h1 : ∀ (i : Fin 50000) (h : Fin 128),
      (V c (Pipeline.arrRef spec3 1) : S50176x128.Idx → Elt Ideal .f32) (ix2 (⟨i.val, by omega⟩ : Fin 50176) h)
        = Spec.gTab ct wcomb (e i) h)
    (h2 : ∀ i : Fin 50000,
      (V c (Pipeline.arrRef spec3 2) : S1x53248.Idx → Elt Ideal .f32) (ix2 (0 : Fin 1) (⟨i.val, by omega⟩ : Fin 53248))
        = Spec.kerScore pf ct e watt i)
    (h3a : (V c (Pipeline.arrRef spec3 3) : S2.Idx → Elt Ideal .f32) (ix1 (0 : Fin 2)) = (Spec.onlineStats pf ct e watt).1)
    (h3b : (V c (Pipeline.arrRef spec3 3) : S2.Idx → Elt Ideal .f32) (ix1 (1 : Fin 2)) = (Spec.onlineStats pf ct e watt).2)
    (h4 : ∀ d h : Fin 128, (V c (Pipeline.arrRef spec3 4) : S128x128.Idx → Elt Ideal .f32) (ix2 d h) = Spec.mMat wpdt wcomb d h)
    (h5 : ∀ h : Fin 128,
      (V c (Pipeline.arrRef spec3 5) : S1x128.Idx → Elt Ideal .f32) (ix2 (0 : Fin 1) h) = Spec.c0 bpdt wcomb bcomb h)
    (h6 : ∀ (k : Fin 1000) (h : Fin 128), (V c (Pipeline.arrRef spec3 6) : S1000x128.Idx → Elt Ideal .f32) (ix2 k h) = wout k h)
    (h7 : ∀ k : Fin 1000, (V c (Pipeline.arrRef spec3 7) : S1000x1.Idx → Elt Ideal .f32) (ix2 k (0 : Fin 1)) = bout k)
    (k : Fin 1000) (i : Fin 50000) :
    (dat2 V c).arrAt 8 cfg3.N (ix2 k i) = Spec.kerOut pf ct e watt wpdt bpdt wcomb bcomb wout bout i k := by
  rw [final_apply]
  unfold stored
  rw [out2_8_eq, k3_pay1_apply]
  simp only [blk0_apply, blk1_apply, blk2_apply, (stat_apply V c _).1, (stat_apply V c _).2, blk4_apply, blk5_apply, blk6_apply, blk7_apply,
    h0, h1, h2, h3a, h3b, h4, h5, h6, h7]
  unfold Spec.kerOut Spec.kerHid0 Spec.kerW
  rfl

end Final

end Cert.Proof.KI.Val2

end
-- ==== Proof.KIValue.lean ====
import proofs.«211030_g66005057405235_cont_9to1c4b_431_51_alg».proof.Proof.KIValW4b
import proofs.«211030_g66005057405235_cont_9to1c4b_431_51_alg».proof.Proof.KIValW5
import proofs.«211030_g66005057405235_cont_9to1c4b_431_51_alg».proof.Proof.KIValW8
import proofs.«211030_g66005057405235_cont_9to1c4b_431_51_alg».proof.Proof.KIValue2

noncomputable section

namespace Cert.Proof.KI.Val

open Cert.KernelIdeal Cert.KernelIdeal.Gen Cert.Proof Cert.Proof.KI Cert.Proof.KI.Launch Cert.Proof.Inputs
open Idealize.ShloMosaic Idealize.ShloMosaic.TcCoe Idealize.ShloMosaic.ValueIdx Idealize.SL.Sem

variable (m : (ℓ : Loc nD τ sig) → Buf (Elt Ideal) ℓ) (c : Dev nD)

theorem laneScore_of_product (pf : Fin 50000 → Fin 128 → EReal) (ct : Fin 1000 → Fin 128 → EReal) (e : Fin 50000 → Fin 1000)
    (watt : Fin 256 → EReal) (i : Fin 50000) :
    Spec.laneScore pf ct e watt ⟨i.val / 4096, by omega⟩ ⟨i.val % 4096, Nat.mod_lt _ (by norm_num)⟩ = Spec.kerScore pf ct e watt i := by
  unfold Spec.laneScore
  have h : 4096 * (i.val / 4096) + i.val % 4096 < 50000 := by have := i.isLt; omega
  rw [dif_pos h]
  congr 1
  exact Fin.ext (by show 4096 * (i.val / 4096) + i.val % 4096 = i.val; omega)

theorem W6_scores_apply (hr : (argsOfK m c).InRange) (i : Fin 50000) :
    (atTc (W6 m) c (Pipeline.arrRef spec3 2) : S1x53248.Idx → EReal) (ix2 (0 : Fin 1) (⟨i.val, by omega⟩ : Fin 53248))
      = Spec.kerScore (argsOfK m c).pf (argsOfK m c).ct (argsOfK m c).e (argsOfK m c).watt i := by
  rw [show atTc (W6 m) c (Pipeline.arrRef spec3 2) = _ from W6_scores m c]
  have h := W5_scores_apply m c hr ⟨i.val / 4096, by omega⟩ ⟨i.val % 4096, Nat.mod_lt _ (by norm_num)⟩
  rw [laneScore_of_product] at h
  have ei : (⟨4096 * (i.val / 4096) + i.val % 4096, by have := i.isLt; omega⟩ : Fin 53248) = ⟨i.val, by omega⟩ :=
    Fin.ext (by show 4096 * (i.val / 4096) + i.val % 4096 = i.val; omega)
  rw [← ei]
  exact h

theorem Wres_eq_kerG (hr : (argsOfK m c).InRange) : (Wres m c : S50000x1000.Idx → EReal) = (argsOfK m c).kerG := by
  funext j
  obtain ⟨i, k, rfl⟩ : ∃ (i : Fin 50000) (k : Fin 1000), j = ix2 i k := ⟨j 0, j 1, eq_ix2 j⟩
  rw [Wres_apply, show W7 m c (Proc.devRef .tc main_v13) = _ from out2_arr (W6 m) c 8]
  refine Val2.final_eq_kerOut (atTc (W6 m)) (argsOfK m c).pf (argsOfK m c).ct (argsOfK m c).e (argsOfK m c).watt (argsOfK m c).wpdt (argsOfK m c).bpdt (argsOfK m c).wcomb (argsOfK m c).bcomb (argsOfK m c).wout (argsOfK m c).bout c ?h0 ?h1 ?h2 ?h3a ?h3b ?h4 ?h5 ?h6 ?h7 k i
  case h0 => exact fun i d => congrFun (W6_arg0 m c) (ix2 i d)
  case h1 =>
    intro i h
    rw [show atTc (W6 m) c (Pipeline.arrRef spec3 1) = _ from W6_ge m c]; exact W4_ge_apply m c i h
  case h2 => exact fun i => W6_scores_apply m c hr i
  case h3a =>
    rw [show atTc (W6 m) c (Pipeline.arrRef spec3 3) = _ from W6_stats m c, W5_stats m c hr]; exact scVec_word0 _
  case h3b =>
    rw [show atTc (W6 m) c (Pipeline.arrRef spec3 3) = _ from W6_stats m c, W5_stats m c hr]; exact scVec_word1 _
  case h4 =>
    intro d h
    rw [show atTc (W6 m) c (Pipeline.arrRef spec3 4) = _ from W6_m m c]; exact W2_m_apply m c d h
  case h5 =>
    intro h
    rw [show atTc (W6 m) c (Pipeline.arrRef spec3 5) = _ from W6_c0 m c]; exact W2_c0_apply m c h
  case h6 => exact fun k h => congrFun (W6_arg9 m c) (ix2 k h)
  case h7 => exact fun k => W6_v12_apply m c k

end Cert.Proof.KI.Val

end
-- ==== Proof.Algebraic.lean ====
import proofs.«211030_g66005057405235_cont_9to1c4b_431_51_alg».proof.Proof.SpecMain
import proofs.«211030_g66005057405235_cont_9to1c4b_431_51_alg».proof.Proof.PreDecode
import proofs.«211030_g66005057405235_cont_9to1c4b_431_51_alg».proof.Proof.RefValue
import proofs.«211030_g66005057405235_cont_9to1c4b_431_51_alg».proof.Proof.KILaunch
import proofs.«211030_g66005057405235_cont_9to1c4b_431_51_alg».proof.Proof.KIRegion1Local
import proofs.«211030_g66005057405235_cont_9to1c4b_431_51_alg».proof.Proof.KIValue

noncomputable section

open Idealize.ShloMosaic Idealize.SL.Sem

namespace Cert.Proof

open Cert.Proof.Inputs

attribute [local instance] Cert.KernelIdeal.Gen.facts Cert.ReferenceIdeal.Gen.facts Cert.Pre_input_domain.Gen.facts

theorem kerG_eq_refG (a : Args) (hfin : a.Finite) : a.kerG = a.refG := by
  funext j
  exact Spec.kerOut_eq_refOut a.pf a.ct a.e a.watt a.batt a.wpdt a.bpdt a.wcomb a.bcomb a.wout a.bout hfin (j 0) (j 1)

-- Both runs end at one function of the shared arguments: the kernel's fold and the reference's formula agree on finite inputs.
theorem algebraic : Cert.algebraic_KernelIdeal_ReferenceIdeal := by
  intro m g m' g' hpre hagree
  have hdec : ∀ c, (argsOfK m c).Finite ∧ (argsOfK m c).InRange := fun c => PreDecode.finite_of_pre (argsOfK m c) (hpre c)
  have hargs : ∀ c, Ref.argsOf m' c = argsOfK m c := fun c => by
    obtain ⟨h0, h1, h2, h3, h4, h5, h6, h7, h8, h9, h10⟩ := hagree c
    unfold Ref.argsOf argsOfK
    congr 1
  refine ⟨fun c => (argsOfK m c).kerG, ?_, ?_⟩
  · exact (θ_run _ _ _).mono (fun r h c => ⟨(h c).1.trans (KI.Val.Wres_eq_kerG m c (hdec c).2), (h c).2⟩)
      (KI.Launch.run_main (F := Ideal) KI.R1.scoresLocal_ideal KI.R2.payLocal_ideal m g fun c j => (hdec c).2 j)
  · refine (θ_run _ _ _).mono (fun r h c => ⟨(h c).1.trans ?_, (h c).2⟩) (Cert.ReferenceIdeal.Value.run (F := Ideal) m' g')
    refine ((Cert.ReferenceIdeal.Read.val_main_v59_eq m' c).trans (Ref.val_refG (Ref.argsOf m' c) ?_)).trans ?_
    · rw [hargs c]; exact (hdec c).2
    · rw [hargs c]; exact (kerG_eq_refG _ (hdec c).1).symm

end Cert.Proof

end
-- ==== Proof.Preserves.lean ====
import proofs.«211030_g66005057405235_cont_9to1c4b_431_51_alg».proof.Defs
import Idealize.ShloMosaic.PureOps.IdealRules

noncomputable section

open Idealize.ShloMosaic

namespace Cert.Proof

theorem neg_big_statement : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal := ⟨neg_big_statement, neg_big_statement⟩

end Cert.Proof

end
-- ==== Proof.lean ====
import proofs.«211030_g66005057405235_cont_9to1c4b_431_51_alg».proof.Defs
import proofs.«211030_g66005057405235_cont_9to1c4b_431_51_alg».proof.Proof.Gen.Kernel
import proofs.«211030_g66005057405235_cont_9to1c4b_431_51_alg».proof.Proof.Gen.KernelIdeal
import proofs.«211030_g66005057405235_cont_9to1c4b_431_51_alg».proof.Proof.Gen.ReferenceIdeal
import proofs.«211030_g66005057405235_cont_9to1c4b_431_51_alg».proof.Proof.Gen.Pre_input_domain
import proofs.«211030_g66005057405235_cont_9to1c4b_431_51_alg».proof.Proof.Frames
import proofs.«211030_g66005057405235_cont_9to1c4b_431_51_alg».proof.Proof.Algebraic
import proofs.«211030_g66005057405235_cont_9to1c4b_431_51_alg».proof.Proof.Preserves

noncomputable section

namespace Cert.Proof

theorem claim : Cert.Claim :=
  ⟨Cert.Kernel.Gen.facts, Cert.KernelIdeal.Gen.facts, Cert.ReferenceIdeal.Gen.facts, Cert.Pre_input_domain.Gen.facts,
    frameK, frameKI, Ref.frame, preserves, algebraic⟩

end Cert.Proof

end
